-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 0#32
  let main_v36 : IVec S800000 32 := broadcastInDim S800000 ![] bcast_S_S800000 main_c_12
  let main_v37 : IVec S800000 1 := cmpi .sge main_v35 main_v36
  let main_v38 : IVec S1x800000 32 := (extractStridedSlice S1x800000 ![0, 0] · slices_S2x800000_S1x800000_0_0) main_arg1
  let main_v39 : IVec S800000 32 := shapeCast S800000 main_v38 shapeCasts_S1x800000_S800000
  let main_c_13 : IVec S_ 32 := constantI S_ 32 50000#32
  let main_v40 : IVec S800000 32 := broadcastInDim S800000 ![] bcast_S_S800000 main_c_13
  let main_v41 : IVec S800000 1 := cmpi .slt main_v39 main_v40
  let main_v42 : IVec S800000 1 := andi main_v37 main_v41
  let main_c_14 : IVec S_ 1 := constantI S_ 1 1#1
  let main_v43 : IVec S_ 1 := (fun x v => Host.reduce IntOp.andi x v reducesTo_S800000_S_d0 h_S_) main_v42 main_c_14
  let main_v44 : IVec S_ 1 := andi main_v33 main_v43
  main_v44

def fn_part1 {F : FTy → Type} [FloatOps F] (main_arg1 : IVec S2x800000 32) (main_arg5 : FVec F S3x128 .f32) (main_arg6 : FVec F S3x128 .f32) (main_arg7 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x800000 32) (main_arg2 : FVec F S3x128x128 .f32) (main_arg3 : FVec F S3x128 .f32) (main_arg4 : FVec F S3x128x128 .f32) (main_arg5 : FVec F S3x128 .f32) (main_arg6 : FVec F S3x128 .f32) (main_arg7 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg1 main_arg5 main_arg6 main_arg7 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩

abbrev nBuf : Space → Nat
  | .hbm => 204
  | .vmem => 60
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S1x800000, .i32⟩
  | 9 => ⟨S800000, .i32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S1, .i32⟩
  | 21 => ⟨S_, .i32⟩
  | 22 => ⟨S800000x1, .i32⟩
  | 23 => ⟨S800000x1, .i1⟩
  | 24 => ⟨S1x1, .i32⟩
  | 25 => ⟨S800000x1, .i32⟩
  | 26 => ⟨S800000x1, .i1⟩
  | 27 => ⟨S800000x1, .i1⟩
  | 28 => ⟨S_, .i1⟩
  | 29 => ⟨S800000, .i1⟩
  | 30 => ⟨S800000x128, .f32⟩
  | 31 => ⟨S800000x128, .i1⟩
  | 32 => ⟨S_, .f32⟩
  | 33 => ⟨S800000x128, .f32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S1x128x128, .f32⟩
  | 40 => ⟨S128x128, .f32⟩
  | 41 => ⟨S1x128, .f32⟩
  | 42 => ⟨S128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S1x128, .f32⟩
  | 49 => ⟨S50000x128, .f32⟩
  | 50 => ⟨S1x128, .f32⟩
  | 51 => ⟨S1x128, .f32⟩
  | 52 => ⟨S128, .f32⟩
  | 53 => ⟨S_, .f32⟩
  | 54 => ⟨S128, .f32⟩
  | 55 => ⟨S128, .f32⟩
  | 56 => ⟨S128, .f32⟩
  | 57 => ⟨S_, .f32⟩
  | 58 => ⟨S128, .f32⟩
  | 59 => ⟨S128, .f32⟩
  | 60 => ⟨S128, .f32⟩
  | 61 => ⟨S128, .f32⟩
  | 62 => ⟨S_, .f32⟩
  | 63 => ⟨S128, .f32⟩
  | 64 => ⟨S128, .f32⟩
  | 65 => ⟨S128, .f32⟩
  | 66 => ⟨S1x128, .f32⟩
  | 67 => ⟨S128, .f32⟩
  | 68 => ⟨S128, .f32⟩
  | 69 => ⟨S1x128, .f32⟩
  | 70 => ⟨S128, .f32⟩
  | 71 => ⟨S128, .f32⟩
  | 72 => ⟨S128, .f32⟩
  | 73 => ⟨S1x128, .f32⟩
  | 74 => ⟨S1x128, .f32⟩
  | 75 => ⟨S50000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S1, .i32⟩
  | 85 => ⟨S_, .i32⟩
  | 86 => ⟨S800000x1, .i32⟩
  | 87 => ⟨S800000x1, .i1⟩
  | 88 => ⟨S1x1, .i32⟩
  | 89 => ⟨S800000x1, .i32⟩
  | 90 => ⟨S800000x1, .i1⟩
  | 91 => ⟨S800000x1, .i1⟩
  | 92 => ⟨S_, .i1⟩
  | 93 => ⟨S800000, .i1⟩
  | 94 => ⟨S800000x128, .f32⟩
  | 95 => ⟨S800000x128, .i1⟩
  | 96 => ⟨S_, .f32⟩
  | 97 => ⟨S800000x128, .f32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S1x128x128, .f32⟩
  | 104 => ⟨S128x128, .f32⟩
  | 105 => ⟨S1x128, .f32⟩
  | 106 => ⟨S128, .f32⟩
  | 107 => ⟨S1x128x128, .f32⟩
  | 108 => ⟨S128x128, .f32⟩
  | 109 => ⟨S1x128, .f32⟩
  | 110 => ⟨S128, .f32⟩
  | 111 => ⟨S1x128, .f32⟩
  | 112 => ⟨S1x128, .f32⟩
  | 113 => ⟨S50000x128, .f32⟩
  | 114 => ⟨S1x128, .f32⟩
  | 115 => ⟨S1x128, .f32⟩
  | 116 => ⟨S128, .f32⟩
  | 117 => ⟨S_, .f32⟩
  | 118 => ⟨S128, .f32⟩
  | 119 => ⟨S128, .f32⟩
  | 120 => ⟨S128, .f32⟩
  | 121 => ⟨S_, .f32⟩
  | 122 => ⟨S128, .f32⟩
  | 123 => ⟨S128, .f32⟩
  | 124 => ⟨S128, .f32⟩
  | 125 => ⟨S128, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S128, .f32⟩
  | 2 => ⟨S1x128, .f32⟩
  | 3 => ⟨S128, .f32⟩
  | 4 => ⟨S128, .f32⟩
  | 5 => ⟨S1x128, .f32⟩
  | 6 => ⟨S128, .f32⟩
  | 7 => ⟨S128, .f32⟩
  | 8 => ⟨S128, .f32⟩
  | 9 => ⟨S1x128, .f32⟩
  | 10 => ⟨S1x128, .f32⟩
  | 11 => ⟨S50000x128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S1, .i32⟩
  | 21 => ⟨S_, .i32⟩
  | 22 => ⟨S800000x1, .i32⟩
  | 23 => ⟨S800000x1, .i1⟩
  | 24 => ⟨S1x1, .i32⟩
  | 25 => ⟨S800000x1, .i32⟩
  | 26 => ⟨S800000x1, .i1⟩
  | 27 => ⟨S800000x1, .i1⟩
  | 28 => ⟨S_, .i1⟩
  | 29 => ⟨S800000, .i1⟩
  | 30 => ⟨S800000x128, .f32⟩
  | 31 => ⟨S800000x128, .i1⟩
  | 32 => ⟨S_, .f32⟩
  | 33 => ⟨S800000x128, .f32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S1x128x128, .f32⟩
  | 40 => ⟨S128x128, .f32⟩
  | 41 => ⟨S1x128, .f32⟩
  | 42 => ⟨S128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S1x128, .f32⟩
  | 49 => ⟨S50000x128, .f32⟩
  | 50 => ⟨S1x128, .f32⟩
  | 51 => ⟨S1x128, .f32⟩
  | 52 => ⟨S128, .f32⟩
  | 53 => ⟨S_, .f32⟩
  | 54 => ⟨S128, .f32⟩
  | 55 => ⟨S128, .f32⟩
  | 56 => ⟨S128, .f32⟩
  | 57 => ⟨S_, .f32⟩
  | 58 => ⟨S128, .f32⟩
  | 59 => ⟨S128, .f32⟩
  | 60 => ⟨S128, .f32⟩
  | 61 => ⟨S128, .f32⟩
  | 62 => ⟨S_, .f32⟩
  | 63 => ⟨S128, .f32⟩
  | 64 => ⟨S128, .f32⟩
  | 65 => ⟨S128, .f32⟩
  | 66 => ⟨S1x128, .f32⟩
  | 67 => ⟨S128, .f32⟩
  | 68 => ⟨S128, .f32⟩
  | 69 => ⟨S1x128, .f32⟩
  | 70 => ⟨S128, .f32⟩
  | 71 => ⟨S128, .f32⟩
  | 72 => ⟨S128, .f32⟩
  | 73 => ⟨S1x128, .f32⟩
  | 74 => ⟨S1x128, .f32⟩
  | 75 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S1x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18_0 : Ref sig .tc := ⟨.hbm, 49, rfl⟩
abbrev main_v18_1 : Ref sig .tc := ⟨.hbm, 50, rfl⟩
abbrev main_v18_2 : Ref sig .tc := ⟨.hbm, 51, rfl⟩
abbrev main_v19 : Ref sig .tc := ⟨.hbm, 52, rfl⟩
abbrev main_cst_0 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_1 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_2 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_call1_c : Ref sig .tc := ⟨.hbm, 76, rfl⟩
abbrev main_call1_v0 : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_c_1 : Ref sig .tc := ⟨.hbm, 84, rfl⟩
abbrev main_call1_c_2 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_3 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_call1_cst : Ref sig .tc := ⟨.hbm, 96, rfl⟩
abbrev main_call1_v15 : Ref sig .tc := ⟨.hbm, 97, rfl⟩
abbrev main_v40 : Ref sig .tc := ⟨.hbm, 98, rfl⟩
abbrev main_cst_3 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54_0 : Ref sig .tc := ⟨.hbm, 113, rfl⟩
abbrev main_v54_1 : Ref sig .tc := ⟨.hbm, 114, rfl⟩
abbrev main_v54_2 : Ref sig .tc := ⟨.hbm, 115, rfl⟩
abbrev main_v55 : Ref sig .tc := ⟨.hbm, 116, rfl⟩
abbrev main_cst_4 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_5 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_cst_6 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_call2_c : Ref sig .tc := ⟨.hbm, 140, rfl⟩
abbrev main_call2_v0 : Ref sig .tc := ⟨.hbm, 141, rfl⟩
abbrev main_call2_v1 : Ref sig .tc := ⟨.hbm, 142, rfl⟩
abbrev main_call2_c_0 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_call2_v5 : Ref sig .tc := ⟨.hbm, 147, rfl⟩
abbrev main_call2_c_1 : Ref sig .tc := ⟨.hbm, 148, rfl⟩
abbrev main_call2_c_2 : Ref sig .tc := ⟨.hbm, 149, rfl⟩
abbrev main_call2_v6 : Ref sig .tc := ⟨.hbm, 150, rfl⟩
abbrev main_call2_v7 : Ref sig .tc := ⟨.hbm, 151, rfl⟩
abbrev main_call2_v8 : Ref sig .tc := ⟨.hbm, 152, rfl⟩
abbrev main_call2_v9 : Ref sig .tc := ⟨.hbm, 153, rfl⟩
abbrev main_call2_v10 : Ref sig .tc := ⟨.hbm, 154, rfl⟩
abbrev main_call2_v11 : Ref sig .tc := ⟨.hbm, 155, rfl⟩
abbrev main_call2_c_3 : Ref sig .tc := ⟨.hbm, 156, rfl⟩
abbrev main_call2_v12 : Ref sig .tc := ⟨.hbm, 157, rfl⟩
abbrev main_call2_v13 : Ref sig .tc := ⟨.hbm, 158, rfl⟩
abbrev main_call2_v14 : Ref sig .tc := ⟨.hbm, 159, rfl⟩
abbrev main_call2_cst : Ref sig .tc := ⟨.hbm, 160, rfl⟩
abbrev main_call2_v15 : Ref sig .tc := ⟨.hbm, 161, rfl⟩
abbrev main_v76 : Ref sig .tc := ⟨.hbm, 162, rfl⟩
abbrev main_cst_7 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90_0 : Ref sig .tc := ⟨.hbm, 177, rfl⟩
abbrev main_v90_1 : Ref sig .tc := ⟨.hbm, 178, rfl⟩
abbrev main_v90_2 : Ref sig .tc := ⟨.hbm, 179, rfl⟩
abbrev main_v91 : Ref sig .tc := ⟨.hbm, 180, rfl⟩
abbrev main_cst_8 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_cst_9 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_cst_10 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc4_scratch0 : Ref sig .tc := ⟨.vmem, 52, rfl⟩
abbrev cc4_scratch1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg3_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem8_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc4_sem7_0 : DmaSem sig := 46
abbrev cc4_sem8_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem3_1 : DmaSem sig := 53

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v43 : BitVec 1 := Scalar.cmpi .eq arg0 c24_i32
  let v44 : BitVec 32 := Scalar.extui v43
  let c0_i32_26 : BitVec 32 := 0#32
  let v45 : BitVec 1 := Scalar.cmpi .ne v44 c0_i32_26
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v44 : BitVec 1 := Scalar.cmpi .eq arg0 c24_i32
  let v45 : BitVec 32 := Scalar.extui v44
  let c0_i32_26 : BitVec 32 := 0#32
  let v46 : BitVec 1 := Scalar.cmpi .ne v45 c0_i32_26
  v46

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v44 : BitVec 1 := Scalar.cmpi .eq arg0 c24_i32
  let v45 : BitVec 32 := Scalar.extui v44
  let c0_i32_26 : BitVec 32 := 0#32
  let v46 : BitVec 1 := Scalar.cmpi .ne v45 c0_i32_26
  v46

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2000x128 : S1x128.Broadcasts S2000x128
  reduces_S2000x128_S128 : S2000x128.Reduces [0] S128
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v18_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v39) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v54_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v54_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v54_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v75) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v89) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v90_0) S2000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v90_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v90_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v90_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v109) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v110) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v111) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 219
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S1x800000, .i32⟩
  | 9 => ⟨S800000, .i32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S_, .f32⟩
  | 22 => ⟨S50000x128, .f32⟩
  | 23 => ⟨S800000x1, .i32⟩
  | 24 => ⟨S50000x128, .f32⟩
  | 25 => ⟨S50000x128, .f32⟩
  | 26 => ⟨S1x128x128, .f32⟩
  | 27 => ⟨S128x128, .f32⟩
  | 28 => ⟨S50000x128, .f32⟩
  | 29 => ⟨S1x128, .f32⟩
  | 30 => ⟨S128, .f32⟩
  | 31 => ⟨S1x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S1x128x128, .f32⟩
  | 38 => ⟨S128x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S_, .f32⟩
  | 46 => ⟨S128, .f32⟩
  | 47 => ⟨S_, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S50000x128, .f32⟩
  | 54 => ⟨S_, .f32⟩
  | 55 => ⟨S128, .f32⟩
  | 56 => ⟨S_, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S_, .f32⟩
  | 63 => ⟨S128, .f32⟩
  | 64 => ⟨S128, .f32⟩
  | 65 => ⟨S128, .f32⟩
  | 66 => ⟨S1x128, .f32⟩
  | 67 => ⟨S50000x128, .f32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S50000x128, .f32⟩
  | 96 => ⟨S1x128x128, .f32⟩
  | 97 => ⟨S128x128, .f32⟩
  | 98 => ⟨S50000x128, .f32⟩
  | 99 => ⟨S1x128, .f32⟩
  | 100 => ⟨S128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S1x128x128, .f32⟩
  | 108 => ⟨S128x128, .f32⟩
  | 109 => ⟨S50000x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S_, .f32⟩
  | 116 => ⟨S128, .f32⟩
  | 117 => ⟨S_, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S50000x128, .f32⟩
  | 124 => ⟨S_, .f32⟩
  | 125 => ⟨S128, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S_, .f32⟩
  | 5 => ⟨S128, .f32⟩
  | 6 => ⟨S128, .f32⟩
  | 7 => ⟨S128, .f32⟩
  | 8 => ⟨S1x128, .f32⟩
  | 9 => ⟨S50000x128, .f32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S50000x128, .f32⟩
  | 38 => ⟨S1x128x128, .f32⟩
  | 39 => ⟨S128x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S1x128x128, .f32⟩
  | 50 => ⟨S128x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S50000x128, .f32⟩
  | 64 => ⟨S50000x128, .f32⟩
  | 65 => ⟨S50000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_call1_cst : Ref sig .tc := ⟨.hbm, 79, rfl⟩
abbrev main_call1_v0 : Ref sig .tc := ⟨.hbm, 80, rfl⟩
abbrev main_v61 : Ref sig .tc := ⟨.hbm, 81, rfl⟩
abbrev main_c_6 : Ref sig .tc := ⟨.hbm, 82, rfl⟩
abbrev main_v62 : Ref sig .tc := ⟨.hbm, 83, rfl⟩
abbrev main_v63 : Ref sig .tc := ⟨.hbm, 84, rfl⟩
abbrev main_c_7 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_8 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_call2_cst : Ref sig .tc := ⟨.hbm, 104, rfl⟩
abbrev main_call2_v0 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_9 : Ref sig .tc := ⟨.hbm, 115, rfl⟩
abbrev main_v90 : Ref sig .tc := ⟨.hbm, 116, rfl⟩
abbrev main_cst_10 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_11 : Ref sig .tc := ⟨.hbm, 124, rfl⟩
abbrev main_v97 : Ref sig .tc := ⟨.hbm, 125, rfl⟩
abbrev main_cst_12 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_13 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_call3_cst : Ref sig .tc := ⟨.hbm, 149, rfl⟩
abbrev main_call3_v0 : Ref sig .tc := ⟨.hbm, 150, rfl⟩
abbrev main_v119 : Ref sig .tc := ⟨.hbm, 151, rfl⟩
abbrev main_c_14 : Ref sig .tc := ⟨.hbm, 152, rfl⟩
abbrev main_v120 : Ref sig .tc := ⟨.hbm, 153, rfl⟩
abbrev main_v121 : Ref sig .tc := ⟨.hbm, 154, rfl⟩
abbrev main_c_15 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_16 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_call4_cst : Ref sig .tc := ⟨.hbm, 174, rfl⟩
abbrev main_call4_v0 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_17 : Ref sig .tc := ⟨.hbm, 185, rfl⟩
abbrev main_v148 : Ref sig .tc := ⟨.hbm, 186, rfl⟩
abbrev main_cst_18 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_19 : Ref sig .tc := ⟨.hbm, 194, rfl⟩
abbrev main_v155 : Ref sig .tc := ⟨.hbm, 195, rfl⟩
abbrev main_cst_20 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_cst_21 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Mlp0DataW.lean ====
import proofs.«420740_j41515153883619_1_alg».proof.Proof.Gen.Kernel.Launch
import proofs.«420740_j41515153883619_1_alg».proof.Proof.Gen.Kernel.Skeleton
import proofs.«420740_j41515153883619_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev scM0_0 : Memref sig .tc .vmem S1x128 .f32 := Memref.whole cc0_scratch0
abbrev scM0_1 : Memref sig .tc .vmem S1x128 .f32 := Memref.whole cc0_scratch1

def accS0 (s : Vec F S1x128 .f32) (x0 x1 : Vec F S2000x128 .f32) (x2 : Vec F S128x128 .f32) (x3 : Vec F S1x128 .f32)
    (x4 : Vec F S128x128 .f32) (x5 : Vec F S1x128 .f32) : Vec F S1x128 .f32 :=
  k0_pay1 (k0_pay6 x0 x1 x2 x3 x4 x5 s)

def accQ0 (q : Vec F S1x128 .f32) (x0 x1 : Vec F S2000x128 .f32) (x2 : Vec F S128x128 .f32) (x3 : Vec F S1x128 .f32)
    (x4 : Vec F S128x128 .f32) (x5 : Vec F S1x128 .f32) : Vec F S1x128 .f32 :=
  k0_pay2 (k0_pay5 x0 x1 x2 x3 x4 x5) q

def sc0 (c : Dev nD) : (n : ℕ) → n < cfg0.N → Vec F S1x128 .f32 × Vec F S1x128 .f32
  | 0, hn => (accS0 (k0_pay3 (F := F)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      accQ0 (k0_pay4 (F := F)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn => (accS0 (sc0 c n (Nat.lt_of_succ_lt hn)).1 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
      accQ0 (sc0 c n (Nat.lt_of_succ_lt hn)).2 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))

theorem sc0_first (c : Dev nD) (t : Fin cfg0.N) (h : t.val = 0) :
    sc0 V c t.val t.isLt = (accS0 (k0_pay3 (F := F)) (iblk0 V c 0 t) (iblk0 V c 1 t) (iblk0 V c 2 t) (iblk0 V c 3 t) (iblk0 V c 4 t) (iblk0 V c 5 t),
      accQ0 (k0_pay4 (F := F)) (iblk0 V c 0 t) (iblk0 V c 1 t) (iblk0 V c 2 t) (iblk0 V c 3 t) (iblk0 V c 4 t) (iblk0 V c 5 t)) := by
  obtain ⟨n, hn⟩ := t
  cases n with
  | zero => rfl
  | succ n => exact absurd h (Nat.succ_ne_zero n)

theorem sc0_later (c : Dev nD) (t : Fin cfg0.N) (h : t.val ≠ 0) :
    sc0 V c t.val t.isLt = (accS0 (sc0 V c (t.val - 1) (Nat.lt_of_le_of_lt (Nat.sub_le _ _) t.isLt)).1 (iblk0 V c 0 t) (iblk0 V c 1 t) (iblk0 V c 2 t) (iblk0 V c 3 t) (iblk0 V c 4 t) (iblk0 V c 5 t),
      accQ0 (sc0 V c (t.val - 1) (Nat.lt_of_le_of_lt (Nat.sub_le _ _) t.isLt)).2 (iblk0 V c 0 t) (iblk0 V c 1 t) (iblk0 V c 2 t) (iblk0 V c 3 t) (iblk0 V c 4 t) (iblk0 V c 5 t)) := by
  obtain ⟨n, hn⟩ := t
  cases n with
  | zero => exact absurd rfl h
  | succ n => rfl

def PhiS0 (c : Dev nD) : (n : ℕ) → n ≤ cfg0.N → sProp 𝕄
  | 0, _ => Pipeline.ΦA spec0 c
  | n + 1, hn => iprop(owns (c : Thread nD τ) scM0_0 fullShare (sc0 V c n hn).1 ∗ owns (c : Thread nD τ) scM0_1 fullShare (sc0 V c n hn).2
      ∗ Pipeline.scopedRestBut (Ix := Unit) (Name := ℕ) (U := UR sig nD τ) (Lvl := ℕ) (Val := Elt F) spec0 c [cc0_scratch0, cc0_scratch1]
      ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (sc0 V c n hn).1 ∗ owns (c : Thread nD τ) scM0_1 fullShare (sc0 V c n hn).2
      ∗ Pipeline.scopedRestBut (Ix := Unit) (Name := ℕ) (U := UR sig nD τ) (Lvl := ℕ) (Val := Elt F) spec0 c [cc0_scratch0, cc0_scratch1]
      ∗ (∃ r, prngReg c r)) := rfl

theorem PhiS0_pos (c : Dev nD) (n : ℕ) (h : n ≤ cfg0.N) (hz : n ≠ 0) :
    PhiS0 V c n h = iprop(owns (c : Thread nD τ) scM0_0 fullShare (sc0 V c (n - 1) (by omega)).1 ∗ owns (c : Thread nD τ) scM0_1 fullShare (sc0 V c (n - 1) (by omega)).2
      ∗ Pipeline.scopedRestBut (Ix := Unit) (Name := ℕ) (U := UR sig nD τ) (Lvl := ℕ) (Val := Elt F) spec0 c [cc0_scratch0, cc0_scratch1]
      ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay5 (iblk0 V c 0 t) (iblk0 V c 1 t) (iblk0 V c 2 t) (iblk0 V c 3 t) (iblk0 V c 4 t) (iblk0 V c 5 t)
    | ⟨7, _⟩ => (sc0 V c t.val t.isLt).1
    | ⟨8, _⟩ => (sc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = k0_pay5 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = (sc0 V c t.val t.isLt).1 := by dsimp only [dat0]
theorem after0_8 (c : Dev nD) (t : Fin cfg0.N) : (dat0 V c).after 8 t = (sc0 V c t.val t.isLt).2 := by dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

end Cert.Kernel.Gen

end
-- ==== Proof.Bn1DataW.lean ====
import proofs.«420740_j41515153883619_1_alg».proof.Proof.Gen.Kernel.Launch
import proofs.«420740_j41515153883619_1_alg».proof.Proof.Gen.Kernel.Skeleton
import proofs.«420740_j41515153883619_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

theorem hout1 (c : Dev nD) : (dat1 V c).Φ (Fin.last cfg1.N) ⊢ Pipeline.ΦA spec1 c := .rfl

end Cert.Kernel.Gen

end
-- ==== Proof.Mlp2DataW.lean ====
import proofs.«420740_j41515153883619_1_alg».proof.Proof.Gen.Kernel.Launch
import proofs.«420740_j41515153883619_1_alg».proof.Proof.Gen.Kernel.Skeleton
import proofs.«420740_j41515153883619_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2_0 : Memref sig .tc .vmem S1x128 .f32 := Memref.whole cc2_scratch0
abbrev scM2_1 : Memref sig .tc .vmem S1x128 .f32 := Memref.whole cc2_scratch1

def accS2 (s : Vec F S1x128 .f32) (x0 x1 : Vec F S2000x128 .f32) (x2 : Vec F S128x128 .f32) (x3 : Vec F S1x128 .f32)
    (x4 : Vec F S128x128 .f32) (x5 : Vec F S1x128 .f32) : Vec F S1x128 .f32 :=
  k2_pay1 (k2_pay6 x0 x1 x2 x3 x4 x5 s)

def accQ2 (q : Vec F S1x128 .f32) (x0 x1 : Vec F S2000x128 .f32) (x2 : Vec F S128x128 .f32) (x3 : Vec F S1x128 .f32)
    (x4 : Vec F S128x128 .f32) (x5 : Vec F S1x128 .f32) : Vec F S1x128 .f32 :=
  k2_pay2 (k2_pay5 x0 x1 x2 x3 x4 x5) q

def sc2 (c : Dev nD) : (n : ℕ) → n < cfg2.N → Vec F S1x128 .f32 × Vec F S1x128 .f32
  | 0, hn => (accS2 (k2_pay3 (F := F)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      accQ2 (k2_pay4 (F := F)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn => (accS2 (sc2 c n (Nat.lt_of_succ_lt hn)).1 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
      accQ2 (sc2 c n (Nat.lt_of_succ_lt hn)).2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))

theorem sc2_first (c : Dev nD) (t : Fin cfg2.N) (h : t.val = 0) :
    sc2 V c t.val t.isLt = (accS2 (k2_pay3 (F := F)) (iblk2 V c 0 t) (iblk2 V c 1 t) (iblk2 V c 2 t) (iblk2 V c 3 t) (iblk2 V c 4 t) (iblk2 V c 5 t),
      accQ2 (k2_pay4 (F := F)) (iblk2 V c 0 t) (iblk2 V c 1 t) (iblk2 V c 2 t) (iblk2 V c 3 t) (iblk2 V c 4 t) (iblk2 V c 5 t)) := by
  obtain ⟨n, hn⟩ := t
  cases n with
  | zero => rfl
  | succ n => exact absurd h (Nat.succ_ne_zero n)

theorem sc2_later (c : Dev nD) (t : Fin cfg2.N) (h : t.val ≠ 0) :
    sc2 V c t.val t.isLt = (accS2 (sc2 V c (t.val - 1) (Nat.lt_of_le_of_lt (Nat.sub_le _ _) t.isLt)).1 (iblk2 V c 0 t) (iblk2 V c 1 t) (iblk2 V c 2 t) (iblk2 V c 3 t) (iblk2 V c 4 t) (iblk2 V c 5 t),
      accQ2 (sc2 V c (t.val - 1) (Nat.lt_of_le_of_lt (Nat.sub_le _ _) t.isLt)).2 (iblk2 V c 0 t) (iblk2 V c 1 t) (iblk2 V c 2 t) (iblk2 V c 3 t) (iblk2 V c 4 t) (iblk2 V c 5 t)) := by
  obtain ⟨n, hn⟩ := t
  cases n with
  | zero => exact absurd rfl h
  | succ n => rfl

def PhiS2 (c : Dev nD) : (n : ℕ) → n ≤ cfg2.N → sProp 𝕄
  | 0, _ => Pipeline.ΦA spec2 c
  | n + 1, hn => iprop(owns (c : Thread nD τ) scM2_0 fullShare (sc2 V c n hn).1 ∗ owns (c : Thread nD τ) scM2_1 fullShare (sc2 V c n hn).2
      ∗ Pipeline.scopedRestBut (Ix := Unit) (Name := ℕ) (U := UR sig nD τ) (Lvl := ℕ) (Val := Elt F) spec2 c [cc2_scratch0, cc2_scratch1]
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare (sc2 V c n hn).1 ∗ owns (c : Thread nD τ) scM2_1 fullShare (sc2 V c n hn).2
      ∗ Pipeline.scopedRestBut (Ix := Unit) (Name := ℕ) (U := UR sig nD τ) (Lvl := ℕ) (Val := Elt F) spec2 c [cc2_scratch0, cc2_scratch1]
      ∗ (∃ r, prngReg c r)) := rfl

theorem PhiS2_pos (c : Dev nD) (n : ℕ) (h : n ≤ cfg2.N) (hz : n ≠ 0) :
    PhiS2 V c n h = iprop(owns (c : Thread nD τ) scM2_0 fullShare (sc2 V c (n - 1) (by omega)).1 ∗ owns (c : Thread nD τ) scM2_1 fullShare (sc2 V c (n - 1) (by omega)).2
      ∗ Pipeline.scopedRestBut (Ix := Unit) (Name := ℕ) (U := UR sig nD τ) (Lvl := ℕ) (Val := Elt F) spec2 c [cc2_scratch0, cc2_scratch1]
      ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay5 (iblk2 V c 0 t) (iblk2 V c 1 t) (iblk2 V c 2 t) (iblk2 V c 3 t) (iblk2 V c 4 t) (iblk2 V c 5 t)
    | ⟨7, _⟩ => (sc2 V c t.val t.isLt).1
    | ⟨8, _⟩ => (sc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = k2_pay5 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = (sc2 V c t.val t.isLt).1 := by dsimp only [dat2]
theorem after2_8 (c : Dev nD) (t : Fin cfg2.N) : (dat2 V c).after 8 t = (sc2 V c t.val t.isLt).2 := by dsimp only [dat2]

theorem Phi2_castSucc (c : Dev nD) (t : Fin cfg2.N) :
    (dat2 V c).Φ t.castSucc = PhiS2 V c t.val (Nat.le_of_lt t.isLt) := by
  dsimp only [dat2]; simp only [Fin.coe_castSucc]

end Cert.Kernel.Gen

end
-- ==== Proof.Bn3DataW.lean ====
import proofs.«420740_j41515153883619_1_alg».proof.Proof.Gen.Kernel.Launch
import proofs.«420740_j41515153883619_1_alg».proof.Proof.Gen.Kernel.Skeleton
import proofs.«420740_j41515153883619_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k1_pay1 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k1_pay1 (iblk3 V c 0 t) (iblk3 V c 1 t) (iblk3 V c 2 t) := by dsimp only [dat3]

theorem hout3 (c : Dev nD) : (dat3 V c).Φ (Fin.last cfg3.N) ⊢ Pipeline.ΦA spec3 c := .rfl

end Cert.Kernel.Gen

end
-- ==== Proof.Mlp4DataW.lean ====
import proofs.«420740_j41515153883619_1_alg».proof.Proof.Gen.Kernel.Launch
import proofs.«420740_j41515153883619_1_alg».proof.Proof.Gen.Kernel.Skeleton
import proofs.«420740_j41515153883619_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«420740_j41515153883619_1_alg».proof.Proof.Mlp2DataW

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4_0 : Memref sig .tc .vmem S1x128 .f32 := Memref.whole cc4_scratch0
abbrev scM4_1 : Memref sig .tc .vmem S1x128 .f32 := Memref.whole cc4_scratch1

def sc4 (c : Dev nD) : (n : ℕ) → n < cfg4.N → Vec F S1x128 .f32 × Vec F S1x128 .f32
  | 0, hn => (accS2 (k2_pay3 (F := F)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      accQ2 (k2_pay4 (F := F)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn => (accS2 (sc4 c n (Nat.lt_of_succ_lt hn)).1 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩),
      accQ2 (sc4 c n (Nat.lt_of_succ_lt hn)).2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))

theorem sc4_first (c : Dev nD) (t : Fin cfg4.N) (h : t.val = 0) :
    sc4 V c t.val t.isLt = (accS2 (k2_pay3 (F := F)) (iblk4 V c 0 t) (iblk4 V c 1 t) (iblk4 V c 2 t) (iblk4 V c 3 t) (iblk4 V c 4 t) (iblk4 V c 5 t),
      accQ2 (k2_pay4 (F := F)) (iblk4 V c 0 t) (iblk4 V c 1 t) (iblk4 V c 2 t) (iblk4 V c 3 t) (iblk4 V c 4 t) (iblk4 V c 5 t)) := by
  obtain ⟨n, hn⟩ := t
  cases n with
  | zero => rfl
  | succ n => exact absurd h (Nat.succ_ne_zero n)

theorem sc4_later (c : Dev nD) (t : Fin cfg4.N) (h : t.val ≠ 0) :
    sc4 V c t.val t.isLt = (accS2 (sc4 V c (t.val - 1) (Nat.lt_of_le_of_lt (Nat.sub_le _ _) t.isLt)).1 (iblk4 V c 0 t) (iblk4 V c 1 t) (iblk4 V c 2 t) (iblk4 V c 3 t) (iblk4 V c 4 t) (iblk4 V c 5 t),
      accQ2 (sc4 V c (t.val - 1) (Nat.lt_of_le_of_lt (Nat.sub_le _ _) t.isLt)).2 (iblk4 V c 0 t) (iblk4 V c 1 t) (iblk4 V c 2 t) (iblk4 V c 3 t) (iblk4 V c 4 t) (iblk4 V c 5 t)) := by
  obtain ⟨n, hn⟩ := t
  cases n with
  | zero => exact absurd rfl h
  | succ n => rfl

def PhiS4 (c : Dev nD) : (n : ℕ) → n ≤ cfg4.N → sProp 𝕄
  | 0, _ => Pipeline.ΦA spec4 c
  | n + 1, hn => iprop(owns (c : Thread nD τ) scM4_0 fullShare (sc4 V c n hn).1 ∗ owns (c : Thread nD τ) scM4_1 fullShare (sc4 V c n hn).2
      ∗ Pipeline.scopedRestBut (Ix := Unit) (Name := ℕ) (U := UR sig nD τ) (Lvl := ℕ) (Val := Elt F) spec4 c [cc4_scratch0, cc4_scratch1]
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(owns (c : Thread nD τ) scM4_0 fullShare (sc4 V c n hn).1 ∗ owns (c : Thread nD τ) scM4_1 fullShare (sc4 V c n hn).2
      ∗ Pipeline.scopedRestBut (Ix := Unit) (Name := ℕ) (U := UR sig nD τ) (Lvl := ℕ) (Val := Elt F) spec4 c [cc4_scratch0, cc4_scratch1]
      ∗ (∃ r, prngReg c r)) := rfl

theorem PhiS4_pos (c : Dev nD) (n : ℕ) (h : n ≤ cfg4.N) (hz : n ≠ 0) :
    PhiS4 V c n h = iprop(owns (c : Thread nD τ) scM4_0 fullShare (sc4 V c (n - 1) (by omega)).1 ∗ owns (c : Thread nD τ) scM4_1 fullShare (sc4 V c (n - 1) (by omega)).2
      ∗ Pipeline.scopedRestBut (Ix := Unit) (Name := ℕ) (U := UR sig nD τ) (Lvl := ℕ) (Val := Elt F) spec4 c [cc4_scratch0, cc4_scratch1]
      ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => k2_pay5 (iblk4 V c 0 t) (iblk4 V c 1 t) (iblk4 V c 2 t) (iblk4 V c 3 t) (iblk4 V c 4 t) (iblk4 V c 5 t)
    | ⟨7, _⟩ => (sc4 V c t.val t.isLt).1
    | ⟨8, _⟩ => (sc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) :
    (dat4 V c).after 6 t = k2_pay5 (iblk4 V c 0 t) (iblk4 V c 1 t) (iblk4 V c 2 t) (iblk4 V c 3 t) (iblk4 V c 4 t) (iblk4 V c 5 t) := by dsimp only [dat4]
theorem after4_7 (c : Dev nD) (t : Fin cfg4.N) : (dat4 V c).after 7 t = (sc4 V c t.val t.isLt).1 := by dsimp only [dat4]
theorem after4_8 (c : Dev nD) (t : Fin cfg4.N) : (dat4 V c).after 8 t = (sc4 V c t.val t.isLt).2 := by dsimp only [dat4]

theorem Phi4_castSucc (c : Dev nD) (t : Fin cfg4.N) :
    (dat4 V c).Φ t.castSucc = PhiS4 V c t.val (Nat.le_of_lt t.isLt) := by
  dsimp only [dat4]; simp only [Fin.coe_castSucc]

end Cert.Kernel.Gen

end
-- ==== Proof.Bn5DataW.lean ====
import proofs.«420740_j41515153883619_1_alg».proof.Proof.Gen.Kernel.Launch
import proofs.«420740_j41515153883619_1_alg».proof.Proof.Gen.Kernel.Skeleton
import proofs.«420740_j41515153883619_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay1 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = k5_pay1 (iblk5 V c 0 t) (iblk5 V c 1 t) (iblk5 V c 2 t) := by dsimp only [dat5]

theorem hout5 (c : Dev nD) : (dat5 V c).Φ (Fin.last cfg5.N) ⊢ Pipeline.ΦA spec5 c := .rfl

end Cert.Kernel.Gen

end
-- ==== Proof.RunKW.lean ====
import proofs.«420740_j41515153883619_1_alg».proof.Proof.Gen.Kernel.Regions
import proofs.«420740_j41515153883619_1_alg».proof.Proof.Mlp0DataW
import proofs.«420740_j41515153883619_1_alg».proof.Proof.Bn1DataW
import proofs.«420740_j41515153883619_1_alg».proof.Proof.Mlp2DataW
import proofs.«420740_j41515153883619_1_alg».proof.Proof.Bn3DataW
import proofs.«420740_j41515153883619_1_alg».proof.Proof.Mlp4DataW
import proofs.«420740_j41515153883619_1_alg».proof.Proof.Bn5DataW

set_option maxRecDepth 16384
set_option Elab.async false

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

def X3 (c : Dev nD) : Valuation τ sig (Elt F) := V3 m c

def X4 (c : Dev nD) : Valuation τ sig (Elt F) :=
  Function.update (Function.update (Function.update (X3 m c) main_v18_0 ((dat0 (fun c b => X3 m c b) c).arrAt 6 cfg0.N)) main_v18_1 ((dat0 (fun c b => X3 m c b) c).arrAt 7 cfg0.N)) main_v18_2 ((dat0 (fun c b => X3 m c b) c).arrAt 8 cfg0.N)

def X5 (c : Dev nD) : Valuation τ sig (Elt F) := StableHlo.after hostOps1 (X4 m c)

def X6 (c : Dev nD) : Valuation τ sig (Elt F) :=
  Function.update (X5 m c) main_v39 ((dat1 (fun c b => X5 m c b) c).arrAt 3 cfg1.N)

def X7 (c : Dev nD) : Valuation τ sig (Elt F) := StableHlo.after hostOps2 (X6 m c)

def X8 (c : Dev nD) : Valuation τ sig (Elt F) := StableHlo.after hostOps2_1 (X7 m c)

def X9 (c : Dev nD) : Valuation τ sig (Elt F) :=
  Function.update (Function.update (Function.update (X8 m c) main_v54_0 ((dat2 (fun c b => X8 m c b) c).arrAt 6 cfg2.N)) main_v54_1 ((dat2 (fun c b => X8 m c b) c).arrAt 7 cfg2.N)) main_v54_2 ((dat2 (fun c b => X8 m c b) c).arrAt 8 cfg2.N)

def X10 (c : Dev nD) : Valuation τ sig (Elt F) := StableHlo.after hostOps3 (X9 m c)

def X11 (c : Dev nD) : Valuation τ sig (Elt F) :=
  Function.update (X10 m c) main_v75 ((dat3 (fun c b => X10 m c b) c).arrAt 3 cfg3.N)

def X12 (c : Dev nD) : Valuation τ sig (Elt F) := StableHlo.after hostOps4 (X11 m c)

def X13 (c : Dev nD) : Valuation τ sig (Elt F) := StableHlo.after hostOps4_1 (X12 m c)

def X14 (c : Dev nD) : Valuation τ sig (Elt F) :=
  Function.update (Function.update (Function.update (X13 m c) main_v90_0 ((dat4 (fun c b => X13 m c b) c).arrAt 6 cfg4.N)) main_v90_1 ((dat4 (fun c b => X13 m c b) c).arrAt 7 cfg4.N)) main_v90_2 ((dat4 (fun c b => X13 m c b) c).arrAt 8 cfg4.N)

def X15 (c : Dev nD) : Valuation τ sig (Elt F) := StableHlo.after hostOps5 (X14 m c)

def X16 (c : Dev nD) : Valuation τ sig (Elt F) :=
  Function.update (X15 m c) main_v111 ((dat5 (fun c b => X15 m c b) c).arrAt 3 cfg5.N)

def outs : Outs (F := F) := fun n r c => match n with
  | 4 => X4 m c r
  | 6 => X6 m c r
  | 9 => X9 m c r
  | 11 => X11 m c r
  | 14 => X14 m c r
  | 16 => X16 m c r
  | _ => V0 m c r

theorem X4_of (c : Dev nD) (r : Ref sig .tc) (h : r ∉ ([main_v18_0, main_v18_1, main_v18_2] : List (Ref sig .tc))) : X4 m c r = X3 m c r := by
  simp only [X4, Function.update_of_ne (StableHlo.devRef_ne_of_ne (List.ne_of_not_mem_cons h) : (Proc.devRef .tc r : DevRef τ sig) ≠ Proc.devRef .tc main_v18_0),
    Function.update_of_ne (StableHlo.devRef_ne_of_ne (List.ne_of_not_mem_cons (List.not_mem_of_not_mem_cons h)) : (Proc.devRef .tc r : DevRef τ sig) ≠ Proc.devRef .tc main_v18_1),
    Function.update_of_ne (StableHlo.devRef_ne_of_ne (List.ne_of_not_mem_cons (List.not_mem_of_not_mem_cons (List.not_mem_of_not_mem_cons h))) : (Proc.devRef .tc r : DevRef τ sig) ≠ Proc.devRef .tc main_v18_2)]

theorem X4_main_v18_0 (c : Dev nD) : X4 m c main_v18_0 = (dat0 (fun c b => X3 m c b) c).arrAt 6 cfg0.N := by
  unfold X4
  rw [Function.update_of_ne (StableHlo.devRef_ne_of_ne (by decide) : (Proc.devRef .tc main_v18_0 : DevRef τ sig) ≠ Proc.devRef .tc main_v18_2),
    Function.update_of_ne (StableHlo.devRef_ne_of_ne (by decide) : (Proc.devRef .tc main_v18_0 : DevRef τ sig) ≠ Proc.devRef .tc main_v18_1),
    Function.update_self]

theorem X4_main_v18_1 (c : Dev nD) : X4 m c main_v18_1 = (dat0 (fun c b => X3 m c b) c).arrAt 7 cfg0.N := by
  unfold X4
  rw [Function.update_of_ne (StableHlo.devRef_ne_of_ne (by decide) : (Proc.devRef .tc main_v18_1 : DevRef τ sig) ≠ Proc.devRef .tc main_v18_2),
    Function.update_self]

theorem X4_main_v18_2 (c : Dev nD) : X4 m c main_v18_2 = (dat0 (fun c b => X3 m c b) c).arrAt 8 cfg0.N := by
  unfold X4
  rw [Function.update_self]

theorem X6_of (c : Dev nD) (r : Ref sig .tc) (h : r ∉ ([main_v39] : List (Ref sig .tc))) : X6 m c r = X5 m c r := by
  simp only [X6, Function.update_of_ne (StableHlo.devRef_ne_of_ne (List.ne_of_not_mem_cons h) : (Proc.devRef .tc r : DevRef τ sig) ≠ Proc.devRef .tc main_v39)]

theorem X6_main_v39 (c : Dev nD) : X6 m c main_v39 = (dat1 (fun c b => X5 m c b) c).arrAt 3 cfg1.N := by
  unfold X6
  rw [Function.update_self]

theorem X9_of (c : Dev nD) (r : Ref sig .tc) (h : r ∉ ([main_v54_0, main_v54_1, main_v54_2] : List (Ref sig .tc))) : X9 m c r = X8 m c r := by
  simp only [X9, Function.update_of_ne (StableHlo.devRef_ne_of_ne (List.ne_of_not_mem_cons h) : (Proc.devRef .tc r : DevRef τ sig) ≠ Proc.devRef .tc main_v54_0),
    Function.update_of_ne (StableHlo.devRef_ne_of_ne (List.ne_of_not_mem_cons (List.not_mem_of_not_mem_cons h)) : (Proc.devRef .tc r : DevRef τ sig) ≠ Proc.devRef .tc main_v54_1),
    Function.update_of_ne (StableHlo.devRef_ne_of_ne (List.ne_of_not_mem_cons (List.not_mem_of_not_mem_cons (List.not_mem_of_not_mem_cons h))) : (Proc.devRef .tc r : DevRef τ sig) ≠ Proc.devRef .tc main_v54_2)]

theorem X9_main_v54_0 (c : Dev nD) : X9 m c main_v54_0 = (dat2 (fun c b => X8 m c b) c).arrAt 6 cfg2.N := by
  unfold X9
  rw [Function.update_of_ne (StableHlo.devRef_ne_of_ne (by decide) : (Proc.devRef .tc main_v54_0 : DevRef τ sig) ≠ Proc.devRef .tc main_v54_2),
    Function.update_of_ne (StableHlo.devRef_ne_of_ne (by decide) : (Proc.devRef .tc main_v54_0 : DevRef τ sig) ≠ Proc.devRef .tc main_v54_1),
    Function.update_self]

theorem X9_main_v54_1 (c : Dev nD) : X9 m c main_v54_1 = (dat2 (fun c b => X8 m c b) c).arrAt 7 cfg2.N := by
  unfold X9
  rw [Function.update_of_ne (StableHlo.devRef_ne_of_ne (by decide) : (Proc.devRef .tc main_v54_1 : DevRef τ sig) ≠ Proc.devRef .tc main_v54_2),
    Function.update_self]

theorem X9_main_v54_2 (c : Dev nD) : X9 m c main_v54_2 = (dat2 (fun c b => X8 m c b) c).arrAt 8 cfg2.N := by
  unfold X9
  rw [Function.update_self]

theorem X11_of (c : Dev nD) (r : Ref sig .tc) (h : r ∉ ([main_v75] : List (Ref sig .tc))) : X11 m c r = X10 m c r := by
  simp only [X11, Function.update_of_ne (StableHlo.devRef_ne_of_ne (List.ne_of_not_mem_cons h) : (Proc.devRef .tc r : DevRef τ sig) ≠ Proc.devRef .tc main_v75)]

theorem X11_main_v75 (c : Dev nD) : X11 m c main_v75 = (dat3 (fun c b => X10 m c b) c).arrAt 3 cfg3.N := by
  unfold X11
  rw [Function.update_self]

theorem X14_of (c : Dev nD) (r : Ref sig .tc) (h : r ∉ ([main_v90_0, main_v90_1, main_v90_2] : List (Ref sig .tc))) : X14 m c r = X13 m c r := by
  simp only [X14, Function.update_of_ne (StableHlo.devRef_ne_of_ne (List.ne_of_not_mem_cons h) : (Proc.devRef .tc r : DevRef τ sig) ≠ Proc.devRef .tc main_v90_0),
    Function.update_of_ne (StableHlo.devRef_ne_of_ne (List.ne_of_not_mem_cons (List.not_mem_of_not_mem_cons h)) : (Proc.devRef .tc r : DevRef τ sig) ≠ Proc.devRef .tc main_v90_1),
    Function.update_of_ne (StableHlo.devRef_ne_of_ne (List.ne_of_not_mem_cons (List.not_mem_of_not_mem_cons (List.not_mem_of_not_mem_cons h))) : (Proc.devRef .tc r : DevRef τ sig) ≠ Proc.devRef .tc main_v90_2)]

theorem X14_main_v90_0 (c : Dev nD) : X14 m c main_v90_0 = (dat4 (fun c b => X13 m c b) c).arrAt 6 cfg4.N := by
  unfold X14
  rw [Function.update_of_ne (StableHlo.devRef_ne_of_ne (by decide) : (Proc.devRef .tc main_v90_0 : DevRef τ sig) ≠ Proc.devRef .tc main_v90_2),
    Function.update_of_ne (StableHlo.devRef_ne_of_ne (by decide) : (Proc.devRef .tc main_v90_0 : DevRef τ sig) ≠ Proc.devRef .tc main_v90_1),
    Function.update_self]

theorem X14_main_v90_1 (c : Dev nD) : X14 m c main_v90_1 = (dat4 (fun c b => X13 m c b) c).arrAt 7 cfg4.N := by
  unfold X14
  rw [Function.update_of_ne (StableHlo.devRef_ne_of_ne (by decide) : (Proc.devRef .tc main_v90_1 : DevRef τ sig) ≠ Proc.devRef .tc main_v90_2),
    Function.update_self]

theorem X14_main_v90_2 (c : Dev nD) : X14 m c main_v90_2 = (dat4 (fun c b => X13 m c b) c).arrAt 8 cfg4.N := by
  unfold X14
  rw [Function.update_self]

theorem X16_of (c : Dev nD) (r : Ref sig .tc) (h : r ∉ ([main_v111] : List (Ref sig .tc))) : X16 m c r = X15 m c r := by
  simp only [X16, Function.update_of_ne (StableHlo.devRef_ne_of_ne (List.ne_of_not_mem_cons h) : (Proc.devRef .tc r : DevRef τ sig) ≠ Proc.devRef .tc main_v111)]

theorem X16_main_v111 (c : Dev nD) : X16 m c main_v111 = (dat5 (fun c b => X15 m c b) c).arrAt 3 cfg5.N := by
  unfold X16
  rw [Function.update_self]

theorem outs_at_4 (r : Ref sig .tc) (c : Dev nD) : outs m 4 r c = X4 m c r := rfl
theorem outs_at_6 (r : Ref sig .tc) (c : Dev nD) : outs m 6 r c = X6 m c r := rfl
theorem outs_at_9 (r : Ref sig .tc) (c : Dev nD) : outs m 9 r c = X9 m c r := rfl
theorem outs_at_11 (r : Ref sig .tc) (c : Dev nD) : outs m 11 r c = X11 m c r := rfl
theorem outs_at_14 (r : Ref sig .tc) (c : Dev nD) : outs m 14 r c = X14 m c r := rfl
theorem outs_at_16 (r : Ref sig .tc) (c : Dev nD) : outs m 16 r c = X16 m c r := rfl
theorem outs_4_0 (c : Dev nD) : outs m 4 main_v18_0 c = (dat0 (fun c b => X3 m c b) c).arrAt 6 cfg0.N :=
  (outs_at_4 m main_v18_0 c).trans (X4_main_v18_0 m c)
theorem outs_4_1 (c : Dev nD) : outs m 4 main_v18_1 c = (dat0 (fun c b => X3 m c b) c).arrAt 7 cfg0.N :=
  (outs_at_4 m main_v18_1 c).trans (X4_main_v18_1 m c)
theorem outs_4_2 (c : Dev nD) : outs m 4 main_v18_2 c = (dat0 (fun c b => X3 m c b) c).arrAt 8 cfg0.N :=
  (outs_at_4 m main_v18_2 c).trans (X4_main_v18_2 m c)
theorem outs_6 (c : Dev nD) : outs m 6 main_v39 c = (dat1 (fun c b => X5 m c b) c).arrAt 3 cfg1.N :=
  (outs_at_6 m main_v39 c).trans (X6_main_v39 m c)
theorem outs_9_0 (c : Dev nD) : outs m 9 main_v54_0 c = (dat2 (fun c b => X8 m c b) c).arrAt 6 cfg2.N :=
  (outs_at_9 m main_v54_0 c).trans (X9_main_v54_0 m c)
theorem outs_9_1 (c : Dev nD) : outs m 9 main_v54_1 c = (dat2 (fun c b => X8 m c b) c).arrAt 7 cfg2.N :=
  (outs_at_9 m main_v54_1 c).trans (X9_main_v54_1 m c)
theorem outs_9_2 (c : Dev nD) : outs m 9 main_v54_2 c = (dat2 (fun c b => X8 m c b) c).arrAt 8 cfg2.N :=
  (outs_at_9 m main_v54_2 c).trans (X9_main_v54_2 m c)
theorem outs_11 (c : Dev nD) : outs m 11 main_v75 c = (dat3 (fun c b => X10 m c b) c).arrAt 3 cfg3.N :=
  (outs_at_11 m main_v75 c).trans (X11_main_v75 m c)
theorem outs_14_0 (c : Dev nD) : outs m 14 main_v90_0 c = (dat4 (fun c b => X13 m c b) c).arrAt 6 cfg4.N :=
  (outs_at_14 m main_v90_0 c).trans (X14_main_v90_0 m c)
theorem outs_14_1 (c : Dev nD) : outs m 14 main_v90_1 c = (dat4 (fun c b => X13 m c b) c).arrAt 7 cfg4.N :=
  (outs_at_14 m main_v90_1 c).trans (X14_main_v90_1 m c)
theorem outs_14_2 (c : Dev nD) : outs m 14 main_v90_2 c = (dat4 (fun c b => X13 m c b) c).arrAt 8 cfg4.N :=
  (outs_at_14 m main_v90_2 c).trans (X14_main_v90_2 m c)
theorem outs_16 (c : Dev nD) : outs m 16 main_v111 c = (dat5 (fun c b => X15 m c b) c).arrAt 3 cfg5.N :=
  (outs_at_16 m main_v111 c).trans (X16_main_v111 m c)

theorem X3_eq (c : Dev nD) : X3 m c = V3 m c := rfl
theorem V4_eq (c : Dev nD) : V4 m (outs m) c = X4 m c := by
  show Function.update (Function.update (Function.update (V3 m c) main_v18_0 (outs m 4 main_v18_0 c)) main_v18_1 (outs m 4 main_v18_1 c)) main_v18_2 (outs m 4 main_v18_2 c) = X4 m c
  rw [← X3_eq, outs_4_0, outs_4_1, outs_4_2]; unfold X4; rfl
theorem V5_eq (c : Dev nD) : V5 m (outs m) c = X5 m c := by
  unfold X5; rw [← V4_eq m c]
theorem V6_eq (c : Dev nD) : V6 m (outs m) c = X6 m c := by
  show Function.update (V5 m (outs m) c) main_v39 (outs m 6 main_v39 c) = X6 m c
  rw [V5_eq, outs_6]; unfold X6; rfl
theorem V7_eq (c : Dev nD) : V7 m (outs m) c = X7 m c := by
  unfold X7; rw [← V6_eq m c]
theorem V8_eq (c : Dev nD) : V8 m (outs m) c = X8 m c := by
  unfold X8; rw [← V7_eq m c]
theorem V9_eq (c : Dev nD) : V9 m (outs m) c = X9 m c := by
  show Function.update (Function.update (Function.update (V8 m (outs m) c) main_v54_0 (outs m 9 main_v54_0 c)) main_v54_1 (outs m 9 main_v54_1 c)) main_v54_2 (outs m 9 main_v54_2 c) = X9 m c
  rw [V8_eq, outs_9_0, outs_9_1, outs_9_2]; unfold X9; rfl
theorem V10_eq (c : Dev nD) : V10 m (outs m) c = X10 m c := by
  unfold X10; rw [← V9_eq m c]
theorem V11_eq (c : Dev nD) : V11 m (outs m) c = X11 m c := by
  show Function.update (V10 m (outs m) c) main_v75 (outs m 11 main_v75 c) = X11 m c
  rw [V10_eq, outs_11]; unfold X11; rfl
theorem V12_eq (c : Dev nD) : V12 m (outs m) c = X12 m c := by
  unfold X12; rw [← V11_eq m c]
theorem V13_eq (c : Dev nD) : V13 m (outs m) c = X13 m c := by
  unfold X13; rw [← V12_eq m c]
theorem V14_eq (c : Dev nD) : V14 m (outs m) c = X14 m c := by
  show Function.update (Function.update (Function.update (V13 m (outs m) c) main_v90_0 (outs m 14 main_v90_0 c)) main_v90_1 (outs m 14 main_v90_1 c)) main_v90_2 (outs m 14 main_v90_2 c) = X14 m c
  rw [V13_eq, outs_14_0, outs_14_1, outs_14_2]; unfold X14; rfl
theorem V15_eq (c : Dev nD) : V15 m (outs m) c = X15 m c := by
  unfold X15; rw [← V14_eq m c]
theorem V16_eq (c : Dev nD) : V16 m (outs m) c = X16 m c := by
  show Function.update (V15 m (outs m) c) main_v111 (outs m 16 main_v111 c) = X16 m c
  rw [V15_eq, outs_16]; unfold X16; rfl

theorem X16_main_arg0 (c : Dev nD) : X16 m c main_arg0 = m ((c : Thread nD τ).loc main_arg0) := by
  rw [← V16_eq]; exact V16_main_arg0 m (outs m) c
theorem X16_main_arg1 (c : Dev nD) : X16 m c main_arg1 = m ((c : Thread nD τ).loc main_arg1) := by
  rw [← V16_eq]; exact V16_main_arg1 m (outs m) c
theorem X16_main_arg2 (c : Dev nD) : X16 m c main_arg2 = m ((c : Thread nD τ).loc main_arg2) := by
  rw [← V16_eq]; exact V16_main_arg2 m (outs m) c
theorem X16_main_arg3 (c : Dev nD) : X16 m c main_arg3 = m ((c : Thread nD τ).loc main_arg3) := by
  rw [← V16_eq]; exact V16_main_arg3 m (outs m) c
theorem X16_main_arg4 (c : Dev nD) : X16 m c main_arg4 = m ((c : Thread nD τ).loc main_arg4) := by
  rw [← V16_eq]; exact V16_main_arg4 m (outs m) c
theorem X16_main_arg5 (c : Dev nD) : X16 m c main_arg5 = m ((c : Thread nD τ).loc main_arg5) := by
  rw [← V16_eq]; exact V16_main_arg5 m (outs m) c
theorem X16_main_arg6 (c : Dev nD) : X16 m c main_arg6 = m ((c : Thread nD τ).loc main_arg6) := by
  rw [← V16_eq]; exact V16_main_arg6 m (outs m) c
theorem X16_main_arg7 (c : Dev nD) : X16 m c main_arg7 = m ((c : Thread nD τ).loc main_arg7) := by
  rw [← V16_eq]; exact V16_main_arg7 m (outs m) c
def pdats : (p : Fin 6) → (c : Dev nD) → Dat τ (Elt F) Unit ℕ (UR sig nD τ) ℕ (Pipeline.pin (pcfgs (F := F)) adm p) c
  | ⟨0, _⟩ => fun c => dat0 (fun c b => X3 m c b) c
  | ⟨1, _⟩ => fun c => dat1 (fun c b => X5 m c b) c
  | ⟨2, _⟩ => fun c => dat2 (fun c b => X8 m c b) c
  | ⟨3, _⟩ => fun c => dat3 (fun c b => X10 m c b) c
  | ⟨4, _⟩ => fun c => dat4 (fun c b => X13 m c b) c
  | ⟨5, _⟩ => fun c => dat5 (fun c b => X15 m c b) c

abbrev runL : GSem nD τ sig → Finset Unit := fun _ => ∅
abbrev runLv : GSem nD τ sig → Unit → ℕ := fun _ _ => 0

abbrev Ride (c : Dev nD) : sProp 𝕄 := iprop((∃ r, prngReg c r) ∗ ∃ W, owes (c : Thread nD τ) (0 : CellTallies nD τ sig Unit) W)

theorem held_congr (c : Dev nD) {A B : Valuation τ sig (Elt F)} (h : A = B) :
    (iprop(StableHlo.held (c : Thread nD τ) (Pipeline.ucRefs τ sig) A ∗ Ride c) : sProp 𝕄)
      ⊢ iprop(StableHlo.held (c : Thread nD τ) (Pipeline.ucRefs τ sig) B ∗ Ride c) := by
  subst h; exact .rfl

theorem ride_last (c : Dev nD) (A : Valuation τ sig (Elt F)) :
    (iprop(StableHlo.held (c : Thread nD τ) (Pipeline.ucRefs τ sig) A ∗ Ride c) : sProp 𝕄)
      ⊢ iprop((StableHlo.held (c : Thread nD τ) (Pipeline.ucRefs τ sig) A ∗ ∃ r, prngReg c r)
          ∗ ∃ W, owes (c : Thread nD τ) (0 : CellTallies nD τ sig Unit) W) := by
  iintro ⟨Hh, Hp, HO⟩
  isplitl [Hh Hp]
  · isplitl [Hh] <;> iassumption
  iexact HO

theorem hF0_0 (c : Dev nD) : (dat0 (fun c b => X3 m c b) c).arrAt (0 : Fin 9) cfg0.N = X4 m c (Pipeline.arrRef spec0 (0 : Fin 9)) :=
  ((dat0 (fun c b => X3 m c b) c).arrAt_in 0 rfl _).trans ((A_eq0 (fun c b => X3 m c b) c 0).trans (X4_of m c main_arg0 (by decide)).symm)
theorem hF0_1 (c : Dev nD) : (dat0 (fun c b => X3 m c b) c).arrAt (1 : Fin 9) cfg0.N = X4 m c (Pipeline.arrRef spec0 (1 : Fin 9)) :=
  ((dat0 (fun c b => X3 m c b) c).arrAt_in 1 rfl _).trans ((A_eq0 (fun c b => X3 m c b) c 1).trans (X4_of m c main_v7 (by decide)).symm)
theorem hF0_2 (c : Dev nD) : (dat0 (fun c b => X3 m c b) c).arrAt (2 : Fin 9) cfg0.N = X4 m c (Pipeline.arrRef spec0 (2 : Fin 9)) :=
  ((dat0 (fun c b => X3 m c b) c).arrAt_in 2 rfl _).trans ((A_eq0 (fun c b => X3 m c b) c 2).trans (X4_of m c main_v9 (by decide)).symm)
theorem hF0_3 (c : Dev nD) : (dat0 (fun c b => X3 m c b) c).arrAt (3 : Fin 9) cfg0.N = X4 m c (Pipeline.arrRef spec0 (3 : Fin 9)) :=
  ((dat0 (fun c b => X3 m c b) c).arrAt_in 3 rfl _).trans ((A_eq0 (fun c b => X3 m c b) c 3).trans (X4_of m c main_v16 (by decide)).symm)
theorem hF0_4 (c : Dev nD) : (dat0 (fun c b => X3 m c b) c).arrAt (4 : Fin 9) cfg0.N = X4 m c (Pipeline.arrRef spec0 (4 : Fin 9)) :=
  ((dat0 (fun c b => X3 m c b) c).arrAt_in 4 rfl _).trans ((A_eq0 (fun c b => X3 m c b) c 4).trans (X4_of m c main_v13 (by decide)).symm)
theorem hF0_5 (c : Dev nD) : (dat0 (fun c b => X3 m c b) c).arrAt (5 : Fin 9) cfg0.N = X4 m c (Pipeline.arrRef spec0 (5 : Fin 9)) :=
  ((dat0 (fun c b => X3 m c b) c).arrAt_in 5 rfl _).trans ((A_eq0 (fun c b => X3 m c b) c 5).trans (X4_of m c main_v17 (by decide)).symm)
theorem hF0_6 (c : Dev nD) : (dat0 (fun c b => X3 m c b) c).arrAt (6 : Fin 9) cfg0.N = X4 m c (Pipeline.arrRef spec0 (6 : Fin 9)) :=
  (X4_main_v18_0 m c).symm
theorem hF0_7 (c : Dev nD) : (dat0 (fun c b => X3 m c b) c).arrAt (7 : Fin 9) cfg0.N = X4 m c (Pipeline.arrRef spec0 (7 : Fin 9)) :=
  (X4_main_v18_1 m c).symm
theorem hF0_8 (c : Dev nD) : (dat0 (fun c b => X3 m c b) c).arrAt (8 : Fin 9) cfg0.N = X4 m c (Pipeline.arrRef spec0 (8 : Fin 9)) :=
  (X4_main_v18_2 m c).symm

theorem hF0 (c : Dev nD) : ∀ w : Fin 9, (dat0 (fun c b => X3 m c b) c).arrAt w cfg0.N = X4 m c (Pipeline.arrRef spec0 w)
  | 0 => hF0_0 m c
  | 1 => hF0_1 m c
  | 2 => hF0_2 m c
  | 3 => hF0_3 m c
  | 4 => hF0_4 m c
  | 5 => hF0_5 m c
  | 6 => hF0_6 m c
  | 7 => hF0_7 m c
  | 8 => hF0_8 m c
  | ⟨_ + 9, h⟩ => absurd h (Nat.not_lt.2 (Nat.le_add_left _ _))

theorem hrest0 (c : Dev nD) (b : Ref sig .tc) (hb : b ∉ Finset.univ.image (Pipeline.arrRef spec0)) : X4 m c b = X3 m c b :=
  X4_of m c b fun hmem => hb (by
    simp only [List.mem_cons, List.mem_nil_iff, or_false] at hmem
    rcases hmem with rfl | rfl | rfl
    · exact Finset.mem_image.mpr ⟨6, Finset.mem_univ _, rfl⟩
    · exact Finset.mem_image.mpr ⟨7, Finset.mem_univ _, rfl⟩
    · exact Finset.mem_image.mpr ⟨8, Finset.mem_univ _, rfl⟩)

theorem hF1 (c : Dev nD) : ∀ w : Fin 4, (dat1 (fun c b => X5 m c b) c).arrAt w cfg1.N = X6 m c (Pipeline.arrRef spec1 w)
  | 0 => ((dat1 (fun c b => X5 m c b) c).arrAt_in 0 rfl _).trans ((A_eq1 (fun c b => X5 m c b) c 0).trans (X6_of m c main_v18_0 (by decide)).symm)
  | 1 => ((dat1 (fun c b => X5 m c b) c).arrAt_in 1 rfl _).trans ((A_eq1 (fun c b => X5 m c b) c 1).trans (X6_of m c main_v37 (by decide)).symm)
  | 2 => ((dat1 (fun c b => X5 m c b) c).arrAt_in 2 rfl _).trans ((A_eq1 (fun c b => X5 m c b) c 2).trans (X6_of m c main_v38 (by decide)).symm)
  | 3 => (X6_main_v39 m c).symm
  | ⟨_ + 4, h⟩ => absurd h (Nat.not_lt.2 (Nat.le_add_left _ _))

theorem hrest1 (c : Dev nD) (b : Ref sig .tc) (hb : b ∉ Finset.univ.image (Pipeline.arrRef spec1)) : X6 m c b = X5 m c b :=
  X6_of m c b fun hmem => hb (by
    simp only [List.mem_cons, List.mem_nil_iff, or_false] at hmem
    rcases hmem with rfl
    · exact Finset.mem_image.mpr ⟨3, Finset.mem_univ _, rfl⟩)

theorem hF2_0 (c : Dev nD) : (dat2 (fun c b => X8 m c b) c).arrAt (0 : Fin 9) cfg2.N = X9 m c (Pipeline.arrRef spec2 (0 : Fin 9)) :=
  ((dat2 (fun c b => X8 m c b) c).arrAt_in 0 rfl _).trans ((A_eq2 (fun c b => X8 m c b) c 0).trans (X9_of m c main_v39 (by decide)).symm)
theorem hF2_1 (c : Dev nD) : (dat2 (fun c b => X8 m c b) c).arrAt (1 : Fin 9) cfg2.N = X9 m c (Pipeline.arrRef spec2 (1 : Fin 9)) :=
  ((dat2 (fun c b => X8 m c b) c).arrAt_in 1 rfl _).trans ((A_eq2 (fun c b => X8 m c b) c 1).trans (X9_of m c main_v43 (by decide)).symm)
theorem hF2_2 (c : Dev nD) : (dat2 (fun c b => X8 m c b) c).arrAt (2 : Fin 9) cfg2.N = X9 m c (Pipeline.arrRef spec2 (2 : Fin 9)) :=
  ((dat2 (fun c b => X8 m c b) c).arrAt_in 2 rfl _).trans ((A_eq2 (fun c b => X8 m c b) c 2).trans (X9_of m c main_v45 (by decide)).symm)
theorem hF2_3 (c : Dev nD) : (dat2 (fun c b => X8 m c b) c).arrAt (3 : Fin 9) cfg2.N = X9 m c (Pipeline.arrRef spec2 (3 : Fin 9)) :=
  ((dat2 (fun c b => X8 m c b) c).arrAt_in 3 rfl _).trans ((A_eq2 (fun c b => X8 m c b) c 3).trans (X9_of m c main_v52 (by decide)).symm)
theorem hF2_4 (c : Dev nD) : (dat2 (fun c b => X8 m c b) c).arrAt (4 : Fin 9) cfg2.N = X9 m c (Pipeline.arrRef spec2 (4 : Fin 9)) :=
  ((dat2 (fun c b => X8 m c b) c).arrAt_in 4 rfl _).trans ((A_eq2 (fun c b => X8 m c b) c 4).trans (X9_of m c main_v49 (by decide)).symm)
theorem hF2_5 (c : Dev nD) : (dat2 (fun c b => X8 m c b) c).arrAt (5 : Fin 9) cfg2.N = X9 m c (Pipeline.arrRef spec2 (5 : Fin 9)) :=
  ((dat2 (fun c b => X8 m c b) c).arrAt_in 5 rfl _).trans ((A_eq2 (fun c b => X8 m c b) c 5).trans (X9_of m c main_v53 (by decide)).symm)
theorem hF2_6 (c : Dev nD) : (dat2 (fun c b => X8 m c b) c).arrAt (6 : Fin 9) cfg2.N = X9 m c (Pipeline.arrRef spec2 (6 : Fin 9)) :=
  (X9_main_v54_0 m c).symm
theorem hF2_7 (c : Dev nD) : (dat2 (fun c b => X8 m c b) c).arrAt (7 : Fin 9) cfg2.N = X9 m c (Pipeline.arrRef spec2 (7 : Fin 9)) :=
  (X9_main_v54_1 m c).symm
theorem hF2_8 (c : Dev nD) : (dat2 (fun c b => X8 m c b) c).arrAt (8 : Fin 9) cfg2.N = X9 m c (Pipeline.arrRef spec2 (8 : Fin 9)) :=
  (X9_main_v54_2 m c).symm

theorem hF2 (c : Dev nD) : ∀ w : Fin 9, (dat2 (fun c b => X8 m c b) c).arrAt w cfg2.N = X9 m c (Pipeline.arrRef spec2 w)
  | 0 => hF2_0 m c
  | 1 => hF2_1 m c
  | 2 => hF2_2 m c
  | 3 => hF2_3 m c
  | 4 => hF2_4 m c
  | 5 => hF2_5 m c
  | 6 => hF2_6 m c
  | 7 => hF2_7 m c
  | 8 => hF2_8 m c
  | ⟨_ + 9, h⟩ => absurd h (Nat.not_lt.2 (Nat.le_add_left _ _))

theorem hrest2 (c : Dev nD) (b : Ref sig .tc) (hb : b ∉ Finset.univ.image (Pipeline.arrRef spec2)) : X9 m c b = X8 m c b :=
  X9_of m c b fun hmem => hb (by
    simp only [List.mem_cons, List.mem_nil_iff, or_false] at hmem
    rcases hmem with rfl | rfl | rfl
    · exact Finset.mem_image.mpr ⟨6, Finset.mem_univ _, rfl⟩
    · exact Finset.mem_image.mpr ⟨7, Finset.mem_univ _, rfl⟩
    · exact Finset.mem_image.mpr ⟨8, Finset.mem_univ _, rfl⟩)

theorem hF3 (c : Dev nD) : ∀ w : Fin 4, (dat3 (fun c b => X10 m c b) c).arrAt w cfg3.N = X11 m c (Pipeline.arrRef spec3 w)
  | 0 => ((dat3 (fun c b => X10 m c b) c).arrAt_in 0 rfl _).trans ((A_eq3 (fun c b => X10 m c b) c 0).trans (X11_of m c main_v54_0 (by decide)).symm)
  | 1 => ((dat3 (fun c b => X10 m c b) c).arrAt_in 1 rfl _).trans ((A_eq3 (fun c b => X10 m c b) c 1).trans (X11_of m c main_v73 (by decide)).symm)
  | 2 => ((dat3 (fun c b => X10 m c b) c).arrAt_in 2 rfl _).trans ((A_eq3 (fun c b => X10 m c b) c 2).trans (X11_of m c main_v74 (by decide)).symm)
  | 3 => (X11_main_v75 m c).symm
  | ⟨_ + 4, h⟩ => absurd h (Nat.not_lt.2 (Nat.le_add_left _ _))

theorem hrest3 (c : Dev nD) (b : Ref sig .tc) (hb : b ∉ Finset.univ.image (Pipeline.arrRef spec3)) : X11 m c b = X10 m c b :=
  X11_of m c b fun hmem => hb (by
    simp only [List.mem_cons, List.mem_nil_iff, or_false] at hmem
    rcases hmem with rfl
    · exact Finset.mem_image.mpr ⟨3, Finset.mem_univ _, rfl⟩)

theorem hF4_0 (c : Dev nD) : (dat4 (fun c b => X13 m c b) c).arrAt (0 : Fin 9) cfg4.N = X14 m c (Pipeline.arrRef spec4 (0 : Fin 9)) :=
  ((dat4 (fun c b => X13 m c b) c).arrAt_in 0 rfl _).trans ((A_eq4 (fun c b => X13 m c b) c 0).trans (X14_of m c main_v75 (by decide)).symm)
theorem hF4_1 (c : Dev nD) : (dat4 (fun c b => X13 m c b) c).arrAt (1 : Fin 9) cfg4.N = X14 m c (Pipeline.arrRef spec4 (1 : Fin 9)) :=
  ((dat4 (fun c b => X13 m c b) c).arrAt_in 1 rfl _).trans ((A_eq4 (fun c b => X13 m c b) c 1).trans (X14_of m c main_v79 (by decide)).symm)
theorem hF4_2 (c : Dev nD) : (dat4 (fun c b => X13 m c b) c).arrAt (2 : Fin 9) cfg4.N = X14 m c (Pipeline.arrRef spec4 (2 : Fin 9)) :=
  ((dat4 (fun c b => X13 m c b) c).arrAt_in 2 rfl _).trans ((A_eq4 (fun c b => X13 m c b) c 2).trans (X14_of m c main_v81 (by decide)).symm)
theorem hF4_3 (c : Dev nD) : (dat4 (fun c b => X13 m c b) c).arrAt (3 : Fin 9) cfg4.N = X14 m c (Pipeline.arrRef spec4 (3 : Fin 9)) :=
  ((dat4 (fun c b => X13 m c b) c).arrAt_in 3 rfl _).trans ((A_eq4 (fun c b => X13 m c b) c 3).trans (X14_of m c main_v88 (by decide)).symm)
theorem hF4_4 (c : Dev nD) : (dat4 (fun c b => X13 m c b) c).arrAt (4 : Fin 9) cfg4.N = X14 m c (Pipeline.arrRef spec4 (4 : Fin 9)) :=
  ((dat4 (fun c b => X13 m c b) c).arrAt_in 4 rfl _).trans ((A_eq4 (fun c b => X13 m c b) c 4).trans (X14_of m c main_v85 (by decide)).symm)
theorem hF4_5 (c : Dev nD) : (dat4 (fun c b => X13 m c b) c).arrAt (5 : Fin 9) cfg4.N = X14 m c (Pipeline.arrRef spec4 (5 : Fin 9)) :=
  ((dat4 (fun c b => X13 m c b) c).arrAt_in 5 rfl _).trans ((A_eq4 (fun c b => X13 m c b) c 5).trans (X14_of m c main_v89 (by decide)).symm)
theorem hF4_6 (c : Dev nD) : (dat4 (fun c b => X13 m c b) c).arrAt (6 : Fin 9) cfg4.N = X14 m c (Pipeline.arrRef spec4 (6 : Fin 9)) :=
  (X14_main_v90_0 m c).symm
theorem hF4_7 (c : Dev nD) : (dat4 (fun c b => X13 m c b) c).arrAt (7 : Fin 9) cfg4.N = X14 m c (Pipeline.arrRef spec4 (7 : Fin 9)) :=
  (X14_main_v90_1 m c).symm
theorem hF4_8 (c : Dev nD) : (dat4 (fun c b => X13 m c b) c).arrAt (8 : Fin 9) cfg4.N = X14 m c (Pipeline.arrRef spec4 (8 : Fin 9)) :=
  (X14_main_v90_2 m c).symm

theorem hF4 (c : Dev nD) : ∀ w : Fin 9, (dat4 (fun c b => X13 m c b) c).arrAt w cfg4.N = X14 m c (Pipeline.arrRef spec4 w)
  | 0 => hF4_0 m c
  | 1 => hF4_1 m c
  | 2 => hF4_2 m c
  | 3 => hF4_3 m c
  | 4 => hF4_4 m c
  | 5 => hF4_5 m c
  | 6 => hF4_6 m c
  | 7 => hF4_7 m c
  | 8 => hF4_8 m c
  | ⟨_ + 9, h⟩ => absurd h (Nat.not_lt.2 (Nat.le_add_left _ _))

theorem hrest4 (c : Dev nD) (b : Ref sig .tc) (hb : b ∉ Finset.univ.image (Pipeline.arrRef spec4)) : X14 m c b = X13 m c b :=
  X14_of m c b fun hmem => hb (by
    simp only [List.mem_cons, List.mem_nil_iff, or_false] at hmem
    rcases hmem with rfl | rfl | rfl
    · exact Finset.mem_image.mpr ⟨6, Finset.mem_univ _, rfl⟩
    · exact Finset.mem_image.mpr ⟨7, Finset.mem_univ _, rfl⟩
    · exact Finset.mem_image.mpr ⟨8, Finset.mem_univ _, rfl⟩)

theorem hF5 (c : Dev nD) : ∀ w : Fin 4, (dat5 (fun c b => X15 m c b) c).arrAt w cfg5.N = X16 m c (Pipeline.arrRef spec5 w)
  | 0 => ((dat5 (fun c b => X15 m c b) c).arrAt_in 0 rfl _).trans ((A_eq5 (fun c b => X15 m c b) c 0).trans (X16_of m c main_v90_0 (by decide)).symm)
  | 1 => ((dat5 (fun c b => X15 m c b) c).arrAt_in 1 rfl _).trans ((A_eq5 (fun c b => X15 m c b) c 1).trans (X16_of m c main_v109 (by decide)).symm)
  | 2 => ((dat5 (fun c b => X15 m c b) c).arrAt_in 2 rfl _).trans ((A_eq5 (fun c b => X15 m c b) c 2).trans (X16_of m c main_v110 (by decide)).symm)
  | 3 => (X16_main_v111 m c).symm
  | ⟨_ + 4, h⟩ => absurd h (Nat.not_lt.2 (Nat.le_add_left _ _))

theorem hrest5 (c : Dev nD) (b : Ref sig .tc) (hb : b ∉ Finset.univ.image (Pipeline.arrRef spec5)) : X16 m c b = X15 m c b :=
  X16_of m c b fun hmem => hb (by
    simp only [List.mem_cons, List.mem_nil_iff, or_false] at hmem
    rcases hmem with rfl
    · exact Finset.mem_image.mpr ⟨3, Finset.mem_univ _, rfl⟩)

set_option backward.isDefEq.respectTransparency.types false in
def reg0 (hb0 : ∀ V c, BodyObligation (dat0 (F := F) V c) (defs₀ (F := F)) Variants.none () Set.univ)
    (ho0 : ∀ V c, (dat0 (F := F) V c).Φ (Fin.last cfg0.N) ⊢ Pipeline.ΦA spec0 c) :
    Pipeline.RegionSeg (pcfgs (F := F)) adm (pdats m) () defs₀ Variants.none runL runLv 0 where
  win := launch0.win.to₀
  block_pos := launch0.block_pos
  stage_whole := launch0.stage_whole
  K := PEmpty
  osem k := k.elim
  ho := Pipeline.OwnSemFacts.none _
  hbody c := (hb0 (fun c b => X3 m c b) c).loose
  hwaits := Pipeline.hwaits_of_owed_zero _ _ _ _ runL runLv 0 fun _ _ => rfl
  pre c := iprop(StableHlo.held (c : Thread nD τ) (Pipeline.ucRefs τ sig) (X3 m c) ∗ Ride c)
  post c := iprop(StableHlo.held (c : Thread nD τ) (Pipeline.ucRefs τ sig) (X4 m c) ∗ Ride c)
  X c := iprop(∃ r, prngReg c r)
  Y c := iprop(∃ r, prngReg c r)
  Z c := Pipeline.unscopedRest (Ix := Unit) (Name := ℕ) (U := UR sig nD τ) (Lvl := ℕ) spec0 c (fun b => X3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => X3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from (ho0 (fun c b => X3 m c b) c)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => X3 m c b) (fun b => X4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 (hb1 : ∀ V c, BodyObligation (dat1 (F := F) V c) (defs₀ (F := F)) Variants.none () Set.univ) :
    Pipeline.RegionSeg (pcfgs (F := F)) adm (pdats m) () defs₀ Variants.none runL runLv 1 where
  win := launch1.win.to₀
  block_pos := launch1.block_pos
  stage_whole := launch1.stage_whole
  K := PEmpty
  osem k := k.elim
  ho := Pipeline.OwnSemFacts.none _
  hbody c := (hb1 (fun c b => X5 m c b) c).loose
  hwaits := Pipeline.hwaits_of_owed_zero _ _ _ _ runL runLv 1 fun _ _ => rfl
  pre c := iprop(StableHlo.held (c : Thread nD τ) (Pipeline.ucRefs τ sig) (X5 m c) ∗ Ride c)
  post c := iprop(StableHlo.held (c : Thread nD τ) (Pipeline.ucRefs τ sig) (X6 m c) ∗ Ride c)
  X c := iprop(∃ r, prngReg c r)
  Y c := iprop(∃ r, prngReg c r)
  Z c := Pipeline.unscopedRest (Ix := Unit) (Name := ℕ) (U := UR sig nD τ) (Lvl := ℕ) spec1 c (fun b => X5 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => X5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from (hout1 (fun c b => X5 m c b) c)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => X5 m c b) (fun b => X6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 (hb2 : ∀ V c, BodyObligation (dat2 (F := F) V c) (defs₀ (F := F)) Variants.none () Set.univ)
    (ho2 : ∀ V c, (dat2 (F := F) V c).Φ (Fin.last cfg2.N) ⊢ Pipeline.ΦA spec2 c) :
    Pipeline.RegionSeg (pcfgs (F := F)) adm (pdats m) () defs₀ Variants.none runL runLv 2 where
  win := launch2.win.to₀
  block_pos := launch2.block_pos
  stage_whole := launch2.stage_whole
  K := PEmpty
  osem k := k.elim
  ho := Pipeline.OwnSemFacts.none _
  hbody c := (hb2 (fun c b => X8 m c b) c).loose
  hwaits := Pipeline.hwaits_of_owed_zero _ _ _ _ runL runLv 2 fun _ _ => rfl
  pre c := iprop(StableHlo.held (c : Thread nD τ) (Pipeline.ucRefs τ sig) (X8 m c) ∗ Ride c)
  post c := iprop(StableHlo.held (c : Thread nD τ) (Pipeline.ucRefs τ sig) (X9 m c) ∗ Ride c)
  X c := iprop(∃ r, prngReg c r)
  Y c := iprop(∃ r, prngReg c r)
  Z c := Pipeline.unscopedRest (Ix := Unit) (Name := ℕ) (U := UR sig nD τ) (Lvl := ℕ) spec2 c (fun b => X8 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => X8 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from (ho2 (fun c b => X8 m c b) c)).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => X8 m c b) (fun b => X9 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 (hb3 : ∀ V c, BodyObligation (dat3 (F := F) V c) (defs₀ (F := F)) Variants.none () Set.univ) :
    Pipeline.RegionSeg (pcfgs (F := F)) adm (pdats m) () defs₀ Variants.none runL runLv 3 where
  win := launch3.win.to₀
  block_pos := launch3.block_pos
  stage_whole := launch3.stage_whole
  K := PEmpty
  osem k := k.elim
  ho := Pipeline.OwnSemFacts.none _
  hbody c := (hb3 (fun c b => X10 m c b) c).loose
  hwaits := Pipeline.hwaits_of_owed_zero _ _ _ _ runL runLv 3 fun _ _ => rfl
  pre c := iprop(StableHlo.held (c : Thread nD τ) (Pipeline.ucRefs τ sig) (X10 m c) ∗ Ride c)
  post c := iprop(StableHlo.held (c : Thread nD τ) (Pipeline.ucRefs τ sig) (X11 m c) ∗ Ride c)
  X c := iprop(∃ r, prngReg c r)
  Y c := iprop(∃ r, prngReg c r)
  Z c := Pipeline.unscopedRest (Ix := Unit) (Name := ℕ) (U := UR sig nD τ) (Lvl := ℕ) spec3 c (fun b => X10 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => X10 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from (hout3 (fun c b => X10 m c b) c)).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => X10 m c b) (fun b => X11 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 (hb4 : ∀ V c, BodyObligation (dat4 (F := F) V c) (defs₀ (F := F)) Variants.none () Set.univ)
    (ho4 : ∀ V c, (dat4 (F := F) V c).Φ (Fin.last cfg4.N) ⊢ Pipeline.ΦA spec4 c) :
    Pipeline.RegionSeg (pcfgs (F := F)) adm (pdats m) () defs₀ Variants.none runL runLv 4 where
  win := launch4.win.to₀
  block_pos := launch4.block_pos
  stage_whole := launch4.stage_whole
  K := PEmpty
  osem k := k.elim
  ho := Pipeline.OwnSemFacts.none _
  hbody c := (hb4 (fun c b => X13 m c b) c).loose
  hwaits := Pipeline.hwaits_of_owed_zero _ _ _ _ runL runLv 4 fun _ _ => rfl
  pre c := iprop(StableHlo.held (c : Thread nD τ) (Pipeline.ucRefs τ sig) (X13 m c) ∗ Ride c)
  post c := iprop(StableHlo.held (c : Thread nD τ) (Pipeline.ucRefs τ sig) (X14 m c) ∗ Ride c)
  X c := iprop(∃ r, prngReg c r)
  Y c := iprop(∃ r, prngReg c r)
  Z c := Pipeline.unscopedRest (Ix := Unit) (Name := ℕ) (U := UR sig nD τ) (Lvl := ℕ) spec4 c (fun b => X13 m c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b => X13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from (ho4 (fun c b => X13 m c b) c)).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => X13 m c b) (fun b => X14 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 (hb5 : ∀ V c, BodyObligation (dat5 (F := F) V c) (defs₀ (F := F)) Variants.none () Set.univ) :
    Pipeline.RegionSeg (pcfgs (F := F)) adm (pdats m) () defs₀ Variants.none runL runLv 5 where
  win := launch5.win.to₀
  block_pos := launch5.block_pos
  stage_whole := launch5.stage_whole
  K := PEmpty
  osem k := k.elim
  ho := Pipeline.OwnSemFacts.none _
  hbody c := (hb5 (fun c b => X15 m c b) c).loose
  hwaits := Pipeline.hwaits_of_owed_zero _ _ _ _ runL runLv 5 fun _ _ => rfl
  pre c := iprop(StableHlo.held (c : Thread nD τ) (Pipeline.ucRefs τ sig) (X15 m c) ∗ Ride c)
  post c := iprop(StableHlo.held (c : Thread nD τ) (Pipeline.ucRefs τ sig) (X16 m c) ∗ Ride c)
  X c := iprop(∃ r, prngReg c r)
  Y c := iprop(∃ r, prngReg c r)
  Z c := Pipeline.unscopedRest (Ix := Unit) (Name := ℕ) (U := UR sig nD τ) (Lvl := ℕ) spec5 c (fun b => X15 m c b)
  hentry c := by
    rw [Pipeline.ownSems0_none]
    have hsplit := Pipeline.arrays_of_unscopedBufs (p := 5) (pcfgs (F := F)) adm (pdats m) launch5.win launch5.arr_whole c
      ((pdats m 5 c).share_full fun _ => rfl) (fun b => X15 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from (hout5 (fun c b => X15 m c b) c)).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (fun b => X15 m c b) (fun b => X16 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
theorem run
    (hb0 : ∀ V c, BodyObligation (dat0 (F := F) V c) (defs₀ (F := F)) Variants.none () Set.univ)
    (ho0 : ∀ V c, (dat0 (F := F) V c).Φ (Fin.last cfg0.N) ⊢ Pipeline.ΦA spec0 c)
    (hb1 : ∀ V c, BodyObligation (dat1 (F := F) V c) (defs₀ (F := F)) Variants.none () Set.univ)
    (hb2 : ∀ V c, BodyObligation (dat2 (F := F) V c) (defs₀ (F := F)) Variants.none () Set.univ)
    (ho2 : ∀ V c, (dat2 (F := F) V c).Φ (Fin.last cfg2.N) ⊢ Pipeline.ΦA spec2 c)
    (hb3 : ∀ V c, BodyObligation (dat3 (F := F) V c) (defs₀ (F := F)) Variants.none () Set.univ)
    (hb4 : ∀ V c, BodyObligation (dat4 (F := F) V c) (defs₀ (F := F)) Variants.none () Set.univ)
    (ho4 : ∀ V c, (dat4 (F := F) V c).Φ (Fin.last cfg4.N) ⊢ Pipeline.ΦA spec4 c)
    (hb5 : ∀ V c, BodyObligation (dat5 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = X16 m c b) := by
  refine Pipeline.θ_run_regions_kit_dev (pcfgs (F := F)) adm (pdats m) () cellOf_inj emb₁ defs₀ Variants.none runL runLv m ρ main
    (segs m (outs m) Variants.none runL runLv (fun _ c => Ride c) () (pdats m) (reg0 m hb0 ho0) (reg1 m hb1) (reg2 m hb2 ho2) (reg3 m hb3) (reg4 m hb4 ho4) (reg5 m hb5))
    (fun c Q => by
      rewrite [main_chain c, Seg.run_eq_chain,
        show ((segs m (outs m) Variants.none runL runLv (fun _ c => Ride c) () (pdats m) (reg0 m hb0 ho0) (reg1 m hb1) (reg2 m hb2 ho2) (reg3 m hb3) (reg4 m hb4 ho4) (reg5 m hb5)) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          Prog.lift (.customCall (Pipeline.entry 2) ()),
          StableHlo.seq hostOps3,
          Prog.lift (.customCall (Pipeline.entry 3) ()),
          StableHlo.seq hostOps4,
          StableHlo.seq hostOps4_1,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ride c))
    (Tₙ := fun c => iprop(StableHlo.held (c : Thread nD τ) (Pipeline.ucRefs τ sig) (X16 m c) ∗ ∃ r, prngReg c r))
    (hch := fun c => ⟨.rfl, .rfl, .rfl, .rfl,
      held_congr c (V4_eq m c).symm, held_congr c (V5_eq m c),
      held_congr c (V6_eq m c).symm, .rfl, held_congr c (V8_eq m c),
      held_congr c (V9_eq m c).symm, held_congr c (V10_eq m c),
      held_congr c (V11_eq m c).symm, .rfl, held_congr c (V13_eq m c),
      held_congr c (V14_eq m c).symm, held_congr c (V15_eq m c),
      ride_last c (X16 m c)⟩)
    (hinit := by
      refine Pipeline.initEach runL runLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X16 m c b)
    (hfin := fun c s' => by
      iintro ⟨⟨Hh, -⟩, HSI⟩
      unfold StableHlo.held
      imodintro
      iapply (pointsTo_read_all (Pipeline.ucRefs τ sig) (fun b => (((c : Thread nD τ)).1, b)) (X16 m c) s')
      isplitl [Hh] <;> iassumption)
    (hQ := fun s h c => h c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame
    (hb0 : ∀ V c, BodyObligation (dat0 (F := F) V c) (defs₀ (F := F)) Variants.none () Set.univ)
    (ho0 : ∀ V c, (dat0 (F := F) V c).Φ (Fin.last cfg0.N) ⊢ Pipeline.ΦA spec0 c)
    (hb1 : ∀ V c, BodyObligation (dat1 (F := F) V c) (defs₀ (F := F)) Variants.none () Set.univ)
    (hb2 : ∀ V c, BodyObligation (dat2 (F := F) V c) (defs₀ (F := F)) Variants.none () Set.univ)
    (ho2 : ∀ V c, (dat2 (F := F) V c).Φ (Fin.last cfg2.N) ⊢ Pipeline.ΦA spec2 c)
    (hb3 : ∀ V c, BodyObligation (dat3 (F := F) V c) (defs₀ (F := F)) Variants.none () Set.univ)
    (hb4 : ∀ V c, BodyObligation (dat4 (F := F) V c) (defs₀ (F := F)) Variants.none () Set.univ)
    (ho4 : ∀ V c, (dat4 (F := F) V c).Φ (Fin.last cfg4.N) ⊢ Pipeline.ΦA spec4 c)
    (hb5 : ∀ V c, BodyObligation (dat5 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (X16_main_arg0 m c),
      (h c _ (mem_uc main_arg1 (by decide))).trans (X16_main_arg1 m c),
      (h c _ (mem_uc main_arg2 (by decide))).trans (X16_main_arg2 m c),
      (h c _ (mem_uc main_arg3 (by decide))).trans (X16_main_arg3 m c),
      (h c _ (mem_uc main_arg4 (by decide))).trans (X16_main_arg4 m c),
      (h c _ (mem_uc main_arg5 (by decide))).trans (X16_main_arg5 m c),
      (h c _ (mem_uc main_arg6 (by decide))).trans (X16_main_arg6 m c),
      (h c _ (mem_uc main_arg7 (by decide))).trans (X16_main_arg7 m c)⟩)
    (run hb0 ho0 hb1 hb2 ho2 hb3 hb4 ho4 hb5 m ρ)

theorem run_result
    (hb0 : ∀ V c, BodyObligation (dat0 (F := F) V c) (defs₀ (F := F)) Variants.none () Set.univ)
    (ho0 : ∀ V c, (dat0 (F := F) V c).Φ (Fin.last cfg0.N) ⊢ Pipeline.ΦA spec0 c)
    (hb1 : ∀ V c, BodyObligation (dat1 (F := F) V c) (defs₀ (F := F)) Variants.none () Set.univ)
    (hb2 : ∀ V c, BodyObligation (dat2 (F := F) V c) (defs₀ (F := F)) Variants.none () Set.univ)
    (ho2 : ∀ V c, (dat2 (F := F) V c).Φ (Fin.last cfg2.N) ⊢ Pipeline.ΦA spec2 c)
    (hb3 : ∀ V c, BodyObligation (dat3 (F := F) V c) (defs₀ (F := F)) Variants.none () Set.univ)
    (hb4 : ∀ V c, BodyObligation (dat4 (F := F) V c) (defs₀ (F := F)) Variants.none () Set.univ)
    (ho4 : ∀ V c, (dat4 (F := F) V c).Φ (Fin.last cfg4.N) ⊢ Pipeline.ΦA spec4 c)
    (hb5 : ∀ V c, BodyObligation (dat5 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v111) = outs m 16 main_v111 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v111 (by decide))).trans (outs_at_16 m main_v111 c).symm,
      (h c _ (mem_uc main_arg0 (by decide))).trans (X16_main_arg0 m c),
      (h c _ (mem_uc main_arg1 (by decide))).trans (X16_main_arg1 m c),
      (h c _ (mem_uc main_arg2 (by decide))).trans (X16_main_arg2 m c),
      (h c _ (mem_uc main_arg3 (by decide))).trans (X16_main_arg3 m c),
      (h c _ (mem_uc main_arg4 (by decide))).trans (X16_main_arg4 m c),
      (h c _ (mem_uc main_arg5 (by decide))).trans (X16_main_arg5 m c),
      (h c _ (mem_uc main_arg6 (by decide))).trans (X16_main_arg6 m c),
      (h c _ (mem_uc main_arg7 (by decide))).trans (X16_main_arg7 m c)⟩)
    (run hb0 ho0 hb1 hb2 ho2 hb3 hb4 ho4 hb5 m ρ)

end Cert.Kernel.Gen

end
-- ==== Proof.Mlp0FrameW.lean ====
import proofs.«420740_j41515153883619_1_alg».proof.Proof.Mlp0DataW
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_0 (i : grid0.Coords) : Prop :=
  (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1

theorem hcond0_1 : ∀ t : Fin cfg0.N, cond0_1 (grid0.coords t) ↔ t.val = 24 :=
  (by decide +kernel : ∀ t : Fin grid0.N, cond0_1 (grid0.coords t) ↔ t.val = 24)

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel

theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

theorem hz0 : (![0, 0] : Fin 2 → Nat) = fun _ => 0 := funext fun a => by fin_cases a <;> rfl

section Body

variable (c : Dev nD) (E : Set ℕ) (i : grid0.Coords)
  (arg1 : Memref sig .tc .vmem S2000x128 .f32) (harg1 : arg1.IsWhole) (arg2 : Memref sig .tc .vmem S2000x128 .f32) (harg2 : arg2.IsWhole)
  (arg3 : Memref sig .tc .vmem S128x128 .f32) (harg3 : arg3.IsWhole) (arg4 : Memref sig .tc .vmem S1x128 .f32) (harg4 : arg4.IsWhole)
  (arg5 : Memref sig .tc .vmem S128x128 .f32) (harg5 : arg5.IsWhole) (arg6 : Memref sig .tc .vmem S1x128 .f32) (harg6 : arg6.IsWhole)
  (arg7 : Memref sig .tc .vmem S2000x128 .f32) (harg7 : arg7.IsWhole) (arg8 : Memref sig .tc .vmem S1x128 .f32) (harg8 : arg8.IsWhole)
  (arg9 : Memref sig .tc .vmem S1x128 .f32) (harg9 : arg9.IsWhole) (arg10 : Memref sig .tc .vmem S1x128 .f32) (harg10 : arg10.IsWhole)
  (arg11 : Memref sig .tc .vmem S1x128 .f32) (harg11 : arg11.IsWhole)
  (x0 x1 : Vec F S2000x128 .f32) (x2 : Vec F S128x128 .f32) (x3 : Vec F S1x128 .f32) (x4 : Vec F S128x128 .f32) (x5 : Vec F S1x128 .f32)

set_option maxHeartbeats 4000000 in
theorem kernel0_A
    (hc0 : cond0_0 i) (hc1 : ¬cond0_1 i)
    (y7 y8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg8 fullShare y7 ∗ owns (c : Thread nD τ) arg9 fullShare y8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k0_pay5 x0 x1 x2 x3 x4 x5)
            ∗ owns (c : Thread nD τ) arg8 fullShare y7 ∗ owns (c : Thread nD τ) arg9 fullShare y8
            ∗ owns (c : Thread nD τ) arg10 fullShare (accS0 (k0_pay3 (F := F)) x0 x1 x2 x3 x4 x5)
            ∗ owns (c : Thread nD τ) arg11 fullShare (accQ0 (k0_pay4 (F := F)) x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds, %fs, -, HS⟩, ⟨%dq, %fq, -, HQ⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf7; obtain rfl := harg9.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [View.read_writes_eq_canon _ _ _ (View.cover_of_tiled _ S2000x128.size (by rfl)), View.canon_unit_zero hz0]
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0]
  isplitl [H7]
  · iexists _; isplitr; · ipureintro; exact harg8.read_unread _
    iexact H7
  isplitl [H8]
  · iexists _; isplitr; · ipureintro; exact harg9.read_unread _
    iexact H8
  isplitl [HS]
  · iexists _; isplitr
    swap; · iexact HS
    ipureintro
    sl_unfold_words
    rw [View.read_writes_eq_canon _ _ _ (View.cover_of_tiledL _ S1x128.size (by rfl)), View.canon_cons_unit_zero (S := S1x128) hz0]
    unfold accS0
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0,
      View.readCov_unit_zero (S := S1x128) _ hz0]
  iexists _; isplitr
  swap; · iexact HQ
  ipureintro
  sl_unfold_words
  rw [View.read_writes_eq_canon _ _ _ (View.cover_of_tiledL _ S1x128.size (by rfl)), View.canon_cons_unit_zero (S := S1x128) hz0]
  unfold accQ0
  simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0,
      View.readCov_unit_zero (S := S1x128) _ hz0]

set_option maxHeartbeats 4000000 in
theorem kernel0_B
    (hc0 : ¬cond0_0 i) (hc1 : ¬cond0_1 i)
    (y7 y8 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg8 fullShare y7 ∗ owns (c : Thread nD τ) arg9 fullShare y8
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k0_pay5 x0 x1 x2 x3 x4 x5)
            ∗ owns (c : Thread nD τ) arg8 fullShare y7 ∗ owns (c : Thread nD τ) arg9 fullShare y8
            ∗ owns (c : Thread nD τ) arg10 fullShare (accS0 s x0 x1 x2 x3 x4 x5) ∗ owns (c : Thread nD τ) arg11 fullShare (accQ0 q x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs, %hfs, HS⟩, ⟨%fq, %hfq, HQ⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf7; obtain rfl := harg9.eq_unread hf8
  obtain rfl := harg10.eq_unread hfs; obtain rfl := harg11.eq_unread hfq
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [View.read_writes_eq_canon _ _ _ (View.cover_of_tiled _ S2000x128.size (by rfl)), View.canon_unit_zero hz0]
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0]
  isplitl [H7]
  · iexists _; isplitr; · ipureintro; exact harg8.read_unread _
    iexact H7
  isplitl [H8]
  · iexists _; isplitr; · ipureintro; exact harg9.read_unread _
    iexact H8
  isplitl [HS]
  · iexists _; isplitr
    swap; · iexact HS
    ipureintro
    sl_unfold_words
    rw [View.read_writes_eq_canon _ _ _ (View.cover_of_tiled _ S1x128.size (by rfl)), View.canon_unit_zero hz0]
    unfold accS0
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0]
  iexists _; isplitr
  swap; · iexact HQ
  ipureintro
  sl_unfold_words
  rw [View.read_writes_eq_canon _ _ _ (View.cover_of_tiled _ S1x128.size (by rfl)), View.canon_unit_zero hz0]
  unfold accQ0
  simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0]

set_option maxHeartbeats 4000000 in
theorem kernel0_C
    (hc0 : ¬cond0_0 i) (hc1 : cond0_1 i)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k0_pay5 x0 x1 x2 x3 x4 x5)
            ∗ owns (c : Thread nD τ) arg8 fullShare (accS0 s x0 x1 x2 x3 x4 x5) ∗ owns (c : Thread nD τ) arg9 fullShare (accQ0 q x0 x1 x2 x3 x4 x5)
            ∗ owns (c : Thread nD τ) arg10 fullShare (accS0 s x0 x1 x2 x3 x4 x5) ∗ owns (c : Thread nD τ) arg11 fullShare (accQ0 q x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg10.eq_unread hfs; obtain rfl := harg11.eq_unread hfq
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [View.read_writes_eq_canon _ _ _ (View.cover_of_tiled _ S2000x128.size (by rfl)), View.canon_unit_zero hz0]
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0]
  isplitl [H7]
  · iexists _; isplitr
    swap; · iexact H7
    ipureintro
    sl_unfold_words
    rw [View.read_writes_eq_canon _ _ _ (View.cover_of_tiled _ S1x128.size (by rfl)), View.canon_unit_zero hz0]
    unfold accS0
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0,
      View.readCov_unit_zero (S := S1x128) _ hz0]
  isplitl [H8]
  · iexists _; isplitr
    swap; · iexact H8
    ipureintro
    sl_unfold_words
    rw [View.read_writes_eq_canon _ _ _ (View.cover_of_tiled _ S1x128.size (by rfl)), View.canon_unit_zero hz0]
    unfold accQ0
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0,
      View.readCov_unit_zero (S := S1x128) _ hz0]
  isplitl [HS]
  · iexists _; isplitr
    swap; · iexact HS
    ipureintro
    sl_unfold_words
    rw [View.read_writes_eq_canon _ _ _ (View.cover_of_tiled _ S1x128.size (by rfl)), View.canon_unit_zero hz0]
    unfold accS0
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0]
  iexists _; isplitr
  swap; · iexact HQ
  ipureintro
  sl_unfold_words
  rw [View.read_writes_eq_canon _ _ _ (View.cover_of_tiled _ S1x128.size (by rfl)), View.canon_unit_zero hz0]
  unfold accQ0
  simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0]

end Body

theorem sc0_first_fst (c : Dev nD) (t : Fin cfg0.N) (h : t.val = 0) :
    (sc0 V c t.val t.isLt).1 = accS0 (k0_pay3 (F := F)) (iblk0 V c 0 t) (iblk0 V c 1 t) (iblk0 V c 2 t) (iblk0 V c 3 t) (iblk0 V c 4 t) (iblk0 V c 5 t) := by
  rw [sc0_first V c t h]

theorem sc0_first_snd (c : Dev nD) (t : Fin cfg0.N) (h : t.val = 0) :
    (sc0 V c t.val t.isLt).2 = accQ0 (k0_pay4 (F := F)) (iblk0 V c 0 t) (iblk0 V c 1 t) (iblk0 V c 2 t) (iblk0 V c 3 t) (iblk0 V c 4 t) (iblk0 V c 5 t) := by
  rw [sc0_first V c t h]

theorem sc0_later_fst (c : Dev nD) (t : Fin cfg0.N) (h : t.val ≠ 0) :
    (sc0 V c t.val t.isLt).1 = accS0 (sc0 V c (t.val - 1) (Nat.lt_of_le_of_lt (Nat.sub_le _ _) t.isLt)).1 (iblk0 V c 0 t) (iblk0 V c 1 t) (iblk0 V c 2 t) (iblk0 V c 3 t) (iblk0 V c 4 t) (iblk0 V c 5 t) := by
  rw [sc0_later V c t h]

theorem sc0_later_snd (c : Dev nD) (t : Fin cfg0.N) (h : t.val ≠ 0) :
    (sc0 V c t.val t.isLt).2 = accQ0 (sc0 V c (t.val - 1) (Nat.lt_of_le_of_lt (Nat.sub_le _ _) t.isLt)).2 (iblk0 V c 0 t) (iblk0 V c 1 t) (iblk0 V c 2 t) (iblk0 V c 3 t) (iblk0 V c 4 t) (iblk0 V c 5 t) := by
  rw [sc0_later V c t h]

theorem PhiA0_eq (c : Dev nD) :
    (Pipeline.ΦA spec0 c : sProp 𝕄)
      = iprop((((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  have hN : t.val < 25 := lt_of_lt_of_eq t.isLt (show cfg0.N = 25 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 7 t (idleAt0_7 t hc1) (noFlush0_7 t hc1),
      Dat.leavesExact_idle (dat0 V c) 8 t (idleAt0_8 t hc1) (noFlush0_8 t hc1)]
    rw [sc0_first_fst V c t h0, sc0_first_snd V c t h0]
    rw [Phi0_castSucc V c t, PhiS0_zero V c _ _ h0, PhiA0_eq]
    iintro ⟨⟨⟨⟨⟨%ds, HS⟩, ⟨%dq, HQ⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernel0_A c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) hc0 hc1 _ _ _)
    iframe H0 H1 H2 H3 H4 H5 H7 H8
    isplitl [H6]; · iexists _; iexact H6
    isplitl [HS]; · iexists _; iexact HS
    isplitl [HQ]; · iexists _; iexact HQ
    iintro ⟨H0, H1, H2, H3, H4, H5, H6, H7, H8, HS, HQ⟩
    iframe HS HQ HR Hg
    iframe Ho H0 H1 H2 H3 H4 H5 H6
    isplitl [H7]; · iexists _; iexact H7
    iexists _; iexact H8
  · have hc0 : ¬cond0_0 (grid0.coords t) := fun h => h0 ((hcond0_0 t).mp h)
    rw [sc0_later_fst V c t h0, sc0_later_snd V c t h0]
    rw [Phi0_castSucc V c t, PhiS0_pos V c _ _ h0]
    by_cases h1 : t.val = 24
    · have hc1 : cond0_1 (grid0.coords t) := (hcond0_1 t).mpr h1
      rw [show (dat0 V c).leavesExact 7 t = owns (c : Thread nD τ) (st0_7 t) fullShare ((dat0 V c).after 7 t) from by
        unfold Dat.leavesExact; rw [liveAt0_7 t hc1], after0_7]
      rw [show (dat0 V c).leavesExact 8 t = owns (c : Thread nD τ) (st0_8 t) fullShare ((dat0 V c).after 8 t) from by
        unfold Dat.leavesExact; rw [liveAt0_8 t hc1], after0_8]
      rw [sc0_later_fst V c t h0, sc0_later_snd V c t h0]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel0_C c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) hc0 hc1 _ _ _)
      iframe H0 H1 H2 H3 H4 H5 HS HQ
      isplitl [H6]; · iexists _; iexact H6
      isplitl [H7]; · iexists _; iexact H7
      isplitl [H8]; · iexists _; iexact H8
      iintro ⟨H0, H1, H2, H3, H4, H5, H6, H7, H8, HS, HQ⟩
      iframe HS HQ HR Hg
      iframe Ho H0 H1 H2 H3 H4 H5 H6 H7
      iexact H8
    · have hc1 : ¬cond0_1 (grid0.coords t) := fun h => h1 ((hcond0_1 t).mp h)
      rw [Dat.leavesExact_idle (dat0 V c) 7 t (idleAt0_7 t hc1) (noFlush0_7 t hc1),
        Dat.leavesExact_idle (dat0 V c) 8 t (idleAt0_8 t hc1) (noFlush0_8 t hc1)]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel0_B c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) hc0 hc1 _ _ _ _ _)
      iframe H0 H1 H2 H3 H4 H5 H7 H8 HS HQ
      isplitl [H6]; · iexists _; iexact H6
      iintro ⟨H0, H1, H2, H3, H4, H5, H6, H7, H8, HS, HQ⟩
      iframe HS HQ HR Hg
      iframe Ho H0 H1 H2 H3 H4 H5 H6
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨HS, HQ, HR, Hg⟩
  isplitl [HS HQ HR]
  · isplitl [HS HQ]
    · isplitl [HS]; · iexists _; iexact HS
      iexists _; iexact HQ
    iexact HR
  iexact Hg

end Cert.Kernel.Gen

end
-- ==== Proof.Mlp2FrameW.lean ====
import proofs.«420740_j41515153883619_1_alg».proof.Proof.Mlp2DataW
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop :=
  (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1

theorem hcond2_1 : ∀ t : Fin cfg2.N, cond2_1 (grid2.coords t) ↔ t.val = 24 :=
  (by decide +kernel : ∀ t : Fin grid2.N, cond2_1 (grid2.coords t) ↔ t.val = 24)

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel

theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel

theorem liveAt2_7 : ∀ t : Fin cfg2.N, cond2_1 (grid2.coords t) → cfg2.idle 7 (grid2.coords t) = false := by decide +kernel
theorem liveAt2_8 : ∀ t : Fin cfg2.N, cond2_1 (grid2.coords t) → cfg2.idle 8 (grid2.coords t) = false := by decide +kernel

theorem hz2 : (![0, 0] : Fin 2 → Nat) = fun _ => 0 := funext fun a => by fin_cases a <;> rfl

section Body

variable (c : Dev nD) (E : Set ℕ) (i : grid2.Coords)
  (arg1 : Memref sig .tc .vmem S2000x128 .f32) (harg1 : arg1.IsWhole) (arg2 : Memref sig .tc .vmem S2000x128 .f32) (harg2 : arg2.IsWhole)
  (arg3 : Memref sig .tc .vmem S128x128 .f32) (harg3 : arg3.IsWhole) (arg4 : Memref sig .tc .vmem S1x128 .f32) (harg4 : arg4.IsWhole)
  (arg5 : Memref sig .tc .vmem S128x128 .f32) (harg5 : arg5.IsWhole) (arg6 : Memref sig .tc .vmem S1x128 .f32) (harg6 : arg6.IsWhole)
  (arg7 : Memref sig .tc .vmem S2000x128 .f32) (harg7 : arg7.IsWhole) (arg8 : Memref sig .tc .vmem S1x128 .f32) (harg8 : arg8.IsWhole)
  (arg9 : Memref sig .tc .vmem S1x128 .f32) (harg9 : arg9.IsWhole) (arg10 : Memref sig .tc .vmem S1x128 .f32) (harg10 : arg10.IsWhole)
  (arg11 : Memref sig .tc .vmem S1x128 .f32) (harg11 : arg11.IsWhole)
  (x0 x1 : Vec F S2000x128 .f32) (x2 : Vec F S128x128 .f32) (x3 : Vec F S1x128 .f32) (x4 : Vec F S128x128 .f32) (x5 : Vec F S1x128 .f32)

set_option maxHeartbeats 4000000 in
theorem kernel2_A
    (hc0 : cond2_0 i) (hc1 : ¬cond2_1 i)
    (y7 y8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg8 fullShare y7 ∗ owns (c : Thread nD τ) arg9 fullShare y8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k2_pay5 x0 x1 x2 x3 x4 x5)
            ∗ owns (c : Thread nD τ) arg8 fullShare y7 ∗ owns (c : Thread nD τ) arg9 fullShare y8
            ∗ owns (c : Thread nD τ) arg10 fullShare (accS2 (k2_pay3 (F := F)) x0 x1 x2 x3 x4 x5)
            ∗ owns (c : Thread nD τ) arg11 fullShare (accQ2 (k2_pay4 (F := F)) x0 x1 x2 x3 x4 x5)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K := by
  simp only [cc2__mlp_kernel_eq_skeleton]; unfold cc2__mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds, %fs, -, HS⟩, ⟨%dq, %fq, -, HQ⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf7; obtain rfl := harg9.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [View.read_writes_eq_canon _ _ _ (View.cover_of_tiled _ S2000x128.size (by rfl)), View.canon_unit_zero hz2]
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2]
  isplitl [H7]
  · iexists _; isplitr; · ipureintro; exact harg8.read_unread _
    iexact H7
  isplitl [H8]
  · iexists _; isplitr; · ipureintro; exact harg9.read_unread _
    iexact H8
  isplitl [HS]
  · iexists _; isplitr
    swap; · iexact HS
    ipureintro
    sl_unfold_words
    rw [View.read_writes_eq_canon _ _ _ (View.cover_of_tiledL _ S1x128.size (by rfl)), View.canon_cons_unit_zero (S := S1x128) hz2]
    unfold accS2
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2,
      View.readCov_unit_zero (S := S1x128) _ hz2]
  iexists _; isplitr
  swap; · iexact HQ
  ipureintro
  sl_unfold_words
  rw [View.read_writes_eq_canon _ _ _ (View.cover_of_tiledL _ S1x128.size (by rfl)), View.canon_cons_unit_zero (S := S1x128) hz2]
  unfold accQ2
  simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2,
      View.readCov_unit_zero (S := S1x128) _ hz2]

set_option maxHeartbeats 4000000 in
theorem kernel2_B
    (hc0 : ¬cond2_0 i) (hc1 : ¬cond2_1 i)
    (y7 y8 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg8 fullShare y7 ∗ owns (c : Thread nD τ) arg9 fullShare y8
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k2_pay5 x0 x1 x2 x3 x4 x5)
            ∗ owns (c : Thread nD τ) arg8 fullShare y7 ∗ owns (c : Thread nD τ) arg9 fullShare y8
            ∗ owns (c : Thread nD τ) arg10 fullShare (accS2 s x0 x1 x2 x3 x4 x5) ∗ owns (c : Thread nD τ) arg11 fullShare (accQ2 q x0 x1 x2 x3 x4 x5)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K := by
  simp only [cc2__mlp_kernel_eq_skeleton]; unfold cc2__mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs, %hfs, HS⟩, ⟨%fq, %hfq, HQ⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf7; obtain rfl := harg9.eq_unread hf8
  obtain rfl := harg10.eq_unread hfs; obtain rfl := harg11.eq_unread hfq
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [View.read_writes_eq_canon _ _ _ (View.cover_of_tiled _ S2000x128.size (by rfl)), View.canon_unit_zero hz2]
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2]
  isplitl [H7]
  · iexists _; isplitr; · ipureintro; exact harg8.read_unread _
    iexact H7
  isplitl [H8]
  · iexists _; isplitr; · ipureintro; exact harg9.read_unread _
    iexact H8
  isplitl [HS]
  · iexists _; isplitr
    swap; · iexact HS
    ipureintro
    sl_unfold_words
    rw [View.read_writes_eq_canon _ _ _ (View.cover_of_tiled _ S1x128.size (by rfl)), View.canon_unit_zero hz2]
    unfold accS2
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2]
  iexists _; isplitr
  swap; · iexact HQ
  ipureintro
  sl_unfold_words
  rw [View.read_writes_eq_canon _ _ _ (View.cover_of_tiled _ S1x128.size (by rfl)), View.canon_unit_zero hz2]
  unfold accQ2
  simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2]

set_option maxHeartbeats 4000000 in
theorem kernel2_C
    (hc0 : ¬cond2_0 i) (hc1 : cond2_1 i)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k2_pay5 x0 x1 x2 x3 x4 x5)
            ∗ owns (c : Thread nD τ) arg8 fullShare (accS2 s x0 x1 x2 x3 x4 x5) ∗ owns (c : Thread nD τ) arg9 fullShare (accQ2 q x0 x1 x2 x3 x4 x5)
            ∗ owns (c : Thread nD τ) arg10 fullShare (accS2 s x0 x1 x2 x3 x4 x5) ∗ owns (c : Thread nD τ) arg11 fullShare (accQ2 q x0 x1 x2 x3 x4 x5)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K := by
  simp only [cc2__mlp_kernel_eq_skeleton]; unfold cc2__mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg10.eq_unread hfs; obtain rfl := harg11.eq_unread hfq
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [View.read_writes_eq_canon _ _ _ (View.cover_of_tiled _ S2000x128.size (by rfl)), View.canon_unit_zero hz2]
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2]
  isplitl [H7]
  · iexists _; isplitr
    swap; · iexact H7
    ipureintro
    sl_unfold_words
    rw [View.read_writes_eq_canon _ _ _ (View.cover_of_tiled _ S1x128.size (by rfl)), View.canon_unit_zero hz2]
    unfold accS2
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2,
      View.readCov_unit_zero (S := S1x128) _ hz2]
  isplitl [H8]
  · iexists _; isplitr
    swap; · iexact H8
    ipureintro
    sl_unfold_words
    rw [View.read_writes_eq_canon _ _ _ (View.cover_of_tiled _ S1x128.size (by rfl)), View.canon_unit_zero hz2]
    unfold accQ2
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2,
      View.readCov_unit_zero (S := S1x128) _ hz2]
  isplitl [HS]
  · iexists _; isplitr
    swap; · iexact HS
    ipureintro
    sl_unfold_words
    rw [View.read_writes_eq_canon _ _ _ (View.cover_of_tiled _ S1x128.size (by rfl)), View.canon_unit_zero hz2]
    unfold accS2
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2]
  iexists _; isplitr
  swap; · iexact HQ
  ipureintro
  sl_unfold_words
  rw [View.read_writes_eq_canon _ _ _ (View.cover_of_tiled _ S1x128.size (by rfl)), View.canon_unit_zero hz2]
  unfold accQ2
  simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2]

end Body

theorem sc2_first_fst (c : Dev nD) (t : Fin cfg2.N) (h : t.val = 0) :
    (sc2 V c t.val t.isLt).1 = accS2 (k2_pay3 (F := F)) (iblk2 V c 0 t) (iblk2 V c 1 t) (iblk2 V c 2 t) (iblk2 V c 3 t) (iblk2 V c 4 t) (iblk2 V c 5 t) := by
  rw [sc2_first V c t h]

theorem sc2_first_snd (c : Dev nD) (t : Fin cfg2.N) (h : t.val = 0) :
    (sc2 V c t.val t.isLt).2 = accQ2 (k2_pay4 (F := F)) (iblk2 V c 0 t) (iblk2 V c 1 t) (iblk2 V c 2 t) (iblk2 V c 3 t) (iblk2 V c 4 t) (iblk2 V c 5 t) := by
  rw [sc2_first V c t h]

theorem sc2_later_fst (c : Dev nD) (t : Fin cfg2.N) (h : t.val ≠ 0) :
    (sc2 V c t.val t.isLt).1 = accS2 (sc2 V c (t.val - 1) (Nat.lt_of_le_of_lt (Nat.sub_le _ _) t.isLt)).1 (iblk2 V c 0 t) (iblk2 V c 1 t) (iblk2 V c 2 t) (iblk2 V c 3 t) (iblk2 V c 4 t) (iblk2 V c 5 t) := by
  rw [sc2_later V c t h]

theorem sc2_later_snd (c : Dev nD) (t : Fin cfg2.N) (h : t.val ≠ 0) :
    (sc2 V c t.val t.isLt).2 = accQ2 (sc2 V c (t.val - 1) (Nat.lt_of_le_of_lt (Nat.sub_le _ _) t.isLt)).2 (iblk2 V c 0 t) (iblk2 V c 1 t) (iblk2 V c 2 t) (iblk2 V c 3 t) (iblk2 V c 4 t) (iblk2 V c 5 t) := by
  rw [sc2_later V c t h]

theorem PhiA2_eq (c : Dev nD) :
    (Pipeline.ΦA spec2 c : sProp 𝕄)
      = iprop((((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  have hN : t.val < 25 := lt_of_lt_of_eq t.isLt (show cfg2.N = 25 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 7 t (idleAt2_7 t hc1) (noFlush2_7 t hc1),
      Dat.leavesExact_idle (dat2 V c) 8 t (idleAt2_8 t hc1) (noFlush2_8 t hc1)]
    rw [sc2_first_fst V c t h0, sc2_first_snd V c t h0]
    rw [Phi2_castSucc V c t, PhiS2_zero V c _ _ h0, PhiA2_eq]
    iintro ⟨⟨⟨⟨⟨%ds, HS⟩, ⟨%dq, HQ⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernel2_A c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) hc0 hc1 _ _ _)
    iframe H0 H1 H2 H3 H4 H5 H7 H8
    isplitl [H6]; · iexists _; iexact H6
    isplitl [HS]; · iexists _; iexact HS
    isplitl [HQ]; · iexists _; iexact HQ
    iintro ⟨H0, H1, H2, H3, H4, H5, H6, H7, H8, HS, HQ⟩
    iframe HS HQ HR Hg
    iframe Ho H0 H1 H2 H3 H4 H5 H6
    isplitl [H7]; · iexists _; iexact H7
    iexists _; iexact H8
  · have hc0 : ¬cond2_0 (grid2.coords t) := fun h => h0 ((hcond2_0 t).mp h)
    rw [sc2_later_fst V c t h0, sc2_later_snd V c t h0]
    rw [Phi2_castSucc V c t, PhiS2_pos V c _ _ h0]
    by_cases h1 : t.val = 24
    · have hc1 : cond2_1 (grid2.coords t) := (hcond2_1 t).mpr h1
      rw [show (dat2 V c).leavesExact 7 t = owns (c : Thread nD τ) (st2_7 t) fullShare ((dat2 V c).after 7 t) from by
        unfold Dat.leavesExact; rw [liveAt2_7 t hc1], after2_7]
      rw [show (dat2 V c).leavesExact 8 t = owns (c : Thread nD τ) (st2_8 t) fullShare ((dat2 V c).after 8 t) from by
        unfold Dat.leavesExact; rw [liveAt2_8 t hc1], after2_8]
      rw [sc2_later_fst V c t h0, sc2_later_snd V c t h0]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_C c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) hc0 hc1 _ _ _)
      iframe H0 H1 H2 H3 H4 H5 HS HQ
      isplitl [H6]; · iexists _; iexact H6
      isplitl [H7]; · iexists _; iexact H7
      isplitl [H8]; · iexists _; iexact H8
      iintro ⟨H0, H1, H2, H3, H4, H5, H6, H7, H8, HS, HQ⟩
      iframe HS HQ HR Hg
      iframe Ho H0 H1 H2 H3 H4 H5 H6 H7
      iexact H8
    · have hc1 : ¬cond2_1 (grid2.coords t) := fun h => h1 ((hcond2_1 t).mp h)
      rw [Dat.leavesExact_idle (dat2 V c) 7 t (idleAt2_7 t hc1) (noFlush2_7 t hc1),
        Dat.leavesExact_idle (dat2 V c) 8 t (idleAt2_8 t hc1) (noFlush2_8 t hc1)]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_B c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) hc0 hc1 _ _ _ _ _)
      iframe H0 H1 H2 H3 H4 H5 H7 H8 HS HQ
      isplitl [H6]; · iexists _; iexact H6
      iintro ⟨H0, H1, H2, H3, H4, H5, H6, H7, H8, HS, HQ⟩
      iframe HS HQ HR Hg
      iframe Ho H0 H1 H2 H3 H4 H5 H6
      isplitl [H7]; · iexists _; iexact H7
      iexists _; iexact H8

theorem body_obligation2 (c : Dev nD) : BodyObligation (dat2 (F := F) V c) (defs₀ (F := F)) Variants.none () Set.univ := fun t => by
  rw [bigSep_W2, bigSep_W2]
  exact sound_body2 V c t

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 25 := N_2; omega), PhiA2_eq]
  iintro ⟨HS, HQ, HR, Hg⟩
  isplitl [HS HQ HR]
  · isplitl [HS HQ]
    · isplitl [HS]; · iexists _; iexact HS
      iexists _; iexact HQ
    iexact HR
  iexact Hg

end Cert.Kernel.Gen

end
-- ==== Proof.SameBodyW.lean ====
-- The second and third perceptron regions run one body, and so do the first two normalisation regions.
import proofs.«420740_j41515153883619_1_alg».proof.Proof.Gen.Kernel.Skeleton

noncomputable section

namespace Cert.Kernel.Gen

open Idealize.ShloMosaic Idealize.SL.Sem

variable {F : FTy → Type} [FloatOps F]

theorem cc4_eq_cc2 : cc4__mlp_kernel (F := F) = cc2__mlp_kernel (F := F) := rfl

theorem cc3_eq_cc1 : cc3__bn_kernel (F := F) = cc1__bn_kernel (F := F) := rfl

end Cert.Kernel.Gen

end
-- ==== Proof.Mlp4FrameW.lean ====
-- The third perceptron region runs the same body as the second: the second region's three body triples are used here unchanged.
import proofs.«420740_j41515153883619_1_alg».proof.Proof.Mlp4DataW
import Idealize.ShloMosaic.Lib.Pipeline.Value
import proofs.«420740_j41515153883619_1_alg».proof.Proof.Mlp2FrameW
import proofs.«420740_j41515153883619_1_alg».proof.Proof.SameBodyW

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop :=
  (Scalar.cmpi .ne (Scalar.extui (Scalar.cmpi .eq (BitVec.ofNat 32 (i 0).val) 0#32)) 0#32) = 1#1

theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1

theorem hcond4_1 : ∀ t : Fin cfg4.N, cond4_1 (grid4.coords t) ↔ t.val = 24 :=
  (by decide +kernel : ∀ t : Fin grid4.N, cond4_1 (grid4.coords t) ↔ t.val = 24)

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

theorem before4_4 (c : Dev nD) (t : Fin cfg4.N) (d) : (dat4 V c).before 4 t d = iblk4 V c 4 t :=
  ((dat4 V c).before_in_eq_fetched 4 rfl (fun _ => rfl) (fun _ _ _ => rfl)
    (fun t => by rw [after4_4]; unfold Dat.blockOf iblk4; rw [A_eq4]; try rfl) t d).trans
    (by unfold Dat.fetched Dat.blockOf iblk4; rw [A_eq4]; try rfl)

theorem before4_5 (c : Dev nD) (t : Fin cfg4.N) (d) : (dat4 V c).before 5 t d = iblk4 V c 5 t :=
  ((dat4 V c).before_in_eq_fetched 5 rfl (fun _ => rfl) (fun _ _ _ => rfl)
    (fun t => by rw [after4_5]; unfold Dat.blockOf iblk4; rw [A_eq4]; try rfl) t d).trans
    (by unfold Dat.fetched Dat.blockOf iblk4; rw [A_eq4]; try rfl)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel

theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem idleAt4_8 : ∀ t : Fin cfg4.N, ¬cond4_1 (grid4.coords t) → cfg4.idle 8 (grid4.coords t) = true := by decide +kernel
theorem noFlush4_8 : ∀ t : Fin cfg4.N, ¬cond4_1 (grid4.coords t) → (cfg4.win 8).flush t = false := by decide +kernel

theorem liveAt4_7 : ∀ t : Fin cfg4.N, cond4_1 (grid4.coords t) → cfg4.idle 7 (grid4.coords t) = false := by decide +kernel
theorem liveAt4_8 : ∀ t : Fin cfg4.N, cond4_1 (grid4.coords t) → cfg4.idle 8 (grid4.coords t) = false := by decide +kernel

theorem sc4_first_fst (c : Dev nD) (t : Fin cfg4.N) (h : t.val = 0) :
    (sc4 V c t.val t.isLt).1 = accS2 (k2_pay3 (F := F)) (iblk4 V c 0 t) (iblk4 V c 1 t) (iblk4 V c 2 t) (iblk4 V c 3 t) (iblk4 V c 4 t) (iblk4 V c 5 t) := by
  rw [sc4_first V c t h]

theorem sc4_first_snd (c : Dev nD) (t : Fin cfg4.N) (h : t.val = 0) :
    (sc4 V c t.val t.isLt).2 = accQ2 (k2_pay4 (F := F)) (iblk4 V c 0 t) (iblk4 V c 1 t) (iblk4 V c 2 t) (iblk4 V c 3 t) (iblk4 V c 4 t) (iblk4 V c 5 t) := by
  rw [sc4_first V c t h]

theorem sc4_later_fst (c : Dev nD) (t : Fin cfg4.N) (h : t.val ≠ 0) :
    (sc4 V c t.val t.isLt).1 = accS2 (sc4 V c (t.val - 1) (Nat.lt_of_le_of_lt (Nat.sub_le _ _) t.isLt)).1 (iblk4 V c 0 t) (iblk4 V c 1 t) (iblk4 V c 2 t) (iblk4 V c 3 t) (iblk4 V c 4 t) (iblk4 V c 5 t) := by
  rw [sc4_later V c t h]

theorem sc4_later_snd (c : Dev nD) (t : Fin cfg4.N) (h : t.val ≠ 0) :
    (sc4 V c t.val t.isLt).2 = accQ2 (sc4 V c (t.val - 1) (Nat.lt_of_le_of_lt (Nat.sub_le _ _) t.isLt)).2 (iblk4 V c 0 t) (iblk4 V c 1 t) (iblk4 V c 2 t) (iblk4 V c 3 t) (iblk4 V c 4 t) (iblk4 V c 5 t) := by
  rw [sc4_later V c t h]

theorem PhiA4_eq (c : Dev nD) :
    (Pipeline.ΦA spec4 c : sProp 𝕄)
      = iprop((((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_eq_cc2]
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  rw [show (dat4 V c).leavesExact 5 t = owns (c : Thread nD τ) (st4_5 t) fullShare ((dat4 V c).after 5 t) from by
    unfold Dat.leavesExact; rw [liveAt4_5 t], after4_5]
  rw [show (dat4 V c).leavesExact 6 t = owns (c : Thread nD τ) (st4_6 t) fullShare ((dat4 V c).after 6 t) from by
    unfold Dat.leavesExact; rw [liveAt4_6 t], after4_6]
  have hN : t.val < 25 := lt_of_lt_of_eq t.isLt (show cfg4.N = 25 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 7 t (idleAt4_7 t hc1) (noFlush4_7 t hc1),
      Dat.leavesExact_idle (dat4 V c) 8 t (idleAt4_8 t hc1) (noFlush4_8 t hc1)]
    rw [sc4_first_fst V c t h0, sc4_first_snd V c t h0]
    rw [Phi4_castSucc V c t, PhiS4_zero V c _ _ h0, PhiA4_eq]
    iintro ⟨⟨⟨⟨⟨%ds, HS⟩, ⟨%dq, HQ⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernel2_A c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) hc0 hc1 _ _ _)
    iframe H0 H1 H2 H3 H4 H5 H7 H8
    isplitl [H6]; · iexists _; iexact H6
    isplitl [HS]; · iexists _; iexact HS
    isplitl [HQ]; · iexists _; iexact HQ
    iintro ⟨H0, H1, H2, H3, H4, H5, H6, H7, H8, HS, HQ⟩
    iframe HS HQ HR Hg
    iframe Ho H0 H1 H2 H3 H4 H5 H6
    isplitl [H7]; · iexists _; iexact H7
    iexists _; iexact H8
  · have hc0 : ¬cond4_0 (grid4.coords t) := fun h => h0 ((hcond4_0 t).mp h)
    rw [sc4_later_fst V c t h0, sc4_later_snd V c t h0]
    rw [Phi4_castSucc V c t, PhiS4_pos V c _ _ h0]
    by_cases h1 : t.val = 24
    · have hc1 : cond4_1 (grid4.coords t) := (hcond4_1 t).mpr h1
      rw [show (dat4 V c).leavesExact 7 t = owns (c : Thread nD τ) (st4_7 t) fullShare ((dat4 V c).after 7 t) from by
        unfold Dat.leavesExact; rw [liveAt4_7 t hc1], after4_7]
      rw [show (dat4 V c).leavesExact 8 t = owns (c : Thread nD τ) (st4_8 t) fullShare ((dat4 V c).after 8 t) from by
        unfold Dat.leavesExact; rw [liveAt4_8 t hc1], after4_8]
      rw [sc4_later_fst V c t h0, sc4_later_snd V c t h0]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_C c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) hc0 hc1 _ _ _)
      iframe H0 H1 H2 H3 H4 H5 HS HQ
      isplitl [H6]; · iexists _; iexact H6
      isplitl [H7]; · iexists _; iexact H7
      isplitl [H8]; · iexists _; iexact H8
      iintro ⟨H0, H1, H2, H3, H4, H5, H6, H7, H8, HS, HQ⟩
      iframe HS HQ HR Hg
      iframe Ho H0 H1 H2 H3 H4 H5 H6 H7
      iexact H8
    · have hc1 : ¬cond4_1 (grid4.coords t) := fun h => h1 ((hcond4_1 t).mp h)
      rw [Dat.leavesExact_idle (dat4 V c) 7 t (idleAt4_7 t hc1) (noFlush4_7 t hc1),
        Dat.leavesExact_idle (dat4 V c) 8 t (idleAt4_8 t hc1) (noFlush4_8 t hc1)]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_B c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) hc0 hc1 _ _ _ _ _)
      iframe H0 H1 H2 H3 H4 H5 H7 H8 HS HQ
      isplitl [H6]; · iexists _; iexact H6
      iintro ⟨H0, H1, H2, H3, H4, H5, H6, H7, H8, HS, HQ⟩
      iframe HS HQ HR Hg
      iframe Ho H0 H1 H2 H3 H4 H5 H6
      isplitl [H7]; · iexists _; iexact H7
      iexists _; iexact H8

theorem body_obligation4 (c : Dev nD) : BodyObligation (dat4 (F := F) V c) (defs₀ (F := F)) Variants.none () Set.univ := fun t => by
  rw [bigSep_W4, bigSep_W4]
  exact sound_body4 V c t

theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 25 := N_4; omega), PhiA4_eq]
  iintro ⟨HS, HQ, HR, Hg⟩
  isplitl [HS HQ HR]
  · isplitl [HS HQ]
    · isplitl [HS]; · iexists _; iexact HS
      iexists _; iexact HQ
    iexact HR
  iexact Hg

end Cert.Kernel.Gen

end
-- ==== Proof.Bn1FrameW.lean ====
import proofs.«420740_j41515153883619_1_alg».proof.Proof.Gen.Kernel.Launch
import proofs.«420740_j41515153883619_1_alg».proof.Proof.Gen.Kernel.Skeleton
import proofs.«420740_j41515153883619_1_alg».proof.Proof.Gen.Kernel.Points
import proofs.«420740_j41515153883619_1_alg».proof.Proof.Bn1DataW
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0

theorem zero_offsets1 : (![0, 0] : Fin 2 → Nat) = fun _ => 0 := funext fun a => by fin_cases a <;> rfl

def out1_3 (x0 : Vec F S2000x128 .f32) (x1 : Vec F S1x128 .f32) (x2 : Vec F S1x128 .f32) : Vec F S2000x128 .f32 :=
  View.canon [⟨r1_0, k1_pay1 (View.ld x0 r1_0) (View.ld x1 r1_1) (View.ld x2 r1_1)⟩]

theorem out1_3_eq (x0 : Vec F S2000x128 .f32) (x1 : Vec F S1x128 .f32) (x2 : Vec F S1x128 .f32) :
    out1_3 x0 x1 x2 = k1_pay1 x0 x1 x2 := by
  unfold out1_3
  rw [View.canon_unit_zero zero_offsets1]
  simp only [View.ld_unit_zero (S := S2000x128) zero_offsets1, View.ld_unit_zero (S := S1x128) zero_offsets1]

theorem cover1_3 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

set_option maxHeartbeats 1000000 in
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bn_kernel i arg1 harg1 arg2 harg2 arg3 harg3 arg4 harg4) K := by
  simp only [cc1__bn_kernel_eq_skeleton]; unfold cc1__bn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, ← out1_3_eq]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  iframe H0 H1 H2
  isplitl [H3]; · iexists _; iexact H3
  iintro ⟨H0, H1, H2, H3⟩
  iframe HΦ Ho H0 H1 H2
  iexact H3

theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.Bn3FrameW.lean ====
-- The second normalisation region runs the same body as the first: the first region's body triple is used here unchanged.
import proofs.«420740_j41515153883619_1_alg».proof.Proof.Gen.Kernel.Launch
import proofs.«420740_j41515153883619_1_alg».proof.Proof.Gen.Kernel.Skeleton
import proofs.«420740_j41515153883619_1_alg».proof.Proof.Gen.Kernel.Points
import proofs.«420740_j41515153883619_1_alg».proof.Proof.Bn3DataW
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«420740_j41515153883619_1_alg».proof.Proof.Bn1FrameW
import proofs.«420740_j41515153883619_1_alg».proof.Proof.SameBodyW

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq_cc1]
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, ← out1_3_eq]
  iintro ⟨HΦ, Ho, ⟨%d0, H0⟩, ⟨%d1, H1⟩, ⟨%d2, H2⟩, ⟨%d3, H3⟩⟩
  iapply (sound_kernel1 c Set.univ (grid3.coords t) _ _ _ _ _ _ _ _ (iblk3 V c 0 t) (iblk3 V c 1 t) (iblk3 V c 2 t) _)
  iframe H0 H1 H2
  isplitl [H3]; · iexists _; iexact H3
  iintro ⟨H0, H1, H2, H3⟩
  iframe HΦ Ho H0 H1 H2
  iexact H3

theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.Bn5FrameW.lean ====
import proofs.«420740_j41515153883619_1_alg».proof.Proof.Gen.Kernel.Launch
import proofs.«420740_j41515153883619_1_alg».proof.Proof.Gen.Kernel.Skeleton
import proofs.«420740_j41515153883619_1_alg».proof.Proof.Gen.Kernel.Points
import proofs.«420740_j41515153883619_1_alg».proof.Proof.Bn5DataW
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0

theorem zero_offsets5 : (![0, 0] : Fin 2 → Nat) = fun _ => 0 := funext fun a => by fin_cases a <;> rfl

def out5_3 (x0 : Vec F S2000x128 .f32) (x1 : Vec F S1x128 .f32) (x2 : Vec F S1x128 .f32) : Vec F S2000x128 .f32 :=
  View.canon [⟨r5_0, k5_pay1 (View.ld x0 r5_0) (View.ld x1 r5_1) (View.ld x2 r5_1)⟩]

theorem out5_3_eq (x0 : Vec F S2000x128 .f32) (x1 : Vec F S1x128 .f32) (x2 : Vec F S1x128 .f32) :
    out5_3 x0 x1 x2 = k5_pay1 x0 x1 x2 := by
  unfold out5_3
  rw [View.canon_unit_zero zero_offsets5]
  simp only [View.ld_unit_zero (S := S2000x128) zero_offsets5, View.ld_unit_zero (S := S1x128) zero_offsets5]

theorem cover5_3 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

set_option maxHeartbeats 1000000 in
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__bn_kernel i arg1 harg1 arg2 harg2 arg3 harg3 arg4 harg4) K := by
  simp only [cc5__bn_kernel_eq_skeleton]; unfold cc5__bn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, ← out5_3_eq]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  iframe H0 H1 H2
  isplitl [H3]; · iexists _; iexact H3
  iintro ⟨H0, H1, H2, H3⟩
  iframe HΦ Ho H0 H1 H2
  iexact H3

theorem body_obligation5 (c : Dev nD) : BodyObligation (dat5 (F := F) V c) (defs₀ (F := F)) Variants.none () Set.univ := fun t => by
  rw [bigSep_W5, bigSep_W5]
  exact sound_body5 V c t

end Cert.Kernel.Gen

end
-- ==== Proof.Mlp0Data.lean ====
import proofs.«420740_j41515153883619_1_alg».proof.Proof.Gen.KernelIdeal.Launch
import proofs.«420740_j41515153883619_1_alg».proof.Proof.Gen.KernelIdeal.Skeleton
import proofs.«420740_j41515153883619_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev scM0_0 : Memref sig .tc .vmem S1x128 .f32 := Memref.whole cc0_scratch0
abbrev scM0_1 : Memref sig .tc .vmem S1x128 .f32 := Memref.whole cc0_scratch1

def accS0 (s : Vec F S1x128 .f32) (x0 x1 : Vec F S2000x128 .f32) (x2 : Vec F S128x128 .f32) (x3 : Vec F S1x128 .f32)
    (x4 : Vec F S128x128 .f32) (x5 : Vec F S1x128 .f32) : Vec F S1x128 .f32 :=
  k0_pay1 (k0_pay6 x0 x1 x2 x3 x4 x5 s)

def accQ0 (q : Vec F S1x128 .f32) (x0 x1 : Vec F S2000x128 .f32) (x2 : Vec F S128x128 .f32) (x3 : Vec F S1x128 .f32)
    (x4 : Vec F S128x128 .f32) (x5 : Vec F S1x128 .f32) : Vec F S1x128 .f32 :=
  k0_pay2 (k0_pay5 x0 x1 x2 x3 x4 x5) q

def sc0 (c : Dev nD) : (n : ℕ) → n < cfg0.N → Vec F S1x128 .f32 × Vec F S1x128 .f32
  | 0, hn => (accS0 (k0_pay3 (F := F)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      accQ0 (k0_pay4 (F := F)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn => (accS0 (sc0 c n (Nat.lt_of_succ_lt hn)).1 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
      accQ0 (sc0 c n (Nat.lt_of_succ_lt hn)).2 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))

theorem sc0_first (c : Dev nD) (t : Fin cfg0.N) (h : t.val = 0) :
    sc0 V c t.val t.isLt = (accS0 (k0_pay3 (F := F)) (iblk0 V c 0 t) (iblk0 V c 1 t) (iblk0 V c 2 t) (iblk0 V c 3 t) (iblk0 V c 4 t) (iblk0 V c 5 t),
      accQ0 (k0_pay4 (F := F)) (iblk0 V c 0 t) (iblk0 V c 1 t) (iblk0 V c 2 t) (iblk0 V c 3 t) (iblk0 V c 4 t) (iblk0 V c 5 t)) := by
  obtain ⟨n, hn⟩ := t
  cases n with
  | zero => rfl
  | succ n => exact absurd h (Nat.succ_ne_zero n)

theorem sc0_later (c : Dev nD) (t : Fin cfg0.N) (h : t.val ≠ 0) :
    sc0 V c t.val t.isLt = (accS0 (sc0 V c (t.val - 1) (Nat.lt_of_le_of_lt (Nat.sub_le _ _) t.isLt)).1 (iblk0 V c 0 t) (iblk0 V c 1 t) (iblk0 V c 2 t) (iblk0 V c 3 t) (iblk0 V c 4 t) (iblk0 V c 5 t),
      accQ0 (sc0 V c (t.val - 1) (Nat.lt_of_le_of_lt (Nat.sub_le _ _) t.isLt)).2 (iblk0 V c 0 t) (iblk0 V c 1 t) (iblk0 V c 2 t) (iblk0 V c 3 t) (iblk0 V c 4 t) (iblk0 V c 5 t)) := by
  obtain ⟨n, hn⟩ := t
  cases n with
  | zero => exact absurd rfl h
  | succ n => rfl

def PhiS0 (c : Dev nD) : (n : ℕ) → n ≤ cfg0.N → sProp 𝕄
  | 0, _ => Pipeline.ΦA spec0 c
  | n + 1, hn => iprop(owns (c : Thread nD τ) scM0_0 fullShare (sc0 V c n hn).1 ∗ owns (c : Thread nD τ) scM0_1 fullShare (sc0 V c n hn).2
      ∗ Pipeline.scopedRestBut (Ix := Unit) (Name := ℕ) (U := UR sig nD τ) (Lvl := ℕ) (Val := Elt F) spec0 c [cc0_scratch0, cc0_scratch1]
      ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (sc0 V c n hn).1 ∗ owns (c : Thread nD τ) scM0_1 fullShare (sc0 V c n hn).2
      ∗ Pipeline.scopedRestBut (Ix := Unit) (Name := ℕ) (U := UR sig nD τ) (Lvl := ℕ) (Val := Elt F) spec0 c [cc0_scratch0, cc0_scratch1]
      ∗ (∃ r, prngReg c r)) := rfl

theorem PhiS0_pos (c : Dev nD) (n : ℕ) (h : n ≤ cfg0.N) (hz : n ≠ 0) :
    PhiS0 V c n h = iprop(owns (c : Thread nD τ) scM0_0 fullShare (sc0 V c (n - 1) (by omega)).1 ∗ owns (c : Thread nD τ) scM0_1 fullShare (sc0 V c (n - 1) (by omega)).2
      ∗ Pipeline.scopedRestBut (Ix := Unit) (Name := ℕ) (U := UR sig nD τ) (Lvl := ℕ) (Val := Elt F) spec0 c [cc0_scratch0, cc0_scratch1]
      ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay5 (iblk0 V c 0 t) (iblk0 V c 1 t) (iblk0 V c 2 t) (iblk0 V c 3 t) (iblk0 V c 4 t) (iblk0 V c 5 t)
    | ⟨7, _⟩ => (sc0 V c t.val t.isLt).1
    | ⟨8, _⟩ => (sc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = k0_pay5 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = (sc0 V c t.val t.isLt).1 := by dsimp only [dat0]
theorem after0_8 (c : Dev nD) (t : Fin cfg0.N) : (dat0 V c).after 8 t = (sc0 V c t.val t.isLt).2 := by dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

end Cert.KernelIdeal.Gen

end
-- ==== Proof.Bn1Data.lean ====
import proofs.«420740_j41515153883619_1_alg».proof.Proof.Gen.KernelIdeal.Launch
import proofs.«420740_j41515153883619_1_alg».proof.Proof.Gen.KernelIdeal.Skeleton
import proofs.«420740_j41515153883619_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

theorem hout1 (c : Dev nD) : (dat1 V c).Φ (Fin.last cfg1.N) ⊢ Pipeline.ΦA spec1 c := .rfl

end Cert.KernelIdeal.Gen

end
-- ==== Proof.Mlp2Data.lean ====
import proofs.«420740_j41515153883619_1_alg».proof.Proof.Gen.KernelIdeal.Launch
import proofs.«420740_j41515153883619_1_alg».proof.Proof.Gen.KernelIdeal.Skeleton
import proofs.«420740_j41515153883619_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2_0 : Memref sig .tc .vmem S1x128 .f32 := Memref.whole cc2_scratch0
abbrev scM2_1 : Memref sig .tc .vmem S1x128 .f32 := Memref.whole cc2_scratch1

def accS2 (s : Vec F S1x128 .f32) (x0 x1 : Vec F S2000x128 .f32) (x2 : Vec F S128x128 .f32) (x3 : Vec F S1x128 .f32)
    (x4 : Vec F S128x128 .f32) (x5 : Vec F S1x128 .f32) : Vec F S1x128 .f32 :=
  k2_pay1 (k2_pay6 x0 x1 x2 x3 x4 x5 s)

def accQ2 (q : Vec F S1x128 .f32) (x0 x1 : Vec F S2000x128 .f32) (x2 : Vec F S128x128 .f32) (x3 : Vec F S1x128 .f32)
    (x4 : Vec F S128x128 .f32) (x5 : Vec F S1x128 .f32) : Vec F S1x128 .f32 :=
  k2_pay2 (k2_pay5 x0 x1 x2 x3 x4 x5) q

def sc2 (c : Dev nD) : (n : ℕ) → n < cfg2.N → Vec F S1x128 .f32 × Vec F S1x128 .f32
  | 0, hn => (accS2 (k2_pay3 (F := F)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      accQ2 (k2_pay4 (F := F)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn => (accS2 (sc2 c n (Nat.lt_of_succ_lt hn)).1 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
      accQ2 (sc2 c n (Nat.lt_of_succ_lt hn)).2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))

theorem sc2_first (c : Dev nD) (t : Fin cfg2.N) (h : t.val = 0) :
    sc2 V c t.val t.isLt = (accS2 (k2_pay3 (F := F)) (iblk2 V c 0 t) (iblk2 V c 1 t) (iblk2 V c 2 t) (iblk2 V c 3 t) (iblk2 V c 4 t) (iblk2 V c 5 t),
      accQ2 (k2_pay4 (F := F)) (iblk2 V c 0 t) (iblk2 V c 1 t) (iblk2 V c 2 t) (iblk2 V c 3 t) (iblk2 V c 4 t) (iblk2 V c 5 t)) := by
  obtain ⟨n, hn⟩ := t
  cases n with
  | zero => rfl
  | succ n => exact absurd h (Nat.succ_ne_zero n)

theorem sc2_later (c : Dev nD) (t : Fin cfg2.N) (h : t.val ≠ 0) :
    sc2 V c t.val t.isLt = (accS2 (sc2 V c (t.val - 1) (Nat.lt_of_le_of_lt (Nat.sub_le _ _) t.isLt)).1 (iblk2 V c 0 t) (iblk2 V c 1 t) (iblk2 V c 2 t) (iblk2 V c 3 t) (iblk2 V c 4 t) (iblk2 V c 5 t),
      accQ2 (sc2 V c (t.val - 1) (Nat.lt_of_le_of_lt (Nat.sub_le _ _) t.isLt)).2 (iblk2 V c 0 t) (iblk2 V c 1 t) (iblk2 V c 2 t) (iblk2 V c 3 t) (iblk2 V c 4 t) (iblk2 V c 5 t)) := by
  obtain ⟨n, hn⟩ := t
  cases n with
  | zero => exact absurd rfl h
  | succ n => rfl

def PhiS2 (c : Dev nD) : (n : ℕ) → n ≤ cfg2.N → sProp 𝕄
  | 0, _ => Pipeline.ΦA spec2 c
  | n + 1, hn => iprop(owns (c : Thread nD τ) scM2_0 fullShare (sc2 V c n hn).1 ∗ owns (c : Thread nD τ) scM2_1 fullShare (sc2 V c n hn).2
      ∗ Pipeline.scopedRestBut (Ix := Unit) (Name := ℕ) (U := UR sig nD τ) (Lvl := ℕ) (Val := Elt F) spec2 c [cc2_scratch0, cc2_scratch1]
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare (sc2 V c n hn).1 ∗ owns (c : Thread nD τ) scM2_1 fullShare (sc2 V c n hn).2
      ∗ Pipeline.scopedRestBut (Ix := Unit) (Name := ℕ) (U := UR sig nD τ) (Lvl := ℕ) (Val := Elt F) spec2 c [cc2_scratch0, cc2_scratch1]
      ∗ (∃ r, prngReg c r)) := rfl

theorem PhiS2_pos (c : Dev nD) (n : ℕ) (h : n ≤ cfg2.N) (hz : n ≠ 0) :
    PhiS2 V c n h = iprop(owns (c : Thread nD τ) scM2_0 fullShare (sc2 V c (n - 1) (by omega)).1 ∗ owns (c : Thread nD τ) scM2_1 fullShare (sc2 V c (n - 1) (by omega)).2
      ∗ Pipeline.scopedRestBut (Ix := Unit) (Name := ℕ) (U := UR sig nD τ) (Lvl := ℕ) (Val := Elt F) spec2 c [cc2_scratch0, cc2_scratch1]
      ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay5 (iblk2 V c 0 t) (iblk2 V c 1 t) (iblk2 V c 2 t) (iblk2 V c 3 t) (iblk2 V c 4 t) (iblk2 V c 5 t)
    | ⟨7, _⟩ => (sc2 V c t.val t.isLt).1
    | ⟨8, _⟩ => (sc2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = k2_pay5 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = (sc2 V c t.val t.isLt).1 := by dsimp only [dat2]
theorem after2_8 (c : Dev nD) (t : Fin cfg2.N) : (dat2 V c).after 8 t = (sc2 V c t.val t.isLt).2 := by dsimp only [dat2]

theorem Phi2_castSucc (c : Dev nD) (t : Fin cfg2.N) :
    (dat2 V c).Φ t.castSucc = PhiS2 V c t.val (Nat.le_of_lt t.isLt) := by
  dsimp only [dat2]; simp only [Fin.coe_castSucc]

end Cert.KernelIdeal.Gen

end
-- ==== Proof.Bn3Data.lean ====
import proofs.«420740_j41515153883619_1_alg».proof.Proof.Gen.KernelIdeal.Launch
import proofs.«420740_j41515153883619_1_alg».proof.Proof.Gen.KernelIdeal.Skeleton
import proofs.«420740_j41515153883619_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k1_pay1 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k1_pay1 (iblk3 V c 0 t) (iblk3 V c 1 t) (iblk3 V c 2 t) := by dsimp only [dat3]

theorem hout3 (c : Dev nD) : (dat3 V c).Φ (Fin.last cfg3.N) ⊢ Pipeline.ΦA spec3 c := .rfl

end Cert.KernelIdeal.Gen

end
-- ==== Proof.Mlp4Data.lean ====
import proofs.«420740_j41515153883619_1_alg».proof.Proof.Gen.KernelIdeal.Launch
import proofs.«420740_j41515153883619_1_alg».proof.Proof.Gen.KernelIdeal.Skeleton
import proofs.«420740_j41515153883619_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«420740_j41515153883619_1_alg».proof.Proof.Mlp2Data

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4_0 : Memref sig .tc .vmem S1x128 .f32 := Memref.whole cc4_scratch0
abbrev scM4_1 : Memref sig .tc .vmem S1x128 .f32 := Memref.whole cc4_scratch1

def sc4 (c : Dev nD) : (n : ℕ) → n < cfg4.N → Vec F S1x128 .f32 × Vec F S1x128 .f32
  | 0, hn => (accS2 (k2_pay3 (F := F)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      accQ2 (k2_pay4 (F := F)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn => (accS2 (sc4 c n (Nat.lt_of_succ_lt hn)).1 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩),
      accQ2 (sc4 c n (Nat.lt_of_succ_lt hn)).2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))

theorem sc4_first (c : Dev nD) (t : Fin cfg4.N) (h : t.val = 0) :
    sc4 V c t.val t.isLt = (accS2 (k2_pay3 (F := F)) (iblk4 V c 0 t) (iblk4 V c 1 t) (iblk4 V c 2 t) (iblk4 V c 3 t) (iblk4 V c 4 t) (iblk4 V c 5 t),
      accQ2 (k2_pay4 (F := F)) (iblk4 V c 0 t) (iblk4 V c 1 t) (iblk4 V c 2 t) (iblk4 V c 3 t) (iblk4 V c 4 t) (iblk4 V c 5 t)) := by
  obtain ⟨n, hn⟩ := t
  cases n with
  | zero => rfl
  | succ n => exact absurd h (Nat.succ_ne_zero n)

theorem sc4_later (c : Dev nD) (t : Fin cfg4.N) (h : t.val ≠ 0) :
    sc4 V c t.val t.isLt = (accS2 (sc4 V c (t.val - 1) (Nat.lt_of_le_of_lt (Nat.sub_le _ _) t.isLt)).1 (iblk4 V c 0 t) (iblk4 V c 1 t) (iblk4 V c 2 t) (iblk4 V c 3 t) (iblk4 V c 4 t) (iblk4 V c 5 t),
      accQ2 (sc4 V c (t.val - 1) (Nat.lt_of_le_of_lt (Nat.sub_le _ _) t.isLt)).2 (iblk4 V c 0 t) (iblk4 V c 1 t) (iblk4 V c 2 t) (iblk4 V c 3 t) (iblk4 V c 4 t) (iblk4 V c 5 t)) := by
  obtain ⟨n, hn⟩ := t
  cases n with
  | zero => exact absurd rfl h
  | succ n => rfl

def PhiS4 (c : Dev nD) : (n : ℕ) → n ≤ cfg4.N → sProp 𝕄
  | 0, _ => Pipeline.ΦA spec4 c
  | n + 1, hn => iprop(owns (c : Thread nD τ) scM4_0 fullShare (sc4 V c n hn).1 ∗ owns (c : Thread nD τ) scM4_1 fullShare (sc4 V c n hn).2
      ∗ Pipeline.scopedRestBut (Ix := Unit) (Name := ℕ) (U := UR sig nD τ) (Lvl := ℕ) (Val := Elt F) spec4 c [cc4_scratch0, cc4_scratch1]
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(owns (c : Thread nD τ) scM4_0 fullShare (sc4 V c n hn).1 ∗ owns (c : Thread nD τ) scM4_1 fullShare (sc4 V c n hn).2
      ∗ Pipeline.scopedRestBut (Ix := Unit) (Name := ℕ) (U := UR sig nD τ) (Lvl := ℕ) (Val := Elt F) spec4 c [cc4_scratch0, cc4_scratch1]
      ∗ (∃ r, prngReg c r)) := rfl

theorem PhiS4_pos (c : Dev nD) (n : ℕ) (h : n ≤ cfg4.N) (hz : n ≠ 0) :
    PhiS4 V c n h = iprop(owns (c : Thread nD τ) scM4_0 fullShare (sc4 V c (n - 1) (by omega)).1 ∗ owns (c : Thread nD τ) scM4_1 fullShare (sc4 V c (n - 1) (by omega)).2
      ∗ Pipeline.scopedRestBut (Ix := Unit) (Name := ℕ) (U := UR sig nD τ) (Lvl := ℕ) (Val := Elt F) spec4 c [cc4_scratch0, cc4_scratch1]
      ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => k2_pay5 (iblk4 V c 0 t) (iblk4 V c 1 t) (iblk4 V c 2 t) (iblk4 V c 3 t) (iblk4 V c 4 t) (iblk4 V c 5 t)
    | ⟨7, _⟩ => (sc4 V c t.val t.isLt).1
    | ⟨8, _⟩ => (sc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) :
    (dat4 V c).after 6 t = k2_pay5 (iblk4 V c 0 t) (iblk4 V c 1 t) (iblk4 V c 2 t) (iblk4 V c 3 t) (iblk4 V c 4 t) (iblk4 V c 5 t) := by dsimp only [dat4]
theorem after4_7 (c : Dev nD) (t : Fin cfg4.N) : (dat4 V c).after 7 t = (sc4 V c t.val t.isLt).1 := by dsimp only [dat4]
theorem after4_8 (c : Dev nD) (t : Fin cfg4.N) : (dat4 V c).after 8 t = (sc4 V c t.val t.isLt).2 := by dsimp only [dat4]

theorem Phi4_castSucc (c : Dev nD) (t : Fin cfg4.N) :
    (dat4 V c).Φ t.castSucc = PhiS4 V c t.val (Nat.le_of_lt t.isLt) := by
  dsimp only [dat4]; simp only [Fin.coe_castSucc]

end Cert.KernelIdeal.Gen

end
-- ==== Proof.Bn5Data.lean ====
import proofs.«420740_j41515153883619_1_alg».proof.Proof.Gen.KernelIdeal.Launch
import proofs.«420740_j41515153883619_1_alg».proof.Proof.Gen.KernelIdeal.Skeleton
import proofs.«420740_j41515153883619_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay1 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = k5_pay1 (iblk5 V c 0 t) (iblk5 V c 1 t) (iblk5 V c 2 t) := by dsimp only [dat5]

theorem hout5 (c : Dev nD) : (dat5 V c).Φ (Fin.last cfg5.N) ⊢ Pipeline.ΦA spec5 c := .rfl

end Cert.KernelIdeal.Gen

end
-- ==== Proof.RunK.lean ====
import proofs.«420740_j41515153883619_1_alg».proof.Proof.Gen.KernelIdeal.Regions
import proofs.«420740_j41515153883619_1_alg».proof.Proof.Mlp0Data
import proofs.«420740_j41515153883619_1_alg».proof.Proof.Bn1Data
import proofs.«420740_j41515153883619_1_alg».proof.Proof.Mlp2Data
import proofs.«420740_j41515153883619_1_alg».proof.Proof.Bn3Data
import proofs.«420740_j41515153883619_1_alg».proof.Proof.Mlp4Data
import proofs.«420740_j41515153883619_1_alg».proof.Proof.Bn5Data

set_option maxRecDepth 16384
set_option Elab.async false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

def X3 (c : Dev nD) : Valuation τ sig (Elt F) := V3 m c

def X4 (c : Dev nD) : Valuation τ sig (Elt F) :=
  Function.update (Function.update (Function.update (X3 m c) main_v18_0 ((dat0 (fun c b => X3 m c b) c).arrAt 6 cfg0.N)) main_v18_1 ((dat0 (fun c b => X3 m c b) c).arrAt 7 cfg0.N)) main_v18_2 ((dat0 (fun c b => X3 m c b) c).arrAt 8 cfg0.N)

def X5 (c : Dev nD) : Valuation τ sig (Elt F) := StableHlo.after hostOps1 (X4 m c)

def X6 (c : Dev nD) : Valuation τ sig (Elt F) :=
  Function.update (X5 m c) main_v39 ((dat1 (fun c b => X5 m c b) c).arrAt 3 cfg1.N)

def X7 (c : Dev nD) : Valuation τ sig (Elt F) := StableHlo.after hostOps2 (X6 m c)

def X8 (c : Dev nD) : Valuation τ sig (Elt F) := StableHlo.after hostOps2_1 (X7 m c)

def X9 (c : Dev nD) : Valuation τ sig (Elt F) :=
  Function.update (Function.update (Function.update (X8 m c) main_v54_0 ((dat2 (fun c b => X8 m c b) c).arrAt 6 cfg2.N)) main_v54_1 ((dat2 (fun c b => X8 m c b) c).arrAt 7 cfg2.N)) main_v54_2 ((dat2 (fun c b => X8 m c b) c).arrAt 8 cfg2.N)

def X10 (c : Dev nD) : Valuation τ sig (Elt F) := StableHlo.after hostOps3 (X9 m c)

def X11 (c : Dev nD) : Valuation τ sig (Elt F) :=
  Function.update (X10 m c) main_v75 ((dat3 (fun c b => X10 m c b) c).arrAt 3 cfg3.N)

def X12 (c : Dev nD) : Valuation τ sig (Elt F) := StableHlo.after hostOps4 (X11 m c)

def X13 (c : Dev nD) : Valuation τ sig (Elt F) := StableHlo.after hostOps4_1 (X12 m c)

def X14 (c : Dev nD) : Valuation τ sig (Elt F) :=
  Function.update (Function.update (Function.update (X13 m c) main_v90_0 ((dat4 (fun c b => X13 m c b) c).arrAt 6 cfg4.N)) main_v90_1 ((dat4 (fun c b => X13 m c b) c).arrAt 7 cfg4.N)) main_v90_2 ((dat4 (fun c b => X13 m c b) c).arrAt 8 cfg4.N)

def X15 (c : Dev nD) : Valuation τ sig (Elt F) := StableHlo.after hostOps5 (X14 m c)

def X16 (c : Dev nD) : Valuation τ sig (Elt F) :=
  Function.update (X15 m c) main_v111 ((dat5 (fun c b => X15 m c b) c).arrAt 3 cfg5.N)

def outs : Outs (F := F) := fun n r c => match n with
  | 4 => X4 m c r
  | 6 => X6 m c r
  | 9 => X9 m c r
  | 11 => X11 m c r
  | 14 => X14 m c r
  | 16 => X16 m c r
  | _ => V0 m c r

theorem X4_of (c : Dev nD) (r : Ref sig .tc) (h : r ∉ ([main_v18_0, main_v18_1, main_v18_2] : List (Ref sig .tc))) : X4 m c r = X3 m c r := by
  simp only [X4, Function.update_of_ne (StableHlo.devRef_ne_of_ne (List.ne_of_not_mem_cons h) : (Proc.devRef .tc r : DevRef τ sig) ≠ Proc.devRef .tc main_v18_0),
    Function.update_of_ne (StableHlo.devRef_ne_of_ne (List.ne_of_not_mem_cons (List.not_mem_of_not_mem_cons h)) : (Proc.devRef .tc r : DevRef τ sig) ≠ Proc.devRef .tc main_v18_1),
    Function.update_of_ne (StableHlo.devRef_ne_of_ne (List.ne_of_not_mem_cons (List.not_mem_of_not_mem_cons (List.not_mem_of_not_mem_cons h))) : (Proc.devRef .tc r : DevRef τ sig) ≠ Proc.devRef .tc main_v18_2)]

theorem X4_main_v18_0 (c : Dev nD) : X4 m c main_v18_0 = (dat0 (fun c b => X3 m c b) c).arrAt 6 cfg0.N := by
  unfold X4
  rw [Function.update_of_ne (StableHlo.devRef_ne_of_ne (by decide) : (Proc.devRef .tc main_v18_0 : DevRef τ sig) ≠ Proc.devRef .tc main_v18_2),
    Function.update_of_ne (StableHlo.devRef_ne_of_ne (by decide) : (Proc.devRef .tc main_v18_0 : DevRef τ sig) ≠ Proc.devRef .tc main_v18_1),
    Function.update_self]

theorem X4_main_v18_1 (c : Dev nD) : X4 m c main_v18_1 = (dat0 (fun c b => X3 m c b) c).arrAt 7 cfg0.N := by
  unfold X4
  rw [Function.update_of_ne (StableHlo.devRef_ne_of_ne (by decide) : (Proc.devRef .tc main_v18_1 : DevRef τ sig) ≠ Proc.devRef .tc main_v18_2),
    Function.update_self]

theorem X4_main_v18_2 (c : Dev nD) : X4 m c main_v18_2 = (dat0 (fun c b => X3 m c b) c).arrAt 8 cfg0.N := by
  unfold X4
  rw [Function.update_self]

theorem X6_of (c : Dev nD) (r : Ref sig .tc) (h : r ∉ ([main_v39] : List (Ref sig .tc))) : X6 m c r = X5 m c r := by
  simp only [X6, Function.update_of_ne (StableHlo.devRef_ne_of_ne (List.ne_of_not_mem_cons h) : (Proc.devRef .tc r : DevRef τ sig) ≠ Proc.devRef .tc main_v39)]

theorem X6_main_v39 (c : Dev nD) : X6 m c main_v39 = (dat1 (fun c b => X5 m c b) c).arrAt 3 cfg1.N := by
  unfold X6
  rw [Function.update_self]

theorem X9_of (c : Dev nD) (r : Ref sig .tc) (h : r ∉ ([main_v54_0, main_v54_1, main_v54_2] : List (Ref sig .tc))) : X9 m c r = X8 m c r := by
  simp only [X9, Function.update_of_ne (StableHlo.devRef_ne_of_ne (List.ne_of_not_mem_cons h) : (Proc.devRef .tc r : DevRef τ sig) ≠ Proc.devRef .tc main_v54_0),
    Function.update_of_ne (StableHlo.devRef_ne_of_ne (List.ne_of_not_mem_cons (List.not_mem_of_not_mem_cons h)) : (Proc.devRef .tc r : DevRef τ sig) ≠ Proc.devRef .tc main_v54_1),
    Function.update_of_ne (StableHlo.devRef_ne_of_ne (List.ne_of_not_mem_cons (List.not_mem_of_not_mem_cons (List.not_mem_of_not_mem_cons h))) : (Proc.devRef .tc r : DevRef τ sig) ≠ Proc.devRef .tc main_v54_2)]

theorem X9_main_v54_0 (c : Dev nD) : X9 m c main_v54_0 = (dat2 (fun c b => X8 m c b) c).arrAt 6 cfg2.N := by
  unfold X9
  rw [Function.update_of_ne (StableHlo.devRef_ne_of_ne (by decide) : (Proc.devRef .tc main_v54_0 : DevRef τ sig) ≠ Proc.devRef .tc main_v54_2),
    Function.update_of_ne (StableHlo.devRef_ne_of_ne (by decide) : (Proc.devRef .tc main_v54_0 : DevRef τ sig) ≠ Proc.devRef .tc main_v54_1),
    Function.update_self]

theorem X9_main_v54_1 (c : Dev nD) : X9 m c main_v54_1 = (dat2 (fun c b => X8 m c b) c).arrAt 7 cfg2.N := by
  unfold X9
  rw [Function.update_of_ne (StableHlo.devRef_ne_of_ne (by decide) : (Proc.devRef .tc main_v54_1 : DevRef τ sig) ≠ Proc.devRef .tc main_v54_2),
    Function.update_self]

theorem X9_main_v54_2 (c : Dev nD) : X9 m c main_v54_2 = (dat2 (fun c b => X8 m c b) c).arrAt 8 cfg2.N := by
  unfold X9
  rw [Function.update_self]

theorem X11_of (c : Dev nD) (r : Ref sig .tc) (h : r ∉ ([main_v75] : List (Ref sig .tc))) : X11 m c r = X10 m c r := by
  simp only [X11, Function.update_of_ne (StableHlo.devRef_ne_of_ne (List.ne_of_not_mem_cons h) : (Proc.devRef .tc r : DevRef τ sig) ≠ Proc.devRef .tc main_v75)]

theorem X11_main_v75 (c : Dev nD) : X11 m c main_v75 = (dat3 (fun c b => X10 m c b) c).arrAt 3 cfg3.N := by
  unfold X11
  rw [Function.update_self]

theorem X14_of (c : Dev nD) (r : Ref sig .tc) (h : r ∉ ([main_v90_0, main_v90_1, main_v90_2] : List (Ref sig .tc))) : X14 m c r = X13 m c r := by
  simp only [X14, Function.update_of_ne (StableHlo.devRef_ne_of_ne (List.ne_of_not_mem_cons h) : (Proc.devRef .tc r : DevRef τ sig) ≠ Proc.devRef .tc main_v90_0),
    Function.update_of_ne (StableHlo.devRef_ne_of_ne (List.ne_of_not_mem_cons (List.not_mem_of_not_mem_cons h)) : (Proc.devRef .tc r : DevRef τ sig) ≠ Proc.devRef .tc main_v90_1),
    Function.update_of_ne (StableHlo.devRef_ne_of_ne (List.ne_of_not_mem_cons (List.not_mem_of_not_mem_cons (List.not_mem_of_not_mem_cons h))) : (Proc.devRef .tc r : DevRef τ sig) ≠ Proc.devRef .tc main_v90_2)]

theorem X14_main_v90_0 (c : Dev nD) : X14 m c main_v90_0 = (dat4 (fun c b => X13 m c b) c).arrAt 6 cfg4.N := by
  unfold X14
  rw [Function.update_of_ne (StableHlo.devRef_ne_of_ne (by decide) : (Proc.devRef .tc main_v90_0 : DevRef τ sig) ≠ Proc.devRef .tc main_v90_2),
    Function.update_of_ne (StableHlo.devRef_ne_of_ne (by decide) : (Proc.devRef .tc main_v90_0 : DevRef τ sig) ≠ Proc.devRef .tc main_v90_1),
    Function.update_self]

theorem X14_main_v90_1 (c : Dev nD) : X14 m c main_v90_1 = (dat4 (fun c b => X13 m c b) c).arrAt 7 cfg4.N := by
  unfold X14
  rw [Function.update_of_ne (StableHlo.devRef_ne_of_ne (by decide) : (Proc.devRef .tc main_v90_1 : DevRef τ sig) ≠ Proc.devRef .tc main_v90_2),
    Function.update_self]

theorem X14_main_v90_2 (c : Dev nD) : X14 m c main_v90_2 = (dat4 (fun c b => X13 m c b) c).arrAt 8 cfg4.N := by
  unfold X14
  rw [Function.update_self]

theorem X16_of (c : Dev nD) (r : Ref sig .tc) (h : r ∉ ([main_v111] : List (Ref sig .tc))) : X16 m c r = X15 m c r := by
  simp only [X16, Function.update_of_ne (StableHlo.devRef_ne_of_ne (List.ne_of_not_mem_cons h) : (Proc.devRef .tc r : DevRef τ sig) ≠ Proc.devRef .tc main_v111)]

theorem X16_main_v111 (c : Dev nD) : X16 m c main_v111 = (dat5 (fun c b => X15 m c b) c).arrAt 3 cfg5.N := by
  unfold X16
  rw [Function.update_self]

theorem outs_at_4 (r : Ref sig .tc) (c : Dev nD) : outs m 4 r c = X4 m c r := rfl
theorem outs_at_6 (r : Ref sig .tc) (c : Dev nD) : outs m 6 r c = X6 m c r := rfl
theorem outs_at_9 (r : Ref sig .tc) (c : Dev nD) : outs m 9 r c = X9 m c r := rfl
theorem outs_at_11 (r : Ref sig .tc) (c : Dev nD) : outs m 11 r c = X11 m c r := rfl
theorem outs_at_14 (r : Ref sig .tc) (c : Dev nD) : outs m 14 r c = X14 m c r := rfl
theorem outs_at_16 (r : Ref sig .tc) (c : Dev nD) : outs m 16 r c = X16 m c r := rfl
theorem outs_4_0 (c : Dev nD) : outs m 4 main_v18_0 c = (dat0 (fun c b => X3 m c b) c).arrAt 6 cfg0.N :=
  (outs_at_4 m main_v18_0 c).trans (X4_main_v18_0 m c)
theorem outs_4_1 (c : Dev nD) : outs m 4 main_v18_1 c = (dat0 (fun c b => X3 m c b) c).arrAt 7 cfg0.N :=
  (outs_at_4 m main_v18_1 c).trans (X4_main_v18_1 m c)
theorem outs_4_2 (c : Dev nD) : outs m 4 main_v18_2 c = (dat0 (fun c b => X3 m c b) c).arrAt 8 cfg0.N :=
  (outs_at_4 m main_v18_2 c).trans (X4_main_v18_2 m c)
theorem outs_6 (c : Dev nD) : outs m 6 main_v39 c = (dat1 (fun c b => X5 m c b) c).arrAt 3 cfg1.N :=
  (outs_at_6 m main_v39 c).trans (X6_main_v39 m c)
theorem outs_9_0 (c : Dev nD) : outs m 9 main_v54_0 c = (dat2 (fun c b => X8 m c b) c).arrAt 6 cfg2.N :=
  (outs_at_9 m main_v54_0 c).trans (X9_main_v54_0 m c)
theorem outs_9_1 (c : Dev nD) : outs m 9 main_v54_1 c = (dat2 (fun c b => X8 m c b) c).arrAt 7 cfg2.N :=
  (outs_at_9 m main_v54_1 c).trans (X9_main_v54_1 m c)
theorem outs_9_2 (c : Dev nD) : outs m 9 main_v54_2 c = (dat2 (fun c b => X8 m c b) c).arrAt 8 cfg2.N :=
  (outs_at_9 m main_v54_2 c).trans (X9_main_v54_2 m c)
theorem outs_11 (c : Dev nD) : outs m 11 main_v75 c = (dat3 (fun c b => X10 m c b) c).arrAt 3 cfg3.N :=
  (outs_at_11 m main_v75 c).trans (X11_main_v75 m c)
theorem outs_14_0 (c : Dev nD) : outs m 14 main_v90_0 c = (dat4 (fun c b => X13 m c b) c).arrAt 6 cfg4.N :=
  (outs_at_14 m main_v90_0 c).trans (X14_main_v90_0 m c)
theorem outs_14_1 (c : Dev nD) : outs m 14 main_v90_1 c = (dat4 (fun c b => X13 m c b) c).arrAt 7 cfg4.N :=
  (outs_at_14 m main_v90_1 c).trans (X14_main_v90_1 m c)
theorem outs_14_2 (c : Dev nD) : outs m 14 main_v90_2 c = (dat4 (fun c b => X13 m c b) c).arrAt 8 cfg4.N :=
  (outs_at_14 m main_v90_2 c).trans (X14_main_v90_2 m c)
theorem outs_16 (c : Dev nD) : outs m 16 main_v111 c = (dat5 (fun c b => X15 m c b) c).arrAt 3 cfg5.N :=
  (outs_at_16 m main_v111 c).trans (X16_main_v111 m c)

theorem X3_eq (c : Dev nD) : X3 m c = V3 m c := rfl
theorem V4_eq (c : Dev nD) : V4 m (outs m) c = X4 m c := by
  show Function.update (Function.update (Function.update (V3 m c) main_v18_0 (outs m 4 main_v18_0 c)) main_v18_1 (outs m 4 main_v18_1 c)) main_v18_2 (outs m 4 main_v18_2 c) = X4 m c
  rw [← X3_eq, outs_4_0, outs_4_1, outs_4_2]; unfold X4; rfl
theorem V5_eq (c : Dev nD) : V5 m (outs m) c = X5 m c := by
  unfold X5; rw [← V4_eq m c]
theorem V6_eq (c : Dev nD) : V6 m (outs m) c = X6 m c := by
  show Function.update (V5 m (outs m) c) main_v39 (outs m 6 main_v39 c) = X6 m c
  rw [V5_eq, outs_6]; unfold X6; rfl
theorem V7_eq (c : Dev nD) : V7 m (outs m) c = X7 m c := by
  unfold X7; rw [← V6_eq m c]
theorem V8_eq (c : Dev nD) : V8 m (outs m) c = X8 m c := by
  unfold X8; rw [← V7_eq m c]
theorem V9_eq (c : Dev nD) : V9 m (outs m) c = X9 m c := by
  show Function.update (Function.update (Function.update (V8 m (outs m) c) main_v54_0 (outs m 9 main_v54_0 c)) main_v54_1 (outs m 9 main_v54_1 c)) main_v54_2 (outs m 9 main_v54_2 c) = X9 m c
  rw [V8_eq, outs_9_0, outs_9_1, outs_9_2]; unfold X9; rfl
theorem V10_eq (c : Dev nD) : V10 m (outs m) c = X10 m c := by
  unfold X10; rw [← V9_eq m c]
theorem V11_eq (c : Dev nD) : V11 m (outs m) c = X11 m c := by
  show Function.update (V10 m (outs m) c) main_v75 (outs m 11 main_v75 c) = X11 m c
  rw [V10_eq, outs_11]; unfold X11; rfl
theorem V12_eq (c : Dev nD) : V12 m (outs m) c = X12 m c := by
  unfold X12; rw [← V11_eq m c]
theorem V13_eq (c : Dev nD) : V13 m (outs m) c = X13 m c := by
  unfold X13; rw [← V12_eq m c]
theorem V14_eq (c : Dev nD) : V14 m (outs m) c = X14 m c := by
  show Function.update (Function.update (Function.update (V13 m (outs m) c) main_v90_0 (outs m 14 main_v90_0 c)) main_v90_1 (outs m 14 main_v90_1 c)) main_v90_2 (outs m 14 main_v90_2 c) = X14 m c
  rw [V13_eq, outs_14_0, outs_14_1, outs_14_2]; unfold X14; rfl
theorem V15_eq (c : Dev nD) : V15 m (outs m) c = X15 m c := by
  unfold X15; rw [← V14_eq m c]
theorem V16_eq (c : Dev nD) : V16 m (outs m) c = X16 m c := by
  show Function.update (V15 m (outs m) c) main_v111 (outs m 16 main_v111 c) = X16 m c
  rw [V15_eq, outs_16]; unfold X16; rfl

theorem X16_main_arg0 (c : Dev nD) : X16 m c main_arg0 = m ((c : Thread nD τ).loc main_arg0) := by
  rw [← V16_eq]; exact V16_main_arg0 m (outs m) c
theorem X16_main_arg1 (c : Dev nD) : X16 m c main_arg1 = m ((c : Thread nD τ).loc main_arg1) := by
  rw [← V16_eq]; exact V16_main_arg1 m (outs m) c
theorem X16_main_arg2 (c : Dev nD) : X16 m c main_arg2 = m ((c : Thread nD τ).loc main_arg2) := by
  rw [← V16_eq]; exact V16_main_arg2 m (outs m) c
theorem X16_main_arg3 (c : Dev nD) : X16 m c main_arg3 = m ((c : Thread nD τ).loc main_arg3) := by
  rw [← V16_eq]; exact V16_main_arg3 m (outs m) c
theorem X16_main_arg4 (c : Dev nD) : X16 m c main_arg4 = m ((c : Thread nD τ).loc main_arg4) := by
  rw [← V16_eq]; exact V16_main_arg4 m (outs m) c
theorem X16_main_arg5 (c : Dev nD) : X16 m c main_arg5 = m ((c : Thread nD τ).loc main_arg5) := by
  rw [← V16_eq]; exact V16_main_arg5 m (outs m) c
theorem X16_main_arg6 (c : Dev nD) : X16 m c main_arg6 = m ((c : Thread nD τ).loc main_arg6) := by
  rw [← V16_eq]; exact V16_main_arg6 m (outs m) c
theorem X16_main_arg7 (c : Dev nD) : X16 m c main_arg7 = m ((c : Thread nD τ).loc main_arg7) := by
  rw [← V16_eq]; exact V16_main_arg7 m (outs m) c
def pdats : (p : Fin 6) → (c : Dev nD) → Dat τ (Elt F) Unit ℕ (UR sig nD τ) ℕ (Pipeline.pin (pcfgs (F := F)) adm p) c
  | ⟨0, _⟩ => fun c => dat0 (fun c b => X3 m c b) c
  | ⟨1, _⟩ => fun c => dat1 (fun c b => X5 m c b) c
  | ⟨2, _⟩ => fun c => dat2 (fun c b => X8 m c b) c
  | ⟨3, _⟩ => fun c => dat3 (fun c b => X10 m c b) c
  | ⟨4, _⟩ => fun c => dat4 (fun c b => X13 m c b) c
  | ⟨5, _⟩ => fun c => dat5 (fun c b => X15 m c b) c

abbrev runL : GSem nD τ sig → Finset Unit := fun _ => ∅
abbrev runLv : GSem nD τ sig → Unit → ℕ := fun _ _ => 0

abbrev Ride (c : Dev nD) : sProp 𝕄 := iprop((∃ r, prngReg c r) ∗ ∃ W, owes (c : Thread nD τ) (0 : CellTallies nD τ sig Unit) W)

theorem held_congr (c : Dev nD) {A B : Valuation τ sig (Elt F)} (h : A = B) :
    (iprop(StableHlo.held (c : Thread nD τ) (Pipeline.ucRefs τ sig) A ∗ Ride c) : sProp 𝕄)
      ⊢ iprop(StableHlo.held (c : Thread nD τ) (Pipeline.ucRefs τ sig) B ∗ Ride c) := by
  subst h; exact .rfl

theorem ride_last (c : Dev nD) (A : Valuation τ sig (Elt F)) :
    (iprop(StableHlo.held (c : Thread nD τ) (Pipeline.ucRefs τ sig) A ∗ Ride c) : sProp 𝕄)
      ⊢ iprop((StableHlo.held (c : Thread nD τ) (Pipeline.ucRefs τ sig) A ∗ ∃ r, prngReg c r)
          ∗ ∃ W, owes (c : Thread nD τ) (0 : CellTallies nD τ sig Unit) W) := by
  iintro ⟨Hh, Hp, HO⟩
  isplitl [Hh Hp]
  · isplitl [Hh] <;> iassumption
  iexact HO

theorem hF0_0 (c : Dev nD) : (dat0 (fun c b => X3 m c b) c).arrAt (0 : Fin 9) cfg0.N = X4 m c (Pipeline.arrRef spec0 (0 : Fin 9)) :=
  ((dat0 (fun c b => X3 m c b) c).arrAt_in 0 rfl _).trans ((A_eq0 (fun c b => X3 m c b) c 0).trans (X4_of m c main_arg0 (by decide)).symm)
theorem hF0_1 (c : Dev nD) : (dat0 (fun c b => X3 m c b) c).arrAt (1 : Fin 9) cfg0.N = X4 m c (Pipeline.arrRef spec0 (1 : Fin 9)) :=
  ((dat0 (fun c b => X3 m c b) c).arrAt_in 1 rfl _).trans ((A_eq0 (fun c b => X3 m c b) c 1).trans (X4_of m c main_v7 (by decide)).symm)
theorem hF0_2 (c : Dev nD) : (dat0 (fun c b => X3 m c b) c).arrAt (2 : Fin 9) cfg0.N = X4 m c (Pipeline.arrRef spec0 (2 : Fin 9)) :=
  ((dat0 (fun c b => X3 m c b) c).arrAt_in 2 rfl _).trans ((A_eq0 (fun c b => X3 m c b) c 2).trans (X4_of m c main_v9 (by decide)).symm)
theorem hF0_3 (c : Dev nD) : (dat0 (fun c b => X3 m c b) c).arrAt (3 : Fin 9) cfg0.N = X4 m c (Pipeline.arrRef spec0 (3 : Fin 9)) :=
  ((dat0 (fun c b => X3 m c b) c).arrAt_in 3 rfl _).trans ((A_eq0 (fun c b => X3 m c b) c 3).trans (X4_of m c main_v16 (by decide)).symm)
theorem hF0_4 (c : Dev nD) : (dat0 (fun c b => X3 m c b) c).arrAt (4 : Fin 9) cfg0.N = X4 m c (Pipeline.arrRef spec0 (4 : Fin 9)) :=
  ((dat0 (fun c b => X3 m c b) c).arrAt_in 4 rfl _).trans ((A_eq0 (fun c b => X3 m c b) c 4).trans (X4_of m c main_v13 (by decide)).symm)
theorem hF0_5 (c : Dev nD) : (dat0 (fun c b => X3 m c b) c).arrAt (5 : Fin 9) cfg0.N = X4 m c (Pipeline.arrRef spec0 (5 : Fin 9)) :=
  ((dat0 (fun c b => X3 m c b) c).arrAt_in 5 rfl _).trans ((A_eq0 (fun c b => X3 m c b) c 5).trans (X4_of m c main_v17 (by decide)).symm)
theorem hF0_6 (c : Dev nD) : (dat0 (fun c b => X3 m c b) c).arrAt (6 : Fin 9) cfg0.N = X4 m c (Pipeline.arrRef spec0 (6 : Fin 9)) :=
  (X4_main_v18_0 m c).symm
theorem hF0_7 (c : Dev nD) : (dat0 (fun c b => X3 m c b) c).arrAt (7 : Fin 9) cfg0.N = X4 m c (Pipeline.arrRef spec0 (7 : Fin 9)) :=
  (X4_main_v18_1 m c).symm
theorem hF0_8 (c : Dev nD) : (dat0 (fun c b => X3 m c b) c).arrAt (8 : Fin 9) cfg0.N = X4 m c (Pipeline.arrRef spec0 (8 : Fin 9)) :=
  (X4_main_v18_2 m c).symm

theorem hF0 (c : Dev nD) : ∀ w : Fin 9, (dat0 (fun c b => X3 m c b) c).arrAt w cfg0.N = X4 m c (Pipeline.arrRef spec0 w)
  | 0 => hF0_0 m c
  | 1 => hF0_1 m c
  | 2 => hF0_2 m c
  | 3 => hF0_3 m c
  | 4 => hF0_4 m c
  | 5 => hF0_5 m c
  | 6 => hF0_6 m c
  | 7 => hF0_7 m c
  | 8 => hF0_8 m c
  | ⟨_ + 9, h⟩ => absurd h (Nat.not_lt.2 (Nat.le_add_left _ _))

theorem hrest0 (c : Dev nD) (b : Ref sig .tc) (hb : b ∉ Finset.univ.image (Pipeline.arrRef spec0)) : X4 m c b = X3 m c b :=
  X4_of m c b fun hmem => hb (by
    simp only [List.mem_cons, List.mem_nil_iff, or_false] at hmem
    rcases hmem with rfl | rfl | rfl
    · exact Finset.mem_image.mpr ⟨6, Finset.mem_univ _, rfl⟩
    · exact Finset.mem_image.mpr ⟨7, Finset.mem_univ _, rfl⟩
    · exact Finset.mem_image.mpr ⟨8, Finset.mem_univ _, rfl⟩)

theorem hF1 (c : Dev nD) : ∀ w : Fin 4, (dat1 (fun c b => X5 m c b) c).arrAt w cfg1.N = X6 m c (Pipeline.arrRef spec1 w)
  | 0 => ((dat1 (fun c b => X5 m c b) c).arrAt_in 0 rfl _).trans ((A_eq1 (fun c b => X5 m c b) c 0).trans (X6_of m c main_v18_0 (by decide)).symm)
  | 1 => ((dat1 (fun c b => X5 m c b) c).arrAt_in 1 rfl _).trans ((A_eq1 (fun c b => X5 m c b) c 1).trans (X6_of m c main_v37 (by decide)).symm)
  | 2 => ((dat1 (fun c b => X5 m c b) c).arrAt_in 2 rfl _).trans ((A_eq1 (fun c b => X5 m c b) c 2).trans (X6_of m c main_v38 (by decide)).symm)
  | 3 => (X6_main_v39 m c).symm
  | ⟨_ + 4, h⟩ => absurd h (Nat.not_lt.2 (Nat.le_add_left _ _))

theorem hrest1 (c : Dev nD) (b : Ref sig .tc) (hb : b ∉ Finset.univ.image (Pipeline.arrRef spec1)) : X6 m c b = X5 m c b :=
  X6_of m c b fun hmem => hb (by
    simp only [List.mem_cons, List.mem_nil_iff, or_false] at hmem
    rcases hmem with rfl
    · exact Finset.mem_image.mpr ⟨3, Finset.mem_univ _, rfl⟩)

theorem hF2_0 (c : Dev nD) : (dat2 (fun c b => X8 m c b) c).arrAt (0 : Fin 9) cfg2.N = X9 m c (Pipeline.arrRef spec2 (0 : Fin 9)) :=
  ((dat2 (fun c b => X8 m c b) c).arrAt_in 0 rfl _).trans ((A_eq2 (fun c b => X8 m c b) c 0).trans (X9_of m c main_v39 (by decide)).symm)
theorem hF2_1 (c : Dev nD) : (dat2 (fun c b => X8 m c b) c).arrAt (1 : Fin 9) cfg2.N = X9 m c (Pipeline.arrRef spec2 (1 : Fin 9)) :=
  ((dat2 (fun c b => X8 m c b) c).arrAt_in 1 rfl _).trans ((A_eq2 (fun c b => X8 m c b) c 1).trans (X9_of m c main_v43 (by decide)).symm)
theorem hF2_2 (c : Dev nD) : (dat2 (fun c b => X8 m c b) c).arrAt (2 : Fin 9) cfg2.N = X9 m c (Pipeline.arrRef spec2 (2 : Fin 9)) :=
  ((dat2 (fun c b => X8 m c b) c).arrAt_in 2 rfl _).trans ((A_eq2 (fun c b => X8 m c b) c 2).trans (X9_of m c main_v45 (by decide)).symm)
theorem hF2_3 (c : Dev nD) : (dat2 (fun c b => X8 m c b) c).arrAt (3 : Fin 9) cfg2.N = X9 m c (Pipeline.arrRef spec2 (3 : Fin 9)) :=
  ((dat2 (fun c b => X8 m c b) c).arrAt_in 3 rfl _).trans ((A_eq2 (fun c b => X8 m c b) c 3).trans (X9_of m c main_v52 (by decide)).symm)
theorem hF2_4 (c : Dev nD) : (dat2 (fun c b => X8 m c b) c).arrAt (4 : Fin 9) cfg2.N = X9 m c (Pipeline.arrRef spec2 (4 : Fin 9)) :=
  ((dat2 (fun c b => X8 m c b) c).arrAt_in 4 rfl _).trans ((A_eq2 (fun c b => X8 m c b) c 4).trans (X9_of m c main_v49 (by decide)).symm)
theorem hF2_5 (c : Dev nD) : (dat2 (fun c b => X8 m c b) c).arrAt (5 : Fin 9) cfg2.N = X9 m c (Pipeline.arrRef spec2 (5 : Fin 9)) :=
  ((dat2 (fun c b => X8 m c b) c).arrAt_in 5 rfl _).trans ((A_eq2 (fun c b => X8 m c b) c 5).trans (X9_of m c main_v53 (by decide)).symm)
theorem hF2_6 (c : Dev nD) : (dat2 (fun c b => X8 m c b) c).arrAt (6 : Fin 9) cfg2.N = X9 m c (Pipeline.arrRef spec2 (6 : Fin 9)) :=
  (X9_main_v54_0 m c).symm
theorem hF2_7 (c : Dev nD) : (dat2 (fun c b => X8 m c b) c).arrAt (7 : Fin 9) cfg2.N = X9 m c (Pipeline.arrRef spec2 (7 : Fin 9)) :=
  (X9_main_v54_1 m c).symm
theorem hF2_8 (c : Dev nD) : (dat2 (fun c b => X8 m c b) c).arrAt (8 : Fin 9) cfg2.N = X9 m c (Pipeline.arrRef spec2 (8 : Fin 9)) :=
  (X9_main_v54_2 m c).symm

theorem hF2 (c : Dev nD) : ∀ w : Fin 9, (dat2 (fun c b => X8 m c b) c).arrAt w cfg2.N = X9 m c (Pipeline.arrRef spec2 w)
  | 0 => hF2_0 m c
  | 1 => hF2_1 m c
  | 2 => hF2_2 m c
  | 3 => hF2_3 m c
  | 4 => hF2_4 m c
  | 5 => hF2_5 m c
  | 6 => hF2_6 m c
  | 7 => hF2_7 m c
  | 8 => hF2_8 m c
  | ⟨_ + 9, h⟩ => absurd h (Nat.not_lt.2 (Nat.le_add_left _ _))

theorem hrest2 (c : Dev nD) (b : Ref sig .tc) (hb : b ∉ Finset.univ.image (Pipeline.arrRef spec2)) : X9 m c b = X8 m c b :=
  X9_of m c b fun hmem => hb (by
    simp only [List.mem_cons, List.mem_nil_iff, or_false] at hmem
    rcases hmem with rfl | rfl | rfl
    · exact Finset.mem_image.mpr ⟨6, Finset.mem_univ _, rfl⟩
    · exact Finset.mem_image.mpr ⟨7, Finset.mem_univ _, rfl⟩
    · exact Finset.mem_image.mpr ⟨8, Finset.mem_univ _, rfl⟩)

theorem hF3 (c : Dev nD) : ∀ w : Fin 4, (dat3 (fun c b => X10 m c b) c).arrAt w cfg3.N = X11 m c (Pipeline.arrRef spec3 w)
  | 0 => ((dat3 (fun c b => X10 m c b) c).arrAt_in 0 rfl _).trans ((A_eq3 (fun c b => X10 m c b) c 0).trans (X11_of m c main_v54_0 (by decide)).symm)
  | 1 => ((dat3 (fun c b => X10 m c b) c).arrAt_in 1 rfl _).trans ((A_eq3 (fun c b => X10 m c b) c 1).trans (X11_of m c main_v73 (by decide)).symm)
  | 2 => ((dat3 (fun c b => X10 m c b) c).arrAt_in 2 rfl _).trans ((A_eq3 (fun c b => X10 m c b) c 2).trans (X11_of m c main_v74 (by decide)).symm)
  | 3 => (X11_main_v75 m c).symm
  | ⟨_ + 4, h⟩ => absurd h (Nat.not_lt.2 (Nat.le_add_left _ _))

theorem hrest3 (c : Dev nD) (b : Ref sig .tc) (hb : b ∉ Finset.univ.image (Pipeline.arrRef spec3)) : X11 m c b = X10 m c b :=
  X11_of m c b fun hmem => hb (by
    simp only [List.mem_cons, List.mem_nil_iff, or_false] at hmem
    rcases hmem with rfl
    · exact Finset.mem_image.mpr ⟨3, Finset.mem_univ _, rfl⟩)

theorem hF4_0 (c : Dev nD) : (dat4 (fun c b => X13 m c b) c).arrAt (0 : Fin 9) cfg4.N = X14 m c (Pipeline.arrRef spec4 (0 : Fin 9)) :=
  ((dat4 (fun c b => X13 m c b) c).arrAt_in 0 rfl _).trans ((A_eq4 (fun c b => X13 m c b) c 0).trans (X14_of m c main_v75 (by decide)).symm)
theorem hF4_1 (c : Dev nD) : (dat4 (fun c b => X13 m c b) c).arrAt (1 : Fin 9) cfg4.N = X14 m c (Pipeline.arrRef spec4 (1 : Fin 9)) :=
  ((dat4 (fun c b => X13 m c b) c).arrAt_in 1 rfl _).trans ((A_eq4 (fun c b => X13 m c b) c 1).trans (X14_of m c main_v79 (by decide)).symm)
theorem hF4_2 (c : Dev nD) : (dat4 (fun c b => X13 m c b) c).arrAt (2 : Fin 9) cfg4.N = X14 m c (Pipeline.arrRef spec4 (2 : Fin 9)) :=
  ((dat4 (fun c b => X13 m c b) c).arrAt_in 2 rfl _).trans ((A_eq4 (fun c b => X13 m c b) c 2).trans (X14_of m c main_v81 (by decide)).symm)
theorem hF4_3 (c : Dev nD) : (dat4 (fun c b => X13 m c b) c).arrAt (3 : Fin 9) cfg4.N = X14 m c (Pipeline.arrRef spec4 (3 : Fin 9)) :=
  ((dat4 (fun c b => X13 m c b) c).arrAt_in 3 rfl _).trans ((A_eq4 (fun c b => X13 m c b) c 3).trans (X14_of m c main_v88 (by decide)).symm)
theorem hF4_4 (c : Dev nD) : (dat4 (fun c b => X13 m c b) c).arrAt (4 : Fin 9) cfg4.N = X14 m c (Pipeline.arrRef spec4 (4 : Fin 9)) :=
  ((dat4 (fun c b => X13 m c b) c).arrAt_in 4 rfl _).trans ((A_eq4 (fun c b => X13 m c b) c 4).trans (X14_of m c main_v85 (by decide)).symm)
theorem hF4_5 (c : Dev nD) : (dat4 (fun c b => X13 m c b) c).arrAt (5 : Fin 9) cfg4.N = X14 m c (Pipeline.arrRef spec4 (5 : Fin 9)) :=
  ((dat4 (fun c b => X13 m c b) c).arrAt_in 5 rfl _).trans ((A_eq4 (fun c b => X13 m c b) c 5).trans (X14_of m c main_v89 (by decide)).symm)
theorem hF4_6 (c : Dev nD) : (dat4 (fun c b => X13 m c b) c).arrAt (6 : Fin 9) cfg4.N = X14 m c (Pipeline.arrRef spec4 (6 : Fin 9)) :=
  (X14_main_v90_0 m c).symm
theorem hF4_7 (c : Dev nD) : (dat4 (fun c b => X13 m c b) c).arrAt (7 : Fin 9) cfg4.N = X14 m c (Pipeline.arrRef spec4 (7 : Fin 9)) :=
  (X14_main_v90_1 m c).symm
theorem hF4_8 (c : Dev nD) : (dat4 (fun c b => X13 m c b) c).arrAt (8 : Fin 9) cfg4.N = X14 m c (Pipeline.arrRef spec4 (8 : Fin 9)) :=
  (X14_main_v90_2 m c).symm

theorem hF4 (c : Dev nD) : ∀ w : Fin 9, (dat4 (fun c b => X13 m c b) c).arrAt w cfg4.N = X14 m c (Pipeline.arrRef spec4 w)
  | 0 => hF4_0 m c
  | 1 => hF4_1 m c
  | 2 => hF4_2 m c
  | 3 => hF4_3 m c
  | 4 => hF4_4 m c
  | 5 => hF4_5 m c
  | 6 => hF4_6 m c
  | 7 => hF4_7 m c
  | 8 => hF4_8 m c
  | ⟨_ + 9, h⟩ => absurd h (Nat.not_lt.2 (Nat.le_add_left _ _))

theorem hrest4 (c : Dev nD) (b : Ref sig .tc) (hb : b ∉ Finset.univ.image (Pipeline.arrRef spec4)) : X14 m c b = X13 m c b :=
  X14_of m c b fun hmem => hb (by
    simp only [List.mem_cons, List.mem_nil_iff, or_false] at hmem
    rcases hmem with rfl | rfl | rfl
    · exact Finset.mem_image.mpr ⟨6, Finset.mem_univ _, rfl⟩
    · exact Finset.mem_image.mpr ⟨7, Finset.mem_univ _, rfl⟩
    · exact Finset.mem_image.mpr ⟨8, Finset.mem_univ _, rfl⟩)

theorem hF5 (c : Dev nD) : ∀ w : Fin 4, (dat5 (fun c b => X15 m c b) c).arrAt w cfg5.N = X16 m c (Pipeline.arrRef spec5 w)
  | 0 => ((dat5 (fun c b => X15 m c b) c).arrAt_in 0 rfl _).trans ((A_eq5 (fun c b => X15 m c b) c 0).trans (X16_of m c main_v90_0 (by decide)).symm)
  | 1 => ((dat5 (fun c b => X15 m c b) c).arrAt_in 1 rfl _).trans ((A_eq5 (fun c b => X15 m c b) c 1).trans (X16_of m c main_v109 (by decide)).symm)
  | 2 => ((dat5 (fun c b => X15 m c b) c).arrAt_in 2 rfl _).trans ((A_eq5 (fun c b => X15 m c b) c 2).trans (X16_of m c main_v110 (by decide)).symm)
  | 3 => (X16_main_v111 m c).symm
  | ⟨_ + 4, h⟩ => absurd h (Nat.not_lt.2 (Nat.le_add_left _ _))

theorem hrest5 (c : Dev nD) (b : Ref sig .tc) (hb : b ∉ Finset.univ.image (Pipeline.arrRef spec5)) : X16 m c b = X15 m c b :=
  X16_of m c b fun hmem => hb (by
    simp only [List.mem_cons, List.mem_nil_iff, or_false] at hmem
    rcases hmem with rfl
    · exact Finset.mem_image.mpr ⟨3, Finset.mem_univ _, rfl⟩)

set_option backward.isDefEq.respectTransparency.types false in
def reg0 (hb0 : ∀ V c, BodyObligation (dat0 (F := F) V c) (defs₀ (F := F)) Variants.none () Set.univ)
    (ho0 : ∀ V c, (dat0 (F := F) V c).Φ (Fin.last cfg0.N) ⊢ Pipeline.ΦA spec0 c) :
    Pipeline.RegionSeg (pcfgs (F := F)) adm (pdats m) () defs₀ Variants.none runL runLv 0 where
  win := launch0.win.to₀
  block_pos := launch0.block_pos
  stage_whole := launch0.stage_whole
  K := PEmpty
  osem k := k.elim
  ho := Pipeline.OwnSemFacts.none _
  hbody c := (hb0 (fun c b => X3 m c b) c).loose
  hwaits := Pipeline.hwaits_of_owed_zero _ _ _ _ runL runLv 0 fun _ _ => rfl
  pre c := iprop(StableHlo.held (c : Thread nD τ) (Pipeline.ucRefs τ sig) (X3 m c) ∗ Ride c)
  post c := iprop(StableHlo.held (c : Thread nD τ) (Pipeline.ucRefs τ sig) (X4 m c) ∗ Ride c)
  X c := iprop(∃ r, prngReg c r)
  Y c := iprop(∃ r, prngReg c r)
  Z c := Pipeline.unscopedRest (Ix := Unit) (Name := ℕ) (U := UR sig nD τ) (Lvl := ℕ) spec0 c (fun b => X3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => X3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from (ho0 (fun c b => X3 m c b) c)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => X3 m c b) (fun b => X4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 (hb1 : ∀ V c, BodyObligation (dat1 (F := F) V c) (defs₀ (F := F)) Variants.none () Set.univ) :
    Pipeline.RegionSeg (pcfgs (F := F)) adm (pdats m) () defs₀ Variants.none runL runLv 1 where
  win := launch1.win.to₀
  block_pos := launch1.block_pos
  stage_whole := launch1.stage_whole
  K := PEmpty
  osem k := k.elim
  ho := Pipeline.OwnSemFacts.none _
  hbody c := (hb1 (fun c b => X5 m c b) c).loose
  hwaits := Pipeline.hwaits_of_owed_zero _ _ _ _ runL runLv 1 fun _ _ => rfl
  pre c := iprop(StableHlo.held (c : Thread nD τ) (Pipeline.ucRefs τ sig) (X5 m c) ∗ Ride c)
  post c := iprop(StableHlo.held (c : Thread nD τ) (Pipeline.ucRefs τ sig) (X6 m c) ∗ Ride c)
  X c := iprop(∃ r, prngReg c r)
  Y c := iprop(∃ r, prngReg c r)
  Z c := Pipeline.unscopedRest (Ix := Unit) (Name := ℕ) (U := UR sig nD τ) (Lvl := ℕ) spec1 c (fun b => X5 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => X5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from (hout1 (fun c b => X5 m c b) c)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => X5 m c b) (fun b => X6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 (hb2 : ∀ V c, BodyObligation (dat2 (F := F) V c) (defs₀ (F := F)) Variants.none () Set.univ)
    (ho2 : ∀ V c, (dat2 (F := F) V c).Φ (Fin.last cfg2.N) ⊢ Pipeline.ΦA spec2 c) :
    Pipeline.RegionSeg (pcfgs (F := F)) adm (pdats m) () defs₀ Variants.none runL runLv 2 where
  win := launch2.win.to₀
  block_pos := launch2.block_pos
  stage_whole := launch2.stage_whole
  K := PEmpty
  osem k := k.elim
  ho := Pipeline.OwnSemFacts.none _
  hbody c := (hb2 (fun c b => X8 m c b) c).loose
  hwaits := Pipeline.hwaits_of_owed_zero _ _ _ _ runL runLv 2 fun _ _ => rfl
  pre c := iprop(StableHlo.held (c : Thread nD τ) (Pipeline.ucRefs τ sig) (X8 m c) ∗ Ride c)
  post c := iprop(StableHlo.held (c : Thread nD τ) (Pipeline.ucRefs τ sig) (X9 m c) ∗ Ride c)
  X c := iprop(∃ r, prngReg c r)
  Y c := iprop(∃ r, prngReg c r)
  Z c := Pipeline.unscopedRest (Ix := Unit) (Name := ℕ) (U := UR sig nD τ) (Lvl := ℕ) spec2 c (fun b => X8 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => X8 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from (ho2 (fun c b => X8 m c b) c)).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => X8 m c b) (fun b => X9 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 (hb3 : ∀ V c, BodyObligation (dat3 (F := F) V c) (defs₀ (F := F)) Variants.none () Set.univ) :
    Pipeline.RegionSeg (pcfgs (F := F)) adm (pdats m) () defs₀ Variants.none runL runLv 3 where
  win := launch3.win.to₀
  block_pos := launch3.block_pos
  stage_whole := launch3.stage_whole
  K := PEmpty
  osem k := k.elim
  ho := Pipeline.OwnSemFacts.none _
  hbody c := (hb3 (fun c b => X10 m c b) c).loose
  hwaits := Pipeline.hwaits_of_owed_zero _ _ _ _ runL runLv 3 fun _ _ => rfl
  pre c := iprop(StableHlo.held (c : Thread nD τ) (Pipeline.ucRefs τ sig) (X10 m c) ∗ Ride c)
  post c := iprop(StableHlo.held (c : Thread nD τ) (Pipeline.ucRefs τ sig) (X11 m c) ∗ Ride c)
  X c := iprop(∃ r, prngReg c r)
  Y c := iprop(∃ r, prngReg c r)
  Z c := Pipeline.unscopedRest (Ix := Unit) (Name := ℕ) (U := UR sig nD τ) (Lvl := ℕ) spec3 c (fun b => X10 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => X10 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from (hout3 (fun c b => X10 m c b) c)).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => X10 m c b) (fun b => X11 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 (hb4 : ∀ V c, BodyObligation (dat4 (F := F) V c) (defs₀ (F := F)) Variants.none () Set.univ)
    (ho4 : ∀ V c, (dat4 (F := F) V c).Φ (Fin.last cfg4.N) ⊢ Pipeline.ΦA spec4 c) :
    Pipeline.RegionSeg (pcfgs (F := F)) adm (pdats m) () defs₀ Variants.none runL runLv 4 where
  win := launch4.win.to₀
  block_pos := launch4.block_pos
  stage_whole := launch4.stage_whole
  K := PEmpty
  osem k := k.elim
  ho := Pipeline.OwnSemFacts.none _
  hbody c := (hb4 (fun c b => X13 m c b) c).loose
  hwaits := Pipeline.hwaits_of_owed_zero _ _ _ _ runL runLv 4 fun _ _ => rfl
  pre c := iprop(StableHlo.held (c : Thread nD τ) (Pipeline.ucRefs τ sig) (X13 m c) ∗ Ride c)
  post c := iprop(StableHlo.held (c : Thread nD τ) (Pipeline.ucRefs τ sig) (X14 m c) ∗ Ride c)
  X c := iprop(∃ r, prngReg c r)
  Y c := iprop(∃ r, prngReg c r)
  Z c := Pipeline.unscopedRest (Ix := Unit) (Name := ℕ) (U := UR sig nD τ) (Lvl := ℕ) spec4 c (fun b => X13 m c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b => X13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from (ho4 (fun c b => X13 m c b) c)).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => X13 m c b) (fun b => X14 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 (hb5 : ∀ V c, BodyObligation (dat5 (F := F) V c) (defs₀ (F := F)) Variants.none () Set.univ) :
    Pipeline.RegionSeg (pcfgs (F := F)) adm (pdats m) () defs₀ Variants.none runL runLv 5 where
  win := launch5.win.to₀
  block_pos := launch5.block_pos
  stage_whole := launch5.stage_whole
  K := PEmpty
  osem k := k.elim
  ho := Pipeline.OwnSemFacts.none _
  hbody c := (hb5 (fun c b => X15 m c b) c).loose
  hwaits := Pipeline.hwaits_of_owed_zero _ _ _ _ runL runLv 5 fun _ _ => rfl
  pre c := iprop(StableHlo.held (c : Thread nD τ) (Pipeline.ucRefs τ sig) (X15 m c) ∗ Ride c)
  post c := iprop(StableHlo.held (c : Thread nD τ) (Pipeline.ucRefs τ sig) (X16 m c) ∗ Ride c)
  X c := iprop(∃ r, prngReg c r)
  Y c := iprop(∃ r, prngReg c r)
  Z c := Pipeline.unscopedRest (Ix := Unit) (Name := ℕ) (U := UR sig nD τ) (Lvl := ℕ) spec5 c (fun b => X15 m c b)
  hentry c := by
    rw [Pipeline.ownSems0_none]
    have hsplit := Pipeline.arrays_of_unscopedBufs (p := 5) (pcfgs (F := F)) adm (pdats m) launch5.win launch5.arr_whole c
      ((pdats m 5 c).share_full fun _ => rfl) (fun b => X15 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from (hout5 (fun c b => X15 m c b) c)).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (fun b => X15 m c b) (fun b => X16 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
theorem run
    (hb0 : ∀ V c, BodyObligation (dat0 (F := F) V c) (defs₀ (F := F)) Variants.none () Set.univ)
    (ho0 : ∀ V c, (dat0 (F := F) V c).Φ (Fin.last cfg0.N) ⊢ Pipeline.ΦA spec0 c)
    (hb1 : ∀ V c, BodyObligation (dat1 (F := F) V c) (defs₀ (F := F)) Variants.none () Set.univ)
    (hb2 : ∀ V c, BodyObligation (dat2 (F := F) V c) (defs₀ (F := F)) Variants.none () Set.univ)
    (ho2 : ∀ V c, (dat2 (F := F) V c).Φ (Fin.last cfg2.N) ⊢ Pipeline.ΦA spec2 c)
    (hb3 : ∀ V c, BodyObligation (dat3 (F := F) V c) (defs₀ (F := F)) Variants.none () Set.univ)
    (hb4 : ∀ V c, BodyObligation (dat4 (F := F) V c) (defs₀ (F := F)) Variants.none () Set.univ)
    (ho4 : ∀ V c, (dat4 (F := F) V c).Φ (Fin.last cfg4.N) ⊢ Pipeline.ΦA spec4 c)
    (hb5 : ∀ V c, BodyObligation (dat5 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = X16 m c b) := by
  refine Pipeline.θ_run_regions_kit_dev (pcfgs (F := F)) adm (pdats m) () cellOf_inj emb₁ defs₀ Variants.none runL runLv m ρ main
    (segs m (outs m) Variants.none runL runLv (fun _ c => Ride c) () (pdats m) (reg0 m hb0 ho0) (reg1 m hb1) (reg2 m hb2 ho2) (reg3 m hb3) (reg4 m hb4 ho4) (reg5 m hb5))
    (fun c Q => by
      rewrite [main_chain c, Seg.run_eq_chain,
        show ((segs m (outs m) Variants.none runL runLv (fun _ c => Ride c) () (pdats m) (reg0 m hb0 ho0) (reg1 m hb1) (reg2 m hb2 ho2) (reg3 m hb3) (reg4 m hb4 ho4) (reg5 m hb5)) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          Prog.lift (.customCall (Pipeline.entry 2) ()),
          StableHlo.seq hostOps3,
          Prog.lift (.customCall (Pipeline.entry 3) ()),
          StableHlo.seq hostOps4,
          StableHlo.seq hostOps4_1,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ride c))
    (Tₙ := fun c => iprop(StableHlo.held (c : Thread nD τ) (Pipeline.ucRefs τ sig) (X16 m c) ∗ ∃ r, prngReg c r))
    (hch := fun c => ⟨.rfl, .rfl, .rfl, .rfl,
      held_congr c (V4_eq m c).symm, held_congr c (V5_eq m c),
      held_congr c (V6_eq m c).symm, .rfl, held_congr c (V8_eq m c),
      held_congr c (V9_eq m c).symm, held_congr c (V10_eq m c),
      held_congr c (V11_eq m c).symm, .rfl, held_congr c (V13_eq m c),
      held_congr c (V14_eq m c).symm, held_congr c (V15_eq m c),
      ride_last c (X16 m c)⟩)
    (hinit := by
      refine Pipeline.initEach runL runLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X16 m c b)
    (hfin := fun c s' => by
      iintro ⟨⟨Hh, -⟩, HSI⟩
      unfold StableHlo.held
      imodintro
      iapply (pointsTo_read_all (Pipeline.ucRefs τ sig) (fun b => (((c : Thread nD τ)).1, b)) (X16 m c) s')
      isplitl [Hh] <;> iassumption)
    (hQ := fun s h c => h c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame
    (hb0 : ∀ V c, BodyObligation (dat0 (F := F) V c) (defs₀ (F := F)) Variants.none () Set.univ)
    (ho0 : ∀ V c, (dat0 (F := F) V c).Φ (Fin.last cfg0.N) ⊢ Pipeline.ΦA spec0 c)
    (hb1 : ∀ V c, BodyObligation (dat1 (F := F) V c) (defs₀ (F := F)) Variants.none () Set.univ)
    (hb2 : ∀ V c, BodyObligation (dat2 (F := F) V c) (defs₀ (F := F)) Variants.none () Set.univ)
    (ho2 : ∀ V c, (dat2 (F := F) V c).Φ (Fin.last cfg2.N) ⊢ Pipeline.ΦA spec2 c)
    (hb3 : ∀ V c, BodyObligation (dat3 (F := F) V c) (defs₀ (F := F)) Variants.none () Set.univ)
    (hb4 : ∀ V c, BodyObligation (dat4 (F := F) V c) (defs₀ (F := F)) Variants.none () Set.univ)
    (ho4 : ∀ V c, (dat4 (F := F) V c).Φ (Fin.last cfg4.N) ⊢ Pipeline.ΦA spec4 c)
    (hb5 : ∀ V c, BodyObligation (dat5 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (X16_main_arg0 m c),
      (h c _ (mem_uc main_arg1 (by decide))).trans (X16_main_arg1 m c),
      (h c _ (mem_uc main_arg2 (by decide))).trans (X16_main_arg2 m c),
      (h c _ (mem_uc main_arg3 (by decide))).trans (X16_main_arg3 m c),
      (h c _ (mem_uc main_arg4 (by decide))).trans (X16_main_arg4 m c),
      (h c _ (mem_uc main_arg5 (by decide))).trans (X16_main_arg5 m c),
      (h c _ (mem_uc main_arg6 (by decide))).trans (X16_main_arg6 m c),
      (h c _ (mem_uc main_arg7 (by decide))).trans (X16_main_arg7 m c)⟩)
    (run hb0 ho0 hb1 hb2 ho2 hb3 hb4 ho4 hb5 m ρ)

theorem run_result
    (hb0 : ∀ V c, BodyObligation (dat0 (F := F) V c) (defs₀ (F := F)) Variants.none () Set.univ)
    (ho0 : ∀ V c, (dat0 (F := F) V c).Φ (Fin.last cfg0.N) ⊢ Pipeline.ΦA spec0 c)
    (hb1 : ∀ V c, BodyObligation (dat1 (F := F) V c) (defs₀ (F := F)) Variants.none () Set.univ)
    (hb2 : ∀ V c, BodyObligation (dat2 (F := F) V c) (defs₀ (F := F)) Variants.none () Set.univ)
    (ho2 : ∀ V c, (dat2 (F := F) V c).Φ (Fin.last cfg2.N) ⊢ Pipeline.ΦA spec2 c)
    (hb3 : ∀ V c, BodyObligation (dat3 (F := F) V c) (defs₀ (F := F)) Variants.none () Set.univ)
    (hb4 : ∀ V c, BodyObligation (dat4 (F := F) V c) (defs₀ (F := F)) Variants.none () Set.univ)
    (ho4 : ∀ V c, (dat4 (F := F) V c).Φ (Fin.last cfg4.N) ⊢ Pipeline.ΦA spec4 c)
    (hb5 : ∀ V c, BodyObligation (dat5 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v111) = outs m 16 main_v111 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v111 (by decide))).trans (outs_at_16 m main_v111 c).symm,
      (h c _ (mem_uc main_arg0 (by decide))).trans (X16_main_arg0 m c),
      (h c _ (mem_uc main_arg1 (by decide))).trans (X16_main_arg1 m c),
      (h c _ (mem_uc main_arg2 (by decide))).trans (X16_main_arg2 m c),
      (h c _ (mem_uc main_arg3 (by decide))).trans (X16_main_arg3 m c),
      (h c _ (mem_uc main_arg4 (by decide))).trans (X16_main_arg4 m c),
      (h c _ (mem_uc main_arg5 (by decide))).trans (X16_main_arg5 m c),
      (h c _ (mem_uc main_arg6 (by decide))).trans (X16_main_arg6 m c),
      (h c _ (mem_uc main_arg7 (by decide))).trans (X16_main_arg7 m c)⟩)
    (run hb0 ho0 hb1 hb2 ho2 hb3 hb4 ho4 hb5 m ρ)

end Cert.KernelIdeal.Gen

end
-- ==== Proof.Mlp0Frame.lean ====
import proofs.«420740_j41515153883619_1_alg».proof.Proof.Mlp0Data
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_0 (i : grid0.Coords) : Prop :=
  (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1

theorem hcond0_1 : ∀ t : Fin cfg0.N, cond0_1 (grid0.coords t) ↔ t.val = 24 :=
  (by decide +kernel : ∀ t : Fin grid0.N, cond0_1 (grid0.coords t) ↔ t.val = 24)

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel

theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel

theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

theorem hz0 : (![0, 0] : Fin 2 → Nat) = fun _ => 0 := funext fun a => by fin_cases a <;> rfl

section Body

variable (c : Dev nD) (E : Set ℕ) (i : grid0.Coords)
  (arg1 : Memref sig .tc .vmem S2000x128 .f32) (harg1 : arg1.IsWhole) (arg2 : Memref sig .tc .vmem S2000x128 .f32) (harg2 : arg2.IsWhole)
  (arg3 : Memref sig .tc .vmem S128x128 .f32) (harg3 : arg3.IsWhole) (arg4 : Memref sig .tc .vmem S1x128 .f32) (harg4 : arg4.IsWhole)
  (arg5 : Memref sig .tc .vmem S128x128 .f32) (harg5 : arg5.IsWhole) (arg6 : Memref sig .tc .vmem S1x128 .f32) (harg6 : arg6.IsWhole)
  (arg7 : Memref sig .tc .vmem S2000x128 .f32) (harg7 : arg7.IsWhole) (arg8 : Memref sig .tc .vmem S1x128 .f32) (harg8 : arg8.IsWhole)
  (arg9 : Memref sig .tc .vmem S1x128 .f32) (harg9 : arg9.IsWhole) (arg10 : Memref sig .tc .vmem S1x128 .f32) (harg10 : arg10.IsWhole)
  (arg11 : Memref sig .tc .vmem S1x128 .f32) (harg11 : arg11.IsWhole)
  (x0 x1 : Vec F S2000x128 .f32) (x2 : Vec F S128x128 .f32) (x3 : Vec F S1x128 .f32) (x4 : Vec F S128x128 .f32) (x5 : Vec F S1x128 .f32)

set_option maxHeartbeats 4000000 in
theorem kernel0_A
    (hc0 : cond0_0 i) (hc1 : ¬cond0_1 i)
    (y7 y8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg8 fullShare y7 ∗ owns (c : Thread nD τ) arg9 fullShare y8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k0_pay5 x0 x1 x2 x3 x4 x5)
            ∗ owns (c : Thread nD τ) arg8 fullShare y7 ∗ owns (c : Thread nD τ) arg9 fullShare y8
            ∗ owns (c : Thread nD τ) arg10 fullShare (accS0 (k0_pay3 (F := F)) x0 x1 x2 x3 x4 x5)
            ∗ owns (c : Thread nD τ) arg11 fullShare (accQ0 (k0_pay4 (F := F)) x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds, %fs, -, HS⟩, ⟨%dq, %fq, -, HQ⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf7; obtain rfl := harg9.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [View.read_writes_eq_canon _ _ _ (View.cover_of_tiled _ S2000x128.size (by rfl)), View.canon_unit_zero hz0]
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0]
  isplitl [H7]
  · iexists _; isplitr; · ipureintro; exact harg8.read_unread _
    iexact H7
  isplitl [H8]
  · iexists _; isplitr; · ipureintro; exact harg9.read_unread _
    iexact H8
  isplitl [HS]
  · iexists _; isplitr
    swap; · iexact HS
    ipureintro
    sl_unfold_words
    rw [View.read_writes_eq_canon _ _ _ (View.cover_of_tiledL _ S1x128.size (by rfl)), View.canon_cons_unit_zero (S := S1x128) hz0]
    unfold accS0
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0,
      View.readCov_unit_zero (S := S1x128) _ hz0]
  iexists _; isplitr
  swap; · iexact HQ
  ipureintro
  sl_unfold_words
  rw [View.read_writes_eq_canon _ _ _ (View.cover_of_tiledL _ S1x128.size (by rfl)), View.canon_cons_unit_zero (S := S1x128) hz0]
  unfold accQ0
  simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0,
      View.readCov_unit_zero (S := S1x128) _ hz0]

set_option maxHeartbeats 4000000 in
theorem kernel0_B
    (hc0 : ¬cond0_0 i) (hc1 : ¬cond0_1 i)
    (y7 y8 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg8 fullShare y7 ∗ owns (c : Thread nD τ) arg9 fullShare y8
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k0_pay5 x0 x1 x2 x3 x4 x5)
            ∗ owns (c : Thread nD τ) arg8 fullShare y7 ∗ owns (c : Thread nD τ) arg9 fullShare y8
            ∗ owns (c : Thread nD τ) arg10 fullShare (accS0 s x0 x1 x2 x3 x4 x5) ∗ owns (c : Thread nD τ) arg11 fullShare (accQ0 q x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs, %hfs, HS⟩, ⟨%fq, %hfq, HQ⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf7; obtain rfl := harg9.eq_unread hf8
  obtain rfl := harg10.eq_unread hfs; obtain rfl := harg11.eq_unread hfq
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [View.read_writes_eq_canon _ _ _ (View.cover_of_tiled _ S2000x128.size (by rfl)), View.canon_unit_zero hz0]
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0]
  isplitl [H7]
  · iexists _; isplitr; · ipureintro; exact harg8.read_unread _
    iexact H7
  isplitl [H8]
  · iexists _; isplitr; · ipureintro; exact harg9.read_unread _
    iexact H8
  isplitl [HS]
  · iexists _; isplitr
    swap; · iexact HS
    ipureintro
    sl_unfold_words
    rw [View.read_writes_eq_canon _ _ _ (View.cover_of_tiled _ S1x128.size (by rfl)), View.canon_unit_zero hz0]
    unfold accS0
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0]
  iexists _; isplitr
  swap; · iexact HQ
  ipureintro
  sl_unfold_words
  rw [View.read_writes_eq_canon _ _ _ (View.cover_of_tiled _ S1x128.size (by rfl)), View.canon_unit_zero hz0]
  unfold accQ0
  simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0]

set_option maxHeartbeats 4000000 in
theorem kernel0_C
    (hc0 : ¬cond0_0 i) (hc1 : cond0_1 i)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k0_pay5 x0 x1 x2 x3 x4 x5)
            ∗ owns (c : Thread nD τ) arg8 fullShare (accS0 s x0 x1 x2 x3 x4 x5) ∗ owns (c : Thread nD τ) arg9 fullShare (accQ0 q x0 x1 x2 x3 x4 x5)
            ∗ owns (c : Thread nD τ) arg10 fullShare (accS0 s x0 x1 x2 x3 x4 x5) ∗ owns (c : Thread nD τ) arg11 fullShare (accQ0 q x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg10.eq_unread hfs; obtain rfl := harg11.eq_unread hfq
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [View.read_writes_eq_canon _ _ _ (View.cover_of_tiled _ S2000x128.size (by rfl)), View.canon_unit_zero hz0]
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0]
  isplitl [H7]
  · iexists _; isplitr
    swap; · iexact H7
    ipureintro
    sl_unfold_words
    rw [View.read_writes_eq_canon _ _ _ (View.cover_of_tiled _ S1x128.size (by rfl)), View.canon_unit_zero hz0]
    unfold accS0
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0,
      View.readCov_unit_zero (S := S1x128) _ hz0]
  isplitl [H8]
  · iexists _; isplitr
    swap; · iexact H8
    ipureintro
    sl_unfold_words
    rw [View.read_writes_eq_canon _ _ _ (View.cover_of_tiled _ S1x128.size (by rfl)), View.canon_unit_zero hz0]
    unfold accQ0
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0,
      View.readCov_unit_zero (S := S1x128) _ hz0]
  isplitl [HS]
  · iexists _; isplitr
    swap; · iexact HS
    ipureintro
    sl_unfold_words
    rw [View.read_writes_eq_canon _ _ _ (View.cover_of_tiled _ S1x128.size (by rfl)), View.canon_unit_zero hz0]
    unfold accS0
    simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0]
  iexists _; isplitr
  swap; · iexact HQ
  ipureintro
  sl_unfold_words
  rw [View.read_writes_eq_canon _ _ _ (View.cover_of_tiled _ S1x128.size (by rfl)), View.canon_unit_zero hz0]
  unfold accQ0
  simp only [View.readAt_eq_ld, harg1.read_unread, harg2.read_unread, harg3.read_unread, harg4.read_unread, harg5.read_unread, harg6.read_unread, harg10.read_unread, harg11.read_unread,
      View.ld_unit_zero (S := S2000x128) hz0, View.ld_unit_zero (S := S128x128) hz0, View.ld_unit_zero (S := S1x128) hz0]

end Body

theorem sc0_first_fst (c : Dev nD) (t : Fin cfg0.N) (h : t.val = 0) :
    (sc0 V c t.val t.isLt).1 = accS0 (k0_pay3 (F := F)) (iblk0 V c 0 t) (iblk0 V c 1 t) (iblk0 V c 2 t) (iblk0 V c 3 t) (iblk0 V c 4 t) (iblk0 V c 5 t) := by
  rw [sc0_first V c t h]

theorem sc0_first_snd (c : Dev nD) (t : Fin cfg0.N) (h : t.val = 0) :
    (sc0 V c t.val t.isLt).2 = accQ0 (k0_pay4 (F := F)) (iblk0 V c 0 t) (iblk0 V c 1 t) (iblk0 V c 2 t) (iblk0 V c 3 t) (iblk0 V c 4 t) (iblk0 V c 5 t) := by
  rw [sc0_first V c t h]

theorem sc0_later_fst (c : Dev nD) (t : Fin cfg0.N) (h : t.val ≠ 0) :
    (sc0 V c t.val t.isLt).1 = accS0 (sc0 V c (t.val - 1) (Nat.lt_of_le_of_lt (Nat.sub_le _ _) t.isLt)).1 (iblk0 V c 0 t) (iblk0 V c 1 t) (iblk0 V c 2 t) (iblk0 V c 3 t) (iblk0 V c 4 t) (iblk0 V c 5 t) := by
  rw [sc0_later V c t h]

theorem sc0_later_snd (c : Dev nD) (t : Fin cfg0.N) (h : t.val ≠ 0) :
    (sc0 V c t.val t.isLt).2 = accQ0 (sc0 V c (t.val - 1) (Nat.lt_of_le_of_lt (Nat.sub_le _ _) t.isLt)).2 (iblk0 V c 0 t) (iblk0 V c 1 t) (iblk0 V c 2 t) (iblk0 V c 3 t) (iblk0 V c 4 t) (iblk0 V c 5 t) := by
  rw [sc0_later V c t h]

theorem PhiA0_eq (c : Dev nD) :
    (Pipeline.ΦA spec0 c : sProp 𝕄)
      = iprop((((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  have hN : t.val < 25 := lt_of_lt_of_eq t.isLt (show cfg0.N = 25 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 7 t (idleAt0_7 t hc1) (noFlush0_7 t hc1),
      Dat.leavesExact_idle (dat0 V c) 8 t (idleAt0_8 t hc1) (noFlush0_8 t hc1)]
    rw [sc0_first_fst V c t h0, sc0_first_snd V c t h0]
    rw [Phi0_castSucc V c t, PhiS0_zero V c _ _ h0, PhiA0_eq]
    iintro ⟨⟨⟨⟨⟨%ds, HS⟩, ⟨%dq, HQ⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernel0_A c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) hc0 hc1 _ _ _)
    iframe H0 H1 H2 H3 H4 H5 H7 H8
    isplitl [H6]; · iexists _; iexact H6
    isplitl [HS]; · iexists _; iexact HS
    isplitl [HQ]; · iexists _; iexact HQ
    iintro ⟨H0, H1, H2, H3, H4, H5, H6, H7, H8, HS, HQ⟩
    iframe HS HQ HR Hg
    iframe Ho H0 H1 H2 H3 H4 H5 H6
    isplitl [H7]; · iexists _; iexact H7
    iexists _; iexact H8
  · have hc0 : ¬cond0_0 (grid0.coords t) := fun h => h0 ((hcond0_0 t).mp h)
    rw [sc0_later_fst V c t h0, sc0_later_snd V c t h0]
    rw [Phi0_castSucc V c t, PhiS0_pos V c _ _ h0]
    by_cases h1 : t.val = 24
    · have hc1 : cond0_1 (grid0.coords t) := (hcond0_1 t).mpr h1
      rw [show (dat0 V c).leavesExact 7 t = owns (c : Thread nD τ) (st0_7 t) fullShare ((dat0 V c).after 7 t) from by
        unfold Dat.leavesExact; rw [liveAt0_7 t hc1], after0_7]
      rw [show (dat0 V c).leavesExact 8 t = owns (c : Thread nD τ) (st0_8 t) fullShare ((dat0 V c).after 8 t) from by
        unfold Dat.leavesExact; rw [liveAt0_8 t hc1], after0_8]
      rw [sc0_later_fst V c t h0, sc0_later_snd V c t h0]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel0_C c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) hc0 hc1 _ _ _)
      iframe H0 H1 H2 H3 H4 H5 HS HQ
      isplitl [H6]; · iexists _; iexact H6
      isplitl [H7]; · iexists _; iexact H7
      isplitl [H8]; · iexists _; iexact H8
      iintro ⟨H0, H1, H2, H3, H4, H5, H6, H7, H8, HS, HQ⟩
      iframe HS HQ HR Hg
      iframe Ho H0 H1 H2 H3 H4 H5 H6 H7
      iexact H8
    · have hc1 : ¬cond0_1 (grid0.coords t) := fun h => h1 ((hcond0_1 t).mp h)
      rw [Dat.leavesExact_idle (dat0 V c) 7 t (idleAt0_7 t hc1) (noFlush0_7 t hc1),
        Dat.leavesExact_idle (dat0 V c) 8 t (idleAt0_8 t hc1) (noFlush0_8 t hc1)]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel0_B c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) hc0 hc1 _ _ _ _ _)
      iframe H0 H1 H2 H3 H4 H5 H7 H8 HS HQ
      isplitl [H6]; · iexists _; iexact H6
      iintro ⟨H0, H1, H2, H3, H4, H5, H6, H7, H8, HS, HQ⟩
      iframe HS HQ HR Hg
      iframe Ho H0 H1 H2 H3 H4 H5 H6
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨HS, HQ, HR, Hg⟩
  isplitl [HS HQ HR]
  · isplitl [HS HQ]
    · isplitl [HS]; · iexists _; iexact HS
      iexists _; iexact HQ
    iexact HR
  iexact Hg

end Cert.KernelIdeal.Gen

end
-- ==== Proof.Mlp2Frame.lean ====
import proofs.«420740_j41515153883619_1_alg».proof.Proof.Mlp2Data
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop :=
  (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1

theorem hcond2_1 : ∀ t : Fin cfg2.N, cond2_1 (grid2.coords t) ↔ t.val = 24 :=
  (by decide +kernel : ∀ t : Fin grid2.N, cond2_1 (grid2.coords t) ↔ t.val = 24)

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel

theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel

theorem liveAt2_7 : ∀ t : Fin cfg2.N, cond2_1 (grid2.coords t) → cfg2.idle 7 (grid2.coords t) = false := by decide +kernel
theorem liveAt2_8 : ∀ t : Fin cfg2.N, cond2_1 (grid2.coords t) → cfg2.idle 8 (grid2.coords t) = false := by decide +kernel

theorem hz2 : (![0, 0] : Fin 2 → Nat) = fun _ => 0 := funext fun a => by fin_cases a <;> rfl

section Body

variable (c : Dev nD) (E : Set ℕ) (i : grid2.Coords)
  (arg1 : Memref sig .tc .vmem S2000x128 .f32) (harg1 : arg1.IsWhole) (arg2 : Memref sig .tc .vmem S2000x128 .f32) (harg2 : arg2.IsWhole)
  (arg3 : Memref sig .tc .vmem S128x128 .f32) (harg3 : arg3.IsWhole) (arg4 : Memref sig .tc .vmem S1x128 .f32) (harg4 : arg4.IsWhole)
  (arg5 : Memref sig .tc .vmem S128x128 .f32) (harg5 : arg5.IsWhole) (arg6 : Memref sig .tc .vmem S1x128 .f32) (harg6 : arg6.IsWhole)
  (arg7 : Memref sig .tc .vmem S2000x128 .f32) (harg7 : arg7.IsWhole) (arg8 : Memref sig .tc .vmem S1x128 .f32) (harg8 : arg8.IsWhole)
  (arg9 : Memref sig .tc .vmem S1x128 .f32) (harg9 : arg9.IsWhole) (arg10 : Memref sig .tc .vmem S1x128 .f32) (harg10 : arg10.IsWhole)
  (arg11 : Memref sig .tc .vmem S1x128 .f32) (harg11 : arg11.IsWhole)
  (x0 x1 : Vec F S2000x128 .f32) (x2 : Vec F S128x128 .f32) (x3 : Vec F S1x128 .f32) (x4 : Vec F S128x128 .f32) (x5 : Vec F S1x128 .f32)

set_option maxHeartbeats 4000000 in
theorem kernel2_A
    (hc0 : cond2_0 i) (hc1 : ¬cond2_1 i)
    (y7 y8 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg8 fullShare y7 ∗ owns (c : Thread nD τ) arg9 fullShare y8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k2_pay5 x0 x1 x2 x3 x4 x5)
            ∗ owns (c : Thread nD τ) arg8 fullShare y7 ∗ owns (c : Thread nD τ) arg9 fullShare y8
            ∗ owns (c : Thread nD τ) arg10 fullShare (accS2 (k2_pay3 (F := F)) x0 x1 x2 x3 x4 x5)
            ∗ owns (c : Thread nD τ) arg11 fullShare (accQ2 (k2_pay4 (F := F)) x0 x1 x2 x3 x4 x5)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K := by
  simp only [cc2__mlp_kernel_eq_skeleton]; unfold cc2__mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds, %fs, -, HS⟩, ⟨%dq, %fq, -, HQ⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf7; obtain rfl := harg9.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [View.read_writes_eq_canon _ _ _ (View.cover_of_tiled _ S2000x128.size (by rfl)), View.canon_unit_zero hz2]
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2]
  isplitl [H7]
  · iexists _; isplitr; · ipureintro; exact harg8.read_unread _
    iexact H7
  isplitl [H8]
  · iexists _; isplitr; · ipureintro; exact harg9.read_unread _
    iexact H8
  isplitl [HS]
  · iexists _; isplitr
    swap; · iexact HS
    ipureintro
    sl_unfold_words
    rw [View.read_writes_eq_canon _ _ _ (View.cover_of_tiledL _ S1x128.size (by rfl)), View.canon_cons_unit_zero (S := S1x128) hz2]
    unfold accS2
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2,
      View.readCov_unit_zero (S := S1x128) _ hz2]
  iexists _; isplitr
  swap; · iexact HQ
  ipureintro
  sl_unfold_words
  rw [View.read_writes_eq_canon _ _ _ (View.cover_of_tiledL _ S1x128.size (by rfl)), View.canon_cons_unit_zero (S := S1x128) hz2]
  unfold accQ2
  simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2,
      View.readCov_unit_zero (S := S1x128) _ hz2]

set_option maxHeartbeats 4000000 in
theorem kernel2_B
    (hc0 : ¬cond2_0 i) (hc1 : ¬cond2_1 i)
    (y7 y8 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg8 fullShare y7 ∗ owns (c : Thread nD τ) arg9 fullShare y8
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k2_pay5 x0 x1 x2 x3 x4 x5)
            ∗ owns (c : Thread nD τ) arg8 fullShare y7 ∗ owns (c : Thread nD τ) arg9 fullShare y8
            ∗ owns (c : Thread nD τ) arg10 fullShare (accS2 s x0 x1 x2 x3 x4 x5) ∗ owns (c : Thread nD τ) arg11 fullShare (accQ2 q x0 x1 x2 x3 x4 x5)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K := by
  simp only [cc2__mlp_kernel_eq_skeleton]; unfold cc2__mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs, %hfs, HS⟩, ⟨%fq, %hfq, HQ⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf7; obtain rfl := harg9.eq_unread hf8
  obtain rfl := harg10.eq_unread hfs; obtain rfl := harg11.eq_unread hfq
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [View.read_writes_eq_canon _ _ _ (View.cover_of_tiled _ S2000x128.size (by rfl)), View.canon_unit_zero hz2]
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2]
  isplitl [H7]
  · iexists _; isplitr; · ipureintro; exact harg8.read_unread _
    iexact H7
  isplitl [H8]
  · iexists _; isplitr; · ipureintro; exact harg9.read_unread _
    iexact H8
  isplitl [HS]
  · iexists _; isplitr
    swap; · iexact HS
    ipureintro
    sl_unfold_words
    rw [View.read_writes_eq_canon _ _ _ (View.cover_of_tiled _ S1x128.size (by rfl)), View.canon_unit_zero hz2]
    unfold accS2
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2]
  iexists _; isplitr
  swap; · iexact HQ
  ipureintro
  sl_unfold_words
  rw [View.read_writes_eq_canon _ _ _ (View.cover_of_tiled _ S1x128.size (by rfl)), View.canon_unit_zero hz2]
  unfold accQ2
  simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2]

set_option maxHeartbeats 4000000 in
theorem kernel2_C
    (hc0 : ¬cond2_0 i) (hc1 : cond2_1 i)
    (s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (∃ d, owns (c : Thread nD τ) arg8 fullShare d) ∗ (∃ d, owns (c : Thread nD τ) arg9 fullShare d)
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k2_pay5 x0 x1 x2 x3 x4 x5)
            ∗ owns (c : Thread nD τ) arg8 fullShare (accS2 s x0 x1 x2 x3 x4 x5) ∗ owns (c : Thread nD τ) arg9 fullShare (accQ2 q x0 x1 x2 x3 x4 x5)
            ∗ owns (c : Thread nD τ) arg10 fullShare (accS2 s x0 x1 x2 x3 x4 x5) ∗ owns (c : Thread nD τ) arg11 fullShare (accQ2 q x0 x1 x2 x3 x4 x5)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K := by
  simp only [cc2__mlp_kernel_eq_skeleton]; unfold cc2__mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs, %hfs, HS⟩, ⟨%fq, %hfq, HQ⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg10.eq_unread hfs; obtain rfl := harg11.eq_unread hfq
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [View.read_writes_eq_canon _ _ _ (View.cover_of_tiled _ S2000x128.size (by rfl)), View.canon_unit_zero hz2]
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2]
  isplitl [H7]
  · iexists _; isplitr
    swap; · iexact H7
    ipureintro
    sl_unfold_words
    rw [View.read_writes_eq_canon _ _ _ (View.cover_of_tiled _ S1x128.size (by rfl)), View.canon_unit_zero hz2]
    unfold accS2
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2,
      View.readCov_unit_zero (S := S1x128) _ hz2]
  isplitl [H8]
  · iexists _; isplitr
    swap; · iexact H8
    ipureintro
    sl_unfold_words
    rw [View.read_writes_eq_canon _ _ _ (View.cover_of_tiled _ S1x128.size (by rfl)), View.canon_unit_zero hz2]
    unfold accQ2
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2,
      View.readCov_unit_zero (S := S1x128) _ hz2]
  isplitl [HS]
  · iexists _; isplitr
    swap; · iexact HS
    ipureintro
    sl_unfold_words
    rw [View.read_writes_eq_canon _ _ _ (View.cover_of_tiled _ S1x128.size (by rfl)), View.canon_unit_zero hz2]
    unfold accS2
    simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2]
  iexists _; isplitr
  swap; · iexact HQ
  ipureintro
  sl_unfold_words
  rw [View.read_writes_eq_canon _ _ _ (View.cover_of_tiled _ S1x128.size (by rfl)), View.canon_unit_zero hz2]
  unfold accQ2
  simp only [View.readAt_eq_ld, harg1.read_unread, harg2.read_unread, harg3.read_unread, harg4.read_unread, harg5.read_unread, harg6.read_unread, harg10.read_unread, harg11.read_unread,
      View.ld_unit_zero (S := S2000x128) hz2, View.ld_unit_zero (S := S128x128) hz2, View.ld_unit_zero (S := S1x128) hz2]

end Body

theorem sc2_first_fst (c : Dev nD) (t : Fin cfg2.N) (h : t.val = 0) :
    (sc2 V c t.val t.isLt).1 = accS2 (k2_pay3 (F := F)) (iblk2 V c 0 t) (iblk2 V c 1 t) (iblk2 V c 2 t) (iblk2 V c 3 t) (iblk2 V c 4 t) (iblk2 V c 5 t) := by
  rw [sc2_first V c t h]

theorem sc2_first_snd (c : Dev nD) (t : Fin cfg2.N) (h : t.val = 0) :
    (sc2 V c t.val t.isLt).2 = accQ2 (k2_pay4 (F := F)) (iblk2 V c 0 t) (iblk2 V c 1 t) (iblk2 V c 2 t) (iblk2 V c 3 t) (iblk2 V c 4 t) (iblk2 V c 5 t) := by
  rw [sc2_first V c t h]

theorem sc2_later_fst (c : Dev nD) (t : Fin cfg2.N) (h : t.val ≠ 0) :
    (sc2 V c t.val t.isLt).1 = accS2 (sc2 V c (t.val - 1) (Nat.lt_of_le_of_lt (Nat.sub_le _ _) t.isLt)).1 (iblk2 V c 0 t) (iblk2 V c 1 t) (iblk2 V c 2 t) (iblk2 V c 3 t) (iblk2 V c 4 t) (iblk2 V c 5 t) := by
  rw [sc2_later V c t h]

theorem sc2_later_snd (c : Dev nD) (t : Fin cfg2.N) (h : t.val ≠ 0) :
    (sc2 V c t.val t.isLt).2 = accQ2 (sc2 V c (t.val - 1) (Nat.lt_of_le_of_lt (Nat.sub_le _ _) t.isLt)).2 (iblk2 V c 0 t) (iblk2 V c 1 t) (iblk2 V c 2 t) (iblk2 V c 3 t) (iblk2 V c 4 t) (iblk2 V c 5 t) := by
  rw [sc2_later V c t h]

theorem PhiA2_eq (c : Dev nD) :
    (Pipeline.ΦA spec2 c : sProp 𝕄)
      = iprop((((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  have hN : t.val < 25 := lt_of_lt_of_eq t.isLt (show cfg2.N = 25 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 7 t (idleAt2_7 t hc1) (noFlush2_7 t hc1),
      Dat.leavesExact_idle (dat2 V c) 8 t (idleAt2_8 t hc1) (noFlush2_8 t hc1)]
    rw [sc2_first_fst V c t h0, sc2_first_snd V c t h0]
    rw [Phi2_castSucc V c t, PhiS2_zero V c _ _ h0, PhiA2_eq]
    iintro ⟨⟨⟨⟨⟨%ds, HS⟩, ⟨%dq, HQ⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernel2_A c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) hc0 hc1 _ _ _)
    iframe H0 H1 H2 H3 H4 H5 H7 H8
    isplitl [H6]; · iexists _; iexact H6
    isplitl [HS]; · iexists _; iexact HS
    isplitl [HQ]; · iexists _; iexact HQ
    iintro ⟨H0, H1, H2, H3, H4, H5, H6, H7, H8, HS, HQ⟩
    iframe HS HQ HR Hg
    iframe Ho H0 H1 H2 H3 H4 H5 H6
    isplitl [H7]; · iexists _; iexact H7
    iexists _; iexact H8
  · have hc0 : ¬cond2_0 (grid2.coords t) := fun h => h0 ((hcond2_0 t).mp h)
    rw [sc2_later_fst V c t h0, sc2_later_snd V c t h0]
    rw [Phi2_castSucc V c t, PhiS2_pos V c _ _ h0]
    by_cases h1 : t.val = 24
    · have hc1 : cond2_1 (grid2.coords t) := (hcond2_1 t).mpr h1
      rw [show (dat2 V c).leavesExact 7 t = owns (c : Thread nD τ) (st2_7 t) fullShare ((dat2 V c).after 7 t) from by
        unfold Dat.leavesExact; rw [liveAt2_7 t hc1], after2_7]
      rw [show (dat2 V c).leavesExact 8 t = owns (c : Thread nD τ) (st2_8 t) fullShare ((dat2 V c).after 8 t) from by
        unfold Dat.leavesExact; rw [liveAt2_8 t hc1], after2_8]
      rw [sc2_later_fst V c t h0, sc2_later_snd V c t h0]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_C c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) hc0 hc1 _ _ _)
      iframe H0 H1 H2 H3 H4 H5 HS HQ
      isplitl [H6]; · iexists _; iexact H6
      isplitl [H7]; · iexists _; iexact H7
      isplitl [H8]; · iexists _; iexact H8
      iintro ⟨H0, H1, H2, H3, H4, H5, H6, H7, H8, HS, HQ⟩
      iframe HS HQ HR Hg
      iframe Ho H0 H1 H2 H3 H4 H5 H6 H7
      iexact H8
    · have hc1 : ¬cond2_1 (grid2.coords t) := fun h => h1 ((hcond2_1 t).mp h)
      rw [Dat.leavesExact_idle (dat2 V c) 7 t (idleAt2_7 t hc1) (noFlush2_7 t hc1),
        Dat.leavesExact_idle (dat2 V c) 8 t (idleAt2_8 t hc1) (noFlush2_8 t hc1)]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_B c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) hc0 hc1 _ _ _ _ _)
      iframe H0 H1 H2 H3 H4 H5 H7 H8 HS HQ
      isplitl [H6]; · iexists _; iexact H6
      iintro ⟨H0, H1, H2, H3, H4, H5, H6, H7, H8, HS, HQ⟩
      iframe HS HQ HR Hg
      iframe Ho H0 H1 H2 H3 H4 H5 H6
      isplitl [H7]; · iexists _; iexact H7
      iexists _; iexact H8

theorem body_obligation2 (c : Dev nD) : BodyObligation (dat2 (F := F) V c) (defs₀ (F := F)) Variants.none () Set.univ := fun t => by
  rw [bigSep_W2, bigSep_W2]
  exact sound_body2 V c t

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 25 := N_2; omega), PhiA2_eq]
  iintro ⟨HS, HQ, HR, Hg⟩
  isplitl [HS HQ HR]
  · isplitl [HS HQ]
    · isplitl [HS]; · iexists _; iexact HS
      iexists _; iexact HQ
    iexact HR
  iexact Hg

end Cert.KernelIdeal.Gen

end
-- ==== Proof.SameBody.lean ====
-- The second and third perceptron regions run one body, and so do the first two normalisation regions.
import proofs.«420740_j41515153883619_1_alg».proof.Proof.Gen.KernelIdeal.Skeleton

noncomputable section

namespace Cert.KernelIdeal.Gen

open Idealize.ShloMosaic Idealize.SL.Sem

variable {F : FTy → Type} [FloatOps F]

theorem cc4_eq_cc2 : cc4__mlp_kernel (F := F) = cc2__mlp_kernel (F := F) := rfl

theorem cc3_eq_cc1 : cc3__bn_kernel (F := F) = cc1__bn_kernel (F := F) := rfl

end Cert.KernelIdeal.Gen

end
-- ==== Proof.Mlp4Frame.lean ====
-- The third perceptron region runs the same body as the second: the second region's three body triples are used here unchanged.
import proofs.«420740_j41515153883619_1_alg».proof.Proof.Mlp4Data
import Idealize.ShloMosaic.Lib.Pipeline.Value
import proofs.«420740_j41515153883619_1_alg».proof.Proof.Mlp2Frame
import proofs.«420740_j41515153883619_1_alg».proof.Proof.SameBody

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop :=
  (Scalar.cmpi .ne (Scalar.extui (Scalar.cmpi .eq (BitVec.ofNat 32 (i 0).val) 0#32)) 0#32) = 1#1

theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1

theorem hcond4_1 : ∀ t : Fin cfg4.N, cond4_1 (grid4.coords t) ↔ t.val = 24 :=
  (by decide +kernel : ∀ t : Fin grid4.N, cond4_1 (grid4.coords t) ↔ t.val = 24)

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

theorem before4_4 (c : Dev nD) (t : Fin cfg4.N) (d) : (dat4 V c).before 4 t d = iblk4 V c 4 t :=
  ((dat4 V c).before_in_eq_fetched 4 rfl (fun _ => rfl) (fun _ _ _ => rfl)
    (fun t => by rw [after4_4]; unfold Dat.blockOf iblk4; rw [A_eq4]; try rfl) t d).trans
    (by unfold Dat.fetched Dat.blockOf iblk4; rw [A_eq4]; try rfl)

theorem before4_5 (c : Dev nD) (t : Fin cfg4.N) (d) : (dat4 V c).before 5 t d = iblk4 V c 5 t :=
  ((dat4 V c).before_in_eq_fetched 5 rfl (fun _ => rfl) (fun _ _ _ => rfl)
    (fun t => by rw [after4_5]; unfold Dat.blockOf iblk4; rw [A_eq4]; try rfl) t d).trans
    (by unfold Dat.fetched Dat.blockOf iblk4; rw [A_eq4]; try rfl)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel

theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem idleAt4_8 : ∀ t : Fin cfg4.N, ¬cond4_1 (grid4.coords t) → cfg4.idle 8 (grid4.coords t) = true := by decide +kernel
theorem noFlush4_8 : ∀ t : Fin cfg4.N, ¬cond4_1 (grid4.coords t) → (cfg4.win 8).flush t = false := by decide +kernel

theorem liveAt4_7 : ∀ t : Fin cfg4.N, cond4_1 (grid4.coords t) → cfg4.idle 7 (grid4.coords t) = false := by decide +kernel
theorem liveAt4_8 : ∀ t : Fin cfg4.N, cond4_1 (grid4.coords t) → cfg4.idle 8 (grid4.coords t) = false := by decide +kernel

theorem sc4_first_fst (c : Dev nD) (t : Fin cfg4.N) (h : t.val = 0) :
    (sc4 V c t.val t.isLt).1 = accS2 (k2_pay3 (F := F)) (iblk4 V c 0 t) (iblk4 V c 1 t) (iblk4 V c 2 t) (iblk4 V c 3 t) (iblk4 V c 4 t) (iblk4 V c 5 t) := by
  rw [sc4_first V c t h]

theorem sc4_first_snd (c : Dev nD) (t : Fin cfg4.N) (h : t.val = 0) :
    (sc4 V c t.val t.isLt).2 = accQ2 (k2_pay4 (F := F)) (iblk4 V c 0 t) (iblk4 V c 1 t) (iblk4 V c 2 t) (iblk4 V c 3 t) (iblk4 V c 4 t) (iblk4 V c 5 t) := by
  rw [sc4_first V c t h]

theorem sc4_later_fst (c : Dev nD) (t : Fin cfg4.N) (h : t.val ≠ 0) :
    (sc4 V c t.val t.isLt).1 = accS2 (sc4 V c (t.val - 1) (Nat.lt_of_le_of_lt (Nat.sub_le _ _) t.isLt)).1 (iblk4 V c 0 t) (iblk4 V c 1 t) (iblk4 V c 2 t) (iblk4 V c 3 t) (iblk4 V c 4 t) (iblk4 V c 5 t) := by
  rw [sc4_later V c t h]

theorem sc4_later_snd (c : Dev nD) (t : Fin cfg4.N) (h : t.val ≠ 0) :
    (sc4 V c t.val t.isLt).2 = accQ2 (sc4 V c (t.val - 1) (Nat.lt_of_le_of_lt (Nat.sub_le _ _) t.isLt)).2 (iblk4 V c 0 t) (iblk4 V c 1 t) (iblk4 V c 2 t) (iblk4 V c 3 t) (iblk4 V c 4 t) (iblk4 V c 5 t) := by
  rw [sc4_later V c t h]

theorem PhiA4_eq (c : Dev nD) :
    (Pipeline.ΦA spec4 c : sProp 𝕄)
      = iprop((((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_eq_cc2]
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  rw [show (dat4 V c).leavesExact 5 t = owns (c : Thread nD τ) (st4_5 t) fullShare ((dat4 V c).after 5 t) from by
    unfold Dat.leavesExact; rw [liveAt4_5 t], after4_5]
  rw [show (dat4 V c).leavesExact 6 t = owns (c : Thread nD τ) (st4_6 t) fullShare ((dat4 V c).after 6 t) from by
    unfold Dat.leavesExact; rw [liveAt4_6 t], after4_6]
  have hN : t.val < 25 := lt_of_lt_of_eq t.isLt (show cfg4.N = 25 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 7 t (idleAt4_7 t hc1) (noFlush4_7 t hc1),
      Dat.leavesExact_idle (dat4 V c) 8 t (idleAt4_8 t hc1) (noFlush4_8 t hc1)]
    rw [sc4_first_fst V c t h0, sc4_first_snd V c t h0]
    rw [Phi4_castSucc V c t, PhiS4_zero V c _ _ h0, PhiA4_eq]
    iintro ⟨⟨⟨⟨⟨%ds, HS⟩, ⟨%dq, HQ⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernel2_A c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) hc0 hc1 _ _ _)
    iframe H0 H1 H2 H3 H4 H5 H7 H8
    isplitl [H6]; · iexists _; iexact H6
    isplitl [HS]; · iexists _; iexact HS
    isplitl [HQ]; · iexists _; iexact HQ
    iintro ⟨H0, H1, H2, H3, H4, H5, H6, H7, H8, HS, HQ⟩
    iframe HS HQ HR Hg
    iframe Ho H0 H1 H2 H3 H4 H5 H6
    isplitl [H7]; · iexists _; iexact H7
    iexists _; iexact H8
  · have hc0 : ¬cond4_0 (grid4.coords t) := fun h => h0 ((hcond4_0 t).mp h)
    rw [sc4_later_fst V c t h0, sc4_later_snd V c t h0]
    rw [Phi4_castSucc V c t, PhiS4_pos V c _ _ h0]
    by_cases h1 : t.val = 24
    · have hc1 : cond4_1 (grid4.coords t) := (hcond4_1 t).mpr h1
      rw [show (dat4 V c).leavesExact 7 t = owns (c : Thread nD τ) (st4_7 t) fullShare ((dat4 V c).after 7 t) from by
        unfold Dat.leavesExact; rw [liveAt4_7 t hc1], after4_7]
      rw [show (dat4 V c).leavesExact 8 t = owns (c : Thread nD τ) (st4_8 t) fullShare ((dat4 V c).after 8 t) from by
        unfold Dat.leavesExact; rw [liveAt4_8 t hc1], after4_8]
      rw [sc4_later_fst V c t h0, sc4_later_snd V c t h0]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_C c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) hc0 hc1 _ _ _)
      iframe H0 H1 H2 H3 H4 H5 HS HQ
      isplitl [H6]; · iexists _; iexact H6
      isplitl [H7]; · iexists _; iexact H7
      isplitl [H8]; · iexists _; iexact H8
      iintro ⟨H0, H1, H2, H3, H4, H5, H6, H7, H8, HS, HQ⟩
      iframe HS HQ HR Hg
      iframe Ho H0 H1 H2 H3 H4 H5 H6 H7
      iexact H8
    · have hc1 : ¬cond4_1 (grid4.coords t) := fun h => h1 ((hcond4_1 t).mp h)
      rw [Dat.leavesExact_idle (dat4 V c) 7 t (idleAt4_7 t hc1) (noFlush4_7 t hc1),
        Dat.leavesExact_idle (dat4 V c) 8 t (idleAt4_8 t hc1) (noFlush4_8 t hc1)]
      iintro ⟨⟨HS, HQ, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel2_B c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) hc0 hc1 _ _ _ _ _)
      iframe H0 H1 H2 H3 H4 H5 H7 H8 HS HQ
      isplitl [H6]; · iexists _; iexact H6
      iintro ⟨H0, H1, H2, H3, H4, H5, H6, H7, H8, HS, HQ⟩
      iframe HS HQ HR Hg
      iframe Ho H0 H1 H2 H3 H4 H5 H6
      isplitl [H7]; · iexists _; iexact H7
      iexists _; iexact H8

theorem body_obligation4 (c : Dev nD) : BodyObligation (dat4 (F := F) V c) (defs₀ (F := F)) Variants.none () Set.univ := fun t => by
  rw [bigSep_W4, bigSep_W4]
  exact sound_body4 V c t

theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 25 := N_4; omega), PhiA4_eq]
  iintro ⟨HS, HQ, HR, Hg⟩
  isplitl [HS HQ HR]
  · isplitl [HS HQ]
    · isplitl [HS]; · iexists _; iexact HS
      iexists _; iexact HQ
    iexact HR
  iexact Hg

end Cert.KernelIdeal.Gen

end
-- ==== Proof.Bn1Frame.lean ====
import proofs.«420740_j41515153883619_1_alg».proof.Proof.Gen.KernelIdeal.Launch
import proofs.«420740_j41515153883619_1_alg».proof.Proof.Gen.KernelIdeal.Skeleton
import proofs.«420740_j41515153883619_1_alg».proof.Proof.Gen.KernelIdeal.Points
import proofs.«420740_j41515153883619_1_alg».proof.Proof.Bn1Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0

theorem zero_offsets1 : (![0, 0] : Fin 2 → Nat) = fun _ => 0 := funext fun a => by fin_cases a <;> rfl

def out1_3 (x0 : Vec F S2000x128 .f32) (x1 : Vec F S1x128 .f32) (x2 : Vec F S1x128 .f32) : Vec F S2000x128 .f32 :=
  View.canon [⟨r1_0, k1_pay1 (View.ld x0 r1_0) (View.ld x1 r1_1) (View.ld x2 r1_1)⟩]

theorem out1_3_eq (x0 : Vec F S2000x128 .f32) (x1 : Vec F S1x128 .f32) (x2 : Vec F S1x128 .f32) :
    out1_3 x0 x1 x2 = k1_pay1 x0 x1 x2 := by
  unfold out1_3
  rw [View.canon_unit_zero zero_offsets1]
  simp only [View.ld_unit_zero (S := S2000x128) zero_offsets1, View.ld_unit_zero (S := S1x128) zero_offsets1]

theorem cover1_3 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

set_option maxHeartbeats 1000000 in
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bn_kernel i arg1 harg1 arg2 harg2 arg3 harg3 arg4 harg4) K := by
  simp only [cc1__bn_kernel_eq_skeleton]; unfold cc1__bn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, ← out1_3_eq]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  iframe H0 H1 H2
  isplitl [H3]; · iexists _; iexact H3
  iintro ⟨H0, H1, H2, H3⟩
  iframe HΦ Ho H0 H1 H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.Bn3Frame.lean ====
-- The second normalisation region runs the same body as the first: the first region's body triple is used here unchanged.
import proofs.«420740_j41515153883619_1_alg».proof.Proof.Gen.KernelIdeal.Launch
import proofs.«420740_j41515153883619_1_alg».proof.Proof.Gen.KernelIdeal.Skeleton
import proofs.«420740_j41515153883619_1_alg».proof.Proof.Gen.KernelIdeal.Points
import proofs.«420740_j41515153883619_1_alg».proof.Proof.Bn3Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«420740_j41515153883619_1_alg».proof.Proof.Bn1Frame
import proofs.«420740_j41515153883619_1_alg».proof.Proof.SameBody

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq_cc1]
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, ← out1_3_eq]
  iintro ⟨HΦ, Ho, ⟨%d0, H0⟩, ⟨%d1, H1⟩, ⟨%d2, H2⟩, ⟨%d3, H3⟩⟩
  iapply (sound_kernel1 c Set.univ (grid3.coords t) _ _ _ _ _ _ _ _ (iblk3 V c 0 t) (iblk3 V c 1 t) (iblk3 V c 2 t) _)
  iframe H0 H1 H2
  isplitl [H3]; · iexists _; iexact H3
  iintro ⟨H0, H1, H2, H3⟩
  iframe HΦ Ho H0 H1 H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.Bn5Frame.lean ====
import proofs.«420740_j41515153883619_1_alg».proof.Proof.Gen.KernelIdeal.Launch
import proofs.«420740_j41515153883619_1_alg».proof.Proof.Gen.KernelIdeal.Skeleton
import proofs.«420740_j41515153883619_1_alg».proof.Proof.Gen.KernelIdeal.Points
import proofs.«420740_j41515153883619_1_alg».proof.Proof.Bn5Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0

theorem zero_offsets5 : (![0, 0] : Fin 2 → Nat) = fun _ => 0 := funext fun a => by fin_cases a <;> rfl

def out5_3 (x0 : Vec F S2000x128 .f32) (x1 : Vec F S1x128 .f32) (x2 : Vec F S1x128 .f32) : Vec F S2000x128 .f32 :=
  View.canon [⟨r5_0, k5_pay1 (View.ld x0 r5_0) (View.ld x1 r5_1) (View.ld x2 r5_1)⟩]

theorem out5_3_eq (x0 : Vec F S2000x128 .f32) (x1 : Vec F S1x128 .f32) (x2 : Vec F S1x128 .f32) :
    out5_3 x0 x1 x2 = k5_pay1 x0 x1 x2 := by
  unfold out5_3
  rw [View.canon_unit_zero zero_offsets5]
  simp only [View.ld_unit_zero (S := S2000x128) zero_offsets5, View.ld_unit_zero (S := S1x128) zero_offsets5]

theorem cover5_3 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

set_option maxHeartbeats 1000000 in
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__bn_kernel i arg1 harg1 arg2 harg2 arg3 harg3 arg4 harg4) K := by
  simp only [cc5__bn_kernel_eq_skeleton]; unfold cc5__bn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, ← out5_3_eq]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  iframe H0 H1 H2
  isplitl [H3]; · iexists _; iexact H3
  iintro ⟨H0, H1, H2, H3⟩
  iframe HΦ Ho H0 H1 H2
  iexact H3

theorem body_obligation5 (c : Dev nD) : BodyObligation (dat5 (F := F) V c) (defs₀ (F := F)) Variants.none () Set.univ := fun t => by
  rw [bigSep_W5, bigSep_W5]
  exact sound_body5 V c t

end Cert.KernelIdeal.Gen

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat : Type := Fin 50000 → Fin 128 → EReal

abbrev Sq : Type := Fin 128 → Fin 128 → EReal

abbrev Row : Type := Fin 128 → EReal

def nF : EReal := Ideal.ofBits .f32 0x47435000#32

def epsF : EReal := Ideal.ofBits .f32 0x3727C5AC#32

def toMat (X : (⟨2, ![50000, 128]⟩ : Shape).Idx → EReal) : Mat := fun r j => X (ix2 r j)
def ofMat (M : Mat) : (⟨2, ![50000, 128]⟩ : Shape).Idx → EReal := fun i => M (i 0) (i 1)

theorem ofMat_ix2 (M : Mat) (r : Fin 50000) (j : Fin 128) : ofMat M (ix2 r j) = M r j := rfl
theorem toMat_ofMat (M : Mat) : toMat (ofMat M) = M := rfl
theorem ofMat_toMat (X : (⟨2, ![50000, 128]⟩ : Shape).Idx → EReal) : ofMat (toMat X) = X := by
  funext i; exact congrArg X (eq_ix2 i).symm

def lin (h : Mat) (W : Sq) (b : Row) : Mat := fun r j => (∑ k : Fin 128, h r k * W k j) + b j

def pre (x agg : Mat) (W1 : Sq) (b1 : Row) (W2 : Sq) (b2 : Row) : Mat :=
  lin (fun r k => max (lin (fun r l => x r l + agg r l) W1 b1 r k) 0) W2 b2

def colSum (h : Mat) : Row := fun j => ∑ r : Fin 50000, h r j

def meanOf (h : Mat) : Row := fun j => Ideal.div (colSum h j) nF

def varK (h : Mat) : Row := fun j => Ideal.div (colSum (fun r j => h r j * h r j) j) nF - meanOf h j * meanOf h j
def scaleK (h : Mat) (γ : Row) : Row := fun j => γ j * Ideal.rsqrt (varK h j + epsF)
def shiftK (h : Mat) (γ β : Row) : Row := fun j => β j - meanOf h j * scaleK h γ j
def bnK (h : Mat) (γ β : Row) : Mat := fun r j => h r j * scaleK h γ j + shiftK h γ β j

def varR (h : Mat) : Row := fun j => Ideal.div (colSum (fun r j => (h r j - meanOf h j) * (h r j - meanOf h j)) j) nF
def bnR (h : Mat) (γ β : Row) : Mat := fun r j => (h r j - meanOf h j) * Ideal.rsqrt (varR h j + epsF) * γ j + β j

def reluM (h : Mat) : Mat := fun r j => max (h r j) 0

def layerK (act : Bool) (x agg : Mat) (W1 : Sq) (b1 : Row) (W2 : Sq) (b2 γ β : Row) : Mat :=
  let y := bnK (pre x agg W1 b1 W2 b2) γ β
  if act then reluM y else y
def layerR (act : Bool) (x agg : Mat) (W1 : Sq) (b1 : Row) (W2 : Sq) (b2 γ β : Row) : Mat :=
  let y := bnR (pre x agg W1 b1 W2 b2) γ β
  if act then reluM y else y

def MatReal (h : Mat) : Prop := ∀ r j, ∃ a : ℝ, h r j = (a : EReal)
def RowReal (v : Row) : Prop := ∀ j, ∃ a : ℝ, v j = (a : EReal)
def SqReal (W : Sq) : Prop := ∀ k j, ∃ a : ℝ, W k j = (a : EReal)

def netK (A : Mat → Mat) (x : Mat) (W1 W2 : Fin 3 → Sq) (b1 b2 γ β : Fin 3 → Row) : Mat :=
  let x1 := layerK true x (A x) (W1 0) (b1 0) (W2 0) (b2 0) (γ 0) (β 0)
  let x2 := layerK true x1 (A x1) (W1 1) (b1 1) (W2 1) (b2 1) (γ 1) (β 1)
  layerK false x2 (A x2) (W1 2) (b1 2) (W2 2) (b2 2) (γ 2) (β 2)
def netR (A : Mat → Mat) (x : Mat) (W1 W2 : Fin 3 → Sq) (b1 b2 γ β : Fin 3 → Row) : Mat :=
  let x1 := layerR true x (A x) (W1 0) (b1 0) (W2 0) (b2 0) (γ 0) (β 0)
  let x2 := layerR true x1 (A x1) (W1 1) (b1 1) (W2 1) (b2 1) (γ 1) (β 1)
  layerR false x2 (A x2) (W1 2) (b1 2) (W2 2) (b2 2) (γ 2) (β 2)

end Cert.Spec

end
-- ==== Proof.Params.lean ====
import proofs.«420740_j41515153883619_1_alg».proof.Proof.Spec

noncomputable section

namespace Cert.Spec

open Idealize.ShloMosaic Idealize.ShloMosaic.ValueIdx

def sq3 (W : (⟨3, ![3, 128, 128]⟩ : Shape).Idx → EReal) : Fin 3 → Sq := fun l k j => W (ix3 l k j)

def row3 (b : (⟨2, ![3, 128]⟩ : Shape).Idx → EReal) : Fin 3 → Row := fun l j => b (ix2 l j)

def ArrReal {S : Shape} (X : S.Idx → EReal) : Prop := ∀ i, ∃ a : ℝ, X i = (a : EReal)

theorem toMat_real {X : (⟨2, ![50000, 128]⟩ : Shape).Idx → EReal} (h : ArrReal X) : MatReal (toMat X) := fun r j => h (ix2 r j)
theorem sq3_real {W : (⟨3, ![3, 128, 128]⟩ : Shape).Idx → EReal} (h : ArrReal W) (l : Fin 3) : SqReal (sq3 W l) := fun k j => h (ix3 l k j)
theorem row3_real {b : (⟨2, ![3, 128]⟩ : Shape).Idx → EReal} (h : ArrReal b) (l : Fin 3) : RowReal (row3 b l) := fun j => h (ix2 l j)

end Cert.Spec

end
-- ==== Proof.PreDecode.lean ====
import proofs.«420740_j41515153883619_1_alg».proof.Defs
import proofs.«420740_j41515153883619_1_alg».proof.Proof.Gen.Pre_finite_inputs
import proofs.«420740_j41515153883619_1_alg».proof.Proof.Params
import Idealize.ShloMosaic.Lib.ReduceAll
import Idealize.ShloMosaic.Lib.StableHlo.Predicate
import Idealize.ShloMosaic.Lib.ValueIdx
import Idealize.ShloMosaic.Lib.Pipeline.Value

noncomputable section

namespace Cert.Spec

open Idealize.ShloMosaic Idealize.ShloMosaic.ValueIdx

def SrcInRange (E : (⟨2, ![2, 800000]⟩ : Shape).Idx → BitVec 32) : Prop :=
  ∀ e : Fin 800000, (0 : Int) ≤ (E (ix2 0 e)).toInt ∧ (E (ix2 0 e)).toInt < 50000

end Cert.Spec

namespace Cert.PreDecode

open Idealize.ShloMosaic Idealize.ShloMosaic.TcCoe Idealize.SL.Sem Idealize.ShloMosaic.ValueIdx Cert.Spec

open Cert.Pre_finite_inputs Cert.Pre_finite_inputs.Facts

local instance : Subsingleton S_.Idx := ⟨fun a b => funext fun d => d.elim0⟩

theorem inf_bits : Ideal.ofBits .f32 0x7F800000#32 = (⊤ : EReal) := by
  simp [Ideal.ofBits, Ideal.ieee]

theorem real_of_abs_lt (x : EReal) (h : Ideal.cmp .olt (max x (-x)) (Ideal.ofBits .f32 0x7F800000#32) = 1#1) :
    ∃ a : ℝ, x = (a : EReal) := by
  rw [inf_bits] at h
  unfold Ideal.cmp at h
  rw [StableHlo.Predicate.ofBool_eq_one_iff] at h
  simp only [decide_eq_true_eq] at h
  induction x using EReal.rec with
  | bot => simp at h
  | coe a => exact ⟨a, rfl⟩
  | top => simp at h

theorem real_of_all {s : Shape} {axes : List (Fin s.rank)} (X : FVec Ideal s .f32)
    (hb : S_.BroadcastsInDim s (![] : Fin 0 → Fin s.rank)) (hr : s.ReducesTo axes S_) (hu : 0 < S_.numel)
    (e : Host.reduce IntOp.andi (cmpf .olt (Host.absf X) (broadcastInDim s ![] hb (constant S_ .f32 0x7F800000#32)))
      (constantI S_ 1 1#1) hr hu ix0 = 1#1) : ArrReal X := by
  intro i
  have h := Host.reduce_andi_all _ _ hr hu ix0 e i
  exact real_of_abs_lt (X i) h

theorem row0_apply [Facts] (a1 : IVec S2x800000 32) (e : Fin 800000) :
    shapeCast S800000 ((extractStridedSlice S1x800000 ![0, 0] · slices_S2x800000_S1x800000_0_0) a1) shapeCasts_S1x800000_S800000 (ix1 e)
      = a1 (ix2 0 e) := by
  refine (shapeCast_apply _ shapeCasts_S1x800000_S800000 (ix1 e) (ix2 (0 : Fin 1) e) ?_).trans ?_
  · rewrite [Shape.rowMajor_val_two, Shape.rowMajor_val_one]
    show 0 * 800000 + e.val = e.val
    omega
  · exact extractStridedSlice_apply ![0, 0] a1 slices_S2x800000_S1x800000_0_0 (ix2 (0 : Fin 1) e) (ix2 (0 : Fin 2) e) (fun a => match a with
      | ⟨0, _⟩ => by show (0 : Nat) = 0 + 0; omega
      | ⟨1, _⟩ => by show e.val = 0 + e.val; omega)

theorem src_of_all [Facts] (a1 : IVec S2x800000 32)
    (e : Host.reduce IntOp.andi
      (andi
        (cmpi .sge (shapeCast S800000 ((extractStridedSlice S1x800000 ![0, 0] · slices_S2x800000_S1x800000_0_0) a1) shapeCasts_S1x800000_S800000)
          (broadcastInDim S800000 ![] bcast_S_S800000 (constantI S_ 32 0#32)))
        (cmpi .slt (shapeCast S800000 ((extractStridedSlice S1x800000 ![0, 0] · slices_S2x800000_S1x800000_0_0) a1) shapeCasts_S1x800000_S800000)
          (broadcastInDim S800000 ![] bcast_S_S800000 (constantI S_ 32 50000#32))))
      (constantI S_ 1 1#1) reducesTo_S800000_S_d0 h_S_ ix0 = 1#1) : SrcInRange a1 := by
  intro k
  have h := Host.reduce_andi_all _ _ reducesTo_S800000_S_d0 h_S_ ix0 e (ix1 k)
  have h' : IntOp.andi (IntOp.cmpi .sge (a1 (ix2 0 k)) 0#32) (IntOp.cmpi .slt (a1 (ix2 0 k)) 50000#32) = 1#1 := by
    rw [← row0_apply a1 k]; exact h
  rw [IntOp.andi_eq_one, IntOp.cmpi_sge, IntOp.cmpi_slt] at h'
  have z : (0#32 : BitVec 32).toInt = 0 := by decide
  have n : (50000#32 : BitVec 32).toInt = 50000 := by decide
  rw [z, n] at h'
  exact h'

theorem andi_ix0 (a b : IVec S_ 1) : andi a b ix0 = 1#1 ↔ a ix0 = 1#1 ∧ b ix0 = 1#1 := IntOp.andi_eq_one

theorem of_fn [Cert.Pre_finite_inputs.Facts]
    (a0 : FVec Ideal ⟨2, ![50000, 128]⟩ .f32) (a1 : IVec ⟨2, ![2, 800000]⟩ 32) (a2 : FVec Ideal ⟨3, ![3, 128, 128]⟩ .f32) (a3 : FVec Ideal ⟨2, ![3, 128]⟩ .f32)
    (a4 : FVec Ideal ⟨3, ![3, 128, 128]⟩ .f32) (a5 a6 a7 : FVec Ideal ⟨2, ![3, 128]⟩ .f32)
    (h : Cert.Pre_finite_inputs.fn (F := Ideal) a0 a1 a2 a3 a4 a5 a6 a7 = (fun _ => 1#1)) :
    ArrReal a0 ∧ SrcInRange a1 ∧ ArrReal a2 ∧ ArrReal a3 ∧ ArrReal a4 ∧ ArrReal a5 ∧ ArrReal a6 ∧ ArrReal a7 := by
  have e := congrFun h ix0
  unfold Cert.Pre_finite_inputs.fn Cert.Pre_finite_inputs.fn_part1 Cert.Pre_finite_inputs.fn_part2 at e
  dsimp only at e
  simp only [andi_ix0] at e
  obtain ⟨⟨⟨⟨⟨⟨⟨h0, h2⟩, h3⟩, h4⟩, h5⟩, h6⟩, h7⟩, h1⟩ := e
  exact ⟨real_of_all a0 _ _ _ h0, src_of_all a1 h1, real_of_all a2 _ _ _ h2, real_of_all a3 _ _ _ h3, real_of_all a4 _ _ _ h4,
    real_of_all a5 _ _ _ h5, real_of_all a6 _ _ _ h6, real_of_all a7 _ _ _ h7⟩

end Cert.PreDecode

end
-- ==== Proof.HostBn.lean ====
import proofs.«420740_j41515153883619_1_alg».proof.Proof.Gen.KernelIdeal.Regions
import proofs.«420740_j41515153883619_1_alg».proof.Proof.Params
import proofs.«420740_j41515153883619_1_alg».proof.Proof.PreDecode
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostV

open Cert.KernelIdeal Cert.KernelIdeal.Gen Idealize.ShloMosaic Idealize.ShloMosaic.TcCoe Idealize.SL.Sem Idealize.ShloMosaic.StableHlo
open Idealize.ShloMosaic.ValueIdx Cert.Spec

variable (m : (ℓ : Loc nD τ sig) → Buf (Elt Ideal) ℓ) (outs : Outs (F := Ideal))

theorem flat_apply (x : S1x128.Idx → EReal) (j : Fin 128) :
    shapeCast S128 x shapeCasts_S1x128_S128 (ix1 j) = x (ix2 0 j) :=
  shapeCast_apply x shapeCasts_S1x128_S128 (ix1 j) (ix2 0 j)
    (by rewrite [Shape.rowMajor_val_two, Shape.rowMajor_val_one]; show 0 * 128 + j.val = j.val; omega)

theorem unflat_apply (y : S128.Idx → EReal) (j : Fin 128) :
    shapeCast S1x128 y shapeCasts_S128_S1x128 (ix2 0 j) = y (ix1 j) :=
  shapeCast_apply y shapeCasts_S128_S1x128 (ix2 0 j) (ix1 j)
    (by rewrite [Shape.rowMajor_val_two, Shape.rowMajor_val_one]; show j.val = 0 * 128 + j.val; omega)

theorem slice0_apply (g : S3x128.Idx → EReal) (j : Fin 128) :
    extractStridedSlice S1x128 ![0, 0] g slices_S3x128_S1x128_0_0 (ix2 0 j) = g (ix2 0 j) :=
  extractStridedSlice_apply ![0, 0] g slices_S3x128_S1x128_0_0 (ix2 0 j) (ix2 0 j) (fun a => match a with
    | ⟨0, _⟩ => by show (0 : Nat) = 0 + 0; omega
    | ⟨1, _⟩ => by show j.val = 0 + j.val; omega)
theorem slice1_apply (g : S3x128.Idx → EReal) (j : Fin 128) :
    extractStridedSlice S1x128 ![1, 0] g slices_S3x128_S1x128_1_0 (ix2 0 j) = g (ix2 1 j) :=
  extractStridedSlice_apply ![1, 0] g slices_S3x128_S1x128_1_0 (ix2 0 j) (ix2 1 j) (fun a => match a with
    | ⟨0, _⟩ => by show (1 : Nat) = 1 + 0; omega
    | ⟨1, _⟩ => by show j.val = 0 + j.val; omega)
theorem slice2_apply (g : S3x128.Idx → EReal) (j : Fin 128) :
    extractStridedSlice S1x128 ![2, 0] g slices_S3x128_S1x128_2_0 (ix2 0 j) = g (ix2 2 j) :=
  extractStridedSlice_apply ![2, 0] g slices_S3x128_S1x128_2_0 (ix2 0 j) (ix2 2 j) (fun a => match a with
    | ⟨0, _⟩ => by show (2 : Nat) = 2 + 0; omega
    | ⟨1, _⟩ => by show j.val = 0 + j.val; omega)

section Rows

variable {F : FTy → Type} [FloatOps F]

def meanV (s1 : (⟨S1x128, .f32⟩ : BufTy).Contents (Elt F)) : (⟨S128, .f32⟩ : BufTy).Contents (Elt F) :=
  Host.divf (shapeCast S128 s1 shapeCasts_S1x128_S128) (broadcastInDim S128 ![] bcast_S_S128 (constant S_ .f32 0x47435000#32))

def scaleV (s1 s2 gr : (⟨S1x128, .f32⟩ : BufTy).Contents (Elt F)) : (⟨S128, .f32⟩ : BufTy).Contents (Elt F) :=
  mulf (shapeCast S128 gr shapeCasts_S1x128_S128)
    (Host.rsqrt (addf (subf (Host.divf (shapeCast S128 s2 shapeCasts_S1x128_S128) (broadcastInDim S128 ![] bcast_S_S128 (constant S_ .f32 0x47435000#32)))
      (mulf (meanV s1) (meanV s1))) (broadcastInDim S128 ![] bcast_S_S128 (constant S_ .f32 0x3727C5AC#32))))

def scaleRow (s1 s2 gr : (⟨S1x128, .f32⟩ : BufTy).Contents (Elt F)) : (⟨S1x128, .f32⟩ : BufTy).Contents (Elt F) :=
  shapeCast S1x128 (scaleV s1 s2 gr) shapeCasts_S128_S1x128

def shiftRow (s1 s2 gr br : (⟨S1x128, .f32⟩ : BufTy).Contents (Elt F)) : (⟨S1x128, .f32⟩ : BufTy).Contents (Elt F) :=
  shapeCast S1x128 (subf (shapeCast S128 br shapeCasts_S1x128_S128) (mulf (meanV s1) (scaleV s1 s2 gr))) shapeCasts_S128_S1x128

end Rows

theorem meanV_apply (s1 : S1x128.Idx → EReal) (j : Fin 128) : meanV (F := Ideal) s1 (ix1 j) = Ideal.div (s1 (ix2 0 j)) nF := by
  show Ideal.div (shapeCast S128 s1 shapeCasts_S1x128_S128 (ix1 j)) _ = _
  rw [flat_apply]; rfl

theorem scaleV_apply (s1 s2 gr : S1x128.Idx → EReal) (j : Fin 128) :
    scaleV (F := Ideal) s1 s2 gr (ix1 j) = gr (ix2 0 j) * Ideal.rsqrt ((Ideal.div (s2 (ix2 0 j)) nF - Ideal.div (s1 (ix2 0 j)) nF * Ideal.div (s1 (ix2 0 j)) nF) + epsF) := by
  show shapeCast S128 gr shapeCasts_S1x128_S128 (ix1 j) * Ideal.rsqrt ((Ideal.div (shapeCast S128 s2 shapeCasts_S1x128_S128 (ix1 j)) nF - meanV (F := Ideal) s1 (ix1 j) * meanV (F := Ideal) s1 (ix1 j)) + epsF) = _
  rw [flat_apply, flat_apply, meanV_apply]

theorem scaleRow_apply (s1 s2 gr : S1x128.Idx → EReal) (j : Fin 128) :
    scaleRow (F := Ideal) s1 s2 gr (ix2 0 j) = gr (ix2 0 j) * Ideal.rsqrt ((Ideal.div (s2 (ix2 0 j)) nF - Ideal.div (s1 (ix2 0 j)) nF * Ideal.div (s1 (ix2 0 j)) nF) + epsF) := by
  unfold scaleRow; rw [unflat_apply, scaleV_apply]

theorem shiftRow_apply (s1 s2 gr br : S1x128.Idx → EReal) (j : Fin 128) :
    shiftRow (F := Ideal) s1 s2 gr br (ix2 0 j) = br (ix2 0 j) - Ideal.div (s1 (ix2 0 j)) nF * scaleRow (F := Ideal) s1 s2 gr (ix2 0 j) := by
  unfold shiftRow scaleRow; rw [unflat_apply, unflat_apply]
  show shapeCast S128 br shapeCasts_S1x128_S128 (ix1 j) - meanV (F := Ideal) s1 (ix1 j) * scaleV (F := Ideal) s1 s2 gr (ix1 j) = _
  rw [flat_apply, meanV_apply]

section Stretches

variable {F : FTy → Type} [FloatOps F]

theorem hostOps1_scale (W : Valuation τ sig (Elt F)) :
    after (hostOps1 (F := F)) W (Proc.devRef .tc main_v37)
      = scaleRow (F := F) (W (Proc.devRef .tc main_v18_1)) (W (Proc.devRef .tc main_v18_2)) (extractStridedSlice S1x128 ![0, 0] (W (Proc.devRef .tc main_arg6) : (⟨S3x128, .f32⟩ : BufTy).Contents (Elt F)) slices_S3x128_S1x128_0_0) := by
  after_results_simp
  rfl

theorem hostOps1_shift (W : Valuation τ sig (Elt F)) :
    after (hostOps1 (F := F)) W (Proc.devRef .tc main_v38)
      = shiftRow (F := F) (W (Proc.devRef .tc main_v18_1)) (W (Proc.devRef .tc main_v18_2)) (extractStridedSlice S1x128 ![0, 0] (W (Proc.devRef .tc main_arg6) : (⟨S3x128, .f32⟩ : BufTy).Contents (Elt F)) slices_S3x128_S1x128_0_0) (extractStridedSlice S1x128 ![0, 0] (W (Proc.devRef .tc main_arg7) : (⟨S3x128, .f32⟩ : BufTy).Contents (Elt F)) slices_S3x128_S1x128_0_0) := by
  after_results_simp
  rfl

theorem hostOps3_scale (W : Valuation τ sig (Elt F)) :
    after (hostOps3 (F := F)) W (Proc.devRef .tc main_v73)
      = scaleRow (F := F) (W (Proc.devRef .tc main_v54_1)) (W (Proc.devRef .tc main_v54_2)) (extractStridedSlice S1x128 ![1, 0] (W (Proc.devRef .tc main_arg6) : (⟨S3x128, .f32⟩ : BufTy).Contents (Elt F)) slices_S3x128_S1x128_1_0) := by
  after_results_simp
  rfl

theorem hostOps3_shift (W : Valuation τ sig (Elt F)) :
    after (hostOps3 (F := F)) W (Proc.devRef .tc main_v74)
      = shiftRow (F := F) (W (Proc.devRef .tc main_v54_1)) (W (Proc.devRef .tc main_v54_2)) (extractStridedSlice S1x128 ![1, 0] (W (Proc.devRef .tc main_arg6) : (⟨S3x128, .f32⟩ : BufTy).Contents (Elt F)) slices_S3x128_S1x128_1_0) (extractStridedSlice S1x128 ![1, 0] (W (Proc.devRef .tc main_arg7) : (⟨S3x128, .f32⟩ : BufTy).Contents (Elt F)) slices_S3x128_S1x128_1_0) := by
  after_results_simp
  rfl

theorem hostOps5_scale (W : Valuation τ sig (Elt F)) :
    after (hostOps5 (F := F)) W (Proc.devRef .tc main_v109)
      = scaleRow (F := F) (W (Proc.devRef .tc main_v90_1)) (W (Proc.devRef .tc main_v90_2)) (extractStridedSlice S1x128 ![2, 0] (W (Proc.devRef .tc main_arg6) : (⟨S3x128, .f32⟩ : BufTy).Contents (Elt F)) slices_S3x128_S1x128_2_0) := by
  after_results_simp
  rfl

theorem hostOps5_shift (W : Valuation τ sig (Elt F)) :
    after (hostOps5 (F := F)) W (Proc.devRef .tc main_v110)
      = shiftRow (F := F) (W (Proc.devRef .tc main_v90_1)) (W (Proc.devRef .tc main_v90_2)) (extractStridedSlice S1x128 ![2, 0] (W (Proc.devRef .tc main_arg6) : (⟨S3x128, .f32⟩ : BufTy).Contents (Elt F)) slices_S3x128_S1x128_2_0) (extractStridedSlice S1x128 ![2, 0] (W (Proc.devRef .tc main_arg7) : (⟨S3x128, .f32⟩ : BufTy).Contents (Elt F)) slices_S3x128_S1x128_2_0) := by
  after_results_simp
  rfl

end Stretches

theorem V4_main_v18_0 (c : Dev nD) : V4 m outs c main_v18_0 = outs 4 main_v18_0 c := by
  show Function.update (Function.update (Function.update _ _ _) _ _) _ _ _ = _
  rw [Function.update_of_ne (devRef_ne_of_ne (by decide)), Function.update_of_ne (devRef_ne_of_ne (by decide)), Function.update_self]
theorem V4_main_v18_1 (c : Dev nD) : V4 m outs c main_v18_1 = outs 4 main_v18_1 c := by
  show Function.update (Function.update (Function.update _ _ _) _ _) _ _ _ = _
  rw [Function.update_of_ne (devRef_ne_of_ne (by decide)), Function.update_self]
theorem V4_main_v18_2 (c : Dev nD) : V4 m outs c main_v18_2 = outs 4 main_v18_2 c := by
  show Function.update (Function.update (Function.update _ _ _) _ _) _ _ _ = _
  rw [Function.update_self]
theorem V4_main_arg6 (c : Dev nD) : V4 m outs c main_arg6 = m ((c.tc : Thread nD τ).loc main_arg6) :=
  (V4_of m outs c main_arg6 (by decide)).trans <| (V3_of m c main_arg6 (by decide)).trans <| (V2_of m c main_arg6 (by decide)).trans <| (V1_of m c main_arg6 (by decide)).trans <| rfl
theorem V4_main_arg7 (c : Dev nD) : V4 m outs c main_arg7 = m ((c.tc : Thread nD τ).loc main_arg7) :=
  (V4_of m outs c main_arg7 (by decide)).trans <| (V3_of m c main_arg7 (by decide)).trans <| (V2_of m c main_arg7 (by decide)).trans <| (V1_of m c main_arg7 (by decide)).trans <| rfl

theorem V9_main_v54_0 (c : Dev nD) : V9 m outs c main_v54_0 = outs 9 main_v54_0 c := by
  show Function.update (Function.update (Function.update _ _ _) _ _) _ _ _ = _
  rw [Function.update_of_ne (devRef_ne_of_ne (by decide)), Function.update_of_ne (devRef_ne_of_ne (by decide)), Function.update_self]
theorem V9_main_v54_1 (c : Dev nD) : V9 m outs c main_v54_1 = outs 9 main_v54_1 c := by
  show Function.update (Function.update (Function.update _ _ _) _ _) _ _ _ = _
  rw [Function.update_of_ne (devRef_ne_of_ne (by decide)), Function.update_self]
theorem V9_main_v54_2 (c : Dev nD) : V9 m outs c main_v54_2 = outs 9 main_v54_2 c := by
  show Function.update (Function.update (Function.update _ _ _) _ _) _ _ _ = _
  rw [Function.update_self]
theorem V9_main_arg6 (c : Dev nD) : V9 m outs c main_arg6 = m ((c.tc : Thread nD τ).loc main_arg6) :=
  (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m c main_arg6 (by decide)).trans <| (V2_of m c main_arg6 (by decide)).trans <| (V1_of m c main_arg6 (by decide)).trans <| rfl
theorem V9_main_arg7 (c : Dev nD) : V9 m outs c main_arg7 = m ((c.tc : Thread nD τ).loc main_arg7) :=
  (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m c main_arg7 (by decide)).trans <| (V2_of m c main_arg7 (by decide)).trans <| (V1_of m c main_arg7 (by decide)).trans <| rfl

theorem V14_main_v90_0 (c : Dev nD) : V14 m outs c main_v90_0 = outs 14 main_v90_0 c := by
  show Function.update (Function.update (Function.update _ _ _) _ _) _ _ _ = _
  rw [Function.update_of_ne (devRef_ne_of_ne (by decide)), Function.update_of_ne (devRef_ne_of_ne (by decide)), Function.update_self]
theorem V14_main_v90_1 (c : Dev nD) : V14 m outs c main_v90_1 = outs 14 main_v90_1 c := by
  show Function.update (Function.update (Function.update _ _ _) _ _) _ _ _ = _
  rw [Function.update_of_ne (devRef_ne_of_ne (by decide)), Function.update_self]
theorem V14_main_v90_2 (c : Dev nD) : V14 m outs c main_v90_2 = outs 14 main_v90_2 c := by
  show Function.update (Function.update (Function.update _ _ _) _ _) _ _ _ = _
  rw [Function.update_self]
theorem V14_main_arg6 (c : Dev nD) : V14 m outs c main_arg6 = m ((c.tc : Thread nD τ).loc main_arg6) :=
  (V14_of m outs c main_arg6 (by decide)).trans <| (V13_of m outs c main_arg6 (by decide)).trans <| (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m c main_arg6 (by decide)).trans <| (V2_of m c main_arg6 (by decide)).trans <| (V1_of m c main_arg6 (by decide)).trans <| rfl
theorem V14_main_arg7 (c : Dev nD) : V14 m outs c main_arg7 = m ((c.tc : Thread nD τ).loc main_arg7) :=
  (V14_of m outs c main_arg7 (by decide)).trans <| (V13_of m outs c main_arg7 (by decide)).trans <| (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m c main_arg7 (by decide)).trans <| (V2_of m c main_arg7 (by decide)).trans <| (V1_of m c main_arg7 (by decide)).trans <| rfl

theorem n1_h (c : Dev nD) : (V5 m outs c main_v18_0 : S50000x128.Idx → EReal) = (outs 4 main_v18_0 c : S50000x128.Idx → EReal) := by
  exact (V5_of m outs c main_v18_0 (by decide)).trans (V4_main_v18_0 m outs c)

theorem n1_scale (c : Dev nD) (j : Fin 128) :
    (V5 m outs c main_v37 : S1x128.Idx → EReal) (ix2 0 j)
      = row3 (m ((c.tc : Thread nD τ).loc main_arg6)) 0 j * Ideal.rsqrt ((Ideal.div ((outs 4 main_v18_2 c : S1x128.Idx → EReal) (ix2 0 j)) nF
          - Ideal.div ((outs 4 main_v18_1 c : S1x128.Idx → EReal) (ix2 0 j)) nF * Ideal.div ((outs 4 main_v18_1 c : S1x128.Idx → EReal) (ix2 0 j)) nF) + epsF) := by
  show (after (hostOps1 (F := Ideal)) (V4 m outs c) (Proc.devRef .tc main_v37) : S1x128.Idx → EReal) (ix2 0 j) = _
  rw [hostOps1_scale, scaleRow_apply, slice0_apply]
  rw [show V4 m outs c (Proc.devRef .tc main_v18_1) = outs 4 main_v18_1 c from V4_main_v18_1 m outs c,
    show V4 m outs c (Proc.devRef .tc main_v18_2) = outs 4 main_v18_2 c from V4_main_v18_2 m outs c,
    show V4 m outs c (Proc.devRef .tc main_arg6) = m ((c.tc : Thread nD τ).loc main_arg6) from V4_main_arg6 m outs c]
  rfl

theorem n1_shift (c : Dev nD) (j : Fin 128) :
    (V5 m outs c main_v38 : S1x128.Idx → EReal) (ix2 0 j)
      = row3 (m ((c.tc : Thread nD τ).loc main_arg7)) 0 j - Ideal.div ((outs 4 main_v18_1 c : S1x128.Idx → EReal) (ix2 0 j)) nF * (V5 m outs c main_v37 : S1x128.Idx → EReal) (ix2 0 j) := by
  show (after (hostOps1 (F := Ideal)) (V4 m outs c) (Proc.devRef .tc main_v38) : S1x128.Idx → EReal) (ix2 0 j)
    = _ - _ * (after (hostOps1 (F := Ideal)) (V4 m outs c) (Proc.devRef .tc main_v37) : S1x128.Idx → EReal) (ix2 0 j)
  rw [hostOps1_shift, hostOps1_scale, shiftRow_apply, slice0_apply]
  rw [show V4 m outs c (Proc.devRef .tc main_v18_1) = outs 4 main_v18_1 c from V4_main_v18_1 m outs c,
    show V4 m outs c (Proc.devRef .tc main_arg7) = m ((c.tc : Thread nD τ).loc main_arg7) from V4_main_arg7 m outs c]
  rfl

theorem n2_h (c : Dev nD) : (V10 m outs c main_v54_0 : S50000x128.Idx → EReal) = (outs 9 main_v54_0 c : S50000x128.Idx → EReal) := by
  exact (V10_of m outs c main_v54_0 (by decide)).trans (V9_main_v54_0 m outs c)

theorem n2_scale (c : Dev nD) (j : Fin 128) :
    (V10 m outs c main_v73 : S1x128.Idx → EReal) (ix2 0 j)
      = row3 (m ((c.tc : Thread nD τ).loc main_arg6)) 1 j * Ideal.rsqrt ((Ideal.div ((outs 9 main_v54_2 c : S1x128.Idx → EReal) (ix2 0 j)) nF
          - Ideal.div ((outs 9 main_v54_1 c : S1x128.Idx → EReal) (ix2 0 j)) nF * Ideal.div ((outs 9 main_v54_1 c : S1x128.Idx → EReal) (ix2 0 j)) nF) + epsF) := by
  show (after (hostOps3 (F := Ideal)) (V9 m outs c) (Proc.devRef .tc main_v73) : S1x128.Idx → EReal) (ix2 0 j) = _
  rw [hostOps3_scale, scaleRow_apply, slice1_apply]
  rw [show V9 m outs c (Proc.devRef .tc main_v54_1) = outs 9 main_v54_1 c from V9_main_v54_1 m outs c,
    show V9 m outs c (Proc.devRef .tc main_v54_2) = outs 9 main_v54_2 c from V9_main_v54_2 m outs c,
    show V9 m outs c (Proc.devRef .tc main_arg6) = m ((c.tc : Thread nD τ).loc main_arg6) from V9_main_arg6 m outs c]
  rfl

theorem n2_shift (c : Dev nD) (j : Fin 128) :
    (V10 m outs c main_v74 : S1x128.Idx → EReal) (ix2 0 j)
      = row3 (m ((c.tc : Thread nD τ).loc main_arg7)) 1 j - Ideal.div ((outs 9 main_v54_1 c : S1x128.Idx → EReal) (ix2 0 j)) nF * (V10 m outs c main_v73 : S1x128.Idx → EReal) (ix2 0 j) := by
  show (after (hostOps3 (F := Ideal)) (V9 m outs c) (Proc.devRef .tc main_v74) : S1x128.Idx → EReal) (ix2 0 j)
    = _ - _ * (after (hostOps3 (F := Ideal)) (V9 m outs c) (Proc.devRef .tc main_v73) : S1x128.Idx → EReal) (ix2 0 j)
  rw [hostOps3_shift, hostOps3_scale, shiftRow_apply, slice1_apply]
  rw [show V9 m outs c (Proc.devRef .tc main_v54_1) = outs 9 main_v54_1 c from V9_main_v54_1 m outs c,
    show V9 m outs c (Proc.devRef .tc main_arg7) = m ((c.tc : Thread nD τ).loc main_arg7) from V9_main_arg7 m outs c]
  rfl

theorem n3_h (c : Dev nD) : (V15 m outs c main_v90_0 : S50000x128.Idx → EReal) = (outs 14 main_v90_0 c : S50000x128.Idx → EReal) := by
  exact (V15_of m outs c main_v90_0 (by decide)).trans (V14_main_v90_0 m outs c)

theorem n3_scale (c : Dev nD) (j : Fin 128) :
    (V15 m outs c main_v109 : S1x128.Idx → EReal) (ix2 0 j)
      = row3 (m ((c.tc : Thread nD τ).loc main_arg6)) 2 j * Ideal.rsqrt ((Ideal.div ((outs 14 main_v90_2 c : S1x128.Idx → EReal) (ix2 0 j)) nF
          - Ideal.div ((outs 14 main_v90_1 c : S1x128.Idx → EReal) (ix2 0 j)) nF * Ideal.div ((outs 14 main_v90_1 c : S1x128.Idx → EReal) (ix2 0 j)) nF) + epsF) := by
  show (after (hostOps5 (F := Ideal)) (V14 m outs c) (Proc.devRef .tc main_v109) : S1x128.Idx → EReal) (ix2 0 j) = _
  rw [hostOps5_scale, scaleRow_apply, slice2_apply]
  rw [show V14 m outs c (Proc.devRef .tc main_v90_1) = outs 14 main_v90_1 c from V14_main_v90_1 m outs c,
    show V14 m outs c (Proc.devRef .tc main_v90_2) = outs 14 main_v90_2 c from V14_main_v90_2 m outs c,
    show V14 m outs c (Proc.devRef .tc main_arg6) = m ((c.tc : Thread nD τ).loc main_arg6) from V14_main_arg6 m outs c]
  rfl

theorem n3_shift (c : Dev nD) (j : Fin 128) :
    (V15 m outs c main_v110 : S1x128.Idx → EReal) (ix2 0 j)
      = row3 (m ((c.tc : Thread nD τ).loc main_arg7)) 2 j - Ideal.div ((outs 14 main_v90_1 c : S1x128.Idx → EReal) (ix2 0 j)) nF * (V15 m outs c main_v109 : S1x128.Idx → EReal) (ix2 0 j) := by
  show (after (hostOps5 (F := Ideal)) (V14 m outs c) (Proc.devRef .tc main_v110) : S1x128.Idx → EReal) (ix2 0 j)
    = _ - _ * (after (hostOps5 (F := Ideal)) (V14 m outs c) (Proc.devRef .tc main_v109) : S1x128.Idx → EReal) (ix2 0 j)
  rw [hostOps5_shift, hostOps5_scale, shiftRow_apply, slice2_apply]
  rw [show V14 m outs c (Proc.devRef .tc main_v90_1) = outs 14 main_v90_1 c from V14_main_v90_1 m outs c,
    show V14 m outs c (Proc.devRef .tc main_arg7) = m ((c.tc : Thread nD τ).loc main_arg7) from V14_main_arg7 m outs c]
  rfl

end Cert.KernelIdeal.HostV

end
-- ==== Proof.RefReadP.lean ====
-- The reference program stage by stage: each operation's value as a function of the arguments, and the stages that are read at an index.
import proofs.«420740_j41515153883619_1_alg».proof.Proof.RefRunP
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S2x800000, .i32⟩ : BufTy).Contents (Elt F)) : (⟨S1x800000, .i32⟩ : BufTy).Contents (Elt F) :=
  extractStridedSlice S1x800000 ![0, 0] (x1) slices_S2x800000_S1x800000_0_0
def val_main_v1 (x1 : (⟨S2x800000, .i32⟩ : BufTy).Contents (Elt F)) : (⟨S800000, .i32⟩ : BufTy).Contents (Elt F) :=
  shapeCast _ (val_main_v0 (F := F) x1) shapeCasts_S1x800000_S800000
def val_main_v2 (x1 : (⟨S2x800000, .i32⟩ : BufTy).Contents (Elt F)) : (⟨S1x800000, .i32⟩ : BufTy).Contents (Elt F) :=
  extractStridedSlice S1x800000 ![1, 0] (x1) slices_S2x800000_S1x800000_1_0
def val_main_v3 (x1 : (⟨S2x800000, .i32⟩ : BufTy).Contents (Elt F)) : (⟨S800000, .i32⟩ : BufTy).Contents (Elt F) :=
  shapeCast _ (val_main_v2 (F := F) x1) shapeCasts_S1x800000_S800000
def val_main_c : (⟨S_, .i32⟩ : BufTy).Contents (Elt F) :=
  constantI S_ 32 0#32
def val_main_v4 : (⟨S800000, .i32⟩ : BufTy).Contents (Elt F) :=
  broadcastInDim S800000 ![] bcast_S_S800000 (val_main_c (F := F))
def val_main_v5 (x1 : (⟨S2x800000, .i32⟩ : BufTy).Contents (Elt F)) : (⟨S800000, .i1⟩ : BufTy).Contents (Elt F) :=
  cmpi .slt (val_main_v1 (F := F) x1) (val_main_v4 (F := F))
def val_main_c_0 : (⟨S_, .i32⟩ : BufTy).Contents (Elt F) :=
  constantI S_ 32 50000#32
def val_main_v6 : (⟨S800000, .i32⟩ : BufTy).Contents (Elt F) :=
  broadcastInDim S800000 ![] bcast_S_S800000 (val_main_c_0 (F := F))
def val_main_v7 (x1 : (⟨S2x800000, .i32⟩ : BufTy).Contents (Elt F)) : (⟨S800000, .i32⟩ : BufTy).Contents (Elt F) :=
  addi (val_main_v1 (F := F) x1) (val_main_v6 (F := F))
def val_main_v8 (x1 : (⟨S2x800000, .i32⟩ : BufTy).Contents (Elt F)) : (⟨S800000, .i32⟩ : BufTy).Contents (Elt F) :=
  select (val_main_v5 (F := F) x1) (val_main_v7 (F := F) x1) (val_main_v1 (F := F) x1)
def val_main_v9 (x1 : (⟨S2x800000, .i32⟩ : BufTy).Contents (Elt F)) : (⟨S800000x1, .i32⟩ : BufTy).Contents (Elt F) :=
  broadcastInDim S800000x1 ![0] bcast_S800000_S800000x1_0 (val_main_v8 (F := F) x1)
def val_main_v10 (x0 : (⟨S50000x128, .f32⟩ : BufTy).Contents (Elt F)) (x1 : (⟨S2x800000, .i32⟩ : BufTy).Contents (Elt F)) : (⟨S800000x128, .f32⟩ : BufTy).Contents (Elt F) :=
  Host.gather gather_S50000x128_S800000x1_S800000x128_1_0_n_n_0_1_1128 (x0) (val_main_v9 (F := F) x1)

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v11 : (⟨S50000x128, .f32⟩ : BufTy).Contents (Elt F) :=
  broadcastInDim S50000x128 ![] bcast_S_S50000x128 (val_main_cst (F := F))
abbrev idx_main_v11 (i : S50000x128.Idx) : S_.Idx := fun a => a.elim0
theorem val_main_v11_apply (i : S50000x128.Idx) :
    val_main_v11 (F := F) i = val_main_cst (F := F) (idx_main_v11 i) := by
  unfold val_main_v11
  generalize val_main_cst (F := F) = y
  exact broadcastInDim_apply _ bcast_S_S50000x128 y i (idx_main_v11 i) (fun a => a.elim0)

def val_main_v12 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)
def val_main_v13 (x0 : (⟨S50000x128, .f32⟩ : BufTy).Contents (Elt F)) (x1 : (⟨S2x800000, .i32⟩ : BufTy).Contents (Elt F)) : (⟨S50000x128, .f32⟩ : BufTy).Contents (Elt F) :=
  Host.scatterAdd scatter_S50000x128_S800000x1_S800000x128_1_0_0_1 (val_main_v11 (F := F)) (val_main_v12 (F := F) x1) (val_main_v10 (F := F) x0 x1)

def val_main_v14 (x0 : (⟨S50000x128, .f32⟩ : BufTy).Contents (Elt F)) (x1 : (⟨S2x800000, .i32⟩ : BufTy).Contents (Elt F)) : (⟨S50000x128, .f32⟩ : BufTy).Contents (Elt F) :=
  addf (x0) (val_main_v13 (F := F) x0 x1)
def val_main_v15 (x2 : (⟨S3x128x128, .f32⟩ : BufTy).Contents (Elt F)) : (⟨S1x128x128, .f32⟩ : BufTy).Contents (Elt F) :=
  extractStridedSlice S1x128x128 ![0, 0, 0] (x2) slices_S3x128x128_S1x128x128_0_0_0
abbrev idx_main_v15 (i : S1x128x128.Idx) : S3x128x128.Idx := fun a => match a with
  | ⟨0, _⟩ => ⟨(i 0).val, by have h0 : (i 0).val < 1 := (i 0).isLt; show (i 0).val < 3; omega⟩
  | ⟨1, _⟩ => ⟨(i 1).val, (i 1).isLt⟩
  | ⟨2, _⟩ => ⟨(i 2).val, (i 2).isLt⟩
theorem val_main_v15_apply (x2 : (⟨S3x128x128, .f32⟩ : BufTy).Contents (Elt F)) (i : S1x128x128.Idx) :
    val_main_v15 (F := F) x2 i = x2 (idx_main_v15 i) := by
  unfold val_main_v15
  exact extractStridedSlice_apply ![0, 0, 0] x2 slices_S3x128x128_S1x128x128_0_0_0 i (idx_main_v15 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v16 (x2 : (⟨S3x128x128, .f32⟩ : BufTy).Contents (Elt F)) : (⟨S128x128, .f32⟩ : BufTy).Contents (Elt F) :=
  shapeCast _ (val_main_v15 (F := F) x2) shapeCasts_S1x128x128_S128x128
abbrev idx_main_v16 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩
theorem val_main_v16_apply (x2 : (⟨S3x128x128, .f32⟩ : BufTy).Contents (Elt F)) (i : S128x128.Idx) :
    val_main_v16 (F := F) x2 i = val_main_v15 (F := F) x2 (idx_main_v16 i) := by
  unfold val_main_v16
  generalize val_main_v15 (F := F) x2 = y
  exact shapeCast_apply y shapeCasts_S1x128x128_S128x128 i (idx_main_v16 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)

def val_main_v17 (x0 : (⟨S50000x128, .f32⟩ : BufTy).Contents (Elt F)) (x1 : (⟨S2x800000, .i32⟩ : BufTy).Contents (Elt F)) (x2 : (⟨S3x128x128, .f32⟩ : BufTy).Contents (Elt F)) : (⟨S50000x128, .f32⟩ : BufTy).Contents (Elt F) :=
  Host.dotGeneral dot_S50000x128_S128x128_S50000x128_1_0_0_1_n_n none (val_main_v14 (F := F) x0 x1) (val_main_v16 (F := F) x2)
theorem lhs_main_v17_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_main_v17_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_main_v17_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_main_v17_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl
def val_main_v18 (x3 : (⟨S3x128, .f32⟩ : BufTy).Contents (Elt F)) : (⟨S1x128, .f32⟩ : BufTy).Contents (Elt F) :=
  extractStridedSlice S1x128 ![0, 0] (x3) slices_S3x128_S1x128_0_0
abbrev idx_main_v18 (i : S1x128.Idx) : S3x128.Idx := fun a => match a with
  | ⟨0, _⟩ => ⟨(i 0).val, by have h0 : (i 0).val < 1 := (i 0).isLt; show (i 0).val < 3; omega⟩
  | ⟨1, _⟩ => ⟨(i 1).val, (i 1).isLt⟩
theorem val_main_v18_apply (x3 : (⟨S3x128, .f32⟩ : BufTy).Contents (Elt F)) (i : S1x128.Idx) :
    val_main_v18 (F := F) x3 i = x3 (idx_main_v18 i) := by
  unfold val_main_v18
  exact extractStridedSlice_apply ![0, 0] x3 slices_S3x128_S1x128_0_0 i (idx_main_v18 i) (fun a => match a with
    | ⟨0, _⟩ => by show (i 0).val = 0 + (i 0).val; omega
    | ⟨1, _⟩ => by show (i 1).val = 0 + (i 1).val; omega)

def val_main_v19 (x3 : (⟨S3x128, .f32⟩ : BufTy).Contents (Elt F)) : (⟨S128, .f32⟩ : BufTy).Contents (Elt F) :=
  shapeCast _ (val_main_v18 (F := F) x3) shapeCasts_S1x128_S128
abbrev idx_main_v19 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v19_apply (x3 : (⟨S3x128, .f32⟩ : BufTy).Contents (Elt F)) (i : S128.Idx) :
    val_main_v19 (F := F) x3 i = val_main_v18 (F := F) x3 (idx_main_v19 i) := by
  unfold val_main_v19
  generalize val_main_v18 (F := F) x3 = y
  exact shapeCast_apply y shapeCasts_S1x128_S128 i (idx_main_v19 i)
    (by rewrite [Shape.rowMajor_val_two, Shape.rowMajor_val_one]; have h0 : (i 0).val < 128 := (i 0).isLt; show 0 * 128 + ((i 0).val) % 128 = (i 0).val; omega)

def val_main_v20 (x3 : (⟨S3x128, .f32⟩ : BufTy).Contents (Elt F)) : (⟨S1x128, .f32⟩ : BufTy).Contents (Elt F) :=
  broadcastInDim S1x128 ![1] bcast_S128_S1x128_1 (val_main_v19 (F := F) x3)
def val_main_v21 (x3 : (⟨S3x128, .f32⟩ : BufTy).Contents (Elt F)) : (⟨S50000x128, .f32⟩ : BufTy).Contents (Elt F) :=
  broadcastInDim S50000x128 ![0, 1] bcast_S1x128_S50000x128_0_1 (val_main_v20 (F := F) x3)
def val_main_v22 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) : (⟨S50000x128, .f32⟩ : BufTy).Contents (Elt F) :=
  addf (val_main_v17 (F := F) x0 x1 x2) (val_main_v21 (F := F) x3)
def val_main_call0_cst : (⟨S_, .f32⟩ : BufTy).Contents (Elt F) :=
  constant S_ .f32 0x00000000#32
def val_main_call0_v0 : (⟨S50000x128, .f32⟩ : BufTy).Contents (Elt F) :=
  broadcastInDim S50000x128 ![] bcast_S_S50000x128 (val_main_call0_cst (F := F))
def val_main_v23 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) : (⟨S50000x128, .f32⟩ : BufTy).Contents (Elt F) :=
  maximumf (val_main_v22 (F := F) x0 x1 x2 x3) (val_main_call0_v0 (F := F))
def val_main_v24 (x4 : (⟨S3x128x128, .f32⟩ : BufTy).Contents (Elt F)) : (⟨S1x128x128, .f32⟩ : BufTy).Contents (Elt F) :=
  extractStridedSlice S1x128x128 ![0, 0, 0] (x4) slices_S3x128x128_S1x128x128_0_0_0
def val_main_v25 (x4 : (⟨S3x128x128, .f32⟩ : BufTy).Contents (Elt F)) : (⟨S128x128, .f32⟩ : BufTy).Contents (Elt F) :=
  shapeCast _ (val_main_v24 (F := F) x4) shapeCasts_S1x128x128_S128x128
def val_main_v26 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) : (⟨S50000x128, .f32⟩ : BufTy).Contents (Elt F) :=
  Host.dotGeneral dot_S50000x128_S128x128_S50000x128_1_0_0_1_n_n none (val_main_v23 (F := F) x0 x1 x2 x3) (val_main_v25 (F := F) x4)
def val_main_v27 (x5 : (⟨S3x128, .f32⟩ : BufTy).Contents (Elt F)) : (⟨S1x128, .f32⟩ : BufTy).Contents (Elt F) :=
  extractStridedSlice S1x128 ![0, 0] (x5) slices_S3x128_S1x128_0_0
def val_main_v28 (x5 : (⟨S3x128, .f32⟩ : BufTy).Contents (Elt F)) : (⟨S128, .f32⟩ : BufTy).Contents (Elt F) :=
  shapeCast _ (val_main_v27 (F := F) x5) shapeCasts_S1x128_S128
def val_main_v29 (x5 : (⟨S3x128, .f32⟩ : BufTy).Contents (Elt F)) : (⟨S1x128, .f32⟩ : BufTy).Contents (Elt F) :=
  broadcastInDim S1x128 ![1] bcast_S128_S1x128_1 (val_main_v28 (F := F) x5)
def val_main_v30 (x5 : (⟨S3x128, .f32⟩ : BufTy).Contents (Elt F)) : (⟨S50000x128, .f32⟩ : BufTy).Contents (Elt F) :=
  broadcastInDim S50000x128 ![0, 1] bcast_S1x128_S50000x128_0_1 (val_main_v29 (F := F) x5)
def val_main_v31 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S50000x128, .f32⟩ : BufTy).Contents (Elt F) :=
  addf (val_main_v26 (F := F) x0 x1 x2 x3 x4) (val_main_v30 (F := F) x5)
def val_main_cst_1 : (⟨S_, .f32⟩ : BufTy).Contents (Elt F) :=
  constant S_ .f32 0x00000000#32
def val_main_v32 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S128, .f32⟩ : BufTy).Contents (Elt F) :=
  Host.reduceAdd (val_main_v31 (F := F) x0 x1 x2 x3 x4 x5) (val_main_cst_1 (F := F)) reducesTo_S50000x128_S128_d0 h_S_
def val_main_cst_2 : (⟨S_, .f32⟩ : BufTy).Contents (Elt F) :=
  constant S_ .f32 0x47435000#32
def val_main_v33 : (⟨S128, .f32⟩ : BufTy).Contents (Elt F) :=
  broadcastInDim S128 ![] bcast_S_S128 (val_main_cst_2 (F := F))
def val_main_v34 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S128, .f32⟩ : BufTy).Contents (Elt F) :=
  Host.divf (val_main_v32 (F := F) x0 x1 x2 x3 x4 x5) (val_main_v33 (F := F))
def val_main_v35 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S1x128, .f32⟩ : BufTy).Contents (Elt F) :=
  broadcastInDim S1x128 ![1] bcast_S128_S1x128_1 (val_main_v34 (F := F) x0 x1 x2 x3 x4 x5)
def val_main_v36 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S50000x128, .f32⟩ : BufTy).Contents (Elt F) :=
  broadcastInDim S50000x128 ![0, 1] bcast_S1x128_S50000x128_0_1 (val_main_v35 (F := F) x0 x1 x2 x3 x4 x5)
def val_main_v37 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S50000x128, .f32⟩ : BufTy).Contents (Elt F) :=
  subf (val_main_v31 (F := F) x0 x1 x2 x3 x4 x5) (val_main_v36 (F := F) x0 x1 x2 x3 x4 x5)
def val_main_v38 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S50000x128, .f32⟩ : BufTy).Contents (Elt F) :=
  mulf (val_main_v37 (F := F) x0 x1 x2 x3 x4 x5) (val_main_v37 (F := F) x0 x1 x2 x3 x4 x5)
def val_main_cst_3 : (⟨S_, .f32⟩ : BufTy).Contents (Elt F) :=
  constant S_ .f32 0x00000000#32
def val_main_v39 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S128, .f32⟩ : BufTy).Contents (Elt F) :=
  Host.reduceAdd (val_main_v38 (F := F) x0 x1 x2 x3 x4 x5) (val_main_cst_3 (F := F)) reducesTo_S50000x128_S128_d0 h_S_
def val_main_cst_4 : (⟨S_, .f32⟩ : BufTy).Contents (Elt F) :=
  constant S_ .f32 0x47435000#32
def val_main_v40 : (⟨S128, .f32⟩ : BufTy).Contents (Elt F) :=
  broadcastInDim S128 ![] bcast_S_S128 (val_main_cst_4 (F := F))
def val_main_v41 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S128, .f32⟩ : BufTy).Contents (Elt F) :=
  Host.divf (val_main_v39 (F := F) x0 x1 x2 x3 x4 x5) (val_main_v40 (F := F))
def val_main_v42 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S1x128, .f32⟩ : BufTy).Contents (Elt F) :=
  broadcastInDim S1x128 ![1] bcast_S128_S1x128_1 (val_main_v34 (F := F) x0 x1 x2 x3 x4 x5)
def val_main_v43 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S50000x128, .f32⟩ : BufTy).Contents (Elt F) :=
  broadcastInDim S50000x128 ![0, 1] bcast_S1x128_S50000x128_0_1 (val_main_v42 (F := F) x0 x1 x2 x3 x4 x5)
def val_main_v44 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S50000x128, .f32⟩ : BufTy).Contents (Elt F) :=
  subf (val_main_v31 (F := F) x0 x1 x2 x3 x4 x5) (val_main_v43 (F := F) x0 x1 x2 x3 x4 x5)
def val_main_cst_5 : (⟨S_, .f32⟩ : BufTy).Contents (Elt F) :=
  constant S_ .f32 0x3727C5AC#32
def val_main_v45 : (⟨S128, .f32⟩ : BufTy).Contents (Elt F) :=
  broadcastInDim S128 ![] bcast_S_S128 (val_main_cst_5 (F := F))
def val_main_v46 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S128, .f32⟩ : BufTy).Contents (Elt F) :=
  addf (val_main_v41 (F := F) x0 x1 x2 x3 x4 x5) (val_main_v45 (F := F))
def val_main_v47 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S128, .f32⟩ : BufTy).Contents (Elt F) :=
  Host.rsqrt (val_main_v46 (F := F) x0 x1 x2 x3 x4 x5)
def val_main_v48 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S1x128, .f32⟩ : BufTy).Contents (Elt F) :=
  broadcastInDim S1x128 ![1] bcast_S128_S1x128_1 (val_main_v47 (F := F) x0 x1 x2 x3 x4 x5)
def val_main_v49 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S50000x128, .f32⟩ : BufTy).Contents (Elt F) :=
  broadcastInDim S50000x128 ![0, 1] bcast_S1x128_S50000x128_0_1 (val_main_v48 (F := F) x0 x1 x2 x3 x4 x5)
def val_main_v50 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) : (⟨S50000x128, .f32⟩ : BufTy).Contents (Elt F) :=
  mulf (val_main_v44 (F := F) x0 x1 x2 x3 x4 x5) (val_main_v49 (F := F) x0 x1 x2 x3 x4 x5)
def val_main_v51 (x6 : (⟨S3x128, .f32⟩ : BufTy).Contents (Elt F)) : (⟨S1x128, .f32⟩ : BufTy).Contents (Elt F) :=
  extractStridedSlice S1x128 ![0, 0] (x6) slices_S3x128_S1x128_0_0
def val_main_v52 (x6 : (⟨S3x128, .f32⟩ : BufTy).Contents (Elt F)) : (⟨S128, .f32⟩ : BufTy).Contents (Elt F) :=
  shapeCast _ (val_main_v51 (F := F) x6) shapeCasts_S1x128_S128
def val_main_v53 (x6 : (⟨S3x128, .f32⟩ : BufTy).Contents (Elt F)) : (⟨S1x128, .f32⟩ : BufTy).Contents (Elt F) :=
  broadcastInDim S1x128 ![1] bcast_S128_S1x128_1 (val_main_v52 (F := F) x6)
def val_main_v54 (x6 : (⟨S3x128, .f32⟩ : BufTy).Contents (Elt F)) : (⟨S50000x128, .f32⟩ : BufTy).Contents (Elt F) :=
  broadcastInDim S50000x128 ![0, 1] bcast_S1x128_S50000x128_0_1 (val_main_v53 (F := F) x6)
def val_main_v55 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 : (⟨S3x128, .f32⟩ : BufTy).Contents (Elt F)) : (⟨S50000x128, .f32⟩ : BufTy).Contents (Elt F) :=
  mulf (val_main_v50 (F := F) x0 x1 x2 x3 x4 x5) (val_main_v54 (F := F) x6)
def val_main_v56 (x7 : (⟨S3x128, .f32⟩ : BufTy).Contents (Elt F)) : (⟨S1x128, .f32⟩ : BufTy).Contents (Elt F) :=
  extractStridedSlice S1x128 ![0, 0] (x7) slices_S3x128_S1x128_0_0
def val_main_v57 (x7 : (⟨S3x128, .f32⟩ : BufTy).Contents (Elt F)) : (⟨S128, .f32⟩ : BufTy).Contents (Elt F) :=
  shapeCast _ (val_main_v56 (F := F) x7) shapeCasts_S1x128_S128
def val_main_v58 (x7 : (⟨S3x128, .f32⟩ : BufTy).Contents (Elt F)) : (⟨S1x128, .f32⟩ : BufTy).Contents (Elt F) :=
  broadcastInDim S1x128 ![1] bcast_S128_S1x128_1 (val_main_v57 (F := F) x7)
def val_main_v59 (x7 : (⟨S3x128, .f32⟩ : BufTy).Contents (Elt F)) : (⟨S50000x128, .f32⟩ : BufTy).Contents (Elt F) :=
  broadcastInDim S50000x128 ![0, 1] bcast_S1x128_S50000x128_0_1 (val_main_v58 (F := F) x7)
def val_main_v60 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  addf (val_main_v55 (F := F) x0 x1 x2 x3 x4 x5 x6) (val_main_v59 (F := F) x7)
def val_main_call1_cst : (⟨S_, .f32⟩ : BufTy).Contents (Elt F) :=
  constant S_ .f32 0x00000000#32
def val_main_call1_v0 : (⟨S50000x128, .f32⟩ : BufTy).Contents (Elt F) :=
  broadcastInDim S50000x128 ![] bcast_S_S50000x128 (val_main_call1_cst (F := F))
def val_main_v61 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  maximumf (val_main_v60 (F := F) x0 x1 x2 x3 x4 x5 x6 x7) (val_main_call1_v0 (F := F))
def val_main_c_6 : (⟨S_, .i32⟩ : BufTy).Contents (Elt F) :=
  constantI S_ 32 0#32
def val_main_v62 : (⟨S800000, .i32⟩ : BufTy).Contents (Elt F) :=
  broadcastInDim S800000 ![] bcast_S_S800000 (val_main_c_6 (F := F))
def val_main_v63 (x1 : (⟨S2x800000, .i32⟩ : BufTy).Contents (Elt F)) : (⟨S800000, .i1⟩ : BufTy).Contents (Elt F) :=
  cmpi .slt (val_main_v1 (F := F) x1) (val_main_v62 (F := F))
def val_main_c_7 : (⟨S_, .i32⟩ : BufTy).Contents (Elt F) :=
  constantI S_ 32 50000#32
def val_main_v64 : (⟨S800000, .i32⟩ : BufTy).Contents (Elt F) :=
  broadcastInDim S800000 ![] bcast_S_S800000 (val_main_c_7 (F := F))
def val_main_v65 (x1 : (⟨S2x800000, .i32⟩ : BufTy).Contents (Elt F)) : (⟨S800000, .i32⟩ : BufTy).Contents (Elt F) :=
  addi (val_main_v1 (F := F) x1) (val_main_v64 (F := F))
def val_main_v66 (x1 : (⟨S2x800000, .i32⟩ : BufTy).Contents (Elt F)) : (⟨S800000, .i32⟩ : BufTy).Contents (Elt F) :=
  select (val_main_v63 (F := F) x1) (val_main_v65 (F := F) x1) (val_main_v1 (F := F) x1)
def val_main_v67 (x1 : (⟨S2x800000, .i32⟩ : BufTy).Contents (Elt F)) : (⟨S800000x1, .i32⟩ : BufTy).Contents (Elt F) :=
  broadcastInDim S800000x1 ![0] bcast_S800000_S800000x1_0 (val_main_v66 (F := F) x1)
def val_main_v68 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S800000x128, .f32⟩ : BufTy).Contents (Elt F) :=
  Host.gather gather_S50000x128_S800000x1_S800000x128_1_0_n_n_0_1_1128 (val_main_v61 (F := F) x0 x1 x2 x3 x4 x5 x6 x7) (val_main_v67 (F := F) x1)

def val_main_cst_8 : (⟨S_, .f32⟩ : BufTy).Contents (Elt F) :=
  constant S_ .f32 0x00000000#32
def val_main_v69 : (⟨S50000x128, .f32⟩ : BufTy).Contents (Elt F) :=
  broadcastInDim S50000x128 ![] bcast_S_S50000x128 (val_main_cst_8 (F := F))
def val_main_v70 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)
def val_main_v71 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  Host.scatterAdd scatter_S50000x128_S800000x1_S800000x128_1_0_0_1 (val_main_v69 (F := F)) (val_main_v70 (F := F) x1) (val_main_v68 (F := F) x0 x1 x2 x3 x4 x5 x6 x7)

def val_main_v72 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  addf (val_main_v61 (F := F) x0 x1 x2 x3 x4 x5 x6 x7) (val_main_v71 (F := F) x0 x1 x2 x3 x4 x5 x6 x7)
def val_main_v73 (x2 : (⟨S3x128x128, .f32⟩ : BufTy).Contents (Elt F)) : (⟨S1x128x128, .f32⟩ : BufTy).Contents (Elt F) :=
  extractStridedSlice S1x128x128 ![1, 0, 0] (x2) slices_S3x128x128_S1x128x128_1_0_0
abbrev idx_main_v73 (i : S1x128x128.Idx) : S3x128x128.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
  | ⟨2, _⟩ => ⟨(i 2).val, (i 2).isLt⟩
theorem val_main_v73_apply (x2 : (⟨S3x128x128, .f32⟩ : BufTy).Contents (Elt F)) (i : S1x128x128.Idx) :
    val_main_v73 (F := F) x2 i = x2 (idx_main_v73 i) := by
  unfold val_main_v73
  exact extractStridedSlice_apply ![1, 0, 0] x2 slices_S3x128x128_S1x128x128_1_0_0 i (idx_main_v73 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v74 (x2 : (⟨S3x128x128, .f32⟩ : BufTy).Contents (Elt F)) : (⟨S128x128, .f32⟩ : BufTy).Contents (Elt F) :=
  shapeCast _ (val_main_v73 (F := F) x2) shapeCasts_S1x128x128_S128x128
abbrev idx_main_v74 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩
theorem val_main_v74_apply (x2 : (⟨S3x128x128, .f32⟩ : BufTy).Contents (Elt F)) (i : S128x128.Idx) :
    val_main_v74 (F := F) x2 i = val_main_v73 (F := F) x2 (idx_main_v74 i) := by
  unfold val_main_v74
  generalize val_main_v73 (F := F) x2 = y
  exact shapeCast_apply y shapeCasts_S1x128x128_S128x128 i (idx_main_v74 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)

def val_main_v75 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  Host.dotGeneral dot_S50000x128_S128x128_S50000x128_1_0_0_1_n_n none (val_main_v72 (F := F) x0 x1 x2 x3 x4 x5 x6 x7) (val_main_v74 (F := F) x2)
def val_main_v76 (x3 : (⟨S3x128, .f32⟩ : BufTy).Contents (Elt F)) : (⟨S1x128, .f32⟩ : BufTy).Contents (Elt F) :=
  extractStridedSlice S1x128 ![1, 0] (x3) slices_S3x128_S1x128_1_0
abbrev idx_main_v76 (i : S1x128.Idx) : S3x128.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
theorem val_main_v76_apply (x3 : (⟨S3x128, .f32⟩ : BufTy).Contents (Elt F)) (i : S1x128.Idx) :
    val_main_v76 (F := F) x3 i = x3 (idx_main_v76 i) := by
  unfold val_main_v76
  exact extractStridedSlice_apply ![1, 0] x3 slices_S3x128_S1x128_1_0 i (idx_main_v76 i) (fun a => match a with
    | ⟨0, _⟩ => by show 1 + (i 0).val = 1 + (i 0).val; omega
    | ⟨1, _⟩ => by show (i 1).val = 0 + (i 1).val; omega)

def val_main_v77 (x3 : (⟨S3x128, .f32⟩ : BufTy).Contents (Elt F)) : (⟨S128, .f32⟩ : BufTy).Contents (Elt F) :=
  shapeCast _ (val_main_v76 (F := F) x3) shapeCasts_S1x128_S128
abbrev idx_main_v77 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v77_apply (x3 : (⟨S3x128, .f32⟩ : BufTy).Contents (Elt F)) (i : S128.Idx) :
    val_main_v77 (F := F) x3 i = val_main_v76 (F := F) x3 (idx_main_v77 i) := by
  unfold val_main_v77
  generalize val_main_v76 (F := F) x3 = y
  exact shapeCast_apply y shapeCasts_S1x128_S128 i (idx_main_v77 i)
    (by rewrite [Shape.rowMajor_val_two, Shape.rowMajor_val_one]; have h0 : (i 0).val < 128 := (i 0).isLt; show 0 * 128 + ((i 0).val) % 128 = (i 0).val; omega)

def val_main_v78 (x3 : (⟨S3x128, .f32⟩ : BufTy).Contents (Elt F)) : (⟨S1x128, .f32⟩ : BufTy).Contents (Elt F) :=
  broadcastInDim S1x128 ![1] bcast_S128_S1x128_1 (val_main_v77 (F := F) x3)
def val_main_v79 (x3 : (⟨S3x128, .f32⟩ : BufTy).Contents (Elt F)) : (⟨S50000x128, .f32⟩ : BufTy).Contents (Elt F) :=
  broadcastInDim S50000x128 ![0, 1] bcast_S1x128_S50000x128_0_1 (val_main_v78 (F := F) x3)
def val_main_v80 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  addf (val_main_v75 (F := F) x0 x1 x2 x3 x4 x5 x6 x7) (val_main_v79 (F := F) x3)
def val_main_call2_cst : (⟨S_, .f32⟩ : BufTy).Contents (Elt F) :=
  constant S_ .f32 0x00000000#32
def val_main_call2_v0 : (⟨S50000x128, .f32⟩ : BufTy).Contents (Elt F) :=
  broadcastInDim S50000x128 ![] bcast_S_S50000x128 (val_main_call2_cst (F := F))
def val_main_v81 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  maximumf (val_main_v80 (F := F) x0 x1 x2 x3 x4 x5 x6 x7) (val_main_call2_v0 (F := F))
def val_main_v82 (x4 : (⟨S3x128x128, .f32⟩ : BufTy).Contents (Elt F)) : (⟨S1x128x128, .f32⟩ : BufTy).Contents (Elt F) :=
  extractStridedSlice S1x128x128 ![1, 0, 0] (x4) slices_S3x128x128_S1x128x128_1_0_0
def val_main_v83 (x4 : (⟨S3x128x128, .f32⟩ : BufTy).Contents (Elt F)) : (⟨S128x128, .f32⟩ : BufTy).Contents (Elt F) :=
  shapeCast _ (val_main_v82 (F := F) x4) shapeCasts_S1x128x128_S128x128
def val_main_v84 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  Host.dotGeneral dot_S50000x128_S128x128_S50000x128_1_0_0_1_n_n none (val_main_v81 (F := F) x0 x1 x2 x3 x4 x5 x6 x7) (val_main_v83 (F := F) x4)
def val_main_v85 (x5 : (⟨S3x128, .f32⟩ : BufTy).Contents (Elt F)) : (⟨S1x128, .f32⟩ : BufTy).Contents (Elt F) :=
  extractStridedSlice S1x128 ![1, 0] (x5) slices_S3x128_S1x128_1_0
def val_main_v86 (x5 : (⟨S3x128, .f32⟩ : BufTy).Contents (Elt F)) : (⟨S128, .f32⟩ : BufTy).Contents (Elt F) :=
  shapeCast _ (val_main_v85 (F := F) x5) shapeCasts_S1x128_S128
def val_main_v87 (x5 : (⟨S3x128, .f32⟩ : BufTy).Contents (Elt F)) : (⟨S1x128, .f32⟩ : BufTy).Contents (Elt F) :=
  broadcastInDim S1x128 ![1] bcast_S128_S1x128_1 (val_main_v86 (F := F) x5)
def val_main_v88 (x5 : (⟨S3x128, .f32⟩ : BufTy).Contents (Elt F)) : (⟨S50000x128, .f32⟩ : BufTy).Contents (Elt F) :=
  broadcastInDim S50000x128 ![0, 1] bcast_S1x128_S50000x128_0_1 (val_main_v87 (F := F) x5)
def val_main_v89 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  addf (val_main_v84 (F := F) x0 x1 x2 x3 x4 x5 x6 x7) (val_main_v88 (F := F) x5)
def val_main_cst_9 : (⟨S_, .f32⟩ : BufTy).Contents (Elt F) :=
  constant S_ .f32 0x00000000#32
def val_main_v90 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S128, .f32⟩ : BufTy).Contents (Elt F) :=
  Host.reduceAdd (val_main_v89 (F := F) x0 x1 x2 x3 x4 x5 x6 x7) (val_main_cst_9 (F := F)) reducesTo_S50000x128_S128_d0 h_S_
def val_main_cst_10 : (⟨S_, .f32⟩ : BufTy).Contents (Elt F) :=
  constant S_ .f32 0x47435000#32
def val_main_v91 : (⟨S128, .f32⟩ : BufTy).Contents (Elt F) :=
  broadcastInDim S128 ![] bcast_S_S128 (val_main_cst_10 (F := F))
def val_main_v92 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S128, .f32⟩ : BufTy).Contents (Elt F) :=
  Host.divf (val_main_v90 (F := F) x0 x1 x2 x3 x4 x5 x6 x7) (val_main_v91 (F := F))
def val_main_v93 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S1x128, .f32⟩ : BufTy).Contents (Elt F) :=
  broadcastInDim S1x128 ![1] bcast_S128_S1x128_1 (val_main_v92 (F := F) x0 x1 x2 x3 x4 x5 x6 x7)
def val_main_v94 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  broadcastInDim S50000x128 ![0, 1] bcast_S1x128_S50000x128_0_1 (val_main_v93 (F := F) x0 x1 x2 x3 x4 x5 x6 x7)
def val_main_v95 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  subf (val_main_v89 (F := F) x0 x1 x2 x3 x4 x5 x6 x7) (val_main_v94 (F := F) x0 x1 x2 x3 x4 x5 x6 x7)
def val_main_v96 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  mulf (val_main_v95 (F := F) x0 x1 x2 x3 x4 x5 x6 x7) (val_main_v95 (F := F) x0 x1 x2 x3 x4 x5 x6 x7)
def val_main_cst_11 : (⟨S_, .f32⟩ : BufTy).Contents (Elt F) :=
  constant S_ .f32 0x00000000#32
def val_main_v97 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S128, .f32⟩ : BufTy).Contents (Elt F) :=
  Host.reduceAdd (val_main_v96 (F := F) x0 x1 x2 x3 x4 x5 x6 x7) (val_main_cst_11 (F := F)) reducesTo_S50000x128_S128_d0 h_S_
def val_main_cst_12 : (⟨S_, .f32⟩ : BufTy).Contents (Elt F) :=
  constant S_ .f32 0x47435000#32
def val_main_v98 : (⟨S128, .f32⟩ : BufTy).Contents (Elt F) :=
  broadcastInDim S128 ![] bcast_S_S128 (val_main_cst_12 (F := F))
def val_main_v99 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S128, .f32⟩ : BufTy).Contents (Elt F) :=
  Host.divf (val_main_v97 (F := F) x0 x1 x2 x3 x4 x5 x6 x7) (val_main_v98 (F := F))
def val_main_v100 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S1x128, .f32⟩ : BufTy).Contents (Elt F) :=
  broadcastInDim S1x128 ![1] bcast_S128_S1x128_1 (val_main_v92 (F := F) x0 x1 x2 x3 x4 x5 x6 x7)
def val_main_v101 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  broadcastInDim S50000x128 ![0, 1] bcast_S1x128_S50000x128_0_1 (val_main_v100 (F := F) x0 x1 x2 x3 x4 x5 x6 x7)
def val_main_v102 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  subf (val_main_v89 (F := F) x0 x1 x2 x3 x4 x5 x6 x7) (val_main_v101 (F := F) x0 x1 x2 x3 x4 x5 x6 x7)
def val_main_cst_13 : (⟨S_, .f32⟩ : BufTy).Contents (Elt F) :=
  constant S_ .f32 0x3727C5AC#32
def val_main_v103 : (⟨S128, .f32⟩ : BufTy).Contents (Elt F) :=
  broadcastInDim S128 ![] bcast_S_S128 (val_main_cst_13 (F := F))
def val_main_v104 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S128, .f32⟩ : BufTy).Contents (Elt F) :=
  addf (val_main_v99 (F := F) x0 x1 x2 x3 x4 x5 x6 x7) (val_main_v103 (F := F))
def val_main_v105 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S128, .f32⟩ : BufTy).Contents (Elt F) :=
  Host.rsqrt (val_main_v104 (F := F) x0 x1 x2 x3 x4 x5 x6 x7)
def val_main_v106 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S1x128, .f32⟩ : BufTy).Contents (Elt F) :=
  broadcastInDim S1x128 ![1] bcast_S128_S1x128_1 (val_main_v105 (F := F) x0 x1 x2 x3 x4 x5 x6 x7)
def val_main_v107 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  broadcastInDim S50000x128 ![0, 1] bcast_S1x128_S50000x128_0_1 (val_main_v106 (F := F) x0 x1 x2 x3 x4 x5 x6 x7)
def val_main_v108 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  mulf (val_main_v102 (F := F) x0 x1 x2 x3 x4 x5 x6 x7) (val_main_v107 (F := F) x0 x1 x2 x3 x4 x5 x6 x7)
def val_main_v109 (x6 : (⟨S3x128, .f32⟩ : BufTy).Contents (Elt F)) : (⟨S1x128, .f32⟩ : BufTy).Contents (Elt F) :=
  extractStridedSlice S1x128 ![1, 0] (x6) slices_S3x128_S1x128_1_0
def val_main_v110 (x6 : (⟨S3x128, .f32⟩ : BufTy).Contents (Elt F)) : (⟨S128, .f32⟩ : BufTy).Contents (Elt F) :=
  shapeCast _ (val_main_v109 (F := F) x6) shapeCasts_S1x128_S128
def val_main_v111 (x6 : (⟨S3x128, .f32⟩ : BufTy).Contents (Elt F)) : (⟨S1x128, .f32⟩ : BufTy).Contents (Elt F) :=
  broadcastInDim S1x128 ![1] bcast_S128_S1x128_1 (val_main_v110 (F := F) x6)
def val_main_v112 (x6 : (⟨S3x128, .f32⟩ : BufTy).Contents (Elt F)) : (⟨S50000x128, .f32⟩ : BufTy).Contents (Elt F) :=
  broadcastInDim S50000x128 ![0, 1] bcast_S1x128_S50000x128_0_1 (val_main_v111 (F := F) x6)
def val_main_v113 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  mulf (val_main_v108 (F := F) x0 x1 x2 x3 x4 x5 x6 x7) (val_main_v112 (F := F) x6)
def val_main_v114 (x7 : (⟨S3x128, .f32⟩ : BufTy).Contents (Elt F)) : (⟨S1x128, .f32⟩ : BufTy).Contents (Elt F) :=
  extractStridedSlice S1x128 ![1, 0] (x7) slices_S3x128_S1x128_1_0
def val_main_v115 (x7 : (⟨S3x128, .f32⟩ : BufTy).Contents (Elt F)) : (⟨S128, .f32⟩ : BufTy).Contents (Elt F) :=
  shapeCast _ (val_main_v114 (F := F) x7) shapeCasts_S1x128_S128
def val_main_v116 (x7 : (⟨S3x128, .f32⟩ : BufTy).Contents (Elt F)) : (⟨S1x128, .f32⟩ : BufTy).Contents (Elt F) :=
  broadcastInDim S1x128 ![1] bcast_S128_S1x128_1 (val_main_v115 (F := F) x7)
def val_main_v117 (x7 : (⟨S3x128, .f32⟩ : BufTy).Contents (Elt F)) : (⟨S50000x128, .f32⟩ : BufTy).Contents (Elt F) :=
  broadcastInDim S50000x128 ![0, 1] bcast_S1x128_S50000x128_0_1 (val_main_v116 (F := F) x7)
def val_main_v118 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  addf (val_main_v113 (F := F) x0 x1 x2 x3 x4 x5 x6 x7) (val_main_v117 (F := F) x7)
def val_main_call3_cst : (⟨S_, .f32⟩ : BufTy).Contents (Elt F) :=
  constant S_ .f32 0x00000000#32
def val_main_call3_v0 : (⟨S50000x128, .f32⟩ : BufTy).Contents (Elt F) :=
  broadcastInDim S50000x128 ![] bcast_S_S50000x128 (val_main_call3_cst (F := F))
def val_main_v119 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  maximumf (val_main_v118 (F := F) x0 x1 x2 x3 x4 x5 x6 x7) (val_main_call3_v0 (F := F))
def val_main_c_14 : (⟨S_, .i32⟩ : BufTy).Contents (Elt F) :=
  constantI S_ 32 0#32
def val_main_v120 : (⟨S800000, .i32⟩ : BufTy).Contents (Elt F) :=
  broadcastInDim S800000 ![] bcast_S_S800000 (val_main_c_14 (F := F))
def val_main_v121 (x1 : (⟨S2x800000, .i32⟩ : BufTy).Contents (Elt F)) : (⟨S800000, .i1⟩ : BufTy).Contents (Elt F) :=
  cmpi .slt (val_main_v1 (F := F) x1) (val_main_v120 (F := F))
def val_main_c_15 : (⟨S_, .i32⟩ : BufTy).Contents (Elt F) :=
  constantI S_ 32 50000#32
def val_main_v122 : (⟨S800000, .i32⟩ : BufTy).Contents (Elt F) :=
  broadcastInDim S800000 ![] bcast_S_S800000 (val_main_c_15 (F := F))
def val_main_v123 (x1 : (⟨S2x800000, .i32⟩ : BufTy).Contents (Elt F)) : (⟨S800000, .i32⟩ : BufTy).Contents (Elt F) :=
  addi (val_main_v1 (F := F) x1) (val_main_v122 (F := F))
def val_main_v124 (x1 : (⟨S2x800000, .i32⟩ : BufTy).Contents (Elt F)) : (⟨S800000, .i32⟩ : BufTy).Contents (Elt F) :=
  select (val_main_v121 (F := F) x1) (val_main_v123 (F := F) x1) (val_main_v1 (F := F) x1)
def val_main_v125 (x1 : (⟨S2x800000, .i32⟩ : BufTy).Contents (Elt F)) : (⟨S800000x1, .i32⟩ : BufTy).Contents (Elt F) :=
  broadcastInDim S800000x1 ![0] bcast_S800000_S800000x1_0 (val_main_v124 (F := F) x1)
def val_main_v126 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S800000x128, .f32⟩ : BufTy).Contents (Elt F) :=
  Host.gather gather_S50000x128_S800000x1_S800000x128_1_0_n_n_0_1_1128 (val_main_v119 (F := F) x0 x1 x2 x3 x4 x5 x6 x7) (val_main_v125 (F := F) x1)

def val_main_cst_16 : (⟨S_, .f32⟩ : BufTy).Contents (Elt F) :=
  constant S_ .f32 0x00000000#32
def val_main_v127 : (⟨S50000x128, .f32⟩ : BufTy).Contents (Elt F) :=
  broadcastInDim S50000x128 ![] bcast_S_S50000x128 (val_main_cst_16 (F := F))
def val_main_v128 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)
def val_main_v129 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  Host.scatterAdd scatter_S50000x128_S800000x1_S800000x128_1_0_0_1 (val_main_v127 (F := F)) (val_main_v128 (F := F) x1) (val_main_v126 (F := F) x0 x1 x2 x3 x4 x5 x6 x7)

def val_main_v130 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  addf (val_main_v119 (F := F) x0 x1 x2 x3 x4 x5 x6 x7) (val_main_v129 (F := F) x0 x1 x2 x3 x4 x5 x6 x7)
def val_main_v131 (x2 : (⟨S3x128x128, .f32⟩ : BufTy).Contents (Elt F)) : (⟨S1x128x128, .f32⟩ : BufTy).Contents (Elt F) :=
  extractStridedSlice S1x128x128 ![2, 0, 0] (x2) slices_S3x128x128_S1x128x128_2_0_0
abbrev idx_main_v131 (i : S1x128x128.Idx) : S3x128x128.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
  | ⟨2, _⟩ => ⟨(i 2).val, (i 2).isLt⟩
theorem val_main_v131_apply (x2 : (⟨S3x128x128, .f32⟩ : BufTy).Contents (Elt F)) (i : S1x128x128.Idx) :
    val_main_v131 (F := F) x2 i = x2 (idx_main_v131 i) := by
  unfold val_main_v131
  exact extractStridedSlice_apply ![2, 0, 0] x2 slices_S3x128x128_S1x128x128_2_0_0 i (idx_main_v131 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v132 (x2 : (⟨S3x128x128, .f32⟩ : BufTy).Contents (Elt F)) : (⟨S128x128, .f32⟩ : BufTy).Contents (Elt F) :=
  shapeCast _ (val_main_v131 (F := F) x2) shapeCasts_S1x128x128_S128x128
abbrev idx_main_v132 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩
theorem val_main_v132_apply (x2 : (⟨S3x128x128, .f32⟩ : BufTy).Contents (Elt F)) (i : S128x128.Idx) :
    val_main_v132 (F := F) x2 i = val_main_v131 (F := F) x2 (idx_main_v132 i) := by
  unfold val_main_v132
  generalize val_main_v131 (F := F) x2 = y
  exact shapeCast_apply y shapeCasts_S1x128x128_S128x128 i (idx_main_v132 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)

def val_main_v133 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  Host.dotGeneral dot_S50000x128_S128x128_S50000x128_1_0_0_1_n_n none (val_main_v130 (F := F) x0 x1 x2 x3 x4 x5 x6 x7) (val_main_v132 (F := F) x2)
def val_main_v134 (x3 : (⟨S3x128, .f32⟩ : BufTy).Contents (Elt F)) : (⟨S1x128, .f32⟩ : BufTy).Contents (Elt F) :=
  extractStridedSlice S1x128 ![2, 0] (x3) slices_S3x128_S1x128_2_0
abbrev idx_main_v134 (i : S1x128.Idx) : S3x128.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
theorem val_main_v134_apply (x3 : (⟨S3x128, .f32⟩ : BufTy).Contents (Elt F)) (i : S1x128.Idx) :
    val_main_v134 (F := F) x3 i = x3 (idx_main_v134 i) := by
  unfold val_main_v134
  exact extractStridedSlice_apply ![2, 0] x3 slices_S3x128_S1x128_2_0 i (idx_main_v134 i) (fun a => match a with
    | ⟨0, _⟩ => by show 2 + (i 0).val = 2 + (i 0).val; omega
    | ⟨1, _⟩ => by show (i 1).val = 0 + (i 1).val; omega)

def val_main_v135 (x3 : (⟨S3x128, .f32⟩ : BufTy).Contents (Elt F)) : (⟨S128, .f32⟩ : BufTy).Contents (Elt F) :=
  shapeCast _ (val_main_v134 (F := F) x3) shapeCasts_S1x128_S128
abbrev idx_main_v135 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩
theorem val_main_v135_apply (x3 : (⟨S3x128, .f32⟩ : BufTy).Contents (Elt F)) (i : S128.Idx) :
    val_main_v135 (F := F) x3 i = val_main_v134 (F := F) x3 (idx_main_v135 i) := by
  unfold val_main_v135
  generalize val_main_v134 (F := F) x3 = y
  exact shapeCast_apply y shapeCasts_S1x128_S128 i (idx_main_v135 i)
    (by rewrite [Shape.rowMajor_val_two, Shape.rowMajor_val_one]; have h0 : (i 0).val < 128 := (i 0).isLt; show 0 * 128 + ((i 0).val) % 128 = (i 0).val; omega)

def val_main_v136 (x3 : (⟨S3x128, .f32⟩ : BufTy).Contents (Elt F)) : (⟨S1x128, .f32⟩ : BufTy).Contents (Elt F) :=
  broadcastInDim S1x128 ![1] bcast_S128_S1x128_1 (val_main_v135 (F := F) x3)
def val_main_v137 (x3 : (⟨S3x128, .f32⟩ : BufTy).Contents (Elt F)) : (⟨S50000x128, .f32⟩ : BufTy).Contents (Elt F) :=
  broadcastInDim S50000x128 ![0, 1] bcast_S1x128_S50000x128_0_1 (val_main_v136 (F := F) x3)
def val_main_v138 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  addf (val_main_v133 (F := F) x0 x1 x2 x3 x4 x5 x6 x7) (val_main_v137 (F := F) x3)
def val_main_call4_cst : (⟨S_, .f32⟩ : BufTy).Contents (Elt F) :=
  constant S_ .f32 0x00000000#32
def val_main_call4_v0 : (⟨S50000x128, .f32⟩ : BufTy).Contents (Elt F) :=
  broadcastInDim S50000x128 ![] bcast_S_S50000x128 (val_main_call4_cst (F := F))
def val_main_v139 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  maximumf (val_main_v138 (F := F) x0 x1 x2 x3 x4 x5 x6 x7) (val_main_call4_v0 (F := F))
def val_main_v140 (x4 : (⟨S3x128x128, .f32⟩ : BufTy).Contents (Elt F)) : (⟨S1x128x128, .f32⟩ : BufTy).Contents (Elt F) :=
  extractStridedSlice S1x128x128 ![2, 0, 0] (x4) slices_S3x128x128_S1x128x128_2_0_0
def val_main_v141 (x4 : (⟨S3x128x128, .f32⟩ : BufTy).Contents (Elt F)) : (⟨S128x128, .f32⟩ : BufTy).Contents (Elt F) :=
  shapeCast _ (val_main_v140 (F := F) x4) shapeCasts_S1x128x128_S128x128
def val_main_v142 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  Host.dotGeneral dot_S50000x128_S128x128_S50000x128_1_0_0_1_n_n none (val_main_v139 (F := F) x0 x1 x2 x3 x4 x5 x6 x7) (val_main_v141 (F := F) x4)
def val_main_v143 (x5 : (⟨S3x128, .f32⟩ : BufTy).Contents (Elt F)) : (⟨S1x128, .f32⟩ : BufTy).Contents (Elt F) :=
  extractStridedSlice S1x128 ![2, 0] (x5) slices_S3x128_S1x128_2_0
def val_main_v144 (x5 : (⟨S3x128, .f32⟩ : BufTy).Contents (Elt F)) : (⟨S128, .f32⟩ : BufTy).Contents (Elt F) :=
  shapeCast _ (val_main_v143 (F := F) x5) shapeCasts_S1x128_S128
def val_main_v145 (x5 : (⟨S3x128, .f32⟩ : BufTy).Contents (Elt F)) : (⟨S1x128, .f32⟩ : BufTy).Contents (Elt F) :=
  broadcastInDim S1x128 ![1] bcast_S128_S1x128_1 (val_main_v144 (F := F) x5)
def val_main_v146 (x5 : (⟨S3x128, .f32⟩ : BufTy).Contents (Elt F)) : (⟨S50000x128, .f32⟩ : BufTy).Contents (Elt F) :=
  broadcastInDim S50000x128 ![0, 1] bcast_S1x128_S50000x128_0_1 (val_main_v145 (F := F) x5)
def val_main_v147 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  addf (val_main_v142 (F := F) x0 x1 x2 x3 x4 x5 x6 x7) (val_main_v146 (F := F) x5)
def val_main_cst_17 : (⟨S_, .f32⟩ : BufTy).Contents (Elt F) :=
  constant S_ .f32 0x00000000#32
def val_main_v148 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S128, .f32⟩ : BufTy).Contents (Elt F) :=
  Host.reduceAdd (val_main_v147 (F := F) x0 x1 x2 x3 x4 x5 x6 x7) (val_main_cst_17 (F := F)) reducesTo_S50000x128_S128_d0 h_S_
def val_main_cst_18 : (⟨S_, .f32⟩ : BufTy).Contents (Elt F) :=
  constant S_ .f32 0x47435000#32
def val_main_v149 : (⟨S128, .f32⟩ : BufTy).Contents (Elt F) :=
  broadcastInDim S128 ![] bcast_S_S128 (val_main_cst_18 (F := F))
def val_main_v150 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S128, .f32⟩ : BufTy).Contents (Elt F) :=
  Host.divf (val_main_v148 (F := F) x0 x1 x2 x3 x4 x5 x6 x7) (val_main_v149 (F := F))
def val_main_v151 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S1x128, .f32⟩ : BufTy).Contents (Elt F) :=
  broadcastInDim S1x128 ![1] bcast_S128_S1x128_1 (val_main_v150 (F := F) x0 x1 x2 x3 x4 x5 x6 x7)
def val_main_v152 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  broadcastInDim S50000x128 ![0, 1] bcast_S1x128_S50000x128_0_1 (val_main_v151 (F := F) x0 x1 x2 x3 x4 x5 x6 x7)
def val_main_v153 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  subf (val_main_v147 (F := F) x0 x1 x2 x3 x4 x5 x6 x7) (val_main_v152 (F := F) x0 x1 x2 x3 x4 x5 x6 x7)
def val_main_v154 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  mulf (val_main_v153 (F := F) x0 x1 x2 x3 x4 x5 x6 x7) (val_main_v153 (F := F) x0 x1 x2 x3 x4 x5 x6 x7)
def val_main_cst_19 : (⟨S_, .f32⟩ : BufTy).Contents (Elt F) :=
  constant S_ .f32 0x00000000#32
def val_main_v155 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S128, .f32⟩ : BufTy).Contents (Elt F) :=
  Host.reduceAdd (val_main_v154 (F := F) x0 x1 x2 x3 x4 x5 x6 x7) (val_main_cst_19 (F := F)) reducesTo_S50000x128_S128_d0 h_S_
def val_main_cst_20 : (⟨S_, .f32⟩ : BufTy).Contents (Elt F) :=
  constant S_ .f32 0x47435000#32
def val_main_v156 : (⟨S128, .f32⟩ : BufTy).Contents (Elt F) :=
  broadcastInDim S128 ![] bcast_S_S128 (val_main_cst_20 (F := F))
def val_main_v157 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S128, .f32⟩ : BufTy).Contents (Elt F) :=
  Host.divf (val_main_v155 (F := F) x0 x1 x2 x3 x4 x5 x6 x7) (val_main_v156 (F := F))
def val_main_v158 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S1x128, .f32⟩ : BufTy).Contents (Elt F) :=
  broadcastInDim S1x128 ![1] bcast_S128_S1x128_1 (val_main_v150 (F := F) x0 x1 x2 x3 x4 x5 x6 x7)
def val_main_v159 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  broadcastInDim S50000x128 ![0, 1] bcast_S1x128_S50000x128_0_1 (val_main_v158 (F := F) x0 x1 x2 x3 x4 x5 x6 x7)
def val_main_v160 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  subf (val_main_v147 (F := F) x0 x1 x2 x3 x4 x5 x6 x7) (val_main_v159 (F := F) x0 x1 x2 x3 x4 x5 x6 x7)
def val_main_cst_21 : (⟨S_, .f32⟩ : BufTy).Contents (Elt F) :=
  constant S_ .f32 0x3727C5AC#32
def val_main_v161 : (⟨S128, .f32⟩ : BufTy).Contents (Elt F) :=
  broadcastInDim S128 ![] bcast_S_S128 (val_main_cst_21 (F := F))
def val_main_v162 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S128, .f32⟩ : BufTy).Contents (Elt F) :=
  addf (val_main_v157 (F := F) x0 x1 x2 x3 x4 x5 x6 x7) (val_main_v161 (F := F))
def val_main_v163 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S128, .f32⟩ : BufTy).Contents (Elt F) :=
  Host.rsqrt (val_main_v162 (F := F) x0 x1 x2 x3 x4 x5 x6 x7)
def val_main_v164 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S1x128, .f32⟩ : BufTy).Contents (Elt F) :=
  broadcastInDim S1x128 ![1] bcast_S128_S1x128_1 (val_main_v163 (F := F) x0 x1 x2 x3 x4 x5 x6 x7)
def val_main_v165 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  broadcastInDim S50000x128 ![0, 1] bcast_S1x128_S50000x128_0_1 (val_main_v164 (F := F) x0 x1 x2 x3 x4 x5 x6 x7)
def val_main_v166 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  mulf (val_main_v160 (F := F) x0 x1 x2 x3 x4 x5 x6 x7) (val_main_v165 (F := F) x0 x1 x2 x3 x4 x5 x6 x7)
def val_main_v167 (x6 : (⟨S3x128, .f32⟩ : BufTy).Contents (Elt F)) : (⟨S1x128, .f32⟩ : BufTy).Contents (Elt F) :=
  extractStridedSlice S1x128 ![2, 0] (x6) slices_S3x128_S1x128_2_0
def val_main_v168 (x6 : (⟨S3x128, .f32⟩ : BufTy).Contents (Elt F)) : (⟨S128, .f32⟩ : BufTy).Contents (Elt F) :=
  shapeCast _ (val_main_v167 (F := F) x6) shapeCasts_S1x128_S128
def val_main_v169 (x6 : (⟨S3x128, .f32⟩ : BufTy).Contents (Elt F)) : (⟨S1x128, .f32⟩ : BufTy).Contents (Elt F) :=
  broadcastInDim S1x128 ![1] bcast_S128_S1x128_1 (val_main_v168 (F := F) x6)
def val_main_v170 (x6 : (⟨S3x128, .f32⟩ : BufTy).Contents (Elt F)) : (⟨S50000x128, .f32⟩ : BufTy).Contents (Elt F) :=
  broadcastInDim S50000x128 ![0, 1] bcast_S1x128_S50000x128_0_1 (val_main_v169 (F := F) x6)
def val_main_v171 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  mulf (val_main_v166 (F := F) x0 x1 x2 x3 x4 x5 x6 x7) (val_main_v170 (F := F) x6)
def val_main_v172 (x7 : (⟨S3x128, .f32⟩ : BufTy).Contents (Elt F)) : (⟨S1x128, .f32⟩ : BufTy).Contents (Elt F) :=
  extractStridedSlice S1x128 ![2, 0] (x7) slices_S3x128_S1x128_2_0
def val_main_v173 (x7 : (⟨S3x128, .f32⟩ : BufTy).Contents (Elt F)) : (⟨S128, .f32⟩ : BufTy).Contents (Elt F) :=
  shapeCast _ (val_main_v172 (F := F) x7) shapeCasts_S1x128_S128
def val_main_v174 (x7 : (⟨S3x128, .f32⟩ : BufTy).Contents (Elt F)) : (⟨S1x128, .f32⟩ : BufTy).Contents (Elt F) :=
  broadcastInDim S1x128 ![1] bcast_S128_S1x128_1 (val_main_v173 (F := F) x7)
def val_main_v175 (x7 : (⟨S3x128, .f32⟩ : BufTy).Contents (Elt F)) : (⟨S50000x128, .f32⟩ : BufTy).Contents (Elt F) :=
  broadcastInDim S50000x128 ![0, 1] bcast_S1x128_S50000x128_0_1 (val_main_v174 (F := F) x7)
def val_main_v176 (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 x6 x7 : (⟨S3x128, .f32⟩ : BufTy).Contents (Elt F)) : (⟨S50000x128, .f32⟩ : BufTy).Contents (Elt F) :=
  addf (val_main_v171 (F := F) x0 x1 x2 x3 x4 x5 x6 x7) (val_main_v175 (F := F) x7)
end Cert.ReferenceIdeal.ReadP

end
-- ==== Proof.RefAgg.lean ====
import proofs.«420740_j41515153883619_1_alg».proof.Proof.RefReadP
import proofs.«420740_j41515153883619_1_alg».proof.Proof.Params

noncomputable section

namespace Cert.ReferenceIdeal.RefValue

open Cert.ReferenceIdeal Cert.ReferenceIdeal.Gen Idealize.ShloMosaic Idealize.ShloMosaic.TcCoe Idealize.ShloMosaic.StableHlo
open Cert.ReferenceIdeal.ReadP

def agg (E : (⟨S2x800000, .i32⟩ : BufTy).Contents (Elt Ideal)) (x : Cert.Spec.Mat) : Cert.Spec.Mat :=
  Cert.Spec.toMat (val_main_v13 (F := Ideal) (Cert.Spec.ofMat x) E)

end Cert.ReferenceIdeal.RefValue

end
-- ==== Proof.HostEntry.lean ====
import proofs.«420740_j41515153883619_1_alg».proof.Proof.Gen.KernelIdeal.Regions
import proofs.«420740_j41515153883619_1_alg».proof.Proof.Params
import proofs.«420740_j41515153883619_1_alg».proof.Proof.RefAgg
import proofs.«420740_j41515153883619_1_alg».proof.Proof.PreDecode
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostV

open Cert.KernelIdeal Cert.KernelIdeal.Gen Idealize.ShloMosaic Idealize.ShloMosaic.TcCoe Idealize.SL.Sem Idealize.ShloMosaic.StableHlo
open Idealize.ShloMosaic.ValueIdx Cert.Spec

variable (m : (ℓ : Loc nD τ sig) → Buf (Elt Ideal) ℓ) (outs : Outs (F := Ideal))

theorem slab_apply (W : S3x128x128.Idx → EReal) (off : Fin S3x128x128.rank → Nat) (hs : S3x128x128.Slices off S1x128x128)
    (s : Fin 3) (h0 : off 0 = s.val) (h1 : off 1 = 0) (h2 : off 2 = 0) (l k : Fin 128) :
    shapeCast S128x128 (extractStridedSlice S1x128x128 off W hs) shapeCasts_S1x128x128_S128x128 (ix2 l k) = W (ix3 s l k) := by
  refine (shapeCast_apply _ shapeCasts_S1x128x128_S128x128 (ix2 l k) (ix3 (0 : Fin 1) l k) ?_).trans ?_
  · rewrite [Shape.rowMajor_val_three, Shape.rowMajor_val_two]
    show (0 * 128 + l.val) * 128 + k.val = l.val * 128 + k.val
    omega
  · exact extractStridedSlice_apply off W hs (ix3 (0 : Fin 1) l k) (ix3 s l k) (fun a => match a with
      | ⟨0, _⟩ => by show s.val = off 0 + 0; omega
      | ⟨1, _⟩ => by show l.val = off 1 + l.val; omega
      | ⟨2, _⟩ => by show k.val = off 2 + k.val; omega)

theorem rowslab_apply (b : S3x128.Idx → EReal) (off : Fin S3x128.rank → Nat) (hs : S3x128.Slices off S1x128)
    (s : Fin 3) (h0 : off 0 = s.val) (h1 : off 1 = 0) (k : Fin 128) :
    shapeCast S1x128 (shapeCast S128 (extractStridedSlice S1x128 off b hs) shapeCasts_S1x128_S128) shapeCasts_S128_S1x128 (ix2 0 k) = b (ix2 s k) := by
  refine (shapeCast_apply _ shapeCasts_S128_S1x128 (ix2 (0 : Fin 1) k) (ix1 k) ?_).trans ?_
  · rewrite [Shape.rowMajor_val_one, Shape.rowMajor_val_two]
    show k.val = 0 * 128 + k.val
    omega
  refine (shapeCast_apply _ shapeCasts_S1x128_S128 (ix1 k) (ix2 (0 : Fin 1) k) ?_).trans ?_
  · rewrite [Shape.rowMajor_val_two, Shape.rowMajor_val_one]
    show 0 * 128 + k.val = k.val
    omega
  · exact extractStridedSlice_apply off b hs (ix2 (0 : Fin 1) k) (ix2 s k) (fun a => match a with
      | ⟨0, _⟩ => by show s.val = off 0 + 0; omega
      | ⟨1, _⟩ => by show k.val = off 1 + k.val; omega)

theorem V2_back (c : Dev nD) (r : Ref sig .tc) (h0 : r ∉ hostOps0_W) (h1 : r ∉ hostOps0_1_W) : V2 m c r = V0 m c r :=
  (V2_of m c r h1).trans (V1_of m c r h0)

theorem V6_to_V1 (c : Dev nD) (r : Ref sig .tc) (h1 : r ∉ hostOps0_1_W) (h2 : r ∉ hostOps0_2_W)
    (h3 : r ∉ ([main_v18_0, main_v18_1, main_v18_2] : List (Ref sig .tc))) (h4 : r ∉ hostOps1_W)
    (h5 : r ∉ ([main_v39] : List (Ref sig .tc))) : V6 m outs c r = V1 m c r :=
  (V6_of m outs c r h5).trans <| (V5_of m outs c r h4).trans <| (V4_of m outs c r h3).trans <| (V3_of m c r h2).trans (V2_of m c r h1)

theorem V7_to_V1 (c : Dev nD) (r : Ref sig .tc) (h1 : r ∉ hostOps0_1_W) (h2 : r ∉ hostOps0_2_W)
    (h3 : r ∉ ([main_v18_0, main_v18_1, main_v18_2] : List (Ref sig .tc))) (h4 : r ∉ hostOps1_W)
    (h5 : r ∉ ([main_v39] : List (Ref sig .tc))) (h6 : r ∉ hostOps2_W) : V7 m outs c r = V1 m c r :=
  (V7_of m outs c r h6).trans (V6_to_V1 m outs c r h1 h2 h3 h4 h5)

theorem V11_to_V1 (c : Dev nD) (r : Ref sig .tc) (h1 : r ∉ hostOps0_1_W) (h2 : r ∉ hostOps0_2_W)
    (h3 : r ∉ ([main_v18_0, main_v18_1, main_v18_2] : List (Ref sig .tc))) (h4 : r ∉ hostOps1_W)
    (h5 : r ∉ ([main_v39] : List (Ref sig .tc))) (h6 : r ∉ hostOps2_W) (h7 : r ∉ hostOps2_1_W)
    (h8 : r ∉ ([main_v54_0, main_v54_1, main_v54_2] : List (Ref sig .tc))) (h9 : r ∉ hostOps3_W)
    (h10 : r ∉ ([main_v75] : List (Ref sig .tc))) : V11 m outs c r = V1 m c r :=
  (V11_of m outs c r h10).trans <| (V10_of m outs c r h9).trans <| (V9_of m outs c r h8).trans <|
    (V8_of m outs c r h7).trans (V7_to_V1 m outs c r h1 h2 h3 h4 h5 h6)

theorem V12_to_V1 (c : Dev nD) (r : Ref sig .tc) (h1 : r ∉ hostOps0_1_W) (h2 : r ∉ hostOps0_2_W)
    (h3 : r ∉ ([main_v18_0, main_v18_1, main_v18_2] : List (Ref sig .tc))) (h4 : r ∉ hostOps1_W)
    (h5 : r ∉ ([main_v39] : List (Ref sig .tc))) (h6 : r ∉ hostOps2_W) (h7 : r ∉ hostOps2_1_W)
    (h8 : r ∉ ([main_v54_0, main_v54_1, main_v54_2] : List (Ref sig .tc))) (h9 : r ∉ hostOps3_W)
    (h10 : r ∉ ([main_v75] : List (Ref sig .tc))) (h11 : r ∉ hostOps4_W) : V12 m outs c r = V1 m c r :=
  (V12_of m outs c r h11).trans (V11_to_V1 m outs c r h1 h2 h3 h4 h5 h6 h7 h8 h9 h10)

theorem V7_back (c : Dev nD) (r : Ref sig .tc) (h0 : r ∉ hostOps0_W) (h1 : r ∉ hostOps0_1_W) (h2 : r ∉ hostOps0_2_W)
    (h3 : r ∉ ([main_v18_0, main_v18_1, main_v18_2] : List (Ref sig .tc))) (h4 : r ∉ hostOps1_W)
    (h5 : r ∉ ([main_v39] : List (Ref sig .tc))) (h6 : r ∉ hostOps2_W) : V7 m outs c r = V0 m c r :=
  (V7_to_V1 m outs c r h1 h2 h3 h4 h5 h6).trans (V1_of m c r h0)

theorem V12_back (c : Dev nD) (r : Ref sig .tc) (h0 : r ∉ hostOps0_W) (h1 : r ∉ hostOps0_1_W) (h2 : r ∉ hostOps0_2_W)
    (h3 : r ∉ ([main_v18_0, main_v18_1, main_v18_2] : List (Ref sig .tc))) (h4 : r ∉ hostOps1_W)
    (h5 : r ∉ ([main_v39] : List (Ref sig .tc))) (h6 : r ∉ hostOps2_W) (h7 : r ∉ hostOps2_1_W)
    (h8 : r ∉ ([main_v54_0, main_v54_1, main_v54_2] : List (Ref sig .tc))) (h9 : r ∉ hostOps3_W)
    (h10 : r ∉ ([main_v75] : List (Ref sig .tc))) (h11 : r ∉ hostOps4_W) : V12 m outs c r = V0 m c r :=
  (V12_to_V1 m outs c r h1 h2 h3 h4 h5 h6 h7 h8 h9 h10 h11).trans (V1_of m c r h0)

theorem e1_x (c : Dev nD) : (V3 m c main_arg0 : S50000x128.Idx → EReal) = (m ((c.tc : Thread nD τ).loc main_arg0) : S50000x128.Idx → EReal) :=
  (V3_of m c main_arg0 (by decide)).trans (V2_back m c main_arg0 (by decide) (by decide))
set_option maxHeartbeats 2000000 in
theorem e1_w1 (c : Dev nD) (l k : Fin 128) : (V3 m c main_v9 : S128x128.Idx → EReal) (ix2 l k) = sq3 (m ((c.tc : Thread nD τ).loc main_arg2)) 0 l k := by
  have e : (V3 m c main_v9 : S128x128.Idx → EReal)
      = shapeCast S128x128 (extractStridedSlice S1x128x128 ![0, 0, 0] (V2 m c main_arg2 : S3x128x128.Idx → EReal) slices_S3x128x128_S1x128x128_0_0_0) shapeCasts_S1x128x128_S128x128 := by
    dsimp only [V3]; after_results_simp; rfl
  rw [e, V2_back m c main_arg2 (by decide) (by decide)]
  exact slab_apply _ ![0, 0, 0] slices_S3x128x128_S1x128x128_0_0_0 0 rfl rfl rfl l k
set_option maxHeartbeats 2000000 in
theorem e1_b1 (c : Dev nD) (k : Fin 128) : (V3 m c main_v16 : S1x128.Idx → EReal) (ix2 0 k) = row3 (m ((c.tc : Thread nD τ).loc main_arg3)) 0 k := by
  have e : (V3 m c main_v16 : S1x128.Idx → EReal)
      = shapeCast S1x128 (shapeCast S128 (extractStridedSlice S1x128 ![0, 0] (V2 m c main_arg3 : S3x128.Idx → EReal) slices_S3x128_S1x128_0_0) shapeCasts_S1x128_S128) shapeCasts_S128_S1x128 := by
    dsimp only [V3]; after_results_simp; rfl
  rw [e, V2_back m c main_arg3 (by decide) (by decide)]
  exact rowslab_apply _ ![0, 0] slices_S3x128_S1x128_0_0 0 rfl rfl k
set_option maxHeartbeats 2000000 in
theorem e1_w2 (c : Dev nD) (l k : Fin 128) : (V3 m c main_v13 : S128x128.Idx → EReal) (ix2 l k) = sq3 (m ((c.tc : Thread nD τ).loc main_arg4)) 0 l k := by
  have e : (V3 m c main_v13 : S128x128.Idx → EReal)
      = shapeCast S128x128 (extractStridedSlice S1x128x128 ![0, 0, 0] (V2 m c main_arg4 : S3x128x128.Idx → EReal) slices_S3x128x128_S1x128x128_0_0_0) shapeCasts_S1x128x128_S128x128 := by
    dsimp only [V3]; after_results_simp; rfl
  rw [e, V2_back m c main_arg4 (by decide) (by decide)]
  exact slab_apply _ ![0, 0, 0] slices_S3x128x128_S1x128x128_0_0_0 0 rfl rfl rfl l k
set_option maxHeartbeats 2000000 in
theorem e1_b2 (c : Dev nD) (k : Fin 128) : (V3 m c main_v17 : S1x128.Idx → EReal) (ix2 0 k) = row3 (m ((c.tc : Thread nD τ).loc main_arg5)) 0 k := by
  have e : (V3 m c main_v17 : S1x128.Idx → EReal)
      = shapeCast S1x128 (shapeCast S128 (extractStridedSlice S1x128 ![0, 0] (V2 m c main_arg5 : S3x128.Idx → EReal) slices_S3x128_S1x128_0_0) shapeCasts_S1x128_S128) shapeCasts_S128_S1x128 := by
    dsimp only [V3]; after_results_simp; rfl
  rw [e, V2_back m c main_arg5 (by decide) (by decide)]
  exact rowslab_apply _ ![0, 0] slices_S3x128_S1x128_0_0 0 rfl rfl k

theorem e2_x (c : Dev nD) : (V8 m outs c main_v39 : S50000x128.Idx → EReal) = (outs 6 main_v39 c : S50000x128.Idx → EReal) :=
  (V8_of m outs c main_v39 (by decide)).trans <| (V7_of m outs c main_v39 (by decide)).trans (Function.update_self _ _ _)
set_option maxHeartbeats 2000000 in
theorem e2_w1 (c : Dev nD) (l k : Fin 128) : (V8 m outs c main_v45 : S128x128.Idx → EReal) (ix2 l k) = sq3 (m ((c.tc : Thread nD τ).loc main_arg2)) 1 l k := by
  have e : (V8 m outs c main_v45 : S128x128.Idx → EReal)
      = shapeCast S128x128 (extractStridedSlice S1x128x128 ![1, 0, 0] (V7 m outs c main_arg2 : S3x128x128.Idx → EReal) slices_S3x128x128_S1x128x128_1_0_0) shapeCasts_S1x128x128_S128x128 := by
    dsimp only [V8]; after_results_simp; rfl
  rw [e, V7_back m outs c main_arg2 (by decide) (by decide) (by decide) (by decide) (by decide) (by decide) (by decide)]
  exact slab_apply _ ![1, 0, 0] slices_S3x128x128_S1x128x128_1_0_0 1 rfl rfl rfl l k
set_option maxHeartbeats 2000000 in
theorem e2_b1 (c : Dev nD) (k : Fin 128) : (V8 m outs c main_v52 : S1x128.Idx → EReal) (ix2 0 k) = row3 (m ((c.tc : Thread nD τ).loc main_arg3)) 1 k := by
  have e : (V8 m outs c main_v52 : S1x128.Idx → EReal)
      = shapeCast S1x128 (shapeCast S128 (extractStridedSlice S1x128 ![1, 0] (V7 m outs c main_arg3 : S3x128.Idx → EReal) slices_S3x128_S1x128_1_0) shapeCasts_S1x128_S128) shapeCasts_S128_S1x128 := by
    dsimp only [V8]; after_results_simp; rfl
  rw [e, V7_back m outs c main_arg3 (by decide) (by decide) (by decide) (by decide) (by decide) (by decide) (by decide)]
  exact rowslab_apply _ ![1, 0] slices_S3x128_S1x128_1_0 1 rfl rfl k
set_option maxHeartbeats 2000000 in
theorem e2_w2 (c : Dev nD) (l k : Fin 128) : (V8 m outs c main_v49 : S128x128.Idx → EReal) (ix2 l k) = sq3 (m ((c.tc : Thread nD τ).loc main_arg4)) 1 l k := by
  have e : (V8 m outs c main_v49 : S128x128.Idx → EReal)
      = shapeCast S128x128 (extractStridedSlice S1x128x128 ![1, 0, 0] (V7 m outs c main_arg4 : S3x128x128.Idx → EReal) slices_S3x128x128_S1x128x128_1_0_0) shapeCasts_S1x128x128_S128x128 := by
    dsimp only [V8]; after_results_simp; rfl
  rw [e, V7_back m outs c main_arg4 (by decide) (by decide) (by decide) (by decide) (by decide) (by decide) (by decide)]
  exact slab_apply _ ![1, 0, 0] slices_S3x128x128_S1x128x128_1_0_0 1 rfl rfl rfl l k
set_option maxHeartbeats 2000000 in
theorem e2_b2 (c : Dev nD) (k : Fin 128) : (V8 m outs c main_v53 : S1x128.Idx → EReal) (ix2 0 k) = row3 (m ((c.tc : Thread nD τ).loc main_arg5)) 1 k := by
  have e : (V8 m outs c main_v53 : S1x128.Idx → EReal)
      = shapeCast S1x128 (shapeCast S128 (extractStridedSlice S1x128 ![1, 0] (V7 m outs c main_arg5 : S3x128.Idx → EReal) slices_S3x128_S1x128_1_0) shapeCasts_S1x128_S128) shapeCasts_S128_S1x128 := by
    dsimp only [V8]; after_results_simp; rfl
  rw [e, V7_back m outs c main_arg5 (by decide) (by decide) (by decide) (by decide) (by decide) (by decide) (by decide)]
  exact rowslab_apply _ ![1, 0] slices_S3x128_S1x128_1_0 1 rfl rfl k

theorem e3_x (c : Dev nD) : (V13 m outs c main_v75 : S50000x128.Idx → EReal) = (outs 11 main_v75 c : S50000x128.Idx → EReal) :=
  (V13_of m outs c main_v75 (by decide)).trans <| (V12_of m outs c main_v75 (by decide)).trans (Function.update_self _ _ _)
set_option maxHeartbeats 2000000 in
theorem e3_w1 (c : Dev nD) (l k : Fin 128) : (V13 m outs c main_v81 : S128x128.Idx → EReal) (ix2 l k) = sq3 (m ((c.tc : Thread nD τ).loc main_arg2)) 2 l k := by
  have e : (V13 m outs c main_v81 : S128x128.Idx → EReal)
      = shapeCast S128x128 (extractStridedSlice S1x128x128 ![2, 0, 0] (V12 m outs c main_arg2 : S3x128x128.Idx → EReal) slices_S3x128x128_S1x128x128_2_0_0) shapeCasts_S1x128x128_S128x128 := by
    dsimp only [V13]; after_results_simp; rfl
  rw [e, V12_back m outs c main_arg2 (by decide) (by decide) (by decide) (by decide) (by decide) (by decide) (by decide) (by decide) (by decide) (by decide) (by decide) (by decide)]
  exact slab_apply _ ![2, 0, 0] slices_S3x128x128_S1x128x128_2_0_0 2 rfl rfl rfl l k
set_option maxHeartbeats 2000000 in
theorem e3_b1 (c : Dev nD) (k : Fin 128) : (V13 m outs c main_v88 : S1x128.Idx → EReal) (ix2 0 k) = row3 (m ((c.tc : Thread nD τ).loc main_arg3)) 2 k := by
  have e : (V13 m outs c main_v88 : S1x128.Idx → EReal)
      = shapeCast S1x128 (shapeCast S128 (extractStridedSlice S1x128 ![2, 0] (V12 m outs c main_arg3 : S3x128.Idx → EReal) slices_S3x128_S1x128_2_0) shapeCasts_S1x128_S128) shapeCasts_S128_S1x128 := by
    dsimp only [V13]; after_results_simp; rfl
  rw [e, V12_back m outs c main_arg3 (by decide) (by decide) (by decide) (by decide) (by decide) (by decide) (by decide) (by decide) (by decide) (by decide) (by decide) (by decide)]
  exact rowslab_apply _ ![2, 0] slices_S3x128_S1x128_2_0 2 rfl rfl k
set_option maxHeartbeats 2000000 in
theorem e3_w2 (c : Dev nD) (l k : Fin 128) : (V13 m outs c main_v85 : S128x128.Idx → EReal) (ix2 l k) = sq3 (m ((c.tc : Thread nD τ).loc main_arg4)) 2 l k := by
  have e : (V13 m outs c main_v85 : S128x128.Idx → EReal)
      = shapeCast S128x128 (extractStridedSlice S1x128x128 ![2, 0, 0] (V12 m outs c main_arg4 : S3x128x128.Idx → EReal) slices_S3x128x128_S1x128x128_2_0_0) shapeCasts_S1x128x128_S128x128 := by
    dsimp only [V13]; after_results_simp; rfl
  rw [e, V12_back m outs c main_arg4 (by decide) (by decide) (by decide) (by decide) (by decide) (by decide) (by decide) (by decide) (by decide) (by decide) (by decide) (by decide)]
  exact slab_apply _ ![2, 0, 0] slices_S3x128x128_S1x128x128_2_0_0 2 rfl rfl rfl l k
set_option maxHeartbeats 2000000 in
theorem e3_b2 (c : Dev nD) (k : Fin 128) : (V13 m outs c main_v89 : S1x128.Idx → EReal) (ix2 0 k) = row3 (m ((c.tc : Thread nD τ).loc main_arg5)) 2 k := by
  have e : (V13 m outs c main_v89 : S1x128.Idx → EReal)
      = shapeCast S1x128 (shapeCast S128 (extractStridedSlice S1x128 ![2, 0] (V12 m outs c main_arg5 : S3x128.Idx → EReal) slices_S3x128_S1x128_2_0) shapeCasts_S1x128_S128) shapeCasts_S128_S1x128 := by
    dsimp only [V13]; after_results_simp; rfl
  rw [e, V12_back m outs c main_arg5 (by decide) (by decide) (by decide) (by decide) (by decide) (by decide) (by decide) (by decide) (by decide) (by decide) (by decide) (by decide)]
  exact rowslab_apply _ ![2, 0] slices_S3x128_S1x128_2_0 2 rfl rfl k

section Take

variable {F : FTy → Type} [FloatOps F]

def edgeRow (off : Fin S2x800000.rank → Nat) (hs : S2x800000.Slices off S1x800000) (E : IVec S2x800000 32) : IVec S800000 32 :=
  shapeCast S800000 (extractStridedSlice S1x800000 off E hs) shapeCasts_S1x800000_S800000

abbrev srcRow (E : IVec S2x800000 32) : IVec S800000 32 := edgeRow ![0, 0] slices_S2x800000_S1x800000_0_0 E
abbrev dstRow (E : IVec S2x800000 32) : IVec S800000 32 := edgeRow ![1, 0] slices_S2x800000_S1x800000_1_0 E

def nrm (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

def srcCol (s : IVec S800000 32) : IVec S800000x1 32 := broadcastInDim S800000x1 ![0] bcast_S800000_S800000x1_0 (nrm s)

def maskOf (col : IVec S800000x1 32) : IVec S800000 1 :=
  Host.reduce IntOp.andi
    (andi (cmpi .sge col (broadcastInDim S800000x1 ![] bcast_S_S800000x1 (constantI S_ 32 0#32)))
      (cmpi .sle col (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

def inRange (s : IVec S800000 32) : IVec S800000 1 := maskOf (srcCol s)

def rowsAt (X : FVec F S50000x128 .f32) (s : IVec S800000 32) : FVec F S800000x128 .f32 :=
  Host.gather gather_S50000x128_S800000x1_S800000x128_1_0_n_n_0_1_1128 X (srcCol s)

def takeK (X : FVec F S50000x128 .f32) (s : IVec S800000 32) : FVec F S800000x128 .f32 :=
  select (broadcastInDim S800000x128 ![0] bcast_S800000_S800000x128_0 (inRange s)) (rowsAt X s)
    (broadcastInDim S800000x128 ![] bcast_S_S800000x128 (constant S_ .f32 0x7FC00000#32))

def addAt (d : IVec S800000 32) (U : FVec F S800000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d) U

end Take

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x hx _

theorem edgeRow_apply (off : Fin S2x800000.rank → Nat) (hs : S2x800000.Slices off S1x800000) (E : IVec S2x800000 32)
    (r : Fin 2) (h0 : off 0 = r.val) (h1 : off 1 = 0) (e : Fin 800000) : edgeRow off hs E (ix1 e) = E (ix2 r e) := by
  unfold edgeRow
  refine (shapeCast_apply _ shapeCasts_S1x800000_S800000 (ix1 e) (ix2 (0 : Fin 1) e) ?_).trans ?_
  · rewrite [Shape.rowMajor_val_two, Shape.rowMajor_val_one]
    show 0 * 800000 + e.val = e.val
    omega
  · exact extractStridedSlice_apply off E hs (ix2 (0 : Fin 1) e) (ix2 r e) (fun a => match a with
      | ⟨0, _⟩ => by show r.val = off 0 + 0; omega
      | ⟨1, _⟩ => by show e.val = off 1 + e.val; omega)

theorem nrm_apply (s : IVec S800000 32) (i : S800000.Idx) (h : (0 : Int) ≤ (s i).toInt) : nrm s i = s i := by
  have hz : (broadcastInDim S800000 ![] bcast_S_S800000 (constantI S_ 32 0#32)) i = 0#32 :=
    broadcastInDim_apply _ bcast_S_S800000 (constantI S_ 32 0#32) i (fun a => a.elim0) (fun a => a.elim0)
  have hn : ¬ IntOp.cmpi .slt (s i) ((broadcastInDim S800000 ![] bcast_S_S800000 (constantI S_ 32 0#32)) i) = 1#1 := by
    rw [hz, IntOp.cmpi_slt, show (0#32 : BitVec 32).toInt = 0 from by decide]
    omega
  exact if_neg hn

theorem srcCol_apply (s : IVec S800000 32) (j : S800000x1.Idx) : srcCol s j = nrm s (ix1 (j 0)) := by
  unfold srcCol
  exact broadcastInDim_apply _ bcast_S800000_S800000x1_0 (nrm s) j (ix1 (j 0)) (fun a => match a with
    | ⟨0, _⟩ => by show (j 0).val = if (800000 : Nat) = 1 then 0 else (j 0).val; rw [if_neg (by decide)])

theorem inRange_one (s : IVec S800000 32) (hs : ∀ e : Fin 800000, (0 : Int) ≤ (s (ix1 e)).toInt ∧ (s (ix1 e)).toInt < 50000)
    (i : S800000.Idx) : inRange s i = 1#1 := by
  unfold inRange maskOf
  refine reduce_andi_one _ _ _ _ rfl (fun j => ?_) i
  obtain ⟨h0, h1⟩ := hs (j 0)
  have hc : srcCol s j = s (ix1 (j 0)) := (srcCol_apply s j).trans (nrm_apply s _ h0)
  have hz : (broadcastInDim S800000x1 ![] bcast_S_S800000x1 (constantI S_ 32 0#32)) j = 0#32 :=
    broadcastInDim_apply _ bcast_S_S800000x1 (constantI S_ 32 0#32) j (fun a => a.elim0) (fun a => a.elim0)
  have hh : (broadcastInDim S800000x1 ![0, 1] bcast_S1x1_S800000x1_0_1 (broadcastInDim S1x1 ![1] bcast_S1_S1x1_1 (constantI S1 32 49999#32))) j = 49999#32 := by
    refine (broadcastInDim_apply _ bcast_S1x1_S800000x1_0_1 _ j (ix2 (0 : Fin 1) (0 : Fin 1)) (fun a => match a with
      | ⟨0, _⟩ => by show (0 : Nat) = if (1 : Nat) = 1 then 0 else _; rw [if_pos rfl]
      | ⟨1, _⟩ => by show (0 : Nat) = if (1 : Nat) = 1 then 0 else _; rw [if_pos rfl])).trans ?_
    exact broadcastInDim_apply _ bcast_S1_S1x1_1 (constantI S1 32 49999#32) _ (ix1 (0 : Fin 1)) (fun a => match a with
      | ⟨0, _⟩ => by show (0 : Nat) = if (1 : Nat) = 1 then 0 else _; rw [if_pos rfl])
  show IntOp.andi (IntOp.cmpi .sge (srcCol s j) ((broadcastInDim S800000x1 ![] bcast_S_S800000x1 (constantI S_ 32 0#32)) j))
      (IntOp.cmpi .sle (srcCol s j) ((broadcastInDim S800000x1 ![0, 1] bcast_S1x1_S800000x1_0_1 (broadcastInDim S1x1 ![1] bcast_S1_S1x1_1 (constantI S1 32 49999#32))) j)) = 1#1
  rw [hz, hh, hc, IntOp.andi_eq_one, IntOp.cmpi_sge, IntOp.cmpi_sle,
    show (0#32 : BitVec 32).toInt = 0 from by decide, show (49999#32 : BitVec 32).toInt = 49999 from by decide]
  exact ⟨h0, by omega⟩

theorem takeK_eq {F : FTy → Type} [FloatOps F] (X : FVec F S50000x128 .f32) (s : IVec S800000 32)
    (hs : ∀ e : Fin 800000, (0 : Int) ≤ (s (ix1 e)).toInt ∧ (s (ix1 e)).toInt < 50000) : takeK X s = rowsAt X s := by
  funext j
  have hm : (broadcastInDim S800000x128 ![0] bcast_S800000_S800000x128_0 (inRange s)) j = 1#1 :=
    (broadcastInDim_apply _ bcast_S800000_S800000x128_0 (inRange s) j (ix1 (j 0)) (fun a => match a with
      | ⟨0, _⟩ => by show (j 0).val = if (800000 : Nat) = 1 then 0 else (j 0).val; rw [if_neg (by decide)])).trans (inRange_one s hs _)
  unfold takeK select
  rw [hm]
  unfold Scalar.select
  exact if_pos rfl

theorem addAt_rowsAt_eq_ref {F : FTy → Type} [FloatOps F] (X : FVec F S50000x128 .f32) (E : IVec S2x800000 32) :
    addAt (dstRow E) (rowsAt X (srcRow E)) = Cert.ReferenceIdeal.ReadP.val_main_v13 (F := F) X E := rfl

theorem agg_of (X : S50000x128.Idx → EReal) (E : IVec S2x800000 32) (hE : SrcInRange E) :
    addAt (F := Ideal) (dstRow E) (takeK (F := Ideal) X (srcRow E)) = ofMat (Cert.ReferenceIdeal.RefValue.agg E (toMat X)) := by
  have hs : ∀ e : Fin 800000, (0 : Int) ≤ (srcRow E (ix1 e)).toInt ∧ (srcRow E (ix1 e)).toInt < 50000 := fun e => by
    rw [show srcRow E (ix1 e) = E (ix2 0 e) from edgeRow_apply ![0, 0] slices_S2x800000_S1x800000_0_0 E 0 rfl rfl e]
    exact hE e
  rw [takeK_eq (F := Ideal) X (srcRow E) hs]
  unfold Cert.ReferenceIdeal.RefValue.agg
  rw [ofMat_toMat, ofMat_toMat]
  exact addAt_rowsAt_eq_ref (F := Ideal) X E

section Stretches

variable (W : Valuation τ sig (Elt Ideal))

abbrev takeA1 : List (HloOp τ sig (Elt Ideal)) := (hostOps0_1 (F := Ideal)).take 7

abbrev takeB1 : List (HloOp τ sig (Elt Ideal)) := ((hostOps0_1 (F := Ideal)).drop 7).take 11

abbrev takeC1 : List (HloOp τ sig (Elt Ideal)) := (hostOps0_1 (F := Ideal)).drop 18

set_option maxHeartbeats 1000000 in
theorem takeA1_v4 : (after takeA1 W main_call0_v4 : S800000.Idx → BitVec 32) = nrm (W main_v1 : S800000.Idx → BitVec 32) := by
  simp only [takeA1, hostOps0_1, List.drop_succ_cons, List.drop_zero, List.take_succ_cons, List.take_zero]; after_results_simp
  simp only [TRef.ofBuf, TRef.toBuf, cast_cast, cast_eq]
  rfl
theorem takeA1_feat : after takeA1 W main_arg0 = W main_arg0 := by
  simp only [takeA1, hostOps0_1, List.drop_succ_cons, List.drop_zero, List.take_succ_cons, List.take_zero]; after_results_simp
set_option maxHeartbeats 1000000 in
theorem takeB1_v5 : (after takeB1 W main_call0_v5 : S800000x1.Idx → BitVec 32) = broadcastInDim S800000x1 ![0] bcast_S800000_S800000x1_0 (W main_call0_v4 : S800000.Idx → BitVec 32) := by
  simp only [takeB1, hostOps0_1, List.drop_succ_cons, List.drop_zero, List.take_succ_cons, List.take_zero]; after_results_simp
  simp only [TRef.ofBuf, TRef.toBuf, cast_cast, cast_eq]
set_option maxHeartbeats 2000000 in
theorem takeB1_v12 : (after takeB1 W main_call0_v12 : S800000.Idx → BitVec 1) = maskOf (broadcastInDim S800000x1 ![0] bcast_S800000_S800000x1_0 (W main_call0_v4 : S800000.Idx → BitVec 32)) := by
  simp only [takeB1, hostOps0_1, List.drop_succ_cons, List.drop_zero, List.take_succ_cons, List.take_zero]; after_results_simp
  simp only [TRef.ofBuf, TRef.toBuf, cast_cast, cast_eq]
  rfl
theorem takeB1_feat : after takeB1 W main_arg0 = W main_arg0 := by
  simp only [takeB1, hostOps0_1, List.drop_succ_cons, List.drop_zero, List.take_succ_cons, List.take_zero]; after_results_simp
set_option maxHeartbeats 1000000 in
theorem takeC1_out : (after takeC1 W main_v4 : S800000x128.Idx → EReal)
    = select (broadcastInDim S800000x128 ![0] bcast_S800000_S800000x128_0 (W main_call0_v12 : S800000.Idx → BitVec 1))
        (Host.gather gather_S50000x128_S800000x1_S800000x128_1_0_n_n_0_1_1128 (W main_arg0 : S50000x128.Idx → EReal) (W main_call0_v5 : S800000x1.Idx → BitVec 32))
        (broadcastInDim S800000x128 ![] bcast_S_S800000x128 (constant (F := Ideal) S_ .f32 0x7FC00000#32)) := by
  simp only [takeC1, hostOps0_1, List.drop_succ_cons, List.drop_zero, List.take_succ_cons, List.take_zero]; after_results_simp
  simp only [TRef.ofBuf, TRef.toBuf, cast_cast, cast_eq]

theorem take1_of (V : Valuation τ sig (Elt Ideal)) :
    (after (hostOps0_1 (F := Ideal)) V main_v4 : S800000x128.Idx → EReal) = takeK (F := Ideal) (V main_arg0 : S50000x128.Idx → EReal) (V main_v1 : S800000.Idx → BitVec 32) := by
  rw [show after (hostOps0_1 (F := Ideal)) V = after takeC1 (after takeB1 (after takeA1 V)) from rfl]
  rw [takeC1_out, takeB1_v12, takeB1_v5, takeB1_feat, takeA1_v4, takeA1_feat]
  rfl

abbrev takeA2 : List (HloOp τ sig (Elt Ideal)) := (hostOps2 (F := Ideal)).take 7

abbrev takeB2 : List (HloOp τ sig (Elt Ideal)) := ((hostOps2 (F := Ideal)).drop 7).take 11

abbrev takeC2 : List (HloOp τ sig (Elt Ideal)) := (hostOps2 (F := Ideal)).drop 18

set_option maxHeartbeats 1000000 in
theorem takeA2_v4 : (after takeA2 W main_call1_v4 : S800000.Idx → BitVec 32) = nrm (W main_v1 : S800000.Idx → BitVec 32) := by
  simp only [takeA2, hostOps2, List.drop_succ_cons, List.drop_zero, List.take_succ_cons, List.take_zero]; after_results_simp
  simp only [TRef.ofBuf, TRef.toBuf, cast_cast, cast_eq]
  rfl
theorem takeA2_feat : after takeA2 W main_v39 = W main_v39 := by
  simp only [takeA2, hostOps2, List.drop_succ_cons, List.drop_zero, List.take_succ_cons, List.take_zero]; after_results_simp
set_option maxHeartbeats 1000000 in
theorem takeB2_v5 : (after takeB2 W main_call1_v5 : S800000x1.Idx → BitVec 32) = broadcastInDim S800000x1 ![0] bcast_S800000_S800000x1_0 (W main_call1_v4 : S800000.Idx → BitVec 32) := by
  simp only [takeB2, hostOps2, List.drop_succ_cons, List.drop_zero, List.take_succ_cons, List.take_zero]; after_results_simp
  simp only [TRef.ofBuf, TRef.toBuf, cast_cast, cast_eq]
set_option maxHeartbeats 2000000 in
theorem takeB2_v12 : (after takeB2 W main_call1_v12 : S800000.Idx → BitVec 1) = maskOf (broadcastInDim S800000x1 ![0] bcast_S800000_S800000x1_0 (W main_call1_v4 : S800000.Idx → BitVec 32)) := by
  simp only [takeB2, hostOps2, List.drop_succ_cons, List.drop_zero, List.take_succ_cons, List.take_zero]; after_results_simp
  simp only [TRef.ofBuf, TRef.toBuf, cast_cast, cast_eq]
  rfl
theorem takeB2_feat : after takeB2 W main_v39 = W main_v39 := by
  simp only [takeB2, hostOps2, List.drop_succ_cons, List.drop_zero, List.take_succ_cons, List.take_zero]; after_results_simp
set_option maxHeartbeats 1000000 in
theorem takeC2_out : (after takeC2 W main_v40 : S800000x128.Idx → EReal)
    = select (broadcastInDim S800000x128 ![0] bcast_S800000_S800000x128_0 (W main_call1_v12 : S800000.Idx → BitVec 1))
        (Host.gather gather_S50000x128_S800000x1_S800000x128_1_0_n_n_0_1_1128 (W main_v39 : S50000x128.Idx → EReal) (W main_call1_v5 : S800000x1.Idx → BitVec 32))
        (broadcastInDim S800000x128 ![] bcast_S_S800000x128 (constant (F := Ideal) S_ .f32 0x7FC00000#32)) := by
  simp only [takeC2, hostOps2, List.drop_succ_cons, List.drop_zero, List.take_succ_cons, List.take_zero]; after_results_simp
  simp only [TRef.ofBuf, TRef.toBuf, cast_cast, cast_eq]

theorem take2_of (V : Valuation τ sig (Elt Ideal)) :
    (after (hostOps2 (F := Ideal)) V main_v40 : S800000x128.Idx → EReal) = takeK (F := Ideal) (V main_v39 : S50000x128.Idx → EReal) (V main_v1 : S800000.Idx → BitVec 32) := by
  rw [show after (hostOps2 (F := Ideal)) V = after takeC2 (after takeB2 (after takeA2 V)) from rfl]
  rw [takeC2_out, takeB2_v12, takeB2_v5, takeB2_feat, takeA2_v4, takeA2_feat]
  rfl

abbrev takeA3 : List (HloOp τ sig (Elt Ideal)) := (hostOps4 (F := Ideal)).take 7

abbrev takeB3 : List (HloOp τ sig (Elt Ideal)) := ((hostOps4 (F := Ideal)).drop 7).take 11

abbrev takeC3 : List (HloOp τ sig (Elt Ideal)) := (hostOps4 (F := Ideal)).drop 18

set_option maxHeartbeats 1000000 in
theorem takeA3_v4 : (after takeA3 W main_call2_v4 : S800000.Idx → BitVec 32) = nrm (W main_v1 : S800000.Idx → BitVec 32) := by
  simp only [takeA3, hostOps4, List.drop_succ_cons, List.drop_zero, List.take_succ_cons, List.take_zero]; after_results_simp
  simp only [TRef.ofBuf, TRef.toBuf, cast_cast, cast_eq]
  rfl
theorem takeA3_feat : after takeA3 W main_v75 = W main_v75 := by
  simp only [takeA3, hostOps4, List.drop_succ_cons, List.drop_zero, List.take_succ_cons, List.take_zero]; after_results_simp
set_option maxHeartbeats 1000000 in
theorem takeB3_v5 : (after takeB3 W main_call2_v5 : S800000x1.Idx → BitVec 32) = broadcastInDim S800000x1 ![0] bcast_S800000_S800000x1_0 (W main_call2_v4 : S800000.Idx → BitVec 32) := by
  simp only [takeB3, hostOps4, List.drop_succ_cons, List.drop_zero, List.take_succ_cons, List.take_zero]; after_results_simp
  simp only [TRef.ofBuf, TRef.toBuf, cast_cast, cast_eq]
set_option maxHeartbeats 2000000 in
theorem takeB3_v12 : (after takeB3 W main_call2_v12 : S800000.Idx → BitVec 1) = maskOf (broadcastInDim S800000x1 ![0] bcast_S800000_S800000x1_0 (W main_call2_v4 : S800000.Idx → BitVec 32)) := by
  simp only [takeB3, hostOps4, List.drop_succ_cons, List.drop_zero, List.take_succ_cons, List.take_zero]; after_results_simp
  simp only [TRef.ofBuf, TRef.toBuf, cast_cast, cast_eq]
  rfl
theorem takeB3_feat : after takeB3 W main_v75 = W main_v75 := by
  simp only [takeB3, hostOps4, List.drop_succ_cons, List.drop_zero, List.take_succ_cons, List.take_zero]; after_results_simp
set_option maxHeartbeats 1000000 in
theorem takeC3_out : (after takeC3 W main_v76 : S800000x128.Idx → EReal)
    = select (broadcastInDim S800000x128 ![0] bcast_S800000_S800000x128_0 (W main_call2_v12 : S800000.Idx → BitVec 1))
        (Host.gather gather_S50000x128_S800000x1_S800000x128_1_0_n_n_0_1_1128 (W main_v75 : S50000x128.Idx → EReal) (W main_call2_v5 : S800000x1.Idx → BitVec 32))
        (broadcastInDim S800000x128 ![] bcast_S_S800000x128 (constant (F := Ideal) S_ .f32 0x7FC00000#32)) := by
  simp only [takeC3, hostOps4, List.drop_succ_cons, List.drop_zero, List.take_succ_cons, List.take_zero]; after_results_simp
  simp only [TRef.ofBuf, TRef.toBuf, cast_cast, cast_eq]

theorem take3_of (V : Valuation τ sig (Elt Ideal)) :
    (after (hostOps4 (F := Ideal)) V main_v76 : S800000x128.Idx → EReal) = takeK (F := Ideal) (V main_v75 : S50000x128.Idx → EReal) (V main_v1 : S800000.Idx → BitVec 32) := by
  rw [show after (hostOps4 (F := Ideal)) V = after takeC3 (after takeB3 (after takeA3 V)) from rfl]
  rw [takeC3_out, takeB3_v12, takeB3_v5, takeB3_feat, takeA3_v4, takeA3_feat]
  rfl

end Stretches

theorem src1 (c : Dev nD) : (V1 m c main_v1 : S800000.Idx → BitVec 32) = srcRow (m ((c.tc : Thread nD τ).loc main_arg1)) := by
  dsimp only [V1]; after_results_simp; rfl
theorem dst1 (c : Dev nD) : (V1 m c main_v3 : S800000.Idx → BitVec 32) = dstRow (m ((c.tc : Thread nD τ).loc main_arg1)) := by
  dsimp only [V1]; after_results_simp; rfl

set_option maxHeartbeats 2000000 in
theorem sum1 (c : Dev nD) : (V3 m c main_v7 : S50000x128.Idx → EReal) = addAt (F := Ideal) (V2 m c main_v3 : S800000.Idx → BitVec 32) (V2 m c main_v4 : S800000x128.Idx → EReal) := by
  dsimp only [V3]; after_results_simp; rfl
theorem take1 (c : Dev nD) : (V2 m c main_v4 : S800000x128.Idx → EReal) = takeK (F := Ideal) (V1 m c main_arg0 : S50000x128.Idx → EReal) (V1 m c main_v1 : S800000.Idx → BitVec 32) :=
  take1_of (V1 m c)
theorem e1_agg (c : Dev nD) (hE : SrcInRange (m ((c.tc : Thread nD τ).loc main_arg1))) :
    (V3 m c main_v7 : S50000x128.Idx → EReal) = ofMat (Cert.ReferenceIdeal.RefValue.agg (m ((c.tc : Thread nD τ).loc main_arg1)) (toMat (m ((c.tc : Thread nD τ).loc main_arg0) : S50000x128.Idx → EReal))) := by
  rw [sum1, take1, V2_of m c main_v3 (by decide), dst1, src1, V1_of m c main_arg0 (by decide)]
  exact agg_of _ _ hE

set_option maxHeartbeats 2000000 in
theorem sum2 (c : Dev nD) : (V8 m outs c main_v43 : S50000x128.Idx → EReal) = addAt (F := Ideal) (V7 m outs c main_v3 : S800000.Idx → BitVec 32) (V7 m outs c main_v40 : S800000x128.Idx → EReal) := by
  dsimp only [V8]; after_results_simp; rfl
theorem take2 (c : Dev nD) : (V7 m outs c main_v40 : S800000x128.Idx → EReal) = takeK (F := Ideal) (V6 m outs c main_v39 : S50000x128.Idx → EReal) (V6 m outs c main_v1 : S800000.Idx → BitVec 32) :=
  take2_of (V6 m outs c)
theorem feat2 (c : Dev nD) : (V6 m outs c main_v39 : S50000x128.Idx → EReal) = (outs 6 main_v39 c : S50000x128.Idx → EReal) :=
  Function.update_self _ _ _
theorem e2_agg (c : Dev nD) (hE : SrcInRange (m ((c.tc : Thread nD τ).loc main_arg1))) :
    (V8 m outs c main_v43 : S50000x128.Idx → EReal) = ofMat (Cert.ReferenceIdeal.RefValue.agg (m ((c.tc : Thread nD τ).loc main_arg1)) (toMat (outs 6 main_v39 c : S50000x128.Idx → EReal))) := by
  rw [sum2, take2, feat2, V7_to_V1 m outs c main_v3 (by decide) (by decide) (by decide) (by decide) (by decide) (by decide), V6_to_V1 m outs c main_v1 (by decide) (by decide) (by decide) (by decide) (by decide), dst1, src1]
  exact agg_of _ _ hE

set_option maxHeartbeats 2000000 in
theorem sum3 (c : Dev nD) : (V13 m outs c main_v79 : S50000x128.Idx → EReal) = addAt (F := Ideal) (V12 m outs c main_v3 : S800000.Idx → BitVec 32) (V12 m outs c main_v76 : S800000x128.Idx → EReal) := by
  dsimp only [V13]; after_results_simp; rfl
theorem take3 (c : Dev nD) : (V12 m outs c main_v76 : S800000x128.Idx → EReal) = takeK (F := Ideal) (V11 m outs c main_v75 : S50000x128.Idx → EReal) (V11 m outs c main_v1 : S800000.Idx → BitVec 32) :=
  take3_of (V11 m outs c)
theorem feat3 (c : Dev nD) : (V11 m outs c main_v75 : S50000x128.Idx → EReal) = (outs 11 main_v75 c : S50000x128.Idx → EReal) :=
  Function.update_self _ _ _
theorem e3_agg (c : Dev nD) (hE : SrcInRange (m ((c.tc : Thread nD τ).loc main_arg1))) :
    (V13 m outs c main_v79 : S50000x128.Idx → EReal) = ofMat (Cert.ReferenceIdeal.RefValue.agg (m ((c.tc : Thread nD τ).loc main_arg1)) (toMat (outs 11 main_v75 c : S50000x128.Idx → EReal))) := by
  rw [sum3, take3, feat3, V12_to_V1 m outs c main_v3 (by decide) (by decide) (by decide) (by decide) (by decide) (by decide) (by decide) (by decide) (by decide) (by decide) (by decide), V11_to_V1 m outs c main_v1 (by decide) (by decide) (by decide) (by decide) (by decide) (by decide) (by decide) (by decide) (by decide) (by decide), dst1, src1]
  exact agg_of _ _ hE

end Cert.KernelIdeal.HostV

end
-- ==== Proof.Bn1Pay.lean ====
import proofs.«420740_j41515153883619_1_alg».proof.Proof.Bn1Data
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe Idealize.ShloMosaic.ValueIdx

def bnEntry1 (a s t : EReal) : EReal := max (a * s + t) 0

theorem rowBcast1 (x : Vec Ideal S1x128 .f32) (p : Fin 2000) (q : Fin 128) :
    broadcastTo S2000x128 x broadcasts_S1x128_S2000x128 (ix2 p q) = x (ix2 0 q) := by
  refine broadcastTo_apply x broadcasts_S1x128_S2000x128 (ix2 p q) (ix2 0 q) fun a => ?_
  match a with
  | ⟨0, _⟩ => rfl
  | ⟨1, _⟩ => rfl

theorem pay1_apply1 (x0 : Vec Ideal S2000x128 .f32) (x1 x2 : Vec Ideal S1x128 .f32) (p : Fin 2000) (q : Fin 128) :
    k1_pay1 (F := Ideal) x0 x1 x2 (ix2 p q) = bnEntry1 (x0 (ix2 p q)) (x1 (ix2 0 q)) (x2 (ix2 0 q)) := by
  unfold k1_pay1 bnEntry1
  simp only [shapeCast_self]
  rw [maximumf_apply, addf_apply, mulf_apply, broadcast_apply, rowBcast1, rowBcast1]
  show max (x0 (ix2 p q) * x1 (ix2 0 q) + x2 (ix2 0 q)) (Ideal.ofBits .f32 0x00000000#32) = _
  rw [Ideal.ofBits_zero_f32]

end Cert.KernelIdeal.Gen

end
-- ==== Proof.Bn1Value.lean ====
import proofs.«420740_j41515153883619_1_alg».proof.Proof.Bn1Frame
import proofs.«420740_j41515153883619_1_alg».proof.Proof.Bn1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

abbrev hArr1 (c : Dev nD) : S50000x128.Idx → EReal := V c (Pipeline.arrRef spec1 0)
abbrev scaleArr1 (c : Dev nD) : S1x128.Idx → EReal := V c (Pipeline.arrRef spec1 1)
abbrev shiftArr1 (c : Dev nD) : S1x128.Idx → EReal := V c (Pipeline.arrRef spec1 2)

theorem idxFacts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem tileRead1 (c : Dev nD) (t : Fin cfg1.N) (p : Fin 2000) (q : Fin 128) (k : S50000x128.Idx)
    (hk0 : (k 0).val = 2000 * t.val + p.val) (hk1 : (k 1).val = q.val) :
    (iblk1 V c 0 t : Vec Ideal S2000x128 .f32) (ix2 p q) = hArr1 V c k := by
  obtain ⟨e0, e1, -⟩ := idxFacts1 t
  unfold iblk1
  rw [View.read_apply]
  show V c (Pipeline.arrRef spec1 0) _ = V c (Pipeline.arrRef spec1 0) k
  congr 1
  funext a
  apply Fin.ext
  match a with
  | ⟨0, _⟩ => show win1_0.index t (0 : Fin 2) * 2000 + 1 * p.val = (k 0).val; rw [e0, hk0]; omega
  | ⟨1, _⟩ => show win1_0.index t (1 : Fin 2) * 128 + 1 * q.val = (k 1).val; rw [e1, hk1]; omega

theorem scaleRead1 (c : Dev nD) (t : Fin cfg1.N) (q : Fin 128) :
    (iblk1 V c 1 t : Vec Ideal S1x128 .f32) (ix2 0 q) = scaleArr1 V c (ix2 0 q) := by
  obtain ⟨-, -, e0, e1, -⟩ := idxFacts1 t
  unfold iblk1
  rw [View.read_apply]
  show V c (Pipeline.arrRef spec1 1) _ = V c (Pipeline.arrRef spec1 1) (ix2 0 q)
  congr 1
  funext a
  apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

theorem shiftRead1 (c : Dev nD) (t : Fin cfg1.N) (q : Fin 128) :
    (iblk1 V c 2 t : Vec Ideal S1x128 .f32) (ix2 0 q) = shiftArr1 V c (ix2 0 q) := by
  obtain ⟨-, -, -, -, e0, e1, -⟩ := idxFacts1 t
  unfold iblk1
  rw [View.read_apply]
  show V c (Pipeline.arrRef spec1 2) _ = V c (Pipeline.arrRef spec1 2) (ix2 0 q)
  congr 1
  funext a
  apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

def outArr1 (c : Dev nD) : S50000x128.Idx → EReal := fun i =>
  bnEntry1 (hArr1 V c i) (scaleArr1 V c (ix2 0 ⟨(i 1).val, idx2_lt1 i⟩)) (shiftArr1 V c (ix2 0 ⟨(i 1).val, idx2_lt1 i⟩))

theorem flushedEq1 (c : Dev nD) (t : Fin cfg1.N) :
    (dat1 V c).flushed 3 t = ((cfg1.win 3).blk t).view.read (Elt Ideal) (outArr1 V c) := by
  show (cfg1.win 3).cut (grid1.coords t) ((dat1 V c).after 3 t) = _
  rw [after1_3]
  obtain ⟨-, -, -, -, -, -, e0, e1⟩ := idxFacts1 t
  funext y
  obtain ⟨p, q, rfl⟩ : ∃ (p : Fin 2000) (q : Fin 128), y = ix2 p q := ⟨y 0, y 1, eq_ix2 y⟩
  show k1_pay1 (F := Ideal) (iblk1 V c 0 t) (iblk1 V c 1 t) (iblk1 V c 2 t) (ix2 p q)
    = outArr1 V c (((cfg1.win 3).blk t).view.emb (ix2 p q))
  refine (pay1_apply1 (iblk1 V c 0 t) (iblk1 V c 1 t) (iblk1 V c 2 t) p q).trans ?_
  have h0 : ((((cfg1.win 3).blk t).view.emb (ix2 p q) : S50000x128.Idx) 0).val = 2000 * t.val + p.val := by
    show win1_3.index t (0 : Fin 2) * 2000 + 1 * p.val = _; rw [e0]; omega
  have h1 : ((((cfg1.win 3).blk t).view.emb (ix2 p q) : S50000x128.Idx) 1).val = q.val := by
    show win1_3.index t (1 : Fin 2) * 128 + 1 * q.val = _; rw [e1]; omega
  rw [tileRead1 V c t p q (((cfg1.win 3).blk t).view.emb (ix2 p q)) h0 h1, scaleRead1 V c t q, shiftRead1 V c t q]
  unfold outArr1
  have hq : (⟨((((cfg1.win 3).blk t).view.emb (ix2 p q) : S50000x128.Idx) 1).val, idx2_lt1 _⟩ : Fin 128) = q := Fin.ext h1
  rw [hq]

theorem memBlk1 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole (Pipeline.arrRef spec1 3)).slice (win1_3.rect t)).set ↔ _
  rw [View.set_slice_whole, Rect.mem_set_unit]
  exact Iff.rfl

theorem covered1 (i : S50000x128.Idx) :
    ∃ t : Fin cfg1.N, (cfg1.win 3).flush t = true ∧ i ∈ ((cfg1.win 3).blk t).view.set := by
  have hi0 : (i 0).val < 50000 := idx2_lt0 i
  have hi1 : (i 1).val < 128 := idx2_lt1 i
  have hN : cfg1.N = 25 := N_1
  refine ⟨⟨(i 0).val / 2000, by rw [hN]; omega⟩, flush1_3 _, ?_⟩
  rw [memBlk1]
  obtain ⟨-, -, -, -, -, -, e0, e1⟩ := idxFacts1 ⟨(i 0).val / 2000, by rw [hN]; omega⟩
  intro a
  match a with
  | ⟨0, _⟩ =>
    show win1_3.index _ (0 : Fin 2) * 2000 ≤ (i 0).val ∧ (i 0).val < win1_3.index _ (0 : Fin 2) * 2000 + 2000
    rw [e0]; show (i 0).val / 2000 * 2000 ≤ (i 0).val ∧ (i 0).val < (i 0).val / 2000 * 2000 + 2000; omega
  | ⟨1, _⟩ =>
    show win1_3.index _ (1 : Fin 2) * 128 ≤ (i 1).val ∧ (i 1).val < win1_3.index _ (1 : Fin 2) * 128 + 128
    rw [e1]; omega

theorem arrEq1 (c : Dev nD) : ((dat1 (F := Ideal) V c).arrAt 3 cfg1.N : S50000x128.Idx → EReal) = outArr1 V c :=
  (dat1 V c).arrAt_eq_of_cover 3 (outArr1 V c) (fun t _ => flushedEq1 V c t) covered1

theorem final1 (c : Dev nD) (r : Fin 50000) (j : Fin 128) :
    ((dat1 (F := Ideal) V c).arrAt 3 cfg1.N : S50000x128.Idx → EReal) (ix2 r j)
      = bnEntry1 (hArr1 V c (ix2 r j)) (scaleArr1 V c (ix2 0 j)) (shiftArr1 V c (ix2 0 j)) := by
  rw [arrEq1]
  rfl

end Cert.KernelIdeal.Gen

end
-- ==== Proof.Bn3Value.lean ====
import proofs.«420740_j41515153883619_1_alg».proof.Proof.Bn3Frame
import proofs.«420740_j41515153883619_1_alg».proof.Proof.Bn1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

abbrev hArr3 (c : Dev nD) : S50000x128.Idx → EReal := V c (Pipeline.arrRef spec3 0)
abbrev scaleArr3 (c : Dev nD) : S1x128.Idx → EReal := V c (Pipeline.arrRef spec3 1)
abbrev shiftArr3 (c : Dev nD) : S1x128.Idx → EReal := V c (Pipeline.arrRef spec3 2)

theorem idxFacts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem tileRead3 (c : Dev nD) (t : Fin cfg3.N) (p : Fin 2000) (q : Fin 128) (k : S50000x128.Idx)
    (hk0 : (k 0).val = 2000 * t.val + p.val) (hk1 : (k 1).val = q.val) :
    (iblk3 V c 0 t : Vec Ideal S2000x128 .f32) (ix2 p q) = hArr3 V c k := by
  obtain ⟨e0, e1, -⟩ := idxFacts3 t
  unfold iblk3
  rw [View.read_apply]
  show V c (Pipeline.arrRef spec3 0) _ = V c (Pipeline.arrRef spec3 0) k
  congr 1
  funext a
  apply Fin.ext
  match a with
  | ⟨0, _⟩ => show win3_0.index t (0 : Fin 2) * 2000 + 1 * p.val = (k 0).val; rw [e0, hk0]; omega
  | ⟨1, _⟩ => show win3_0.index t (1 : Fin 2) * 128 + 1 * q.val = (k 1).val; rw [e1, hk1]; omega

theorem scaleRead3 (c : Dev nD) (t : Fin cfg3.N) (q : Fin 128) :
    (iblk3 V c 1 t : Vec Ideal S1x128 .f32) (ix2 0 q) = scaleArr3 V c (ix2 0 q) := by
  obtain ⟨-, -, e0, e1, -⟩ := idxFacts3 t
  unfold iblk3
  rw [View.read_apply]
  show V c (Pipeline.arrRef spec3 1) _ = V c (Pipeline.arrRef spec3 1) (ix2 0 q)
  congr 1
  funext a
  apply Fin.ext
  match a with
  | ⟨0, _⟩ => show win3_1.index t (0 : Fin 2) * 1 + 1 * 0 = 0; rw [e0]
  | ⟨1, _⟩ => show win3_1.index t (1 : Fin 2) * 128 + 1 * q.val = q.val; rw [e1]; omega

theorem shiftRead3 (c : Dev nD) (t : Fin cfg3.N) (q : Fin 128) :
    (iblk3 V c 2 t : Vec Ideal S1x128 .f32) (ix2 0 q) = shiftArr3 V c (ix2 0 q) := by
  obtain ⟨-, -, -, -, e0, e1, -⟩ := idxFacts3 t
  unfold iblk3
  rw [View.read_apply]
  show V c (Pipeline.arrRef spec3 2) _ = V c (Pipeline.arrRef spec3 2) (ix2 0 q)
  congr 1
  funext a
  apply Fin.ext
  match a with
  | ⟨0, _⟩ => show win3_2.index t (0 : Fin 2) * 1 + 1 * 0 = 0; rw [e0]
  | ⟨1, _⟩ => show win3_2.index t (1 : Fin 2) * 128 + 1 * q.val = q.val; rw [e1]; omega

def outArr3 (c : Dev nD) : S50000x128.Idx → EReal := fun i =>
  bnEntry1 (hArr3 V c i) (scaleArr3 V c (ix2 0 ⟨(i 1).val, idx2_lt1 i⟩)) (shiftArr3 V c (ix2 0 ⟨(i 1).val, idx2_lt1 i⟩))

theorem flushedEq3 (c : Dev nD) (t : Fin cfg3.N) :
    (dat3 V c).flushed 3 t = ((cfg3.win 3).blk t).view.read (Elt Ideal) (outArr3 V c) := by
  show (cfg3.win 3).cut (grid3.coords t) ((dat3 V c).after 3 t) = _
  rw [after3_3]
  obtain ⟨-, -, -, -, -, -, e0, e1⟩ := idxFacts3 t
  funext y
  obtain ⟨p, q, rfl⟩ : ∃ (p : Fin 2000) (q : Fin 128), y = ix2 p q := ⟨y 0, y 1, eq_ix2 y⟩
  show k1_pay1 (F := Ideal) (iblk3 V c 0 t) (iblk3 V c 1 t) (iblk3 V c 2 t) (ix2 p q)
    = outArr3 V c (((cfg3.win 3).blk t).view.emb (ix2 p q))
  refine (pay1_apply1 (iblk3 V c 0 t) (iblk3 V c 1 t) (iblk3 V c 2 t) p q).trans ?_
  have h0 : ((((cfg3.win 3).blk t).view.emb (ix2 p q) : S50000x128.Idx) 0).val = 2000 * t.val + p.val := by
    show win3_3.index t (0 : Fin 2) * 2000 + 1 * p.val = _; rw [e0]; omega
  have h1 : ((((cfg3.win 3).blk t).view.emb (ix2 p q) : S50000x128.Idx) 1).val = q.val := by
    show win3_3.index t (1 : Fin 2) * 128 + 1 * q.val = _; rw [e1]; omega
  rw [tileRead3 V c t p q (((cfg3.win 3).blk t).view.emb (ix2 p q)) h0 h1, scaleRead3 V c t q, shiftRead3 V c t q]
  unfold outArr3
  have hq : (⟨((((cfg3.win 3).blk t).view.emb (ix2 p q) : S50000x128.Idx) 1).val, idx2_lt1 _⟩ : Fin 128) = q := Fin.ext h1
  rw [hq]

theorem memBlk3 (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole (Pipeline.arrRef spec3 3)).slice (win3_3.rect t)).set ↔ _
  rw [View.set_slice_whole, Rect.mem_set_unit]
  exact Iff.rfl

theorem covered3 (i : S50000x128.Idx) :
    ∃ t : Fin cfg3.N, (cfg3.win 3).flush t = true ∧ i ∈ ((cfg3.win 3).blk t).view.set := by
  have hi0 : (i 0).val < 50000 := idx2_lt0 i
  have hi1 : (i 1).val < 128 := idx2_lt1 i
  have hN : cfg3.N = 25 := N_3
  refine ⟨⟨(i 0).val / 2000, by rw [hN]; omega⟩, flush3_3 _, ?_⟩
  rw [memBlk3]
  obtain ⟨-, -, -, -, -, -, e0, e1⟩ := idxFacts3 ⟨(i 0).val / 2000, by rw [hN]; omega⟩
  intro a
  match a with
  | ⟨0, _⟩ =>
    show win3_3.index _ (0 : Fin 2) * 2000 ≤ (i 0).val ∧ (i 0).val < win3_3.index _ (0 : Fin 2) * 2000 + 2000
    rw [e0]; show (i 0).val / 2000 * 2000 ≤ (i 0).val ∧ (i 0).val < (i 0).val / 2000 * 2000 + 2000; omega
  | ⟨1, _⟩ =>
    show win3_3.index _ (1 : Fin 2) * 128 ≤ (i 1).val ∧ (i 1).val < win3_3.index _ (1 : Fin 2) * 128 + 128
    rw [e1]; omega

theorem arrEq3 (c : Dev nD) : ((dat3 (F := Ideal) V c).arrAt 3 cfg3.N : S50000x128.Idx → EReal) = outArr3 V c :=
  (dat3 V c).arrAt_eq_of_cover 3 (outArr3 V c) (fun t _ => flushedEq3 V c t) covered3

theorem final3 (c : Dev nD) (r : Fin 50000) (j : Fin 128) :
    ((dat3 (F := Ideal) V c).arrAt 3 cfg3.N : S50000x128.Idx → EReal) (ix2 r j)
      = bnEntry1 (hArr3 V c (ix2 r j)) (scaleArr3 V c (ix2 0 j)) (shiftArr3 V c (ix2 0 j)) := by
  rw [arrEq3]
  rfl

end Cert.KernelIdeal.Gen

end
-- ==== Proof.Bn5Pay.lean ====
import proofs.«420740_j41515153883619_1_alg».proof.Proof.Bn5Data
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe Idealize.ShloMosaic.ValueIdx

def bnEntry5 (a s t : EReal) : EReal := a * s + t

theorem rowBcast5 (x : Vec Ideal S1x128 .f32) (p : Fin 2000) (q : Fin 128) :
    broadcastTo S2000x128 x broadcasts_S1x128_S2000x128 (ix2 p q) = x (ix2 0 q) := by
  refine broadcastTo_apply x broadcasts_S1x128_S2000x128 (ix2 p q) (ix2 0 q) fun a => ?_
  match a with
  | ⟨0, _⟩ => rfl
  | ⟨1, _⟩ => rfl

theorem pay1_apply5 (x0 : Vec Ideal S2000x128 .f32) (x1 x2 : Vec Ideal S1x128 .f32) (p : Fin 2000) (q : Fin 128) :
    k5_pay1 (F := Ideal) x0 x1 x2 (ix2 p q) = bnEntry5 (x0 (ix2 p q)) (x1 (ix2 0 q)) (x2 (ix2 0 q)) := by
  unfold k5_pay1 bnEntry5
  simp only [shapeCast_self]
  rw [addf_apply, mulf_apply, rowBcast5, rowBcast5]

end Cert.KernelIdeal.Gen

end
-- ==== Proof.Bn5Value.lean ====
import proofs.«420740_j41515153883619_1_alg».proof.Proof.Bn5Frame
import proofs.«420740_j41515153883619_1_alg».proof.Proof.Bn5Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

abbrev hArr5 (c : Dev nD) : S50000x128.Idx → EReal := V c (Pipeline.arrRef spec5 0)
abbrev scaleArr5 (c : Dev nD) : S1x128.Idx → EReal := V c (Pipeline.arrRef spec5 1)
abbrev shiftArr5 (c : Dev nD) : S1x128.Idx → EReal := V c (Pipeline.arrRef spec5 2)

theorem idxFacts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem tileRead5 (c : Dev nD) (t : Fin cfg5.N) (p : Fin 2000) (q : Fin 128) (k : S50000x128.Idx)
    (hk0 : (k 0).val = 2000 * t.val + p.val) (hk1 : (k 1).val = q.val) :
    (iblk5 V c 0 t : Vec Ideal S2000x128 .f32) (ix2 p q) = hArr5 V c k := by
  obtain ⟨e0, e1, -⟩ := idxFacts5 t
  unfold iblk5
  rw [View.read_apply]
  show V c (Pipeline.arrRef spec5 0) _ = V c (Pipeline.arrRef spec5 0) k
  congr 1
  funext a
  apply Fin.ext
  match a with
  | ⟨0, _⟩ => show win5_0.index t (0 : Fin 2) * 2000 + 1 * p.val = (k 0).val; rw [e0, hk0]; omega
  | ⟨1, _⟩ => show win5_0.index t (1 : Fin 2) * 128 + 1 * q.val = (k 1).val; rw [e1, hk1]; omega

theorem scaleRead5 (c : Dev nD) (t : Fin cfg5.N) (q : Fin 128) :
    (iblk5 V c 1 t : Vec Ideal S1x128 .f32) (ix2 0 q) = scaleArr5 V c (ix2 0 q) := by
  obtain ⟨-, -, e0, e1, -⟩ := idxFacts5 t
  unfold iblk5
  rw [View.read_apply]
  show V c (Pipeline.arrRef spec5 1) _ = V c (Pipeline.arrRef spec5 1) (ix2 0 q)
  congr 1
  funext a
  apply Fin.ext
  match a with
  | ⟨0, _⟩ => show win5_1.index t (0 : Fin 2) * 1 + 1 * 0 = 0; rw [e0]
  | ⟨1, _⟩ => show win5_1.index t (1 : Fin 2) * 128 + 1 * q.val = q.val; rw [e1]; omega

theorem shiftRead5 (c : Dev nD) (t : Fin cfg5.N) (q : Fin 128) :
    (iblk5 V c 2 t : Vec Ideal S1x128 .f32) (ix2 0 q) = shiftArr5 V c (ix2 0 q) := by
  obtain ⟨-, -, -, -, e0, e1, -⟩ := idxFacts5 t
  unfold iblk5
  rw [View.read_apply]
  show V c (Pipeline.arrRef spec5 2) _ = V c (Pipeline.arrRef spec5 2) (ix2 0 q)
  congr 1
  funext a
  apply Fin.ext
  match a with
  | ⟨0, _⟩ => show win5_2.index t (0 : Fin 2) * 1 + 1 * 0 = 0; rw [e0]
  | ⟨1, _⟩ => show win5_2.index t (1 : Fin 2) * 128 + 1 * q.val = q.val; rw [e1]; omega

def outArr5 (c : Dev nD) : S50000x128.Idx → EReal := fun i =>
  bnEntry5 (hArr5 V c i) (scaleArr5 V c (ix2 0 ⟨(i 1).val, idx2_lt1 i⟩)) (shiftArr5 V c (ix2 0 ⟨(i 1).val, idx2_lt1 i⟩))

theorem flushedEq5 (c : Dev nD) (t : Fin cfg5.N) :
    (dat5 V c).flushed 3 t = ((cfg5.win 3).blk t).view.read (Elt Ideal) (outArr5 V c) := by
  show (cfg5.win 3).cut (grid5.coords t) ((dat5 V c).after 3 t) = _
  rw [after5_3]
  obtain ⟨-, -, -, -, -, -, e0, e1⟩ := idxFacts5 t
  funext y
  obtain ⟨p, q, rfl⟩ : ∃ (p : Fin 2000) (q : Fin 128), y = ix2 p q := ⟨y 0, y 1, eq_ix2 y⟩
  show k5_pay1 (F := Ideal) (iblk5 V c 0 t) (iblk5 V c 1 t) (iblk5 V c 2 t) (ix2 p q)
    = outArr5 V c (((cfg5.win 3).blk t).view.emb (ix2 p q))
  refine (pay1_apply5 (iblk5 V c 0 t) (iblk5 V c 1 t) (iblk5 V c 2 t) p q).trans ?_
  have h0 : ((((cfg5.win 3).blk t).view.emb (ix2 p q) : S50000x128.Idx) 0).val = 2000 * t.val + p.val := by
    show win5_3.index t (0 : Fin 2) * 2000 + 1 * p.val = _; rw [e0]; omega
  have h1 : ((((cfg5.win 3).blk t).view.emb (ix2 p q) : S50000x128.Idx) 1).val = q.val := by
    show win5_3.index t (1 : Fin 2) * 128 + 1 * q.val = _; rw [e1]; omega
  rw [tileRead5 V c t p q (((cfg5.win 3).blk t).view.emb (ix2 p q)) h0 h1, scaleRead5 V c t q, shiftRead5 V c t q]
  unfold outArr5
  have hq : (⟨((((cfg5.win 3).blk t).view.emb (ix2 p q) : S50000x128.Idx) 1).val, idx2_lt1 _⟩ : Fin 128) = q := Fin.ext h1
  rw [hq]

theorem memBlk5 (t : Fin cfg5.N) (i : S50000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole (Pipeline.arrRef spec5 3)).slice (win5_3.rect t)).set ↔ _
  rw [View.set_slice_whole, Rect.mem_set_unit]
  exact Iff.rfl

theorem covered5 (i : S50000x128.Idx) :
    ∃ t : Fin cfg5.N, (cfg5.win 3).flush t = true ∧ i ∈ ((cfg5.win 3).blk t).view.set := by
  have hi0 : (i 0).val < 50000 := idx2_lt0 i
  have hi1 : (i 1).val < 128 := idx2_lt1 i
  have hN : cfg5.N = 25 := N_5
  refine ⟨⟨(i 0).val / 2000, by rw [hN]; omega⟩, flush5_3 _, ?_⟩
  rw [memBlk5]
  obtain ⟨-, -, -, -, -, -, e0, e1⟩ := idxFacts5 ⟨(i 0).val / 2000, by rw [hN]; omega⟩
  intro a
  match a with
  | ⟨0, _⟩ =>
    show win5_3.index _ (0 : Fin 2) * 2000 ≤ (i 0).val ∧ (i 0).val < win5_3.index _ (0 : Fin 2) * 2000 + 2000
    rw [e0]; show (i 0).val / 2000 * 2000 ≤ (i 0).val ∧ (i 0).val < (i 0).val / 2000 * 2000 + 2000; omega
  | ⟨1, _⟩ =>
    show win5_3.index _ (1 : Fin 2) * 128 ≤ (i 1).val ∧ (i 1).val < win5_3.index _ (1 : Fin 2) * 128 + 128
    rw [e1]; omega

theorem arrEq5 (c : Dev nD) : ((dat5 (F := Ideal) V c).arrAt 3 cfg5.N : S50000x128.Idx → EReal) = outArr5 V c :=
  (dat5 V c).arrAt_eq_of_cover 3 (outArr5 V c) (fun t _ => flushedEq5 V c t) covered5

theorem final5 (c : Dev nD) (r : Fin 50000) (j : Fin 128) :
    ((dat5 (F := Ideal) V c).arrAt 3 cfg5.N : S50000x128.Idx → EReal) (ix2 r j)
      = bnEntry5 (hArr5 V c (ix2 r j)) (scaleArr5 V c (ix2 0 j)) (shiftArr5 V c (ix2 0 j)) := by
  rw [arrEq5]
  rfl

end Cert.KernelIdeal.Gen

end
-- ==== Proof.Mlp0Pay.lean ====
import proofs.«420740_j41515153883619_1_alg».proof.Proof.Mlp0Data
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Gen

open Idealize.ShloMosaic Idealize.ShloMosaic.TcCoe Idealize.ShloMosaic.ValueIdx

def tileOut0 (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) : EReal :=
  (∑ k : Fin 128, max ((∑ l : Fin 128, (x0 (ix2 p l) + x1 (ix2 p l)) * x2 (ix2 l k)) + x3 (ix2 0 k)) 0 * x4 (ix2 k q)) + x5 (ix2 0 q)

theorem lhs_mm0_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm0_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
theorem rhs_mm0_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
theorem rhs_mm0_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem matmul_apply0 (a : FVec Ideal S2000x128 .bf16) (b : FVec Ideal S128x128 .bf16) (p : Fin 2000) (q : Fin 128) :
    matmul (F := Ideal) dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_mm0_0 _ _
    | ⟨1, _⟩ => exact (lhs_mm0_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_mm0_0 _ _).trans hk
    | ⟨1, _⟩ => exact rhs_mm0_1 _ _)
  rw [el, er]

theorem hidden_apply0 (x0 x1 : Vec Ideal S2000x128 .f32) (x2 : Vec Ideal S128x128 .f32) (x3 : Vec Ideal S1x128 .f32)
    (p : Fin 2000) (k : Fin 128) :
    maximumf (addf (matmul (F := Ideal) dot_S2000x128_S128x128_S2000x128_1_0_0_1_n_n none
        (truncf .bf16 (addf x0 x1) bitsLt_bf16_f32) (truncf .bf16 x2 bitsLt_bf16_f32) (constant (F := Ideal) S2000x128 .f32 0x00000000#32))
        (broadcastTo S2000x128 x3 broadcasts_S1x128_S2000x128))
      (broadcast S2000x128 (Scalar.ofBits (F := Ideal) .f32 0x00000000#32)) (ix2 p k)
      = max ((∑ l : Fin 128, (x0 (ix2 p l) + x1 (ix2 p l)) * x2 (ix2 l k)) + x3 (ix2 0 k)) 0 := by
  rw [maximumf_apply, addf_apply, matmul_apply0, broadcastTo_1b_ab_apply, broadcast_apply]
  simp only [truncf_apply, addf_apply]
  exact congrArg (max _) Ideal.ofBits_zero_f32

theorem colsum_apply0 (y : FVec Ideal S2000x128 .f32) (q : Fin 128) :
    multiReduction (F := Ideal) .add [0] S128 y 0x00000000#32 reduces_S2000x128_S128 (.inl rfl) rfl (ix1 q)
      = ∑ p : Fin 2000, y (ix2 p q) := by
  refine (Ideal.multiReduction_add_single y 0x00000000#32 reduces_S2000x128_S128 (.inl rfl) rfl (ix1 q)).trans ?_
  refine Finset.sum_congr rfl fun p _ => congrArg y (funext fun a => ?_)
  match a with
  | ⟨0, _⟩ => rfl
  | ⟨1, _⟩ => rfl

theorem pay5_apply0 (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k0_pay5 (F := Ideal) x0 x1 x2 x3 x4 x5 (ix2 p q) = tileOut0 x0 x1 x2 x3 x4 x5 p q := by
  unfold k0_pay5 tileOut0
  simp only [shapeCast_self]
  rw [addf_apply, matmul_apply0, broadcastTo_1b_ab_apply]
  refine congrArg (· + x5 (ix2 0 q)) (Finset.sum_congr rfl fun k _ => ?_)
  rw [truncf_apply, truncf_apply, hidden_apply0]

theorem accS_apply0 (s : Vec Ideal S1x128 .f32) (x0 x1 : Vec Ideal S2000x128 .f32) (x2 : Vec Ideal S128x128 .f32) (x3 : Vec Ideal S1x128 .f32)
    (x4 : Vec Ideal S128x128 .f32) (x5 : Vec Ideal S1x128 .f32) (q : Fin 128) :
    accS0 (F := Ideal) s x0 x1 x2 x3 x4 x5 (ix2 0 q) = s (ix2 0 q) + ∑ p : Fin 2000, tileOut0 x0 x1 x2 x3 x4 x5 p q := by
  unfold accS0 k0_pay1 k0_pay6
  simp only [shapeCast_self]
  rw [addf_apply, shapeCast_a_1a_apply, colsum_apply0]
  exact congrArg (s (ix2 0 q) + ·) (Finset.sum_congr rfl fun p _ => pay5_apply0 x0 x1 x2 x3 x4 x5 p q)

theorem accQ_apply0 (s : Vec Ideal S1x128 .f32) (x0 x1 : Vec Ideal S2000x128 .f32) (x2 : Vec Ideal S128x128 .f32) (x3 : Vec Ideal S1x128 .f32)
    (x4 : Vec Ideal S128x128 .f32) (x5 : Vec Ideal S1x128 .f32) (q : Fin 128) :
    accQ0 (F := Ideal) s x0 x1 x2 x3 x4 x5 (ix2 0 q)
      = s (ix2 0 q) + ∑ p : Fin 2000, tileOut0 x0 x1 x2 x3 x4 x5 p q * tileOut0 x0 x1 x2 x3 x4 x5 p q := by
  unfold accQ0 k0_pay2
  simp only [shapeCast_self]
  rw [addf_apply, shapeCast_a_1a_apply, colsum_apply0]
  refine congrArg (s (ix2 0 q) + ·) (Finset.sum_congr rfl fun p _ => ?_)
  rw [mulf_apply, pay5_apply0]

theorem pay3_apply0 (q : Fin 128) : k0_pay3 (F := Ideal) (ix2 0 q) = 0 := by
  unfold k0_pay3
  simp only [shapeCast_self]
  rw [broadcast_apply]
  exact Ideal.ofBits_zero_f32

theorem pay4_apply0 (q : Fin 128) : k0_pay4 (F := Ideal) (ix2 0 q) = 0 := by
  unfold k0_pay4
  simp only [shapeCast_self]
  rw [broadcast_apply]
  exact Ideal.ofBits_zero_f32

end Cert.KernelIdeal.Gen

end
-- ==== Proof.Mlp0Value.lean ====
import proofs.«420740_j41515153883619_1_alg».proof.Proof.Mlp0Pay
import proofs.«420740_j41515153883619_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Intervals

set_option maxRecDepth 16384

noncomputable section

open scoped BigOperators

namespace Cert.KernelIdeal.Gen

open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

abbrev xArr0 (c : Dev nD) : S50000x128.Idx → EReal := V c (Pipeline.arrRef spec0 0)
abbrev aggArr0 (c : Dev nD) : S50000x128.Idx → EReal := V c (Pipeline.arrRef spec0 1)
abbrev w1Arr0 (c : Dev nD) : S128x128.Idx → EReal := V c (Pipeline.arrRef spec0 2)
abbrev b1Arr0 (c : Dev nD) : S1x128.Idx → EReal := V c (Pipeline.arrRef spec0 3)
abbrev w2Arr0 (c : Dev nD) : S128x128.Idx → EReal := V c (Pipeline.arrRef spec0 4)
abbrev b2Arr0 (c : Dev nD) : S1x128.Idx → EReal := V c (Pipeline.arrRef spec0 5)

def preMat0 (c : Dev nD) : Cert.Spec.Mat :=
  Cert.Spec.pre (Cert.Spec.toMat (xArr0 V c)) (Cert.Spec.toMat (aggArr0 V c)) (fun l k => w1Arr0 V c (ix2 l k)) (fun k => b1Arr0 V c (ix2 0 k))
    (fun k q => w2Arr0 V c (ix2 k q)) (fun q => b2Arr0 V c (ix2 0 q))

theorem idxFacts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem blkRead0_0 (c : Dev nD) (t : Fin cfg0.N) (p : Fin 2000) (l : Fin 128) (hr : 2000 * t.val + p.val < 50000) :
    (iblk0 V c 0 t : Vec Ideal S2000x128 .f32) (ix2 p l) = xArr0 V c (ix2 ⟨2000 * t.val + p.val, hr⟩ l) := by
  obtain ⟨e0, e1, -⟩ := idxFacts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 128 + 1 * l.val = l.val; rw [e1]; omega

theorem blkRead0_1 (c : Dev nD) (t : Fin cfg0.N) (p : Fin 2000) (l : Fin 128) (hr : 2000 * t.val + p.val < 50000) :
    (iblk0 V c 1 t : Vec Ideal S2000x128 .f32) (ix2 p l) = aggArr0 V c (ix2 ⟨2000 * t.val + p.val, hr⟩ l) := by
  obtain ⟨-, -, e0, e1, -⟩ := idxFacts0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 2000 + 1 * p.val = 2000 * t.val + p.val; rw [e0]; omega
  | ⟨1, _⟩ => show win0_1.index t (1 : Fin 2) * 128 + 1 * l.val = l.val; rw [e1]; omega

theorem blkRead0_2 (c : Dev nD) (t : Fin cfg0.N) (l k : Fin 128) :
    (iblk0 V c 2 t : Vec Ideal S128x128 .f32) (ix2 l k) = w1Arr0 V c (ix2 l k) := by
  obtain ⟨-, -, -, -, e0, e1, -⟩ := idxFacts0 t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 128 + 1 * l.val = l.val; rw [e0]; omega
  | ⟨1, _⟩ => show win0_2.index t (1 : Fin 2) * 128 + 1 * k.val = k.val; rw [e1]; omega

theorem blkRead0_3 (c : Dev nD) (t : Fin cfg0.N) (k : Fin 128) :
    (iblk0 V c 3 t : Vec Ideal S1x128 .f32) (ix2 0 k) = b1Arr0 V c (ix2 0 k) := by
  obtain ⟨-, -, -, -, -, -, e0, e1, -⟩ := idxFacts0 t
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * 0 = 0; rw [e0]
  | ⟨1, _⟩ => show win0_3.index t (1 : Fin 2) * 128 + 1 * k.val = k.val; rw [e1]; omega

theorem blkRead0_4 (c : Dev nD) (t : Fin cfg0.N) (k q : Fin 128) :
    (iblk0 V c 4 t : Vec Ideal S128x128 .f32) (ix2 k q) = w2Arr0 V c (ix2 k q) := by
  obtain ⟨-, -, -, -, -, -, -, -, e0, e1, -⟩ := idxFacts0 t
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

theorem blkRead0_5 (c : Dev nD) (t : Fin cfg0.N) (q : Fin 128) :
    (iblk0 V c 5 t : Vec Ideal S1x128 .f32) (ix2 0 q) = b2Arr0 V c (ix2 0 q) := by
  obtain ⟨-, -, -, -, -, -, -, -, -, -, e0, e1, -⟩ := idxFacts0 t
  unfold iblk0
  rw [View.read_apply]
  show V c (Pipeline.arrRef spec0 5) _ = V c (Pipeline.arrRef spec0 5) _
  congr 1
  funext a
  apply Fin.ext
  match a with
  | ⟨0, _⟩ => show win0_5.index t (0 : Fin 2) * 1 + 1 * 0 = 0; rw [e0]
  | ⟨1, _⟩ => show win0_5.index t (1 : Fin 2) * 128 + 1 * q.val = q.val; rw [e1]; omega

theorem tileSpec0 (x0 x1 : Vec Ideal S2000x128 .f32) (x2 : Vec Ideal S128x128 .f32) (x3 : Vec Ideal S1x128 .f32)
    (x4 : Vec Ideal S128x128 .f32) (x5 : Vec Ideal S1x128 .f32)
    (X A : S50000x128.Idx → EReal) (W1 : S128x128.Idx → EReal) (B1 : S1x128.Idx → EReal) (W2 : S128x128.Idx → EReal) (B2 : S1x128.Idx → EReal)
    (p : Fin 2000) (r : Fin 50000) (q : Fin 128)
    (h0 : ∀ l : Fin 128, x0 (ix2 p l) = X (ix2 r l)) (h1 : ∀ l : Fin 128, x1 (ix2 p l) = A (ix2 r l))
    (h2 : ∀ l k : Fin 128, x2 (ix2 l k) = W1 (ix2 l k)) (h3 : ∀ k : Fin 128, x3 (ix2 0 k) = B1 (ix2 0 k))
    (h4 : ∀ k q : Fin 128, x4 (ix2 k q) = W2 (ix2 k q)) (h5 : ∀ q : Fin 128, x5 (ix2 0 q) = B2 (ix2 0 q)) :
    tileOut0 x0 x1 x2 x3 x4 x5 p q
      = Cert.Spec.pre (Cert.Spec.toMat X) (Cert.Spec.toMat A) (fun l k => W1 (ix2 l k)) (fun k => B1 (ix2 0 k))
          (fun k q => W2 (ix2 k q)) (fun q => B2 (ix2 0 q)) r q := by
  unfold tileOut0 Cert.Spec.pre Cert.Spec.lin Cert.Spec.toMat
  simp only [h0, h1, h2, h3, h4, h5]

theorem rowLt0 (t : Fin cfg0.N) (p : Fin 2000) : 2000 * t.val + p.val < 50000 := by
  have hN : cfg0.N = 25 := N_0
  have h1 := t.isLt
  have h2 := p.isLt
  omega

theorem tileRow0 (c : Dev nD) (t : Fin cfg0.N) (p : Fin 2000) (q : Fin 128) :
    tileOut0 (iblk0 V c 0 t) (iblk0 V c 1 t) (iblk0 V c 2 t) (iblk0 V c 3 t) (iblk0 V c 4 t) (iblk0 V c 5 t) p q
      = preMat0 V c ⟨2000 * t.val + p.val, rowLt0 t p⟩ q :=
  tileSpec0 (iblk0 V c 0 t) (iblk0 V c 1 t) (iblk0 V c 2 t) (iblk0 V c 3 t) (iblk0 V c 4 t) (iblk0 V c 5 t)
    (xArr0 V c) (aggArr0 V c) (w1Arr0 V c) (b1Arr0 V c) (w2Arr0 V c) (b2Arr0 V c) p ⟨2000 * t.val + p.val, rowLt0 t p⟩ q
    (fun l => blkRead0_0 V c t p l (rowLt0 t p)) (fun l => blkRead0_1 V c t p l (rowLt0 t p))
    (fun l k => blkRead0_2 V c t l k) (fun k => blkRead0_3 V c t k)
    (fun k q => blkRead0_4 V c t k q) (fun q => blkRead0_5 V c t q)

theorem rangeTiles0 {M : Type} [AddCommMonoid M] (v : ℕ → M) (k : ℕ) :
    ∀ n : ℕ, ∑ i ∈ Finset.range (k * n), v i = ∑ t ∈ Finset.range n, ∑ p ∈ Finset.range k, v (k * t + p)
  | 0 => by simp
  | n + 1 => by
    rw [Nat.mul_succ, Finset.sum_range_add, rangeTiles0 v k n, Finset.sum_range_succ]

def rowSeq0 (M : Cert.Spec.Mat) (q : Fin 128) (i : ℕ) : EReal := if h : i < 50000 then M ⟨i, h⟩ q else 0

theorem rowSeq0_lt (M : Cert.Spec.Mat) (q : Fin 128) (i : ℕ) (h : i < 50000) : rowSeq0 M q i = M ⟨i, h⟩ q := dif_pos h

theorem colSumTiles0 (M : Cert.Spec.Mat) (q : Fin 128) :
    Cert.Spec.colSum M q = ∑ t ∈ Finset.range 25, ∑ p : Fin 2000, rowSeq0 M q (2000 * t + p.val) := by
  unfold Cert.Spec.colSum
  have e : ∑ r : Fin 50000, M r q = ∑ i ∈ Finset.range 50000, rowSeq0 M q i := by
    rw [Finset.sum_range]
    exact Finset.sum_congr rfl (fun r _ => (rowSeq0_lt M q r.val r.isLt).symm)
  have h := rangeTiles0 (rowSeq0 M q) 2000 25
  rw [e]
  refine h.trans (Finset.sum_congr rfl (fun t _ => ?_))
  exact Finset.sum_range (fun p => rowSeq0 M q (2000 * t + p))

theorem accCol0 (c : Dev nD) (q : Fin 128) : ∀ (n : ℕ) (hn : n < cfg0.N),
    ((sc0 V c n hn).1 : Vec Ideal S1x128 .f32) (ix2 0 q)
      = ∑ t ∈ Finset.range (n + 1), ∑ p : Fin 2000, rowSeq0 (preMat0 V c) q (2000 * t + p.val)
  | 0, hn => by
    show (accS0 (F := Ideal) (k0_pay3 (F := Ideal)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)) (ix2 0 q) = _
    refine (accS_apply0 (k0_pay3 (F := Ideal)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) q).trans ?_
    rw [pay3_apply0, zero_add, Finset.sum_range_one]
    refine Finset.sum_congr rfl (fun p _ => ?_)
    refine (tileRow0 V c ⟨0, hn⟩ p q).trans ?_
    exact (rowSeq0_lt (preMat0 V c) q _ (rowLt0 ⟨0, hn⟩ p)).symm
  | n + 1, hn => by
    show (accS0 (F := Ideal) (sc0 V c n (Nat.lt_of_succ_lt hn)).1 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)) (ix2 0 q) = _
    refine (accS_apply0 (sc0 V c n (Nat.lt_of_succ_lt hn)).1 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) q).trans ?_
    rw [accCol0 c q n (Nat.lt_of_succ_lt hn), Finset.sum_range_succ _ (n + 1)]
    congr 1
    refine Finset.sum_congr rfl (fun p _ => ?_)
    refine (tileRow0 V c ⟨n + 1, hn⟩ p q).trans ?_
    exact (rowSeq0_lt (preMat0 V c) q _ (rowLt0 ⟨n + 1, hn⟩ p)).symm

theorem accSq0 (c : Dev nD) (q : Fin 128) : ∀ (n : ℕ) (hn : n < cfg0.N),
    ((sc0 V c n hn).2 : Vec Ideal S1x128 .f32) (ix2 0 q)
      = ∑ t ∈ Finset.range (n + 1), ∑ p : Fin 2000, rowSeq0 (fun r j => preMat0 V c r j * preMat0 V c r j) q (2000 * t + p.val)
  | 0, hn => by
    show (accQ0 (F := Ideal) (k0_pay4 (F := Ideal)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)) (ix2 0 q) = _
    refine (accQ_apply0 (k0_pay4 (F := Ideal)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) q).trans ?_
    rw [pay4_apply0, zero_add, Finset.sum_range_one]
    refine Finset.sum_congr rfl (fun p _ => ?_)
    rw [tileRow0 V c ⟨0, hn⟩ p q]
    exact (rowSeq0_lt (fun r j => preMat0 V c r j * preMat0 V c r j) q _ (rowLt0 ⟨0, hn⟩ p)).symm
  | n + 1, hn => by
    show (accQ0 (F := Ideal) (sc0 V c n (Nat.lt_of_succ_lt hn)).2 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)) (ix2 0 q) = _
    refine (accQ_apply0 (sc0 V c n (Nat.lt_of_succ_lt hn)).2 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) q).trans ?_
    rw [accSq0 c q n (Nat.lt_of_succ_lt hn), Finset.sum_range_succ _ (n + 1)]
    congr 1
    refine Finset.sum_congr rfl (fun p _ => ?_)
    rw [tileRow0 V c ⟨n + 1, hn⟩ p q]
    exact (rowSeq0_lt (fun r j => preMat0 V c r j * preMat0 V c r j) q _ (rowLt0 ⟨n + 1, hn⟩ p)).symm

theorem blkRead0_6 (t : Fin cfg0.N) (G : S50000x128.Idx → EReal) (p : Fin 2000) (q : Fin 128) (hr : 2000 * t.val + p.val < 50000) :
    (((cfg0.win 6).blk t).view.read (Elt Ideal) G : Vec Ideal S2000x128 .f32) (ix2 p q) = G (ix2 ⟨2000 * t.val + p.val, hr⟩ q) := by
  obtain ⟨-, -, -, -, -, -, -, -, -, -, -, -, e0, e1, -⟩ := idxFacts0 t
  rw [View.read_apply]
  show G _ = G _
  congr 1
  funext a
  apply Fin.ext
  match a with
  | ⟨0, _⟩ => show win0_6.index t (0 : Fin 2) * 2000 + 1 * p.val = 2000 * t.val + p.val; rw [e0]; omega
  | ⟨1, _⟩ => show win0_6.index t (1 : Fin 2) * 128 + 1 * q.val = q.val; rw [e1]; omega

theorem flushedOut0 (c : Dev nD) (t : Fin cfg0.N) :
    (dat0 (F := Ideal) V c).flushed 6 t = ((cfg0.win 6).blk t).view.read (Elt Ideal) (Cert.Spec.ofMat (preMat0 V c)) := by
  show (cfg0.win 6).cut (grid0.coords t) ((dat0 (F := Ideal) V c).after 6 t) = _
  rw [after0_6]
  funext j
  obtain ⟨p, q, rfl⟩ : ∃ (p : Fin 2000) (q : Fin 128), j = ix2 p q := ⟨j 0, j 1, eq_ix2 j⟩
  refine Eq.trans (b := k0_pay5 (F := Ideal) (iblk0 V c 0 t) (iblk0 V c 1 t) (iblk0 V c 2 t) (iblk0 V c 3 t) (iblk0 V c 4 t) (iblk0 V c 5 t) (ix2 p q)) rfl ?_
  refine (pay5_apply0 (iblk0 V c 0 t) (iblk0 V c 1 t) (iblk0 V c 2 t) (iblk0 V c 3 t) (iblk0 V c 4 t) (iblk0 V c 5 t) p q).trans ?_
  refine (tileRow0 V c t p q).trans ?_
  exact (blkRead0_6 t (Cert.Spec.ofMat (preMat0 V c)) p q (rowLt0 t p)).symm

theorem memBlk0_6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole (Pipeline.arrRef spec0 6)).slice (win0_6.rect t)).set ↔ _
  rw [View.set_slice_whole, Rect.mem_set_unit]
  exact Iff.rfl

theorem coverOut0 (i : S50000x128.Idx) :
    ∃ t : Fin cfg0.N, (cfg0.win 6).flush t = true ∧ i ∈ ((cfg0.win 6).blk t).view.set := by
  have hN : cfg0.N = 25 := N_0
  have hi0 : (i 0).val < 50000 := (i 0).isLt
  have hi1 : (i 1).val < 128 := (i 1).isLt
  refine ⟨⟨(i 0).val / 2000, by omega⟩, flush0_6 _, ?_⟩
  obtain ⟨-, -, -, -, -, -, -, -, -, -, -, -, e0, e1, -⟩ := idxFacts0 ⟨(i 0).val / 2000, by omega⟩
  rw [memBlk0_6]
  intro a
  match a with
  | ⟨0, _⟩ =>
    show win0_6.index ⟨(i 0).val / 2000, _⟩ (0 : Fin 2) * 2000 ≤ (i 0).val ∧ (i 0).val < win0_6.index ⟨(i 0).val / 2000, _⟩ (0 : Fin 2) * 2000 + 2000
    rw [e0]; dsimp only; omega
  | ⟨1, _⟩ =>
    show win0_6.index ⟨(i 0).val / 2000, _⟩ (1 : Fin 2) * 128 ≤ (i 1).val ∧ (i 1).val < win0_6.index ⟨(i 0).val / 2000, _⟩ (1 : Fin 2) * 128 + 128
    rw [e1]; omega

def sumRow0 (c : Dev nD) : S1x128.Idx → EReal := fun i => Cert.Spec.colSum (preMat0 V c) (i 1)
def sqRow0 (c : Dev nD) : S1x128.Idx → EReal := fun i => Cert.Spec.colSum (fun r j => preMat0 V c r j * preMat0 V c r j) (i 1)

theorem sumRow0_ix2 (c : Dev nD) (q : Fin 128) : sumRow0 V c (ix2 0 q) = Cert.Spec.colSum (preMat0 V c) q := rfl
theorem sqRow0_ix2 (c : Dev nD) (q : Fin 128) :
    sqRow0 V c (ix2 0 q) = Cert.Spec.colSum (fun r j => preMat0 V c r j * preMat0 V c r j) q := rfl

theorem blkRead0_7 (t : Fin cfg0.N) (G : S1x128.Idx → EReal) (q : Fin 128) :
    (((cfg0.win 7).blk t).view.read (Elt Ideal) G : Vec Ideal S1x128 .f32) (ix2 0 q) = G (ix2 0 q) := by
  obtain ⟨-, -, -, -, -, -, -, -, -, -, -, -, -, -, e0, e1, -⟩ := idxFacts0 t
  rw [View.read_apply]
  show G _ = G _
  congr 1
  funext a
  apply Fin.ext
  match a with
  | ⟨0, _⟩ => show win0_7.index t (0 : Fin 2) * 1 + 1 * 0 = 0; rw [e0]
  | ⟨1, _⟩ => show win0_7.index t (1 : Fin 2) * 128 + 1 * q.val = q.val; rw [e1]; omega

theorem blkRead0_8 (t : Fin cfg0.N) (G : S1x128.Idx → EReal) (q : Fin 128) :
    (((cfg0.win 8).blk t).view.read (Elt Ideal) G : Vec Ideal S1x128 .f32) (ix2 0 q) = G (ix2 0 q) := by
  obtain ⟨-, -, -, -, -, -, -, -, -, -, -, -, -, -, -, -, e0, e1⟩ := idxFacts0 t
  rw [View.read_apply]
  show G _ = G _
  congr 1
  funext a
  apply Fin.ext
  match a with
  | ⟨0, _⟩ => show win0_8.index t (0 : Fin 2) * 1 + 1 * 0 = 0; rw [e0]
  | ⟨1, _⟩ => show win0_8.index t (1 : Fin 2) * 128 + 1 * q.val = q.val; rw [e1]; omega

theorem flushedSum0 (c : Dev nD) (t : Fin cfg0.N) (hf : (cfg0.win 7).flush t = true) :
    (dat0 (F := Ideal) V c).flushed 7 t = ((cfg0.win 7).blk t).view.read (Elt Ideal) (sumRow0 V c) := by
  have hN : cfg0.N = 25 := N_0
  have h24 : t.val = 24 := by have h1 := (flush0_7 t).mp hf; have h2 := t.isLt; omega
  show (cfg0.win 7).cut (grid0.coords t) ((dat0 (F := Ideal) V c).after 7 t) = _
  rw [after0_7]
  funext j
  obtain ⟨z, q, rfl⟩ : ∃ (z : Fin 1) (q : Fin 128), j = ix2 z q := ⟨j 0, j 1, eq_ix2 j⟩
  obtain rfl : z = 0 := Subsingleton.elim _ _
  refine Eq.trans (b := ((sc0 V c t.val t.isLt).1 : Vec Ideal S1x128 .f32) (ix2 0 q)) rfl ?_
  refine (accCol0 V c q t.val t.isLt).trans ?_
  refine Eq.trans ?_ (blkRead0_7 t (sumRow0 V c) q).symm
  rw [sumRow0_ix2, colSumTiles0, h24]

theorem flushedSq0 (c : Dev nD) (t : Fin cfg0.N) (hf : (cfg0.win 8).flush t = true) :
    (dat0 (F := Ideal) V c).flushed 8 t = ((cfg0.win 8).blk t).view.read (Elt Ideal) (sqRow0 V c) := by
  have hN : cfg0.N = 25 := N_0
  have h24 : t.val = 24 := by have h1 := (flush0_8 t).mp hf; have h2 := t.isLt; omega
  show (cfg0.win 8).cut (grid0.coords t) ((dat0 (F := Ideal) V c).after 8 t) = _
  rw [after0_8]
  funext j
  obtain ⟨z, q, rfl⟩ : ∃ (z : Fin 1) (q : Fin 128), j = ix2 z q := ⟨j 0, j 1, eq_ix2 j⟩
  obtain rfl : z = 0 := Subsingleton.elim _ _
  refine Eq.trans (b := ((sc0 V c t.val t.isLt).2 : Vec Ideal S1x128 .f32) (ix2 0 q)) rfl ?_
  refine (accSq0 V c q t.val t.isLt).trans ?_
  refine Eq.trans ?_ (blkRead0_8 t (sqRow0 V c) q).symm
  rw [sqRow0_ix2, colSumTiles0, h24]

theorem memBlk0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole (Pipeline.arrRef spec0 7)).slice (win0_7.rect t)).set ↔ _
  rw [View.set_slice_whole, Rect.mem_set_unit]
  exact Iff.rfl

theorem memBlk0_8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole (Pipeline.arrRef spec0 8)).slice (win0_8.rect t)).set ↔ _
  rw [View.set_slice_whole, Rect.mem_set_unit]
  exact Iff.rfl

theorem coverSum0 (i : S1x128.Idx) :
    ∃ t : Fin cfg0.N, (cfg0.win 7).flush t = true ∧ i ∈ ((cfg0.win 7).blk t).view.set := by
  have hN : cfg0.N = 25 := N_0
  have hi0 : (i 0).val < 1 := (i 0).isLt
  have hi1 : (i 1).val < 128 := (i 1).isLt
  have h24 : (24 : ℕ) < cfg0.N := by omega
  refine ⟨⟨24, h24⟩, (flush0_7 _).mpr rfl, ?_⟩
  obtain ⟨-, -, -, -, -, -, -, -, -, -, -, -, -, -, e0, e1, -⟩ := idxFacts0 ⟨24, h24⟩
  rw [memBlk0_7]
  intro a
  match a with
  | ⟨0, _⟩ =>
    show win0_7.index ⟨24, h24⟩ (0 : Fin 2) * 1 ≤ (i 0).val ∧ (i 0).val < win0_7.index ⟨24, h24⟩ (0 : Fin 2) * 1 + 1
    rw [e0]; omega
  | ⟨1, _⟩ =>
    show win0_7.index ⟨24, h24⟩ (1 : Fin 2) * 128 ≤ (i 1).val ∧ (i 1).val < win0_7.index ⟨24, h24⟩ (1 : Fin 2) * 128 + 128
    rw [e1]; omega

theorem coverSq0 (i : S1x128.Idx) :
    ∃ t : Fin cfg0.N, (cfg0.win 8).flush t = true ∧ i ∈ ((cfg0.win 8).blk t).view.set := by
  have hN : cfg0.N = 25 := N_0
  have hi0 : (i 0).val < 1 := (i 0).isLt
  have hi1 : (i 1).val < 128 := (i 1).isLt
  have h24 : (24 : ℕ) < cfg0.N := by omega
  refine ⟨⟨24, h24⟩, (flush0_8 _).mpr rfl, ?_⟩
  obtain ⟨-, -, -, -, -, -, -, -, -, -, -, -, -, -, -, -, e0, e1⟩ := idxFacts0 ⟨24, h24⟩
  rw [memBlk0_8]
  intro a
  match a with
  | ⟨0, _⟩ =>
    show win0_8.index ⟨24, h24⟩ (0 : Fin 2) * 1 ≤ (i 0).val ∧ (i 0).val < win0_8.index ⟨24, h24⟩ (0 : Fin 2) * 1 + 1
    rw [e0]; omega
  | ⟨1, _⟩ =>
    show win0_8.index ⟨24, h24⟩ (1 : Fin 2) * 128 ≤ (i 1).val ∧ (i 1).val < win0_8.index ⟨24, h24⟩ (1 : Fin 2) * 128 + 128
    rw [e1]; omega

theorem final0_6 (c : Dev nD) (r : Fin 50000) (j : Fin 128) :
    ((dat0 (F := Ideal) V c).arrAt 6 cfg0.N : S50000x128.Idx → EReal) (ix2 r j) = preMat0 V c r j := by
  have h := (dat0 (F := Ideal) V c).arrAt_eq_of_cover 6 (Cert.Spec.ofMat (preMat0 V c)) (fun t _ => flushedOut0 V c t) coverOut0
  exact (congrFun h (ix2 r j)).trans (Cert.Spec.ofMat_ix2 (preMat0 V c) r j)

theorem final0_7 (c : Dev nD) (j : Fin 128) :
    ((dat0 (F := Ideal) V c).arrAt 7 cfg0.N : S1x128.Idx → EReal) (ix2 0 j) = Cert.Spec.colSum (preMat0 V c) j := by
  have h := (dat0 (F := Ideal) V c).arrAt_eq_of_cover 7 (sumRow0 V c) (flushedSum0 V c) coverSum0
  exact (congrFun h (ix2 0 j)).trans (sumRow0_ix2 V c j)

theorem final0_8 (c : Dev nD) (j : Fin 128) :
    ((dat0 (F := Ideal) V c).arrAt 8 cfg0.N : S1x128.Idx → EReal) (ix2 0 j)
      = Cert.Spec.colSum (fun r j => preMat0 V c r j * preMat0 V c r j) j := by
  have h := (dat0 (F := Ideal) V c).arrAt_eq_of_cover 8 (sqRow0 V c) (flushedSq0 V c) coverSq0
  exact (congrFun h (ix2 0 j)).trans (sqRow0_ix2 V c j)

end Cert.KernelIdeal.Gen

end
-- ==== Proof.Mlp2Pay.lean ====
-- The second region's payloads are the first region's up to a reshape to the same shape, so the first region's index-wise readings serve.
import proofs.«420740_j41515153883619_1_alg».proof.Proof.Mlp2Data
import proofs.«420740_j41515153883619_1_alg».proof.Proof.Mlp0Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Gen

open Idealize.ShloMosaic Idealize.ShloMosaic.TcCoe Idealize.ShloMosaic.ValueIdx

theorem k2_pay5_eq {F : FTy → Type} [FloatOps F] : k2_pay5 (F := F) = k0_pay5 (F := F) := by
  funext x0 x1 x2 x3 x4 x5; unfold k2_pay5 k0_pay5; simp only [shapeCast_self]

theorem k2_pay6_eq {F : FTy → Type} [FloatOps F] : k2_pay6 (F := F) = k0_pay6 (F := F) := by
  funext x0 x1 x2 x3 x4 x5 s; unfold k2_pay6 k0_pay6; rw [k2_pay5_eq]

theorem pay5_apply2 (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k2_pay5 (F := Ideal) x0 x1 x2 x3 x4 x5 (ix2 p q) = tileOut0 x0 x1 x2 x3 x4 x5 p q := by
  rw [k2_pay5_eq]; exact pay5_apply0 x0 x1 x2 x3 x4 x5 p q

theorem accS_apply2 (s : Vec Ideal S1x128 .f32) (x0 x1 : Vec Ideal S2000x128 .f32) (x2 : Vec Ideal S128x128 .f32) (x3 : Vec Ideal S1x128 .f32)
    (x4 : Vec Ideal S128x128 .f32) (x5 : Vec Ideal S1x128 .f32) (q : Fin 128) :
    accS2 (F := Ideal) s x0 x1 x2 x3 x4 x5 (ix2 0 q) = s (ix2 0 q) + ∑ p : Fin 2000, tileOut0 x0 x1 x2 x3 x4 x5 p q := by
  unfold accS2; rw [k2_pay6_eq]; exact accS_apply0 s x0 x1 x2 x3 x4 x5 q

theorem accQ_apply2 (s : Vec Ideal S1x128 .f32) (x0 x1 : Vec Ideal S2000x128 .f32) (x2 : Vec Ideal S128x128 .f32) (x3 : Vec Ideal S1x128 .f32)
    (x4 : Vec Ideal S128x128 .f32) (x5 : Vec Ideal S1x128 .f32) (q : Fin 128) :
    accQ2 (F := Ideal) s x0 x1 x2 x3 x4 x5 (ix2 0 q)
      = s (ix2 0 q) + ∑ p : Fin 2000, tileOut0 x0 x1 x2 x3 x4 x5 p q * tileOut0 x0 x1 x2 x3 x4 x5 p q := by
  unfold accQ2; rw [k2_pay5_eq]; exact accQ_apply0 s x0 x1 x2 x3 x4 x5 q

theorem pay3_apply2 (q : Fin 128) : k2_pay3 (F := Ideal) (ix2 0 q) = 0 := pay3_apply0 q

theorem pay4_apply2 (q : Fin 128) : k2_pay4 (F := Ideal) (ix2 0 q) = 0 := pay4_apply0 q

end Cert.KernelIdeal.Gen

end
-- ==== Proof.Mlp2Value.lean ====
import proofs.«420740_j41515153883619_1_alg».proof.Proof.Mlp2Pay
import proofs.«420740_j41515153883619_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Intervals
import proofs.«420740_j41515153883619_1_alg».proof.Proof.Mlp0Value

set_option maxRecDepth 16384

noncomputable section

open scoped BigOperators

namespace Cert.KernelIdeal.Gen

open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

abbrev xArr2 (c : Dev nD) : S50000x128.Idx → EReal := V c (Pipeline.arrRef spec2 0)
abbrev aggArr2 (c : Dev nD) : S50000x128.Idx → EReal := V c (Pipeline.arrRef spec2 1)
abbrev w1Arr2 (c : Dev nD) : S128x128.Idx → EReal := V c (Pipeline.arrRef spec2 2)
abbrev b1Arr2 (c : Dev nD) : S1x128.Idx → EReal := V c (Pipeline.arrRef spec2 3)
abbrev w2Arr2 (c : Dev nD) : S128x128.Idx → EReal := V c (Pipeline.arrRef spec2 4)
abbrev b2Arr2 (c : Dev nD) : S1x128.Idx → EReal := V c (Pipeline.arrRef spec2 5)

def preMat2 (c : Dev nD) : Cert.Spec.Mat :=
  Cert.Spec.pre (Cert.Spec.toMat (xArr2 V c)) (Cert.Spec.toMat (aggArr2 V c)) (fun l k => w1Arr2 V c (ix2 l k)) (fun k => b1Arr2 V c (ix2 0 k))
    (fun k q => w2Arr2 V c (ix2 k q)) (fun q => b2Arr2 V c (ix2 0 q))

theorem idxFacts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

theorem blkRead2_0 (c : Dev nD) (t : Fin cfg2.N) (p : Fin 2000) (l : Fin 128) (hr : 2000 * t.val + p.val < 50000) :
    (iblk2 V c 0 t : Vec Ideal S2000x128 .f32) (ix2 p l) = xArr2 V c (ix2 ⟨2000 * t.val + p.val, hr⟩ l) := by
  obtain ⟨e0, e1, -⟩ := idxFacts2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 2000 + 1 * p.val = 2000 * t.val + p.val; rw [e0]; omega
  | ⟨1, _⟩ => show win2_0.index t (1 : Fin 2) * 128 + 1 * l.val = l.val; rw [e1]; omega

theorem blkRead2_1 (c : Dev nD) (t : Fin cfg2.N) (p : Fin 2000) (l : Fin 128) (hr : 2000 * t.val + p.val < 50000) :
    (iblk2 V c 1 t : Vec Ideal S2000x128 .f32) (ix2 p l) = aggArr2 V c (ix2 ⟨2000 * t.val + p.val, hr⟩ l) := by
  obtain ⟨-, -, e0, e1, -⟩ := idxFacts2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 2000 + 1 * p.val = 2000 * t.val + p.val; rw [e0]; omega
  | ⟨1, _⟩ => show win2_1.index t (1 : Fin 2) * 128 + 1 * l.val = l.val; rw [e1]; omega

theorem blkRead2_2 (c : Dev nD) (t : Fin cfg2.N) (l k : Fin 128) :
    (iblk2 V c 2 t : Vec Ideal S128x128 .f32) (ix2 l k) = w1Arr2 V c (ix2 l k) := by
  obtain ⟨-, -, -, -, e0, e1, -⟩ := idxFacts2 t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 128 + 1 * l.val = l.val; rw [e0]; omega
  | ⟨1, _⟩ => show win2_2.index t (1 : Fin 2) * 128 + 1 * k.val = k.val; rw [e1]; omega

theorem blkRead2_3 (c : Dev nD) (t : Fin cfg2.N) (k : Fin 128) :
    (iblk2 V c 3 t : Vec Ideal S1x128 .f32) (ix2 0 k) = b1Arr2 V c (ix2 0 k) := by
  obtain ⟨-, -, -, -, -, -, e0, e1, -⟩ := idxFacts2 t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * 0 = 0; rw [e0]
  | ⟨1, _⟩ => show win2_3.index t (1 : Fin 2) * 128 + 1 * k.val = k.val; rw [e1]; omega

theorem blkRead2_4 (c : Dev nD) (t : Fin cfg2.N) (k q : Fin 128) :
    (iblk2 V c 4 t : Vec Ideal S128x128 .f32) (ix2 k q) = w2Arr2 V c (ix2 k q) := by
  obtain ⟨-, -, -, -, -, -, -, -, e0, e1, -⟩ := idxFacts2 t
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 128 + 1 * k.val = k.val; rw [e0]; omega
  | ⟨1, _⟩ => show win2_4.index t (1 : Fin 2) * 128 + 1 * q.val = q.val; rw [e1]; omega

theorem blkRead2_5 (c : Dev nD) (t : Fin cfg2.N) (q : Fin 128) :
    (iblk2 V c 5 t : Vec Ideal S1x128 .f32) (ix2 0 q) = b2Arr2 V c (ix2 0 q) := by
  obtain ⟨-, -, -, -, -, -, -, -, -, -, e0, e1, -⟩ := idxFacts2 t
  unfold iblk2
  rw [View.read_apply]
  show V c (Pipeline.arrRef spec2 5) _ = V c (Pipeline.arrRef spec2 5) _
  congr 1
  funext a
  apply Fin.ext
  match a with
  | ⟨0, _⟩ => show win2_5.index t (0 : Fin 2) * 1 + 1 * 0 = 0; rw [e0]
  | ⟨1, _⟩ => show win2_5.index t (1 : Fin 2) * 128 + 1 * q.val = q.val; rw [e1]; omega

theorem rowLt2 (t : Fin cfg2.N) (p : Fin 2000) : 2000 * t.val + p.val < 50000 := by
  have hN : cfg2.N = 25 := N_2
  have h1 := t.isLt
  have h2 := p.isLt
  omega

theorem tileRow2 (c : Dev nD) (t : Fin cfg2.N) (p : Fin 2000) (q : Fin 128) :
    tileOut0 (iblk2 V c 0 t) (iblk2 V c 1 t) (iblk2 V c 2 t) (iblk2 V c 3 t) (iblk2 V c 4 t) (iblk2 V c 5 t) p q
      = preMat2 V c ⟨2000 * t.val + p.val, rowLt2 t p⟩ q :=
  tileSpec0 (iblk2 V c 0 t) (iblk2 V c 1 t) (iblk2 V c 2 t) (iblk2 V c 3 t) (iblk2 V c 4 t) (iblk2 V c 5 t)
    (xArr2 V c) (aggArr2 V c) (w1Arr2 V c) (b1Arr2 V c) (w2Arr2 V c) (b2Arr2 V c) p ⟨2000 * t.val + p.val, rowLt2 t p⟩ q
    (fun l => blkRead2_0 V c t p l (rowLt2 t p)) (fun l => blkRead2_1 V c t p l (rowLt2 t p))
    (fun l k => blkRead2_2 V c t l k) (fun k => blkRead2_3 V c t k)
    (fun k q => blkRead2_4 V c t k q) (fun q => blkRead2_5 V c t q)

theorem accCol2 (c : Dev nD) (q : Fin 128) : ∀ (n : ℕ) (hn : n < cfg2.N),
    ((sc2 V c n hn).1 : Vec Ideal S1x128 .f32) (ix2 0 q)
      = ∑ t ∈ Finset.range (n + 1), ∑ p : Fin 2000, rowSeq0 (preMat2 V c) q (2000 * t + p.val)
  | 0, hn => by
    show (accS2 (F := Ideal) (k2_pay3 (F := Ideal)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)) (ix2 0 q) = _
    refine (accS_apply2 (k2_pay3 (F := Ideal)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) q).trans ?_
    rw [pay3_apply2, zero_add, Finset.sum_range_one]
    refine Finset.sum_congr rfl (fun p _ => ?_)
    refine (tileRow2 V c ⟨0, hn⟩ p q).trans ?_
    exact (rowSeq0_lt (preMat2 V c) q _ (rowLt2 ⟨0, hn⟩ p)).symm
  | n + 1, hn => by
    show (accS2 (F := Ideal) (sc2 V c n (Nat.lt_of_succ_lt hn)).1 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)) (ix2 0 q) = _
    refine (accS_apply2 (sc2 V c n (Nat.lt_of_succ_lt hn)).1 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) q).trans ?_
    rw [accCol2 c q n (Nat.lt_of_succ_lt hn), Finset.sum_range_succ _ (n + 1)]
    congr 1
    refine Finset.sum_congr rfl (fun p _ => ?_)
    refine (tileRow2 V c ⟨n + 1, hn⟩ p q).trans ?_
    exact (rowSeq0_lt (preMat2 V c) q _ (rowLt2 ⟨n + 1, hn⟩ p)).symm

theorem accSq2 (c : Dev nD) (q : Fin 128) : ∀ (n : ℕ) (hn : n < cfg2.N),
    ((sc2 V c n hn).2 : Vec Ideal S1x128 .f32) (ix2 0 q)
      = ∑ t ∈ Finset.range (n + 1), ∑ p : Fin 2000, rowSeq0 (fun r j => preMat2 V c r j * preMat2 V c r j) q (2000 * t + p.val)
  | 0, hn => by
    show (accQ2 (F := Ideal) (k2_pay4 (F := Ideal)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)) (ix2 0 q) = _
    refine (accQ_apply2 (k2_pay4 (F := Ideal)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) q).trans ?_
    rw [pay4_apply2, zero_add, Finset.sum_range_one]
    refine Finset.sum_congr rfl (fun p _ => ?_)
    rw [tileRow2 V c ⟨0, hn⟩ p q]
    exact (rowSeq0_lt (fun r j => preMat2 V c r j * preMat2 V c r j) q _ (rowLt2 ⟨0, hn⟩ p)).symm
  | n + 1, hn => by
    show (accQ2 (F := Ideal) (sc2 V c n (Nat.lt_of_succ_lt hn)).2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)) (ix2 0 q) = _
    refine (accQ_apply2 (sc2 V c n (Nat.lt_of_succ_lt hn)).2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) q).trans ?_
    rw [accSq2 c q n (Nat.lt_of_succ_lt hn), Finset.sum_range_succ _ (n + 1)]
    congr 1
    refine Finset.sum_congr rfl (fun p _ => ?_)
    rw [tileRow2 V c ⟨n + 1, hn⟩ p q]
    exact (rowSeq0_lt (fun r j => preMat2 V c r j * preMat2 V c r j) q _ (rowLt2 ⟨n + 1, hn⟩ p)).symm

theorem blkRead2_6 (t : Fin cfg2.N) (G : S50000x128.Idx → EReal) (p : Fin 2000) (q : Fin 128) (hr : 2000 * t.val + p.val < 50000) :
    (((cfg2.win 6).blk t).view.read (Elt Ideal) G : Vec Ideal S2000x128 .f32) (ix2 p q) = G (ix2 ⟨2000 * t.val + p.val, hr⟩ q) := by
  obtain ⟨-, -, -, -, -, -, -, -, -, -, -, -, e0, e1, -⟩ := idxFacts2 t
  rw [View.read_apply]
  show G _ = G _
  congr 1
  funext a
  apply Fin.ext
  match a with
  | ⟨0, _⟩ => show win2_6.index t (0 : Fin 2) * 2000 + 1 * p.val = 2000 * t.val + p.val; rw [e0]; omega
  | ⟨1, _⟩ => show win2_6.index t (1 : Fin 2) * 128 + 1 * q.val = q.val; rw [e1]; omega

theorem flushedOut2 (c : Dev nD) (t : Fin cfg2.N) :
    (dat2 (F := Ideal) V c).flushed 6 t = ((cfg2.win 6).blk t).view.read (Elt Ideal) (Cert.Spec.ofMat (preMat2 V c)) := by
  show (cfg2.win 6).cut (grid2.coords t) ((dat2 (F := Ideal) V c).after 6 t) = _
  rw [after2_6]
  funext j
  obtain ⟨p, q, rfl⟩ : ∃ (p : Fin 2000) (q : Fin 128), j = ix2 p q := ⟨j 0, j 1, eq_ix2 j⟩
  refine Eq.trans (b := k2_pay5 (F := Ideal) (iblk2 V c 0 t) (iblk2 V c 1 t) (iblk2 V c 2 t) (iblk2 V c 3 t) (iblk2 V c 4 t) (iblk2 V c 5 t) (ix2 p q)) rfl ?_
  refine (pay5_apply2 (iblk2 V c 0 t) (iblk2 V c 1 t) (iblk2 V c 2 t) (iblk2 V c 3 t) (iblk2 V c 4 t) (iblk2 V c 5 t) p q).trans ?_
  refine (tileRow2 V c t p q).trans ?_
  exact (blkRead2_6 t (Cert.Spec.ofMat (preMat2 V c)) p q (rowLt2 t p)).symm

theorem memBlk2_6 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole (Pipeline.arrRef spec2 6)).slice (win2_6.rect t)).set ↔ _
  rw [View.set_slice_whole, Rect.mem_set_unit]
  exact Iff.rfl

theorem coverOut2 (i : S50000x128.Idx) :
    ∃ t : Fin cfg2.N, (cfg2.win 6).flush t = true ∧ i ∈ ((cfg2.win 6).blk t).view.set := by
  have hN : cfg2.N = 25 := N_2
  have hi0 : (i 0).val < 50000 := (i 0).isLt
  have hi1 : (i 1).val < 128 := (i 1).isLt
  refine ⟨⟨(i 0).val / 2000, by omega⟩, flush2_6 _, ?_⟩
  obtain ⟨-, -, -, -, -, -, -, -, -, -, -, -, e0, e1, -⟩ := idxFacts2 ⟨(i 0).val / 2000, by omega⟩
  rw [memBlk2_6]
  intro a
  match a with
  | ⟨0, _⟩ =>
    show win2_6.index ⟨(i 0).val / 2000, _⟩ (0 : Fin 2) * 2000 ≤ (i 0).val ∧ (i 0).val < win2_6.index ⟨(i 0).val / 2000, _⟩ (0 : Fin 2) * 2000 + 2000
    rw [e0]; dsimp only; omega
  | ⟨1, _⟩ =>
    show win2_6.index ⟨(i 0).val / 2000, _⟩ (1 : Fin 2) * 128 ≤ (i 1).val ∧ (i 1).val < win2_6.index ⟨(i 0).val / 2000, _⟩ (1 : Fin 2) * 128 + 128
    rw [e1]; omega

def sumRow2 (c : Dev nD) : S1x128.Idx → EReal := fun i => Cert.Spec.colSum (preMat2 V c) (i 1)
def sqRow2 (c : Dev nD) : S1x128.Idx → EReal := fun i => Cert.Spec.colSum (fun r j => preMat2 V c r j * preMat2 V c r j) (i 1)

theorem sumRow2_ix2 (c : Dev nD) (q : Fin 128) : sumRow2 V c (ix2 0 q) = Cert.Spec.colSum (preMat2 V c) q := rfl
theorem sqRow2_ix2 (c : Dev nD) (q : Fin 128) :
    sqRow2 V c (ix2 0 q) = Cert.Spec.colSum (fun r j => preMat2 V c r j * preMat2 V c r j) q := rfl

theorem blkRead2_7 (t : Fin cfg2.N) (G : S1x128.Idx → EReal) (q : Fin 128) :
    (((cfg2.win 7).blk t).view.read (Elt Ideal) G : Vec Ideal S1x128 .f32) (ix2 0 q) = G (ix2 0 q) := by
  obtain ⟨-, -, -, -, -, -, -, -, -, -, -, -, -, -, e0, e1, -⟩ := idxFacts2 t
  rw [View.read_apply]
  show G _ = G _
  congr 1
  funext a
  apply Fin.ext
  match a with
  | ⟨0, _⟩ => show win2_7.index t (0 : Fin 2) * 1 + 1 * 0 = 0; rw [e0]
  | ⟨1, _⟩ => show win2_7.index t (1 : Fin 2) * 128 + 1 * q.val = q.val; rw [e1]; omega

theorem blkRead2_8 (t : Fin cfg2.N) (G : S1x128.Idx → EReal) (q : Fin 128) :
    (((cfg2.win 8).blk t).view.read (Elt Ideal) G : Vec Ideal S1x128 .f32) (ix2 0 q) = G (ix2 0 q) := by
  obtain ⟨-, -, -, -, -, -, -, -, -, -, -, -, -, -, -, -, e0, e1⟩ := idxFacts2 t
  rw [View.read_apply]
  show G _ = G _
  congr 1
  funext a
  apply Fin.ext
  match a with
  | ⟨0, _⟩ => show win2_8.index t (0 : Fin 2) * 1 + 1 * 0 = 0; rw [e0]
  | ⟨1, _⟩ => show win2_8.index t (1 : Fin 2) * 128 + 1 * q.val = q.val; rw [e1]; omega

theorem flushedSum2 (c : Dev nD) (t : Fin cfg2.N) (hf : (cfg2.win 7).flush t = true) :
    (dat2 (F := Ideal) V c).flushed 7 t = ((cfg2.win 7).blk t).view.read (Elt Ideal) (sumRow2 V c) := by
  have hN : cfg2.N = 25 := N_2
  have h24 : t.val = 24 := by have h1 := (flush2_7 t).mp hf; have h2 := t.isLt; omega
  show (cfg2.win 7).cut (grid2.coords t) ((dat2 (F := Ideal) V c).after 7 t) = _
  rw [after2_7]
  funext j
  obtain ⟨z, q, rfl⟩ : ∃ (z : Fin 1) (q : Fin 128), j = ix2 z q := ⟨j 0, j 1, eq_ix2 j⟩
  obtain rfl : z = 0 := Subsingleton.elim _ _
  refine Eq.trans (b := ((sc2 V c t.val t.isLt).1 : Vec Ideal S1x128 .f32) (ix2 0 q)) rfl ?_
  refine (accCol2 V c q t.val t.isLt).trans ?_
  refine Eq.trans ?_ (blkRead2_7 t (sumRow2 V c) q).symm
  rw [sumRow2_ix2, colSumTiles0, h24]

theorem flushedSq2 (c : Dev nD) (t : Fin cfg2.N) (hf : (cfg2.win 8).flush t = true) :
    (dat2 (F := Ideal) V c).flushed 8 t = ((cfg2.win 8).blk t).view.read (Elt Ideal) (sqRow2 V c) := by
  have hN : cfg2.N = 25 := N_2
  have h24 : t.val = 24 := by have h1 := (flush2_8 t).mp hf; have h2 := t.isLt; omega
  show (cfg2.win 8).cut (grid2.coords t) ((dat2 (F := Ideal) V c).after 8 t) = _
  rw [after2_8]
  funext j
  obtain ⟨z, q, rfl⟩ : ∃ (z : Fin 1) (q : Fin 128), j = ix2 z q := ⟨j 0, j 1, eq_ix2 j⟩
  obtain rfl : z = 0 := Subsingleton.elim _ _
  refine Eq.trans (b := ((sc2 V c t.val t.isLt).2 : Vec Ideal S1x128 .f32) (ix2 0 q)) rfl ?_
  refine (accSq2 V c q t.val t.isLt).trans ?_
  refine Eq.trans ?_ (blkRead2_8 t (sqRow2 V c) q).symm
  rw [sqRow2_ix2, colSumTiles0, h24]

theorem memBlk2_7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole (Pipeline.arrRef spec2 7)).slice (win2_7.rect t)).set ↔ _
  rw [View.set_slice_whole, Rect.mem_set_unit]
  exact Iff.rfl

theorem memBlk2_8 (t : Fin cfg2.N) (i : S1x128.Idx) :
    i ∈ ((cfg2.win 8).blk t).view.set ↔ ∀ a : Fin 2, win2_8.index t a * S1x128.size a ≤ (i a).val ∧ (i a).val < win2_8.index t a * S1x128.size a + S1x128.size a := by
  show i ∈ ((View.whole (Pipeline.arrRef spec2 8)).slice (win2_8.rect t)).set ↔ _
  rw [View.set_slice_whole, Rect.mem_set_unit]
  exact Iff.rfl

theorem coverSum2 (i : S1x128.Idx) :
    ∃ t : Fin cfg2.N, (cfg2.win 7).flush t = true ∧ i ∈ ((cfg2.win 7).blk t).view.set := by
  have hN : cfg2.N = 25 := N_2
  have hi0 : (i 0).val < 1 := (i 0).isLt
  have hi1 : (i 1).val < 128 := (i 1).isLt
  have h24 : (24 : ℕ) < cfg2.N := by omega
  refine ⟨⟨24, h24⟩, (flush2_7 _).mpr rfl, ?_⟩
  obtain ⟨-, -, -, -, -, -, -, -, -, -, -, -, -, -, e0, e1, -⟩ := idxFacts2 ⟨24, h24⟩
  rw [memBlk2_7]
  intro a
  match a with
  | ⟨0, _⟩ =>
    show win2_7.index ⟨24, h24⟩ (0 : Fin 2) * 1 ≤ (i 0).val ∧ (i 0).val < win2_7.index ⟨24, h24⟩ (0 : Fin 2) * 1 + 1
    rw [e0]; omega
  | ⟨1, _⟩ =>
    show win2_7.index ⟨24, h24⟩ (1 : Fin 2) * 128 ≤ (i 1).val ∧ (i 1).val < win2_7.index ⟨24, h24⟩ (1 : Fin 2) * 128 + 128
    rw [e1]; omega

theorem coverSq2 (i : S1x128.Idx) :
    ∃ t : Fin cfg2.N, (cfg2.win 8).flush t = true ∧ i ∈ ((cfg2.win 8).blk t).view.set := by
  have hN : cfg2.N = 25 := N_2
  have hi0 : (i 0).val < 1 := (i 0).isLt
  have hi1 : (i 1).val < 128 := (i 1).isLt
  have h24 : (24 : ℕ) < cfg2.N := by omega
  refine ⟨⟨24, h24⟩, (flush2_8 _).mpr rfl, ?_⟩
  obtain ⟨-, -, -, -, -, -, -, -, -, -, -, -, -, -, -, -, e0, e1⟩ := idxFacts2 ⟨24, h24⟩
  rw [memBlk2_8]
  intro a
  match a with
  | ⟨0, _⟩ =>
    show win2_8.index ⟨24, h24⟩ (0 : Fin 2) * 1 ≤ (i 0).val ∧ (i 0).val < win2_8.index ⟨24, h24⟩ (0 : Fin 2) * 1 + 1
    rw [e0]; omega
  | ⟨1, _⟩ =>
    show win2_8.index ⟨24, h24⟩ (1 : Fin 2) * 128 ≤ (i 1).val ∧ (i 1).val < win2_8.index ⟨24, h24⟩ (1 : Fin 2) * 128 + 128
    rw [e1]; omega

theorem final2_6 (c : Dev nD) (r : Fin 50000) (j : Fin 128) :
    ((dat2 (F := Ideal) V c).arrAt 6 cfg2.N : S50000x128.Idx → EReal) (ix2 r j) = preMat2 V c r j := by
  have h := (dat2 (F := Ideal) V c).arrAt_eq_of_cover 6 (Cert.Spec.ofMat (preMat2 V c)) (fun t _ => flushedOut2 V c t) coverOut2
  exact (congrFun h (ix2 r j)).trans (Cert.Spec.ofMat_ix2 (preMat2 V c) r j)

theorem final2_7 (c : Dev nD) (j : Fin 128) :
    ((dat2 (F := Ideal) V c).arrAt 7 cfg2.N : S1x128.Idx → EReal) (ix2 0 j) = Cert.Spec.colSum (preMat2 V c) j := by
  have h := (dat2 (F := Ideal) V c).arrAt_eq_of_cover 7 (sumRow2 V c) (flushedSum2 V c) coverSum2
  exact (congrFun h (ix2 0 j)).trans (sumRow2_ix2 V c j)

theorem final2_8 (c : Dev nD) (j : Fin 128) :
    ((dat2 (F := Ideal) V c).arrAt 8 cfg2.N : S1x128.Idx → EReal) (ix2 0 j)
      = Cert.Spec.colSum (fun r j => preMat2 V c r j * preMat2 V c r j) j := by
  have h := (dat2 (F := Ideal) V c).arrAt_eq_of_cover 8 (sqRow2 V c) (flushedSq2 V c) coverSq2
  exact (congrFun h (ix2 0 j)).trans (sqRow2_ix2 V c j)

end Cert.KernelIdeal.Gen

end
-- ==== Proof.Mlp4Value.lean ====
import proofs.«420740_j41515153883619_1_alg».proof.Proof.Mlp4Data
import proofs.«420740_j41515153883619_1_alg».proof.Proof.Mlp2Pay
import proofs.«420740_j41515153883619_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Intervals
import proofs.«420740_j41515153883619_1_alg».proof.Proof.Mlp2Value
import proofs.«420740_j41515153883619_1_alg».proof.Proof.Mlp0Value

set_option maxRecDepth 16384

noncomputable section

open scoped BigOperators

namespace Cert.KernelIdeal.Gen

open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

abbrev xArr4 (c : Dev nD) : S50000x128.Idx → EReal := V c (Pipeline.arrRef spec4 0)
abbrev aggArr4 (c : Dev nD) : S50000x128.Idx → EReal := V c (Pipeline.arrRef spec4 1)
abbrev w1Arr4 (c : Dev nD) : S128x128.Idx → EReal := V c (Pipeline.arrRef spec4 2)
abbrev b1Arr4 (c : Dev nD) : S1x128.Idx → EReal := V c (Pipeline.arrRef spec4 3)
abbrev w2Arr4 (c : Dev nD) : S128x128.Idx → EReal := V c (Pipeline.arrRef spec4 4)
abbrev b2Arr4 (c : Dev nD) : S1x128.Idx → EReal := V c (Pipeline.arrRef spec4 5)

def preMat4 (c : Dev nD) : Cert.Spec.Mat :=
  Cert.Spec.pre (Cert.Spec.toMat (xArr4 V c)) (Cert.Spec.toMat (aggArr4 V c)) (fun l k => w1Arr4 V c (ix2 l k)) (fun k => b1Arr4 V c (ix2 0 k))
    (fun k q => w2Arr4 V c (ix2 k q)) (fun q => b2Arr4 V c (ix2 0 q))

theorem idxFacts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

theorem blkRead4_0 (c : Dev nD) (t : Fin cfg4.N) (p : Fin 2000) (l : Fin 128) (hr : 2000 * t.val + p.val < 50000) :
    (iblk4 V c 0 t : Vec Ideal S2000x128 .f32) (ix2 p l) = xArr4 V c (ix2 ⟨2000 * t.val + p.val, hr⟩ l) := by
  obtain ⟨e0, e1, -⟩ := idxFacts4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 2000 + 1 * p.val = 2000 * t.val + p.val; rw [e0]; omega
  | ⟨1, _⟩ => show win4_0.index t (1 : Fin 2) * 128 + 1 * l.val = l.val; rw [e1]; omega

theorem blkRead4_1 (c : Dev nD) (t : Fin cfg4.N) (p : Fin 2000) (l : Fin 128) (hr : 2000 * t.val + p.val < 50000) :
    (iblk4 V c 1 t : Vec Ideal S2000x128 .f32) (ix2 p l) = aggArr4 V c (ix2 ⟨2000 * t.val + p.val, hr⟩ l) := by
  obtain ⟨-, -, e0, e1, -⟩ := idxFacts4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 2000 + 1 * p.val = 2000 * t.val + p.val; rw [e0]; omega
  | ⟨1, _⟩ => show win4_1.index t (1 : Fin 2) * 128 + 1 * l.val = l.val; rw [e1]; omega

theorem blkRead4_2 (c : Dev nD) (t : Fin cfg4.N) (l k : Fin 128) :
    (iblk4 V c 2 t : Vec Ideal S128x128 .f32) (ix2 l k) = w1Arr4 V c (ix2 l k) := by
  obtain ⟨-, -, -, -, e0, e1, -⟩ := idxFacts4 t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 128 + 1 * l.val = l.val; rw [e0]; omega
  | ⟨1, _⟩ => show win4_2.index t (1 : Fin 2) * 128 + 1 * k.val = k.val; rw [e1]; omega

theorem blkRead4_3 (c : Dev nD) (t : Fin cfg4.N) (k : Fin 128) :
    (iblk4 V c 3 t : Vec Ideal S1x128 .f32) (ix2 0 k) = b1Arr4 V c (ix2 0 k) := by
  obtain ⟨-, -, -, -, -, -, e0, e1, -⟩ := idxFacts4 t
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 1 + 1 * 0 = 0; rw [e0]
  | ⟨1, _⟩ => show win4_3.index t (1 : Fin 2) * 128 + 1 * k.val = k.val; rw [e1]; omega

theorem blkRead4_4 (c : Dev nD) (t : Fin cfg4.N) (k q : Fin 128) :
    (iblk4 V c 4 t : Vec Ideal S128x128 .f32) (ix2 k q) = w2Arr4 V c (ix2 k q) := by
  obtain ⟨-, -, -, -, -, -, -, -, e0, e1, -⟩ := idxFacts4 t
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 128 + 1 * k.val = k.val; rw [e0]; omega
  | ⟨1, _⟩ => show win4_4.index t (1 : Fin 2) * 128 + 1 * q.val = q.val; rw [e1]; omega

theorem blkRead4_5 (c : Dev nD) (t : Fin cfg4.N) (q : Fin 128) :
    (iblk4 V c 5 t : Vec Ideal S1x128 .f32) (ix2 0 q) = b2Arr4 V c (ix2 0 q) := by
  obtain ⟨-, -, -, -, -, -, -, -, -, -, e0, e1, -⟩ := idxFacts4 t
  unfold iblk4
  rw [View.read_apply]
  show V c (Pipeline.arrRef spec4 5) _ = V c (Pipeline.arrRef spec4 5) _
  congr 1
  funext a
  apply Fin.ext
  match a with
  | ⟨0, _⟩ => show win4_5.index t (0 : Fin 2) * 1 + 1 * 0 = 0; rw [e0]
  | ⟨1, _⟩ => show win4_5.index t (1 : Fin 2) * 128 + 1 * q.val = q.val; rw [e1]; omega

theorem rowLt4 (t : Fin cfg4.N) (p : Fin 2000) : 2000 * t.val + p.val < 50000 := by
  have hN : cfg4.N = 25 := N_4
  have h1 := t.isLt
  have h2 := p.isLt
  omega

theorem tileRow4 (c : Dev nD) (t : Fin cfg4.N) (p : Fin 2000) (q : Fin 128) :
    tileOut0 (iblk4 V c 0 t) (iblk4 V c 1 t) (iblk4 V c 2 t) (iblk4 V c 3 t) (iblk4 V c 4 t) (iblk4 V c 5 t) p q
      = preMat4 V c ⟨2000 * t.val + p.val, rowLt4 t p⟩ q :=
  tileSpec0 (iblk4 V c 0 t) (iblk4 V c 1 t) (iblk4 V c 2 t) (iblk4 V c 3 t) (iblk4 V c 4 t) (iblk4 V c 5 t)
    (xArr4 V c) (aggArr4 V c) (w1Arr4 V c) (b1Arr4 V c) (w2Arr4 V c) (b2Arr4 V c) p ⟨2000 * t.val + p.val, rowLt4 t p⟩ q
    (fun l => blkRead4_0 V c t p l (rowLt4 t p)) (fun l => blkRead4_1 V c t p l (rowLt4 t p))
    (fun l k => blkRead4_2 V c t l k) (fun k => blkRead4_3 V c t k)
    (fun k q => blkRead4_4 V c t k q) (fun q => blkRead4_5 V c t q)

theorem accCol4 (c : Dev nD) (q : Fin 128) : ∀ (n : ℕ) (hn : n < cfg4.N),
    ((sc4 V c n hn).1 : Vec Ideal S1x128 .f32) (ix2 0 q)
      = ∑ t ∈ Finset.range (n + 1), ∑ p : Fin 2000, rowSeq0 (preMat4 V c) q (2000 * t + p.val)
  | 0, hn => by
    show (accS2 (F := Ideal) (k2_pay3 (F := Ideal)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)) (ix2 0 q) = _
    refine (accS_apply2 (k2_pay3 (F := Ideal)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) q).trans ?_
    rw [pay3_apply2, zero_add, Finset.sum_range_one]
    refine Finset.sum_congr rfl (fun p _ => ?_)
    refine (tileRow4 V c ⟨0, hn⟩ p q).trans ?_
    exact (rowSeq0_lt (preMat4 V c) q _ (rowLt4 ⟨0, hn⟩ p)).symm
  | n + 1, hn => by
    show (accS2 (F := Ideal) (sc4 V c n (Nat.lt_of_succ_lt hn)).1 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩)) (ix2 0 q) = _
    refine (accS_apply2 (sc4 V c n (Nat.lt_of_succ_lt hn)).1 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) q).trans ?_
    rw [accCol4 c q n (Nat.lt_of_succ_lt hn), Finset.sum_range_succ _ (n + 1)]
    congr 1
    refine Finset.sum_congr rfl (fun p _ => ?_)
    refine (tileRow4 V c ⟨n + 1, hn⟩ p q).trans ?_
    exact (rowSeq0_lt (preMat4 V c) q _ (rowLt4 ⟨n + 1, hn⟩ p)).symm

theorem accSq4 (c : Dev nD) (q : Fin 128) : ∀ (n : ℕ) (hn : n < cfg4.N),
    ((sc4 V c n hn).2 : Vec Ideal S1x128 .f32) (ix2 0 q)
      = ∑ t ∈ Finset.range (n + 1), ∑ p : Fin 2000, rowSeq0 (fun r j => preMat4 V c r j * preMat4 V c r j) q (2000 * t + p.val)
  | 0, hn => by
    show (accQ2 (F := Ideal) (k2_pay4 (F := Ideal)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)) (ix2 0 q) = _
    refine (accQ_apply2 (k2_pay4 (F := Ideal)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) q).trans ?_
    rw [pay4_apply2, zero_add, Finset.sum_range_one]
    refine Finset.sum_congr rfl (fun p _ => ?_)
    rw [tileRow4 V c ⟨0, hn⟩ p q]
    exact (rowSeq0_lt (fun r j => preMat4 V c r j * preMat4 V c r j) q _ (rowLt4 ⟨0, hn⟩ p)).symm
  | n + 1, hn => by
    show (accQ2 (F := Ideal) (sc4 V c n (Nat.lt_of_succ_lt hn)).2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩)) (ix2 0 q) = _
    refine (accQ_apply2 (sc4 V c n (Nat.lt_of_succ_lt hn)).2 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) q).trans ?_
    rw [accSq4 c q n (Nat.lt_of_succ_lt hn), Finset.sum_range_succ _ (n + 1)]
    congr 1
    refine Finset.sum_congr rfl (fun p _ => ?_)
    rw [tileRow4 V c ⟨n + 1, hn⟩ p q]
    exact (rowSeq0_lt (fun r j => preMat4 V c r j * preMat4 V c r j) q _ (rowLt4 ⟨n + 1, hn⟩ p)).symm

theorem blkRead4_6 (t : Fin cfg4.N) (G : S50000x128.Idx → EReal) (p : Fin 2000) (q : Fin 128) (hr : 2000 * t.val + p.val < 50000) :
    (((cfg4.win 6).blk t).view.read (Elt Ideal) G : Vec Ideal S2000x128 .f32) (ix2 p q) = G (ix2 ⟨2000 * t.val + p.val, hr⟩ q) := by
  obtain ⟨-, -, -, -, -, -, -, -, -, -, -, -, e0, e1, -⟩ := idxFacts4 t
  rw [View.read_apply]
  show G _ = G _
  congr 1
  funext a
  apply Fin.ext
  match a with
  | ⟨0, _⟩ => show win4_6.index t (0 : Fin 2) * 2000 + 1 * p.val = 2000 * t.val + p.val; rw [e0]; omega
  | ⟨1, _⟩ => show win4_6.index t (1 : Fin 2) * 128 + 1 * q.val = q.val; rw [e1]; omega

theorem flushedOut4 (c : Dev nD) (t : Fin cfg4.N) :
    (dat4 (F := Ideal) V c).flushed 6 t = ((cfg4.win 6).blk t).view.read (Elt Ideal) (Cert.Spec.ofMat (preMat4 V c)) := by
  show (cfg4.win 6).cut (grid4.coords t) ((dat4 (F := Ideal) V c).after 6 t) = _
  rw [after4_6]
  funext j
  obtain ⟨p, q, rfl⟩ : ∃ (p : Fin 2000) (q : Fin 128), j = ix2 p q := ⟨j 0, j 1, eq_ix2 j⟩
  refine Eq.trans (b := k2_pay5 (F := Ideal) (iblk4 V c 0 t) (iblk4 V c 1 t) (iblk4 V c 2 t) (iblk4 V c 3 t) (iblk4 V c 4 t) (iblk4 V c 5 t) (ix2 p q)) rfl ?_
  refine (pay5_apply2 (iblk4 V c 0 t) (iblk4 V c 1 t) (iblk4 V c 2 t) (iblk4 V c 3 t) (iblk4 V c 4 t) (iblk4 V c 5 t) p q).trans ?_
  refine (tileRow4 V c t p q).trans ?_
  exact (blkRead4_6 t (Cert.Spec.ofMat (preMat4 V c)) p q (rowLt4 t p)).symm

theorem memBlk4_6 (t : Fin cfg4.N) (i : S50000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole (Pipeline.arrRef spec4 6)).slice (win4_6.rect t)).set ↔ _
  rw [View.set_slice_whole, Rect.mem_set_unit]
  exact Iff.rfl

theorem coverOut4 (i : S50000x128.Idx) :
    ∃ t : Fin cfg4.N, (cfg4.win 6).flush t = true ∧ i ∈ ((cfg4.win 6).blk t).view.set := by
  have hN : cfg4.N = 25 := N_4
  have hi0 : (i 0).val < 50000 := (i 0).isLt
  have hi1 : (i 1).val < 128 := (i 1).isLt
  refine ⟨⟨(i 0).val / 2000, by omega⟩, flush4_6 _, ?_⟩
  obtain ⟨-, -, -, -, -, -, -, -, -, -, -, -, e0, e1, -⟩ := idxFacts4 ⟨(i 0).val / 2000, by omega⟩
  rw [memBlk4_6]
  intro a
  match a with
  | ⟨0, _⟩ =>
    show win4_6.index ⟨(i 0).val / 2000, _⟩ (0 : Fin 2) * 2000 ≤ (i 0).val ∧ (i 0).val < win4_6.index ⟨(i 0).val / 2000, _⟩ (0 : Fin 2) * 2000 + 2000
    rw [e0]; dsimp only; omega
  | ⟨1, _⟩ =>
    show win4_6.index ⟨(i 0).val / 2000, _⟩ (1 : Fin 2) * 128 ≤ (i 1).val ∧ (i 1).val < win4_6.index ⟨(i 0).val / 2000, _⟩ (1 : Fin 2) * 128 + 128
    rw [e1]; omega

def sumRow4 (c : Dev nD) : S1x128.Idx → EReal := fun i => Cert.Spec.colSum (preMat4 V c) (i 1)
def sqRow4 (c : Dev nD) : S1x128.Idx → EReal := fun i => Cert.Spec.colSum (fun r j => preMat4 V c r j * preMat4 V c r j) (i 1)

theorem sumRow4_ix2 (c : Dev nD) (q : Fin 128) : sumRow4 V c (ix2 0 q) = Cert.Spec.colSum (preMat4 V c) q := rfl
theorem sqRow4_ix2 (c : Dev nD) (q : Fin 128) :
    sqRow4 V c (ix2 0 q) = Cert.Spec.colSum (fun r j => preMat4 V c r j * preMat4 V c r j) q := rfl

theorem blkRead4_7 (t : Fin cfg4.N) (G : S1x128.Idx → EReal) (q : Fin 128) :
    (((cfg4.win 7).blk t).view.read (Elt Ideal) G : Vec Ideal S1x128 .f32) (ix2 0 q) = G (ix2 0 q) := by
  obtain ⟨-, -, -, -, -, -, -, -, -, -, -, -, -, -, e0, e1, -⟩ := idxFacts4 t
  rw [View.read_apply]
  show G _ = G _
  congr 1
  funext a
  apply Fin.ext
  match a with
  | ⟨0, _⟩ => show win4_7.index t (0 : Fin 2) * 1 + 1 * 0 = 0; rw [e0]
  | ⟨1, _⟩ => show win4_7.index t (1 : Fin 2) * 128 + 1 * q.val = q.val; rw [e1]; omega

theorem blkRead4_8 (t : Fin cfg4.N) (G : S1x128.Idx → EReal) (q : Fin 128) :
    (((cfg4.win 8).blk t).view.read (Elt Ideal) G : Vec Ideal S1x128 .f32) (ix2 0 q) = G (ix2 0 q) := by
  obtain ⟨-, -, -, -, -, -, -, -, -, -, -, -, -, -, -, -, e0, e1⟩ := idxFacts4 t
  rw [View.read_apply]
  show G _ = G _
  congr 1
  funext a
  apply Fin.ext
  match a with
  | ⟨0, _⟩ => show win4_8.index t (0 : Fin 2) * 1 + 1 * 0 = 0; rw [e0]
  | ⟨1, _⟩ => show win4_8.index t (1 : Fin 2) * 128 + 1 * q.val = q.val; rw [e1]; omega

theorem flushedSum4 (c : Dev nD) (t : Fin cfg4.N) (hf : (cfg4.win 7).flush t = true) :
    (dat4 (F := Ideal) V c).flushed 7 t = ((cfg4.win 7).blk t).view.read (Elt Ideal) (sumRow4 V c) := by
  have hN : cfg4.N = 25 := N_4
  have h24 : t.val = 24 := by have h1 := (flush4_7 t).mp hf; have h2 := t.isLt; omega
  show (cfg4.win 7).cut (grid4.coords t) ((dat4 (F := Ideal) V c).after 7 t) = _
  rw [after4_7]
  funext j
  obtain ⟨z, q, rfl⟩ : ∃ (z : Fin 1) (q : Fin 128), j = ix2 z q := ⟨j 0, j 1, eq_ix2 j⟩
  obtain rfl : z = 0 := Subsingleton.elim _ _
  refine Eq.trans (b := ((sc4 V c t.val t.isLt).1 : Vec Ideal S1x128 .f32) (ix2 0 q)) rfl ?_
  refine (accCol4 V c q t.val t.isLt).trans ?_
  refine Eq.trans ?_ (blkRead4_7 t (sumRow4 V c) q).symm
  rw [sumRow4_ix2, colSumTiles0, h24]

theorem flushedSq4 (c : Dev nD) (t : Fin cfg4.N) (hf : (cfg4.win 8).flush t = true) :
    (dat4 (F := Ideal) V c).flushed 8 t = ((cfg4.win 8).blk t).view.read (Elt Ideal) (sqRow4 V c) := by
  have hN : cfg4.N = 25 := N_4
  have h24 : t.val = 24 := by have h1 := (flush4_8 t).mp hf; have h2 := t.isLt; omega
  show (cfg4.win 8).cut (grid4.coords t) ((dat4 (F := Ideal) V c).after 8 t) = _
  rw [after4_8]
  funext j
  obtain ⟨z, q, rfl⟩ : ∃ (z : Fin 1) (q : Fin 128), j = ix2 z q := ⟨j 0, j 1, eq_ix2 j⟩
  obtain rfl : z = 0 := Subsingleton.elim _ _
  refine Eq.trans (b := ((sc4 V c t.val t.isLt).2 : Vec Ideal S1x128 .f32) (ix2 0 q)) rfl ?_
  refine (accSq4 V c q t.val t.isLt).trans ?_
  refine Eq.trans ?_ (blkRead4_8 t (sqRow4 V c) q).symm
  rw [sqRow4_ix2, colSumTiles0, h24]

theorem memBlk4_7 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole (Pipeline.arrRef spec4 7)).slice (win4_7.rect t)).set ↔ _
  rw [View.set_slice_whole, Rect.mem_set_unit]
  exact Iff.rfl

theorem memBlk4_8 (t : Fin cfg4.N) (i : S1x128.Idx) :
    i ∈ ((cfg4.win 8).blk t).view.set ↔ ∀ a : Fin 2, win4_8.index t a * S1x128.size a ≤ (i a).val ∧ (i a).val < win4_8.index t a * S1x128.size a + S1x128.size a := by
  show i ∈ ((View.whole (Pipeline.arrRef spec4 8)).slice (win4_8.rect t)).set ↔ _
  rw [View.set_slice_whole, Rect.mem_set_unit]
  exact Iff.rfl

theorem coverSum4 (i : S1x128.Idx) :
    ∃ t : Fin cfg4.N, (cfg4.win 7).flush t = true ∧ i ∈ ((cfg4.win 7).blk t).view.set := by
  have hN : cfg4.N = 25 := N_4
  have hi0 : (i 0).val < 1 := (i 0).isLt
  have hi1 : (i 1).val < 128 := (i 1).isLt
  have h24 : (24 : ℕ) < cfg4.N := by omega
  refine ⟨⟨24, h24⟩, (flush4_7 _).mpr rfl, ?_⟩
  obtain ⟨-, -, -, -, -, -, -, -, -, -, -, -, -, -, e0, e1, -⟩ := idxFacts4 ⟨24, h24⟩
  rw [memBlk4_7]
  intro a
  match a with
  | ⟨0, _⟩ =>
    show win4_7.index ⟨24, h24⟩ (0 : Fin 2) * 1 ≤ (i 0).val ∧ (i 0).val < win4_7.index ⟨24, h24⟩ (0 : Fin 2) * 1 + 1
    rw [e0]; omega
  | ⟨1, _⟩ =>
    show win4_7.index ⟨24, h24⟩ (1 : Fin 2) * 128 ≤ (i 1).val ∧ (i 1).val < win4_7.index ⟨24, h24⟩ (1 : Fin 2) * 128 + 128
    rw [e1]; omega

theorem coverSq4 (i : S1x128.Idx) :
    ∃ t : Fin cfg4.N, (cfg4.win 8).flush t = true ∧ i ∈ ((cfg4.win 8).blk t).view.set := by
  have hN : cfg4.N = 25 := N_4
  have hi0 : (i 0).val < 1 := (i 0).isLt
  have hi1 : (i 1).val < 128 := (i 1).isLt
  have h24 : (24 : ℕ) < cfg4.N := by omega
  refine ⟨⟨24, h24⟩, (flush4_8 _).mpr rfl, ?_⟩
  obtain ⟨-, -, -, -, -, -, -, -, -, -, -, -, -, -, -, -, e0, e1⟩ := idxFacts4 ⟨24, h24⟩
  rw [memBlk4_8]
  intro a
  match a with
  | ⟨0, _⟩ =>
    show win4_8.index ⟨24, h24⟩ (0 : Fin 2) * 1 ≤ (i 0).val ∧ (i 0).val < win4_8.index ⟨24, h24⟩ (0 : Fin 2) * 1 + 1
    rw [e0]; omega
  | ⟨1, _⟩ =>
    show win4_8.index ⟨24, h24⟩ (1 : Fin 2) * 128 ≤ (i 1).val ∧ (i 1).val < win4_8.index ⟨24, h24⟩ (1 : Fin 2) * 128 + 128
    rw [e1]; omega

theorem final4_6 (c : Dev nD) (r : Fin 50000) (j : Fin 128) :
    ((dat4 (F := Ideal) V c).arrAt 6 cfg4.N : S50000x128.Idx → EReal) (ix2 r j) = preMat4 V c r j := by
  have h := (dat4 (F := Ideal) V c).arrAt_eq_of_cover 6 (Cert.Spec.ofMat (preMat4 V c)) (fun t _ => flushedOut4 V c t) coverOut4
  exact (congrFun h (ix2 r j)).trans (Cert.Spec.ofMat_ix2 (preMat4 V c) r j)

theorem final4_7 (c : Dev nD) (j : Fin 128) :
    ((dat4 (F := Ideal) V c).arrAt 7 cfg4.N : S1x128.Idx → EReal) (ix2 0 j) = Cert.Spec.colSum (preMat4 V c) j := by
  have h := (dat4 (F := Ideal) V c).arrAt_eq_of_cover 7 (sumRow4 V c) (flushedSum4 V c) coverSum4
  exact (congrFun h (ix2 0 j)).trans (sumRow4_ix2 V c j)

theorem final4_8 (c : Dev nD) (j : Fin 128) :
    ((dat4 (F := Ideal) V c).arrAt 8 cfg4.N : S1x128.Idx → EReal) (ix2 0 j)
      = Cert.Spec.colSum (fun r j => preMat4 V c r j * preMat4 V c r j) j := by
  have h := (dat4 (F := Ideal) V c).arrAt_eq_of_cover 8 (sqRow4 V c) (flushedSq4 V c) coverSq4
  exact (congrFun h (ix2 0 j)).trans (sqRow4_ix2 V c j)

end Cert.KernelIdeal.Gen

end
-- ==== Proof.LayerGlue.lean ====
import proofs.«420740_j41515153883619_1_alg».proof.Proof.Spec

noncomputable section

open scoped BigOperators

namespace Cert.Spec

open Idealize.ShloMosaic

theorem layerK_of_parts (act : Bool) (x agg : Mat) (W1 : Sq) (b1 : Row) (W2 : Sq) (b2 γ β : Row) (P out : Mat) (s t : Row)
    (hP : P = pre x agg W1 b1 W2 b2)
    (hs : ∀ j, s j = γ j * Ideal.rsqrt ((Ideal.div (colSum (fun r j => P r j * P r j) j) nF
        - Ideal.div (colSum P j) nF * Ideal.div (colSum P j) nF) + epsF))
    (ht : ∀ j, t j = β j - Ideal.div (colSum P j) nF * s j)
    (hout : ∀ r j, out r j = if act then max (P r j * s j + t j) 0 else P r j * s j + t j) :
    out = layerK act x agg W1 b1 W2 b2 γ β := by
  subst hP
  funext r j
  rw [hout r j, ht j, hs j]
  cases act <;> rfl

end Cert.Spec

end
-- ==== Proof.KChain.lean ====
import proofs.«420740_j41515153883619_1_alg».proof.Proof.HostBn
import proofs.«420740_j41515153883619_1_alg».proof.Proof.HostEntry
import proofs.«420740_j41515153883619_1_alg».proof.Proof.Bn1Value
import proofs.«420740_j41515153883619_1_alg».proof.Proof.Bn3Value
import proofs.«420740_j41515153883619_1_alg».proof.Proof.Bn5Value
import proofs.«420740_j41515153883619_1_alg».proof.Proof.Mlp0Value
import proofs.«420740_j41515153883619_1_alg».proof.Proof.Mlp2Value
import proofs.«420740_j41515153883619_1_alg».proof.Proof.Mlp4Value
import proofs.«420740_j41515153883619_1_alg».proof.Proof.LayerGlue

set_option maxRecDepth 16384

noncomputable section

namespace Cert.KernelIdeal.KV

open Cert.KernelIdeal Cert.KernelIdeal.Gen Cert.KernelIdeal.HostV Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (outs : Outs (F := Ideal))

abbrev E0 : (c : Dev nD) → (b : Ref sig .tc) → Buf (Elt Ideal) ((c : Thread nD τ).loc b) := fun c b => V3 m c b
abbrev E1 : (c : Dev nD) → (b : Ref sig .tc) → Buf (Elt Ideal) ((c : Thread nD τ).loc b) := fun c b => V5 m outs c b
abbrev E2 : (c : Dev nD) → (b : Ref sig .tc) → Buf (Elt Ideal) ((c : Thread nD τ).loc b) := fun c b => V8 m outs c b
abbrev E3 : (c : Dev nD) → (b : Ref sig .tc) → Buf (Elt Ideal) ((c : Thread nD τ).loc b) := fun c b => V10 m outs c b
abbrev E4 : (c : Dev nD) → (b : Ref sig .tc) → Buf (Elt Ideal) ((c : Thread nD τ).loc b) := fun c b => V13 m outs c b
abbrev E5 : (c : Dev nD) → (b : Ref sig .tc) → Buf (Elt Ideal) ((c : Thread nD τ).loc b) := fun c b => V15 m outs c b

structure OutsOk : Prop where
  o4_0 : ∀ c, outs 4 main_v18_0 c = (dat0 (F := Ideal) (E0 m) c).arrAt 6 cfg0.N
  o4_1 : ∀ c, outs 4 main_v18_1 c = (dat0 (F := Ideal) (E0 m) c).arrAt 7 cfg0.N
  o4_2 : ∀ c, outs 4 main_v18_2 c = (dat0 (F := Ideal) (E0 m) c).arrAt 8 cfg0.N
  o6 : ∀ c, outs 6 main_v39 c = (dat1 (F := Ideal) (E1 m outs) c).arrAt 3 cfg1.N
  o9_0 : ∀ c, outs 9 main_v54_0 c = (dat2 (F := Ideal) (E2 m outs) c).arrAt 6 cfg2.N
  o9_1 : ∀ c, outs 9 main_v54_1 c = (dat2 (F := Ideal) (E2 m outs) c).arrAt 7 cfg2.N
  o9_2 : ∀ c, outs 9 main_v54_2 c = (dat2 (F := Ideal) (E2 m outs) c).arrAt 8 cfg2.N
  o11 : ∀ c, outs 11 main_v75 c = (dat3 (F := Ideal) (E3 m outs) c).arrAt 3 cfg3.N
  o14_0 : ∀ c, outs 14 main_v90_0 c = (dat4 (F := Ideal) (E4 m outs) c).arrAt 6 cfg4.N
  o14_1 : ∀ c, outs 14 main_v90_1 c = (dat4 (F := Ideal) (E4 m outs) c).arrAt 7 cfg4.N
  o14_2 : ∀ c, outs 14 main_v90_2 c = (dat4 (F := Ideal) (E4 m outs) c).arrAt 8 cfg4.N
  o16 : ∀ c, outs 16 main_v111 c = (dat5 (F := Ideal) (E5 m outs) c).arrAt 3 cfg5.N

abbrev aggOf (c : Dev nD) : Mat → Mat := Cert.ReferenceIdeal.RefValue.agg (m ((c.tc : Thread nD τ).loc main_arg1))

theorem pre1 (c : Dev nD) (hE : SrcInRange (m ((c.tc : Thread nD τ).loc main_arg1))) :
    preMat0 (E0 m) c = pre (toMat (m ((c.tc : Thread nD τ).loc main_arg0) : S50000x128.Idx → EReal)) (aggOf m c (toMat (m ((c.tc : Thread nD τ).loc main_arg0) : S50000x128.Idx → EReal))) (sq3 (m ((c.tc : Thread nD τ).loc main_arg2)) 0) (row3 (m ((c.tc : Thread nD τ).loc main_arg3)) 0) (sq3 (m ((c.tc : Thread nD τ).loc main_arg4)) 0) (row3 (m ((c.tc : Thread nD τ).loc main_arg5)) 0) := by
  have h0 : xArr0 (E0 m) c = (m ((c.tc : Thread nD τ).loc main_arg0) : S50000x128.Idx → EReal) := e1_x m c
  have h1 : aggArr0 (E0 m) c = ofMat (aggOf m c (toMat (m ((c.tc : Thread nD τ).loc main_arg0) : S50000x128.Idx → EReal))) := e1_agg m c hE
  have h2 : (fun l k => w1Arr0 (E0 m) c (ix2 l k)) = sq3 (m ((c.tc : Thread nD τ).loc main_arg2)) 0 := funext fun l => funext fun k => e1_w1 m c l k
  have h3 : (fun k => b1Arr0 (E0 m) c (ix2 0 k)) = row3 (m ((c.tc : Thread nD τ).loc main_arg3)) 0 := funext fun k => e1_b1 m c k
  have h4 : (fun l k => w2Arr0 (E0 m) c (ix2 l k)) = sq3 (m ((c.tc : Thread nD τ).loc main_arg4)) 0 := funext fun l => funext fun k => e1_w2 m c l k
  have h5 : (fun k => b2Arr0 (E0 m) c (ix2 0 k)) = row3 (m ((c.tc : Thread nD τ).loc main_arg5)) 0 := funext fun k => e1_b2 m c k
  unfold preMat0
  rw [h0, h1, h2, h3, h4, h5, toMat_ofMat]

theorem layer1 (ok : OutsOk m outs) (c : Dev nD) (hE : SrcInRange (m ((c.tc : Thread nD τ).loc main_arg1))) :
    toMat (outs 6 main_v39 c : S50000x128.Idx → EReal)
      = layerK true (toMat (m ((c.tc : Thread nD τ).loc main_arg0) : S50000x128.Idx → EReal)) (aggOf m c (toMat (m ((c.tc : Thread nD τ).loc main_arg0) : S50000x128.Idx → EReal))) (sq3 (m ((c.tc : Thread nD τ).loc main_arg2)) 0) (row3 (m ((c.tc : Thread nD τ).loc main_arg3)) 0) (sq3 (m ((c.tc : Thread nD τ).loc main_arg4)) 0) (row3 (m ((c.tc : Thread nD τ).loc main_arg5)) 0)
          (row3 (m ((c.tc : Thread nD τ).loc main_arg6)) 0) (row3 (m ((c.tc : Thread nD τ).loc main_arg7)) 0) := by
  refine layerK_of_parts true _ _ _ _ _ _ _ _ (preMat0 (E0 m) c) _
    (fun j => scaleArr1 (E1 m outs) c (ix2 0 j)) (fun j => shiftArr1 (E1 m outs) c (ix2 0 j)) (pre1 m c hE) ?_ ?_ ?_
  · intro j
    have e := n1_scale m outs c j
    rw [ok.o4_2 c, ok.o4_1 c, final0_8, final0_7] at e
    exact e
  · intro j
    have e := n1_shift m outs c j
    rw [ok.o4_1 c, final0_7] at e
    exact e
  · intro r j
    have e := final1 (E1 m outs) c r j
    rw [← ok.o6 c] at e
    have hh : hArr1 (E1 m outs) c = (outs 4 main_v18_0 c : S50000x128.Idx → EReal) := n1_h m outs c
    rw [hh, ok.o4_0 c, final0_6] at e
    exact e.trans rfl

theorem pre2 (c : Dev nD) (hE : SrcInRange (m ((c.tc : Thread nD τ).loc main_arg1))) :
    preMat2 (E2 m outs) c = pre (toMat (outs 6 main_v39 c : S50000x128.Idx → EReal)) (aggOf m c (toMat (outs 6 main_v39 c : S50000x128.Idx → EReal))) (sq3 (m ((c.tc : Thread nD τ).loc main_arg2)) 1) (row3 (m ((c.tc : Thread nD τ).loc main_arg3)) 1) (sq3 (m ((c.tc : Thread nD τ).loc main_arg4)) 1) (row3 (m ((c.tc : Thread nD τ).loc main_arg5)) 1) := by
  have h0 : xArr2 (E2 m outs) c = (outs 6 main_v39 c : S50000x128.Idx → EReal) := e2_x m outs c
  have h1 : aggArr2 (E2 m outs) c = ofMat (aggOf m c (toMat (outs 6 main_v39 c : S50000x128.Idx → EReal))) := e2_agg m outs c hE
  have h2 : (fun l k => w1Arr2 (E2 m outs) c (ix2 l k)) = sq3 (m ((c.tc : Thread nD τ).loc main_arg2)) 1 := funext fun l => funext fun k => e2_w1 m outs c l k
  have h3 : (fun k => b1Arr2 (E2 m outs) c (ix2 0 k)) = row3 (m ((c.tc : Thread nD τ).loc main_arg3)) 1 := funext fun k => e2_b1 m outs c k
  have h4 : (fun l k => w2Arr2 (E2 m outs) c (ix2 l k)) = sq3 (m ((c.tc : Thread nD τ).loc main_arg4)) 1 := funext fun l => funext fun k => e2_w2 m outs c l k
  have h5 : (fun k => b2Arr2 (E2 m outs) c (ix2 0 k)) = row3 (m ((c.tc : Thread nD τ).loc main_arg5)) 1 := funext fun k => e2_b2 m outs c k
  unfold preMat2
  rw [h0, h1, h2, h3, h4, h5, toMat_ofMat]

theorem layer2 (ok : OutsOk m outs) (c : Dev nD) (hE : SrcInRange (m ((c.tc : Thread nD τ).loc main_arg1))) :
    toMat (outs 11 main_v75 c : S50000x128.Idx → EReal)
      = layerK true (toMat (outs 6 main_v39 c : S50000x128.Idx → EReal)) (aggOf m c (toMat (outs 6 main_v39 c : S50000x128.Idx → EReal))) (sq3 (m ((c.tc : Thread nD τ).loc main_arg2)) 1) (row3 (m ((c.tc : Thread nD τ).loc main_arg3)) 1) (sq3 (m ((c.tc : Thread nD τ).loc main_arg4)) 1) (row3 (m ((c.tc : Thread nD τ).loc main_arg5)) 1)
          (row3 (m ((c.tc : Thread nD τ).loc main_arg6)) 1) (row3 (m ((c.tc : Thread nD τ).loc main_arg7)) 1) := by
  refine layerK_of_parts true _ _ _ _ _ _ _ _ (preMat2 (E2 m outs) c) _
    (fun j => scaleArr3 (E3 m outs) c (ix2 0 j)) (fun j => shiftArr3 (E3 m outs) c (ix2 0 j)) (pre2 m outs c hE) ?_ ?_ ?_
  · intro j
    have e := n2_scale m outs c j
    rw [ok.o9_2 c, ok.o9_1 c, final2_8, final2_7] at e
    exact e
  · intro j
    have e := n2_shift m outs c j
    rw [ok.o9_1 c, final2_7] at e
    exact e
  · intro r j
    have e := final3 (E3 m outs) c r j
    rw [← ok.o11 c] at e
    have hh : hArr3 (E3 m outs) c = (outs 9 main_v54_0 c : S50000x128.Idx → EReal) := n2_h m outs c
    rw [hh, ok.o9_0 c, final2_6] at e
    exact e.trans rfl

theorem pre3 (c : Dev nD) (hE : SrcInRange (m ((c.tc : Thread nD τ).loc main_arg1))) :
    preMat4 (E4 m outs) c = pre (toMat (outs 11 main_v75 c : S50000x128.Idx → EReal)) (aggOf m c (toMat (outs 11 main_v75 c : S50000x128.Idx → EReal))) (sq3 (m ((c.tc : Thread nD τ).loc main_arg2)) 2) (row3 (m ((c.tc : Thread nD τ).loc main_arg3)) 2) (sq3 (m ((c.tc : Thread nD τ).loc main_arg4)) 2) (row3 (m ((c.tc : Thread nD τ).loc main_arg5)) 2) := by
  have h0 : xArr4 (E4 m outs) c = (outs 11 main_v75 c : S50000x128.Idx → EReal) := e3_x m outs c
  have h1 : aggArr4 (E4 m outs) c = ofMat (aggOf m c (toMat (outs 11 main_v75 c : S50000x128.Idx → EReal))) := e3_agg m outs c hE
  have h2 : (fun l k => w1Arr4 (E4 m outs) c (ix2 l k)) = sq3 (m ((c.tc : Thread nD τ).loc main_arg2)) 2 := funext fun l => funext fun k => e3_w1 m outs c l k
  have h3 : (fun k => b1Arr4 (E4 m outs) c (ix2 0 k)) = row3 (m ((c.tc : Thread nD τ).loc main_arg3)) 2 := funext fun k => e3_b1 m outs c k
  have h4 : (fun l k => w2Arr4 (E4 m outs) c (ix2 l k)) = sq3 (m ((c.tc : Thread nD τ).loc main_arg4)) 2 := funext fun l => funext fun k => e3_w2 m outs c l k
  have h5 : (fun k => b2Arr4 (E4 m outs) c (ix2 0 k)) = row3 (m ((c.tc : Thread nD τ).loc main_arg5)) 2 := funext fun k => e3_b2 m outs c k
  unfold preMat4
  rw [h0, h1, h2, h3, h4, h5, toMat_ofMat]

theorem layer3 (ok : OutsOk m outs) (c : Dev nD) (hE : SrcInRange (m ((c.tc : Thread nD τ).loc main_arg1))) :
    toMat (outs 16 main_v111 c : S50000x128.Idx → EReal)
      = layerK false (toMat (outs 11 main_v75 c : S50000x128.Idx → EReal)) (aggOf m c (toMat (outs 11 main_v75 c : S50000x128.Idx → EReal))) (sq3 (m ((c.tc : Thread nD τ).loc main_arg2)) 2) (row3 (m ((c.tc : Thread nD τ).loc main_arg3)) 2) (sq3 (m ((c.tc : Thread nD τ).loc main_arg4)) 2) (row3 (m ((c.tc : Thread nD τ).loc main_arg5)) 2)
          (row3 (m ((c.tc : Thread nD τ).loc main_arg6)) 2) (row3 (m ((c.tc : Thread nD τ).loc main_arg7)) 2) := by
  refine layerK_of_parts false _ _ _ _ _ _ _ _ (preMat4 (E4 m outs) c) _
    (fun j => scaleArr5 (E5 m outs) c (ix2 0 j)) (fun j => shiftArr5 (E5 m outs) c (ix2 0 j)) (pre3 m outs c hE) ?_ ?_ ?_
  · intro j
    have e := n3_scale m outs c j
    rw [ok.o14_2 c, ok.o14_1 c, final4_8, final4_7] at e
    exact e
  · intro j
    have e := n3_shift m outs c j
    rw [ok.o14_1 c, final4_7] at e
    exact e
  · intro r j
    have e := final5 (E5 m outs) c r j
    rw [← ok.o16 c] at e
    have hh : hArr5 (E5 m outs) c = (outs 14 main_v90_0 c : S50000x128.Idx → EReal) := n3_h m outs c
    rw [hh, ok.o14_0 c, final4_6] at e
    exact e.trans rfl

theorem result (ok : OutsOk m outs) (c : Dev nD) (hE : SrcInRange (m ((c.tc : Thread nD τ).loc main_arg1))) :
    (outs 16 main_v111 c : S50000x128.Idx → EReal)
      = ofMat (netK (aggOf m c) (toMat (m ((c.tc : Thread nD τ).loc main_arg0) : S50000x128.Idx → EReal)) (sq3 (m ((c.tc : Thread nD τ).loc main_arg2))) (sq3 (m ((c.tc : Thread nD τ).loc main_arg4))) (row3 (m ((c.tc : Thread nD τ).loc main_arg3))) (row3 (m ((c.tc : Thread nD τ).loc main_arg5)))
          (row3 (m ((c.tc : Thread nD τ).loc main_arg6))) (row3 (m ((c.tc : Thread nD τ).loc main_arg7)))) := by
  have l1 := layer1 m outs ok c hE
  have l2 := layer2 m outs ok c hE
  have l3 := layer3 m outs ok c hE
  rw [l1] at l2
  rw [l2] at l3
  rw [← ofMat_toMat (outs 16 main_v111 c : S50000x128.Idx → EReal), l3]
  rfl

end Cert.KernelIdeal.KV

end
-- ==== Proof.KFinal.lean ====
import proofs.«420740_j41515153883619_1_alg».proof.Proof.RunK
import proofs.«420740_j41515153883619_1_alg».proof.Proof.KChain

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ)

theorem ent0 : (fun (c : Dev nD) (b : Ref sig .tc) => X3 m c b) = E0 m := by
  funext c b; rw [X3_eq]
theorem ent1 : (fun (c : Dev nD) (b : Ref sig .tc) => X5 m c b) = E1 m (outs m) := by
  funext c b; rw [← V5_eq]
theorem ent2 : (fun (c : Dev nD) (b : Ref sig .tc) => X8 m c b) = E2 m (outs m) := by
  funext c b; rw [← V8_eq]
theorem ent3 : (fun (c : Dev nD) (b : Ref sig .tc) => X10 m c b) = E3 m (outs m) := by
  funext c b; rw [← V10_eq]
theorem ent4 : (fun (c : Dev nD) (b : Ref sig .tc) => X13 m c b) = E4 m (outs m) := by
  funext c b; rw [← V13_eq]
theorem ent5 : (fun (c : Dev nD) (b : Ref sig .tc) => X15 m c b) = E5 m (outs m) := by
  funext c b; rw [← V15_eq]

theorem outsOk : OutsOk m (outs m) where
  o4_0 c := by rw [outs_4_0, ent0]
  o4_1 c := by rw [outs_4_1, ent0]
  o4_2 c := by rw [outs_4_2, ent0]
  o6 c := by rw [outs_6, ent1]
  o9_0 c := by rw [outs_9_0, ent2]
  o9_1 c := by rw [outs_9_1, ent2]
  o9_2 c := by rw [outs_9_2, ent2]
  o11 c := by rw [outs_11, ent3]
  o14_0 c := by rw [outs_14_0, ent4]
  o14_1 c := by rw [outs_14_1, ent4]
  o14_2 c := by rw [outs_14_2, ent4]
  o16 c := by rw [outs_16, ent5]

theorem kernel_result (c : Dev nD) (hE : SrcInRange (m ((c.tc : Thread nD τ).loc main_arg1))) :
    (outs m 16 main_v111 c : S50000x128.Idx → EReal)
      = ofMat (netK (aggOf m c) (toMat (m ((c.tc : Thread nD τ).loc main_arg0) : S50000x128.Idx → EReal)) (sq3 (m ((c.tc : Thread nD τ).loc main_arg2))) (sq3 (m ((c.tc : Thread nD τ).loc main_arg4))) (row3 (m ((c.tc : Thread nD τ).loc main_arg3))) (row3 (m ((c.tc : Thread nD τ).loc main_arg5)))
          (row3 (m ((c.tc : Thread nD τ).loc main_arg6))) (row3 (m ((c.tc : Thread nD τ).loc main_arg7)))) :=
  result m (outs m) (outsOk m) c hE

end Cert.KernelIdeal.KV

end
-- ==== Proof.RefRun.lean ====
import proofs.«420740_j41515153883619_1_alg».proof.Proof.RefReadP

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

abbrev stretch0 : List (HloOp τ sig (Elt F)) := (ops (F := F)).take 26

abbrev stretch1 : List (HloOp τ sig (Elt F)) := ((ops (F := F)).drop 26).take 11

abbrev stretch2 : List (HloOp τ sig (Elt F)) := ((ops (F := F)).drop 37).take 24

abbrev stretch3 : List (HloOp τ sig (Elt F)) := ((ops (F := F)).drop 61).take 13

abbrev stretch4 : List (HloOp τ sig (Elt F)) := ((ops (F := F)).drop 74).take 25

abbrev stretch5 : List (HloOp τ sig (Elt F)) := ((ops (F := F)).drop 99).take 25

abbrev stretch6 : List (HloOp τ sig (Elt F)) := ((ops (F := F)).drop 124).take 20

abbrev stretch7 : List (HloOp τ sig (Elt F)) := ((ops (F := F)).drop 144).take 25

abbrev stretch8 : List (HloOp τ sig (Elt F)) := ((ops (F := F)).drop 169).take 25

abbrev stretch9 : List (HloOp τ sig (Elt F)) := ((ops (F := F)).drop 194)

theorem ops_eq : (ops : List (HloOp τ sig (Elt F))) = stretch0 ++ (stretch1 ++ (stretch2 ++ (stretch3 ++ (stretch4 ++ (stretch5 ++ (stretch6 ++ (stretch7 ++ (stretch8 ++ (stretch9))))))))) := rfl

theorem after_ops (V : Valuation τ sig (Elt F)) : after (ops (F := F)) V = after stretch9 (after stretch8 (after stretch7 (after stretch6 (after stretch5 (after stretch4 (after stretch3 (after stretch2 (after stretch1 (after stretch0 (V)))))))))) := by
  rw [ops_eq]; simp only [after_append]

abbrev stretch0_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22]
theorem stretch0_writes : (stretch0 : List (HloOp τ sig (Elt F))).Forall fun op => op.writes ⊆ (stretch0_W.map (Proc.devRef (τ := τ) .tc)).toFinset := by
  simp only [stretch0, ops, List.drop_succ_cons, List.drop_zero, List.take_succ_cons, List.take_zero]
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem stretch0_keep (W : Valuation τ sig (Elt F)) (r : Ref sig .tc) (h : r ∉ stretch0_W) :
    after (stretch0 (F := F)) W (Proc.devRef .tc r) = W (Proc.devRef .tc r) :=
  after_of_writes_sub stretch0 W stretch0_writes h

variable (W : Valuation τ sig (Elt F)) (x0 : (⟨S50000x128, .f32⟩ : BufTy).Contents (Elt F)) (x1 : (⟨S2x800000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3x128, .f32⟩ : BufTy).Contents (Elt F)) (x7 : (⟨S3x128, .f32⟩ : BufTy).Contents (Elt F))

theorem stretch0_main_v1
    (h_arg1 : W (Proc.devRef .tc main_arg1) = x1) :
    after (stretch0 (F := F)) W (Proc.devRef .tc main_v1) = val_main_v1 (F := F) x1 := by
  simp only [stretch0, ops, List.drop_succ_cons, List.drop_zero, List.take_succ_cons, List.take_zero]
  after_results_simp
  rw [h_arg1]
  rfl

theorem stretch0_main_v3
    (h_arg1 : W (Proc.devRef .tc main_arg1) = x1) :
    after (stretch0 (F := F)) W (Proc.devRef .tc main_v3) = val_main_v3 (F := F) x1 := by
  simp only [stretch0, ops, List.drop_succ_cons, List.drop_zero, List.take_succ_cons, List.take_zero]
  after_results_simp
  rw [h_arg1]
  rfl

theorem stretch0_main_v22
    (h_arg0 : W (Proc.devRef .tc main_arg0) = x0) (h_arg1 : W (Proc.devRef .tc main_arg1) = x1) (h_arg2 : W (Proc.devRef .tc main_arg2) = x2) (h_arg3 : W (Proc.devRef .tc main_arg3) = x3) :
    after (stretch0 (F := F)) W (Proc.devRef .tc main_v22) = val_main_v22 (F := F) x0 x1 x2 x3 := by
  simp only [stretch0, ops, List.drop_succ_cons, List.drop_zero, List.take_succ_cons, List.take_zero]
  after_results_simp
  rw [h_arg0, h_arg1, h_arg2, h_arg3]
  rfl

abbrev stretch1_W : List (Ref sig .tc) := [main_call0_cst, main_call0_v0, main_v23, main_v24, main_v25, main_v26, main_v27, main_v28, main_v29, main_v30, main_v31]
theorem stretch1_writes : (stretch1 : List (HloOp τ sig (Elt F))).Forall fun op => op.writes ⊆ (stretch1_W.map (Proc.devRef (τ := τ) .tc)).toFinset := by
  simp only [stretch1, ops, List.drop_succ_cons, List.drop_zero, List.take_succ_cons, List.take_zero]
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem stretch1_keep (W : Valuation τ sig (Elt F)) (r : Ref sig .tc) (h : r ∉ stretch1_W) :
    after (stretch1 (F := F)) W (Proc.devRef .tc r) = W (Proc.devRef .tc r) :=
  after_of_writes_sub stretch1 W stretch1_writes h

theorem stretch1_main_v31
    (h_v22 : W (Proc.devRef .tc main_v22) = val_main_v22 (F := F) x0 x1 x2 x3) (h_arg4 : W (Proc.devRef .tc main_arg4) = x4) (h_arg5 : W (Proc.devRef .tc main_arg5) = x5) :
    after (stretch1 (F := F)) W (Proc.devRef .tc main_v31) = val_main_v31 (F := F) x0 x1 x2 x3 x4 x5 := by
  simp only [stretch1, ops, List.drop_succ_cons, List.drop_zero, List.take_succ_cons, List.take_zero]
  after_results_simp
  rw [h_v22, h_arg4, h_arg5]
  rfl

abbrev stretch2_W : List (Ref sig .tc) := [main_cst_1, main_v32, main_cst_2, main_v33, main_v34, main_v35, main_v36, main_v37, main_v38, main_cst_3, main_v39, main_cst_4, main_v40, main_v41, main_v42, main_v43, main_v44, main_cst_5, main_v45, main_v46, main_v47, main_v48, main_v49, main_v50]
theorem stretch2_writes : (stretch2 : List (HloOp τ sig (Elt F))).Forall fun op => op.writes ⊆ (stretch2_W.map (Proc.devRef (τ := τ) .tc)).toFinset := by
  simp only [stretch2, ops, List.drop_succ_cons, List.drop_zero, List.take_succ_cons, List.take_zero]
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem stretch2_keep (W : Valuation τ sig (Elt F)) (r : Ref sig .tc) (h : r ∉ stretch2_W) :
    after (stretch2 (F := F)) W (Proc.devRef .tc r) = W (Proc.devRef .tc r) :=
  after_of_writes_sub stretch2 W stretch2_writes h

theorem stretch2_main_v50
    (h_v31 : W (Proc.devRef .tc main_v31) = val_main_v31 (F := F) x0 x1 x2 x3 x4 x5) :
    after (stretch2 (F := F)) W (Proc.devRef .tc main_v50) = val_main_v50 (F := F) x0 x1 x2 x3 x4 x5 := by
  simp only [stretch2, ops, List.drop_succ_cons, List.drop_zero, List.take_succ_cons, List.take_zero]
  after_results_simp
  rw [h_v31]
  rfl

abbrev stretch3_W : List (Ref sig .tc) := [main_v51, main_v52, main_v53, main_v54, main_v55, main_v56, main_v57, main_v58, main_v59, main_v60, main_call1_cst, main_call1_v0, main_v61]
theorem stretch3_writes : (stretch3 : List (HloOp τ sig (Elt F))).Forall fun op => op.writes ⊆ (stretch3_W.map (Proc.devRef (τ := τ) .tc)).toFinset := by
  simp only [stretch3, ops, List.drop_succ_cons, List.drop_zero, List.take_succ_cons, List.take_zero]
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem stretch3_keep (W : Valuation τ sig (Elt F)) (r : Ref sig .tc) (h : r ∉ stretch3_W) :
    after (stretch3 (F := F)) W (Proc.devRef .tc r) = W (Proc.devRef .tc r) :=
  after_of_writes_sub stretch3 W stretch3_writes h

theorem stretch3_main_v61
    (h_v50 : W (Proc.devRef .tc main_v50) = val_main_v50 (F := F) x0 x1 x2 x3 x4 x5) (h_arg6 : W (Proc.devRef .tc main_arg6) = x6) (h_arg7 : W (Proc.devRef .tc main_arg7) = x7) :
    after (stretch3 (F := F)) W (Proc.devRef .tc main_v61) = val_main_v61 (F := F) x0 x1 x2 x3 x4 x5 x6 x7 := by
  simp only [stretch3, ops, List.drop_succ_cons, List.drop_zero, List.take_succ_cons, List.take_zero]
  after_results_simp
  rw [h_v50, h_arg6, h_arg7]
  rfl

abbrev stretch4_W : List (Ref sig .tc) := [main_c_6, main_v62, main_v63, main_c_7, main_v64, main_v65, main_v66, main_v67, main_v68, main_cst_8, main_v69, main_v70, main_v71, main_v72, main_v73, main_v74, main_v75, main_v76, main_v77, main_v78, main_v79, main_v80, main_call2_cst, main_call2_v0, main_v81]
theorem stretch4_writes : (stretch4 : List (HloOp τ sig (Elt F))).Forall fun op => op.writes ⊆ (stretch4_W.map (Proc.devRef (τ := τ) .tc)).toFinset := by
  simp only [stretch4, ops, List.drop_succ_cons, List.drop_zero, List.take_succ_cons, List.take_zero]
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem stretch4_keep (W : Valuation τ sig (Elt F)) (r : Ref sig .tc) (h : r ∉ stretch4_W) :
    after (stretch4 (F := F)) W (Proc.devRef .tc r) = W (Proc.devRef .tc r) :=
  after_of_writes_sub stretch4 W stretch4_writes h

theorem stretch4_main_v81
    (h_v61 : W (Proc.devRef .tc main_v61) = val_main_v61 (F := F) x0 x1 x2 x3 x4 x5 x6 x7) (h_v3 : W (Proc.devRef .tc main_v3) = val_main_v3 (F := F) x1) (h_v1 : W (Proc.devRef .tc main_v1) = val_main_v1 (F := F) x1) (h_arg2 : W (Proc.devRef .tc main_arg2) = x2) (h_arg3 : W (Proc.devRef .tc main_arg3) = x3) :
    after (stretch4 (F := F)) W (Proc.devRef .tc main_v81) = val_main_v81 (F := F) x0 x1 x2 x3 x4 x5 x6 x7 := by
  simp only [stretch4, ops, List.drop_succ_cons, List.drop_zero, List.take_succ_cons, List.take_zero]
  after_results_simp
  rw [h_v61, h_v3, h_v1, h_arg2, h_arg3]
  rfl

abbrev stretch5_W : List (Ref sig .tc) := [main_v82, main_v83, main_v84, main_v85, main_v86, main_v87, main_v88, main_v89, main_cst_9, main_v90, main_cst_10, main_v91, main_v92, main_v93, main_v94, main_v95, main_v96, main_cst_11, main_v97, main_cst_12, main_v98, main_v99, main_v100, main_v101, main_v102]
theorem stretch5_writes : (stretch5 : List (HloOp τ sig (Elt F))).Forall fun op => op.writes ⊆ (stretch5_W.map (Proc.devRef (τ := τ) .tc)).toFinset := by
  simp only [stretch5, ops, List.drop_succ_cons, List.drop_zero, List.take_succ_cons, List.take_zero]
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem stretch5_keep (W : Valuation τ sig (Elt F)) (r : Ref sig .tc) (h : r ∉ stretch5_W) :
    after (stretch5 (F := F)) W (Proc.devRef .tc r) = W (Proc.devRef .tc r) :=
  after_of_writes_sub stretch5 W stretch5_writes h

theorem stretch5_main_v99
    (h_v81 : W (Proc.devRef .tc main_v81) = val_main_v81 (F := F) x0 x1 x2 x3 x4 x5 x6 x7) (h_arg4 : W (Proc.devRef .tc main_arg4) = x4) (h_arg5 : W (Proc.devRef .tc main_arg5) = x5) :
    after (stretch5 (F := F)) W (Proc.devRef .tc main_v99) = val_main_v99 (F := F) x0 x1 x2 x3 x4 x5 x6 x7 := by
  simp only [stretch5, ops, List.drop_succ_cons, List.drop_zero, List.take_succ_cons, List.take_zero]
  after_results_simp
  rw [h_v81, h_arg4, h_arg5]
  rfl

theorem stretch5_main_v102
    (h_v81 : W (Proc.devRef .tc main_v81) = val_main_v81 (F := F) x0 x1 x2 x3 x4 x5 x6 x7) (h_arg4 : W (Proc.devRef .tc main_arg4) = x4) (h_arg5 : W (Proc.devRef .tc main_arg5) = x5) :
    after (stretch5 (F := F)) W (Proc.devRef .tc main_v102) = val_main_v102 (F := F) x0 x1 x2 x3 x4 x5 x6 x7 := by
  simp only [stretch5, ops, List.drop_succ_cons, List.drop_zero, List.take_succ_cons, List.take_zero]
  after_results_simp
  rw [h_v81, h_arg4, h_arg5]
  rfl

abbrev stretch6_W : List (Ref sig .tc) := [main_cst_13, main_v103, main_v104, main_v105, main_v106, main_v107, main_v108, main_v109, main_v110, main_v111, main_v112, main_v113, main_v114, main_v115, main_v116, main_v117, main_v118, main_call3_cst, main_call3_v0, main_v119]
theorem stretch6_writes : (stretch6 : List (HloOp τ sig (Elt F))).Forall fun op => op.writes ⊆ (stretch6_W.map (Proc.devRef (τ := τ) .tc)).toFinset := by
  simp only [stretch6, ops, List.drop_succ_cons, List.drop_zero, List.take_succ_cons, List.take_zero]
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem stretch6_keep (W : Valuation τ sig (Elt F)) (r : Ref sig .tc) (h : r ∉ stretch6_W) :
    after (stretch6 (F := F)) W (Proc.devRef .tc r) = W (Proc.devRef .tc r) :=
  after_of_writes_sub stretch6 W stretch6_writes h

theorem stretch6_main_v119
    (h_v102 : W (Proc.devRef .tc main_v102) = val_main_v102 (F := F) x0 x1 x2 x3 x4 x5 x6 x7) (h_v99 : W (Proc.devRef .tc main_v99) = val_main_v99 (F := F) x0 x1 x2 x3 x4 x5 x6 x7) (h_arg6 : W (Proc.devRef .tc main_arg6) = x6) (h_arg7 : W (Proc.devRef .tc main_arg7) = x7) :
    after (stretch6 (F := F)) W (Proc.devRef .tc main_v119) = val_main_v119 (F := F) x0 x1 x2 x3 x4 x5 x6 x7 := by
  simp only [stretch6, ops, List.drop_succ_cons, List.drop_zero, List.take_succ_cons, List.take_zero]
  after_results_simp
  rw [h_v102, h_v99, h_arg6, h_arg7]
  rfl

abbrev stretch7_W : List (Ref sig .tc) := [main_c_14, main_v120, main_v121, main_c_15, main_v122, main_v123, main_v124, main_v125, main_v126, main_cst_16, main_v127, main_v128, main_v129, main_v130, main_v131, main_v132, main_v133, main_v134, main_v135, main_v136, main_v137, main_v138, main_call4_cst, main_call4_v0, main_v139]
theorem stretch7_writes : (stretch7 : List (HloOp τ sig (Elt F))).Forall fun op => op.writes ⊆ (stretch7_W.map (Proc.devRef (τ := τ) .tc)).toFinset := by
  simp only [stretch7, ops, List.drop_succ_cons, List.drop_zero, List.take_succ_cons, List.take_zero]
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem stretch7_keep (W : Valuation τ sig (Elt F)) (r : Ref sig .tc) (h : r ∉ stretch7_W) :
    after (stretch7 (F := F)) W (Proc.devRef .tc r) = W (Proc.devRef .tc r) :=
  after_of_writes_sub stretch7 W stretch7_writes h

theorem stretch7_main_v139
    (h_v119 : W (Proc.devRef .tc main_v119) = val_main_v119 (F := F) x0 x1 x2 x3 x4 x5 x6 x7) (h_v3 : W (Proc.devRef .tc main_v3) = val_main_v3 (F := F) x1) (h_v1 : W (Proc.devRef .tc main_v1) = val_main_v1 (F := F) x1) (h_arg2 : W (Proc.devRef .tc main_arg2) = x2) (h_arg3 : W (Proc.devRef .tc main_arg3) = x3) :
    after (stretch7 (F := F)) W (Proc.devRef .tc main_v139) = val_main_v139 (F := F) x0 x1 x2 x3 x4 x5 x6 x7 := by
  simp only [stretch7, ops, List.drop_succ_cons, List.drop_zero, List.take_succ_cons, List.take_zero]
  after_results_simp
  rw [h_v119, h_v3, h_v1, h_arg2, h_arg3]
  rfl

abbrev stretch8_W : List (Ref sig .tc) := [main_v140, main_v141, main_v142, main_v143, main_v144, main_v145, main_v146, main_v147, main_cst_17, main_v148, main_cst_18, main_v149, main_v150, main_v151, main_v152, main_v153, main_v154, main_cst_19, main_v155, main_cst_20, main_v156, main_v157, main_v158, main_v159, main_v160]
theorem stretch8_writes : (stretch8 : List (HloOp τ sig (Elt F))).Forall fun op => op.writes ⊆ (stretch8_W.map (Proc.devRef (τ := τ) .tc)).toFinset := by
  simp only [stretch8, ops, List.drop_succ_cons, List.drop_zero, List.take_succ_cons, List.take_zero]
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem stretch8_keep (W : Valuation τ sig (Elt F)) (r : Ref sig .tc) (h : r ∉ stretch8_W) :
    after (stretch8 (F := F)) W (Proc.devRef .tc r) = W (Proc.devRef .tc r) :=
  after_of_writes_sub stretch8 W stretch8_writes h

theorem stretch8_main_v157
    (h_v139 : W (Proc.devRef .tc main_v139) = val_main_v139 (F := F) x0 x1 x2 x3 x4 x5 x6 x7) (h_arg4 : W (Proc.devRef .tc main_arg4) = x4) (h_arg5 : W (Proc.devRef .tc main_arg5) = x5) :
    after (stretch8 (F := F)) W (Proc.devRef .tc main_v157) = val_main_v157 (F := F) x0 x1 x2 x3 x4 x5 x6 x7 := by
  simp only [stretch8, ops, List.drop_succ_cons, List.drop_zero, List.take_succ_cons, List.take_zero]
  after_results_simp
  rw [h_v139, h_arg4, h_arg5]
  rfl

theorem stretch8_main_v160
    (h_v139 : W (Proc.devRef .tc main_v139) = val_main_v139 (F := F) x0 x1 x2 x3 x4 x5 x6 x7) (h_arg4 : W (Proc.devRef .tc main_arg4) = x4) (h_arg5 : W (Proc.devRef .tc main_arg5) = x5) :
    after (stretch8 (F := F)) W (Proc.devRef .tc main_v160) = val_main_v160 (F := F) x0 x1 x2 x3 x4 x5 x6 x7 := by
  simp only [stretch8, ops, List.drop_succ_cons, List.drop_zero, List.take_succ_cons, List.take_zero]
  after_results_simp
  rw [h_v139, h_arg4, h_arg5]
  rfl

abbrev stretch9_W : List (Ref sig .tc) := [main_cst_21, main_v161, main_v162, main_v163, main_v164, main_v165, main_v166, main_v167, main_v168, main_v169, main_v170, main_v171, main_v172, main_v173, main_v174, main_v175, main_v176]
theorem stretch9_writes : (stretch9 : List (HloOp τ sig (Elt F))).Forall fun op => op.writes ⊆ (stretch9_W.map (Proc.devRef (τ := τ) .tc)).toFinset := by
  simp only [stretch9, ops, List.drop_succ_cons, List.drop_zero, List.take_succ_cons, List.take_zero]
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem stretch9_keep (W : Valuation τ sig (Elt F)) (r : Ref sig .tc) (h : r ∉ stretch9_W) :
    after (stretch9 (F := F)) W (Proc.devRef .tc r) = W (Proc.devRef .tc r) :=
  after_of_writes_sub stretch9 W stretch9_writes h

theorem stretch9_main_v176
    (h_v160 : W (Proc.devRef .tc main_v160) = val_main_v160 (F := F) x0 x1 x2 x3 x4 x5 x6 x7) (h_v157 : W (Proc.devRef .tc main_v157) = val_main_v157 (F := F) x0 x1 x2 x3 x4 x5 x6 x7) (h_arg6 : W (Proc.devRef .tc main_arg6) = x6) (h_arg7 : W (Proc.devRef .tc main_arg7) = x7) :
    after (stretch9 (F := F)) W (Proc.devRef .tc main_v176) = val_main_v176 (F := F) x0 x1 x2 x3 x4 x5 x6 x7 := by
  simp only [stretch9, ops, List.drop_succ_cons, List.drop_zero, List.take_succ_cons, List.take_zero]
  after_results_simp
  rw [h_v160, h_v157, h_arg6, h_arg7]
  rfl

section Fold

variable (m : (ℓ : Loc nD τ sig) → Buf (Elt F) ℓ) (c : Dev nD)

abbrev contents0 : Valuation τ sig (Elt F) := launchContents m c

abbrev contents1 : Valuation τ sig (Elt F) := after (stretch0 (F := F)) (contents0 m c)

abbrev contents2 : Valuation τ sig (Elt F) := after (stretch1 (F := F)) (contents1 m c)

abbrev contents3 : Valuation τ sig (Elt F) := after (stretch2 (F := F)) (contents2 m c)

abbrev contents4 : Valuation τ sig (Elt F) := after (stretch3 (F := F)) (contents3 m c)

abbrev contents5 : Valuation τ sig (Elt F) := after (stretch4 (F := F)) (contents4 m c)

abbrev contents6 : Valuation τ sig (Elt F) := after (stretch5 (F := F)) (contents5 m c)

abbrev contents7 : Valuation τ sig (Elt F) := after (stretch6 (F := F)) (contents6 m c)

abbrev contents8 : Valuation τ sig (Elt F) := after (stretch7 (F := F)) (contents7 m c)

abbrev contents9 : Valuation τ sig (Elt F) := after (stretch8 (F := F)) (contents8 m c)

abbrev contents10 : Valuation τ sig (Elt F) := after (stretch9 (F := F)) (contents9 m c)

abbrev argRefs : List (Ref sig .tc) := [main_arg0, main_arg1, main_arg2, main_arg3, main_arg4, main_arg5, main_arg6, main_arg7]

theorem contents0_arg (r : Ref sig .tc) : contents0 m c (Proc.devRef .tc r) = m ((c.tc : Thread nD τ).loc r) := rfl
theorem contents1_arg (r : Ref sig .tc) (h : r ∈ argRefs) : contents1 m c (Proc.devRef .tc r) = m ((c.tc : Thread nD τ).loc r) :=
  (stretch0_keep (contents0 m c) r ((by decide : ∀ r ∈ argRefs, r ∉ stretch0_W) r h)).trans (contents0_arg m c r)
theorem contents2_arg (r : Ref sig .tc) (h : r ∈ argRefs) : contents2 m c (Proc.devRef .tc r) = m ((c.tc : Thread nD τ).loc r) :=
  (stretch1_keep (contents1 m c) r ((by decide : ∀ r ∈ argRefs, r ∉ stretch1_W) r h)).trans (contents1_arg m c r h)
theorem contents3_arg (r : Ref sig .tc) (h : r ∈ argRefs) : contents3 m c (Proc.devRef .tc r) = m ((c.tc : Thread nD τ).loc r) :=
  (stretch2_keep (contents2 m c) r ((by decide : ∀ r ∈ argRefs, r ∉ stretch2_W) r h)).trans (contents2_arg m c r h)
theorem contents4_arg (r : Ref sig .tc) (h : r ∈ argRefs) : contents4 m c (Proc.devRef .tc r) = m ((c.tc : Thread nD τ).loc r) :=
  (stretch3_keep (contents3 m c) r ((by decide : ∀ r ∈ argRefs, r ∉ stretch3_W) r h)).trans (contents3_arg m c r h)
theorem contents5_arg (r : Ref sig .tc) (h : r ∈ argRefs) : contents5 m c (Proc.devRef .tc r) = m ((c.tc : Thread nD τ).loc r) :=
  (stretch4_keep (contents4 m c) r ((by decide : ∀ r ∈ argRefs, r ∉ stretch4_W) r h)).trans (contents4_arg m c r h)
theorem contents6_arg (r : Ref sig .tc) (h : r ∈ argRefs) : contents6 m c (Proc.devRef .tc r) = m ((c.tc : Thread nD τ).loc r) :=
  (stretch5_keep (contents5 m c) r ((by decide : ∀ r ∈ argRefs, r ∉ stretch5_W) r h)).trans (contents5_arg m c r h)
theorem contents7_arg (r : Ref sig .tc) (h : r ∈ argRefs) : contents7 m c (Proc.devRef .tc r) = m ((c.tc : Thread nD τ).loc r) :=
  (stretch6_keep (contents6 m c) r ((by decide : ∀ r ∈ argRefs, r ∉ stretch6_W) r h)).trans (contents6_arg m c r h)
theorem contents8_arg (r : Ref sig .tc) (h : r ∈ argRefs) : contents8 m c (Proc.devRef .tc r) = m ((c.tc : Thread nD τ).loc r) :=
  (stretch7_keep (contents7 m c) r ((by decide : ∀ r ∈ argRefs, r ∉ stretch7_W) r h)).trans (contents7_arg m c r h)
theorem contents9_arg (r : Ref sig .tc) (h : r ∈ argRefs) : contents9 m c (Proc.devRef .tc r) = m ((c.tc : Thread nD τ).loc r) :=
  (stretch8_keep (contents8 m c) r ((by decide : ∀ r ∈ argRefs, r ∉ stretch8_W) r h)).trans (contents8_arg m c r h)
theorem contents10_arg (r : Ref sig .tc) (h : r ∈ argRefs) : contents10 m c (Proc.devRef .tc r) = m ((c.tc : Thread nD τ).loc r) :=
  (stretch9_keep (contents9 m c) r ((by decide : ∀ r ∈ argRefs, r ∉ stretch9_W) r h)).trans (contents9_arg m c r h)

theorem contents1_main_v1 : contents1 m c (Proc.devRef .tc main_v1) = val_main_v1 (F := F) (m ((c.tc : Thread nD τ).loc main_arg1)) :=
  stretch0_main_v1 (contents0 m c) (m ((c.tc : Thread nD τ).loc main_arg1)) (contents0_arg m c main_arg1)
theorem contents1_main_v3 : contents1 m c (Proc.devRef .tc main_v3) = val_main_v3 (F := F) (m ((c.tc : Thread nD τ).loc main_arg1)) :=
  stretch0_main_v3 (contents0 m c) (m ((c.tc : Thread nD τ).loc main_arg1)) (contents0_arg m c main_arg1)
theorem contents1_main_v22 : contents1 m c (Proc.devRef .tc main_v22) = val_main_v22 (F := F) (m ((c.tc : Thread nD τ).loc main_arg0)) (m ((c.tc : Thread nD τ).loc main_arg1)) (m ((c.tc : Thread nD τ).loc main_arg2)) (m ((c.tc : Thread nD τ).loc main_arg3)) :=
  stretch0_main_v22 (contents0 m c) (m ((c.tc : Thread nD τ).loc main_arg0)) (m ((c.tc : Thread nD τ).loc main_arg1)) (m ((c.tc : Thread nD τ).loc main_arg2)) (m ((c.tc : Thread nD τ).loc main_arg3)) (contents0_arg m c main_arg0) (contents0_arg m c main_arg1) (contents0_arg m c main_arg2) (contents0_arg m c main_arg3)

theorem contents2_main_v1 : contents2 m c (Proc.devRef .tc main_v1) = val_main_v1 (F := F) (m ((c.tc : Thread nD τ).loc main_arg1)) :=
  (stretch1_keep (contents1 m c) main_v1 (by decide)).trans (contents1_main_v1 m c)
theorem contents2_main_v3 : contents2 m c (Proc.devRef .tc main_v3) = val_main_v3 (F := F) (m ((c.tc : Thread nD τ).loc main_arg1)) :=
  (stretch1_keep (contents1 m c) main_v3 (by decide)).trans (contents1_main_v3 m c)
theorem contents2_main_v31 : contents2 m c (Proc.devRef .tc main_v31) = val_main_v31 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  stretch1_main_v31 (contents1 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (contents1_main_v22 m c) (contents1_arg m c main_arg4 (by decide)) (contents1_arg m c main_arg5 (by decide))

theorem contents3_main_v1 : contents3 m c (Proc.devRef .tc main_v1) = val_main_v1 (F := F) (m ((c.tc : Thread nD τ).loc main_arg1)) :=
  (stretch2_keep (contents2 m c) main_v1 (by decide)).trans (contents2_main_v1 m c)
theorem contents3_main_v3 : contents3 m c (Proc.devRef .tc main_v3) = val_main_v3 (F := F) (m ((c.tc : Thread nD τ).loc main_arg1)) :=
  (stretch2_keep (contents2 m c) main_v3 (by decide)).trans (contents2_main_v3 m c)
theorem contents3_main_v50 : contents3 m c (Proc.devRef .tc main_v50) = val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  stretch2_main_v50 (contents2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (contents2_main_v31 m c)

theorem contents4_main_v1 : contents4 m c (Proc.devRef .tc main_v1) = val_main_v1 (F := F) (m ((c.tc : Thread nD τ).loc main_arg1)) :=
  (stretch3_keep (contents3 m c) main_v1 (by decide)).trans (contents3_main_v1 m c)
theorem contents4_main_v3 : contents4 m c (Proc.devRef .tc main_v3) = val_main_v3 (F := F) (m ((c.tc : Thread nD τ).loc main_arg1)) :=
  (stretch3_keep (contents3 m c) main_v3 (by decide)).trans (contents3_main_v3 m c)
theorem contents4_main_v61 : contents4 m c (Proc.devRef .tc main_v61) = val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  stretch3_main_v61 (contents3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (contents3_main_v50 m c) (contents3_arg m c main_arg6 (by decide)) (contents3_arg m c main_arg7 (by decide))

theorem contents5_main_v1 : contents5 m c (Proc.devRef .tc main_v1) = val_main_v1 (F := F) (m ((c.tc : Thread nD τ).loc main_arg1)) :=
  (stretch4_keep (contents4 m c) main_v1 (by decide)).trans (contents4_main_v1 m c)
theorem contents5_main_v3 : contents5 m c (Proc.devRef .tc main_v3) = val_main_v3 (F := F) (m ((c.tc : Thread nD τ).loc main_arg1)) :=
  (stretch4_keep (contents4 m c) main_v3 (by decide)).trans (contents4_main_v3 m c)
theorem contents5_main_v81 : contents5 m c (Proc.devRef .tc main_v81) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  stretch4_main_v81 (contents4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (contents4_main_v61 m c) (contents4_main_v3 m c) (contents4_main_v1 m c) (contents4_arg m c main_arg2 (by decide)) (contents4_arg m c main_arg3 (by decide))

theorem contents6_main_v1 : contents6 m c (Proc.devRef .tc main_v1) = val_main_v1 (F := F) (m ((c.tc : Thread nD τ).loc main_arg1)) :=
  (stretch5_keep (contents5 m c) main_v1 (by decide)).trans (contents5_main_v1 m c)
theorem contents6_main_v3 : contents6 m c (Proc.devRef .tc main_v3) = val_main_v3 (F := F) (m ((c.tc : Thread nD τ).loc main_arg1)) :=
  (stretch5_keep (contents5 m c) main_v3 (by decide)).trans (contents5_main_v3 m c)
theorem contents6_main_v99 : contents6 m c (Proc.devRef .tc main_v99) = val_main_v99 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  stretch5_main_v99 (contents5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (contents5_main_v81 m c) (contents5_arg m c main_arg4 (by decide)) (contents5_arg m c main_arg5 (by decide))
theorem contents6_main_v102 : contents6 m c (Proc.devRef .tc main_v102) = val_main_v102 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  stretch5_main_v102 (contents5 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (contents5_main_v81 m c) (contents5_arg m c main_arg4 (by decide)) (contents5_arg m c main_arg5 (by decide))

theorem contents7_main_v1 : contents7 m c (Proc.devRef .tc main_v1) = val_main_v1 (F := F) (m ((c.tc : Thread nD τ).loc main_arg1)) :=
  (stretch6_keep (contents6 m c) main_v1 (by decide)).trans (contents6_main_v1 m c)
theorem contents7_main_v3 : contents7 m c (Proc.devRef .tc main_v3) = val_main_v3 (F := F) (m ((c.tc : Thread nD τ).loc main_arg1)) :=
  (stretch6_keep (contents6 m c) main_v3 (by decide)).trans (contents6_main_v3 m c)
theorem contents7_main_v119 : contents7 m c (Proc.devRef .tc main_v119) = val_main_v119 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  stretch6_main_v119 (contents6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (contents6_main_v102 m c) (contents6_main_v99 m c) (contents6_arg m c main_arg6 (by decide)) (contents6_arg m c main_arg7 (by decide))

theorem contents8_main_v139 : contents8 m c (Proc.devRef .tc main_v139) = val_main_v139 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  stretch7_main_v139 (contents7 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (contents7_main_v119 m c) (contents7_main_v3 m c) (contents7_main_v1 m c) (contents7_arg m c main_arg2 (by decide)) (contents7_arg m c main_arg3 (by decide))

theorem contents9_main_v157 : contents9 m c (Proc.devRef .tc main_v157) = val_main_v157 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  stretch8_main_v157 (contents8 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (contents8_main_v139 m c) (contents8_arg m c main_arg4 (by decide)) (contents8_arg m c main_arg5 (by decide))
theorem contents9_main_v160 : contents9 m c (Proc.devRef .tc main_v160) = val_main_v160 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  stretch8_main_v160 (contents8 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (contents8_main_v139 m c) (contents8_arg m c main_arg4 (by decide)) (contents8_arg m c main_arg5 (by decide))

theorem contents10_main_v176 : contents10 m c (Proc.devRef .tc main_v176) = val_main_v176 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  stretch9_main_v176 (contents9 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (contents9_main_v160 m c) (contents9_main_v157 m c) (contents9_arg m c main_arg6 (by decide)) (contents9_arg m c main_arg7 (by decide))

end Fold

theorem after_result (m : (ℓ : Loc nD τ sig) → Buf (Elt F) ℓ) (c : Dev nD) :
    after (ops (F := F)) (launchContents m c) (Proc.devRef .tc main_v176)
      = val_main_v176 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [after_ops]; exact contents10_main_v176 m c

theorem after_arg (m : (ℓ : Loc nD τ sig) → Buf (Elt F) ℓ) (c : Dev nD) :
    after (ops (F := F)) (launchContents m c) (Proc.devRef .tc main_arg0) = m ((c.tc : Thread nD τ).loc main_arg0)
    ∧ after (ops (F := F)) (launchContents m c) (Proc.devRef .tc main_arg1) = m ((c.tc : Thread nD τ).loc main_arg1)
    ∧ after (ops (F := F)) (launchContents m c) (Proc.devRef .tc main_arg2) = m ((c.tc : Thread nD τ).loc main_arg2)
    ∧ after (ops (F := F)) (launchContents m c) (Proc.devRef .tc main_arg3) = m ((c.tc : Thread nD τ).loc main_arg3)
    ∧ after (ops (F := F)) (launchContents m c) (Proc.devRef .tc main_arg4) = m ((c.tc : Thread nD τ).loc main_arg4)
    ∧ after (ops (F := F)) (launchContents m c) (Proc.devRef .tc main_arg5) = m ((c.tc : Thread nD τ).loc main_arg5)
    ∧ after (ops (F := F)) (launchContents m c) (Proc.devRef .tc main_arg6) = m ((c.tc : Thread nD τ).loc main_arg6)
    ∧ after (ops (F := F)) (launchContents m c) (Proc.devRef .tc main_arg7) = m ((c.tc : Thread nD τ).loc main_arg7) := by
  rw [after_ops]
  exact ⟨contents10_arg m c main_arg0 (by decide), contents10_arg m c main_arg1 (by decide), contents10_arg m c main_arg2 (by decide), contents10_arg m c main_arg3 (by decide), contents10_arg m c main_arg4 (by decide), contents10_arg m c main_arg5 (by decide), contents10_arg m c main_arg6 (by decide), contents10_arg m c main_arg7 (by decide)⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v176) = val_main_v176 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
    have ha := after_arg (F := F) m c
    exact ⟨(h c main_v176).trans (after_result m c), (h c main_arg0).trans ha.1, (h c main_arg1).trans ha.2.1, (h c main_arg2).trans ha.2.2.1,
      (h c main_arg3).trans ha.2.2.2.1, (h c main_arg4).trans ha.2.2.2.2.1, (h c main_arg5).trans ha.2.2.2.2.2.1,
      (h c main_arg6).trans ha.2.2.2.2.2.2.1, (h c main_arg7).trans ha.2.2.2.2.2.2.2⟩)
    (run_raw m ρ)

end Cert.ReferenceIdeal.RefRun

end
-- ==== Proof.Algebra.lean ====
import proofs.«420740_j41515153883619_1_alg».proof.Proof.Spec

noncomputable section

open scoped BigOperators

namespace Cert.Spec

open Idealize.ShloMosaic

theorem nF_eq : nF = ((50000 : ℝ) : EReal) := by
  simp [nF, Ideal.ofBits, Ideal.ieee, -EReal.coe_mul]; norm_num

theorem epsF_pos : ∃ e : ℝ, 0 < e ∧ epsF = (e : EReal) := by
  refine ⟨(10995116 : ℝ) * (2 : ℝ) ^ (-40 : ℤ), by positivity, ?_⟩
  simp [epsF, Ideal.ofBits, Ideal.ieee, -EReal.coe_mul]

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

theorem max_zero_real {v : EReal} (hv : ∃ a : ℝ, v = (a : EReal)) : ∃ a : ℝ, max v 0 = (a : EReal) := by
  obtain ⟨a, rfl⟩ := hv
  exact ⟨max a 0, by rw [coe_max, EReal.coe_zero]⟩

theorem lin_real {h : Mat} {W : Sq} {b : Row} (hh : MatReal h) (hW : SqReal W) (hb : RowReal b) :
    MatReal (lin h W b) := by
  choose a ha using hh
  choose w hw using hW
  choose c hc using hb
  intro r j
  refine ⟨(∑ k : Fin 128, a r k * w k j) + c j, ?_⟩
  simp only [lin, ha, hw, hc, EReal.coe_add, coe_sum, EReal.coe_mul]

theorem pre_real {x agg : Mat} {W1 : Sq} {b1 : Row} {W2 : Sq} {b2 : Row} (hx : MatReal x) (ha : MatReal agg)
    (hW1 : SqReal W1) (hb1 : RowReal b1) (hW2 : SqReal W2) (hb2 : RowReal b2) : MatReal (pre x agg W1 b1 W2 b2) := by
  have hs : MatReal (fun r l => x r l + agg r l) := by
    intro r l
    obtain ⟨a, ha'⟩ := hx r l
    obtain ⟨b, hb'⟩ := ha r l
    exact ⟨a + b, by simp only [ha', hb', EReal.coe_add]⟩
  have h1 : MatReal (lin (fun r l => x r l + agg r l) W1 b1) := lin_real hs hW1 hb1
  have h2 : MatReal (fun r k => max (lin (fun r l => x r l + agg r l) W1 b1 r k) 0) :=
    fun r k => max_zero_real (h1 r k)
  exact lin_real h2 hW2 hb2

theorem colSum_coe {h : Mat} {a : Fin 50000 → Fin 128 → ℝ} (ha : ∀ r j, h r j = (a r j : EReal)) (j : Fin 128) :
    colSum h j = ((∑ r : Fin 50000, a r j : ℝ) : EReal) := by
  simp only [colSum, ha, coe_sum]

theorem meanOf_coe {h : Mat} {a : Fin 50000 → Fin 128 → ℝ} (ha : ∀ r j, h r j = (a r j : EReal)) (j : Fin 128) :
    meanOf h j = (((∑ r : Fin 50000, a r j) * (1 / 50000) : ℝ) : EReal) := by
  rw [meanOf, colSum_coe ha, nF_eq, Ideal.div_coe (by norm_num : (50000 : ℝ) ≠ 0), ← EReal.coe_mul]

theorem var_identity {ι : Type*} (s : Finset ι) (a : ι → ℝ) (n : ℝ) (hn : n ≠ 0) (hcard : (s.card : ℝ) = n) :
    (∑ i ∈ s, (a i - (∑ i ∈ s, a i) * (1 / n)) * (a i - (∑ i ∈ s, a i) * (1 / n))) * (1 / n)
      = (∑ i ∈ s, a i * a i) * (1 / n) - ((∑ i ∈ s, a i) * (1 / n)) * ((∑ i ∈ s, a i) * (1 / n)) := by
  set S : ℝ := ∑ i ∈ s, a i with hS
  set μ : ℝ := S * (1 / n) with hμ
  have hterm : ∀ i, (a i - μ) * (a i - μ) = a i * a i - 2 * μ * a i + μ * μ := fun i => by ring
  simp_rw [hterm, Finset.sum_add_distrib, Finset.sum_sub_distrib, ← Finset.mul_sum, Finset.sum_const, nsmul_eq_mul,
    hcard, ← hS]
  rw [hμ]
  field_simp
  ring

theorem varK_coe {h : Mat} {a : Fin 50000 → Fin 128 → ℝ} (ha : ∀ r j, h r j = (a r j : EReal)) (j : Fin 128) :
    varK h j = (((∑ r : Fin 50000, a r j * a r j) * (1 / 50000)
      - ((∑ r : Fin 50000, a r j) * (1 / 50000)) * ((∑ r : Fin 50000, a r j) * (1 / 50000)) : ℝ) : EReal) := by
  have hsq : ∀ r j, (fun r j => h r j * h r j) r j = ((a r j * a r j : ℝ) : EReal) := fun r j => by
    simp only [ha, EReal.coe_mul]
  rw [varK, colSum_coe hsq, meanOf_coe ha, nF_eq, Ideal.div_coe (by norm_num : (50000 : ℝ) ≠ 0), ← EReal.coe_mul,
    ← EReal.coe_mul, ← EReal.coe_sub]

theorem varR_coe {h : Mat} {a : Fin 50000 → Fin 128 → ℝ} (ha : ∀ r j, h r j = (a r j : EReal)) (j : Fin 128) :
    varR h j = (((∑ r : Fin 50000, (a r j - (∑ r : Fin 50000, a r j) * (1 / 50000))
      * (a r j - (∑ r : Fin 50000, a r j) * (1 / 50000))) * (1 / 50000) : ℝ) : EReal) := by
  have hdev : ∀ r j, (fun r j => (h r j - meanOf h j) * (h r j - meanOf h j)) r j
      = (((a r j - (∑ r : Fin 50000, a r j) * (1 / 50000)) * (a r j - (∑ r : Fin 50000, a r j) * (1 / 50000)) : ℝ) : EReal) :=
    fun r j => by simp only [ha, meanOf_coe ha, EReal.coe_mul, EReal.coe_sub]
  rw [varR, colSum_coe hdev, nF_eq, Ideal.div_coe (by norm_num : (50000 : ℝ) ≠ 0), ← EReal.coe_mul]

theorem var_eq {h : Mat} {a : Fin 50000 → Fin 128 → ℝ} (ha : ∀ r j, h r j = (a r j : EReal)) (j : Fin 128) :
    varK h j = varR h j := by
  rw [varK_coe ha, varR_coe ha,
    var_identity Finset.univ (fun r => a r j) 50000 (by norm_num) (by simp)]

theorem varR_nonneg {h : Mat} {a : Fin 50000 → Fin 128 → ℝ} (ha : ∀ r j, h r j = (a r j : EReal)) (j : Fin 128) :
    ∃ v : ℝ, 0 ≤ v ∧ varR h j = (v : EReal) :=
  ⟨_, mul_nonneg (Finset.sum_nonneg fun r _ => mul_self_nonneg _) (by norm_num), varR_coe ha j⟩

theorem rsqrt_pos_real {v : ℝ} (hv : 0 < v) : Ideal.rsqrt (v : EReal) = (((Real.sqrt v)⁻¹ : ℝ) : EReal) := by
  rw [Ideal.rsqrt_coe, if_neg (not_lt.mpr hv.le), if_neg hv.ne']

theorem rsqrtR_real {h : Mat} {a : Fin 50000 → Fin 128 → ℝ} (ha : ∀ r j, h r j = (a r j : EReal)) (j : Fin 128) :
    ∃ s : ℝ, Ideal.rsqrt (varR h j + epsF) = (s : EReal) := by
  obtain ⟨v, hv, hvar⟩ := varR_nonneg ha j
  obtain ⟨e, he, heps⟩ := epsF_pos
  refine ⟨(Real.sqrt (v + e))⁻¹, ?_⟩
  rw [hvar, heps, ← EReal.coe_add, rsqrt_pos_real (by positivity)]

theorem bnK_eq_bnR {h : Mat} {γ β : Row} (hh : MatReal h) (hγ : RowReal γ) (hβ : RowReal β) : bnK h γ β = bnR h γ β := by
  choose a ha using hh
  choose g hg using hγ
  choose b hb using hβ
  funext r j
  obtain ⟨s, hs⟩ := rsqrtR_real ha j
  simp only [bnK, bnR, scaleK, shiftK, var_eq ha j, hs, meanOf_coe ha, ha, hg, hb, ← EReal.coe_mul, ← EReal.coe_add,
    ← EReal.coe_sub]
  congr 1
  ring

theorem bnR_real {h : Mat} {γ β : Row} (hh : MatReal h) (hγ : RowReal γ) (hβ : RowReal β) : MatReal (bnR h γ β) := by
  choose a ha using hh
  choose g hg using hγ
  choose b hb using hβ
  intro r j
  obtain ⟨s, hs⟩ := rsqrtR_real ha j
  refine ⟨(a r j - (∑ r : Fin 50000, a r j) * (1 / 50000)) * s * g j + b j, ?_⟩
  simp only [bnR, hs, meanOf_coe ha, ha, hg, hb, ← EReal.coe_mul, ← EReal.coe_add, ← EReal.coe_sub]

theorem reluM_real {h : Mat} (hh : MatReal h) : MatReal (reluM h) :=
  fun r j => max_zero_real (hh r j)

theorem layer_eq (act : Bool) {x agg : Mat} {W1 : Sq} {b1 : Row} {W2 : Sq} {b2 γ β : Row} (hx : MatReal x) (ha : MatReal agg)
    (hW1 : SqReal W1) (hb1 : RowReal b1) (hW2 : SqReal W2) (hb2 : RowReal b2) (hγ : RowReal γ) (hβ : RowReal β) :
    layerK act x agg W1 b1 W2 b2 γ β = layerR act x agg W1 b1 W2 b2 γ β := by
  simp only [layerK, layerR, bnK_eq_bnR (pre_real hx ha hW1 hb1 hW2 hb2) hγ hβ]

theorem layerR_real (act : Bool) {x agg : Mat} {W1 : Sq} {b1 : Row} {W2 : Sq} {b2 γ β : Row} (hx : MatReal x) (ha : MatReal agg)
    (hW1 : SqReal W1) (hb1 : RowReal b1) (hW2 : SqReal W2) (hb2 : RowReal b2) (hγ : RowReal γ) (hβ : RowReal β) :
    MatReal (layerR act x agg W1 b1 W2 b2 γ β) := by
  have hy : MatReal (bnR (pre x agg W1 b1 W2 b2) γ β) := bnR_real (pre_real hx ha hW1 hb1 hW2 hb2) hγ hβ
  cases act
  · simpa [layerR] using hy
  · simpa [layerR] using reluM_real hy

theorem net_eq (A : Mat → Mat) (hA : ∀ x, MatReal x → MatReal (A x)) {x : Mat} (hx : MatReal x)
    {W1 W2 : Fin 3 → Sq} {b1 b2 γ β : Fin 3 → Row}
    (hW1 : ∀ l, SqReal (W1 l)) (hW2 : ∀ l, SqReal (W2 l)) (hb1 : ∀ l, RowReal (b1 l)) (hb2 : ∀ l, RowReal (b2 l))
    (hγ : ∀ l, RowReal (γ l)) (hβ : ∀ l, RowReal (β l)) :
    netK A x W1 W2 b1 b2 γ β = netR A x W1 W2 b1 b2 γ β := by
  have h1 : MatReal (layerR true x (A x) (W1 0) (b1 0) (W2 0) (b2 0) (γ 0) (β 0)) :=
    layerR_real true hx (hA x hx) (hW1 0) (hb1 0) (hW2 0) (hb2 0) (hγ 0) (hβ 0)
  have h2 : MatReal (layerR true (layerR true x (A x) (W1 0) (b1 0) (W2 0) (b2 0) (γ 0) (β 0))
      (A (layerR true x (A x) (W1 0) (b1 0) (W2 0) (b2 0) (γ 0) (β 0))) (W1 1) (b1 1) (W2 1) (b2 1) (γ 1) (β 1)) :=
    layerR_real true h1 (hA _ h1) (hW1 1) (hb1 1) (hW2 1) (hb2 1) (hγ 1) (hβ 1)
  simp only [netK, netR]
  rw [layer_eq true hx (hA x hx) (hW1 0) (hb1 0) (hW2 0) (hb2 0) (hγ 0) (hβ 0),
    layer_eq true h1 (hA _ h1) (hW1 1) (hb1 1) (hW2 1) (hb2 1) (hγ 1) (hβ 1),
    layer_eq false h2 (hA _ h2) (hW1 2) (hb1 2) (hW2 2) (hb2 2) (hγ 2) (hβ 2)]

end Cert.Spec

end
-- ==== Proof.RefValue.lean ====
import proofs.«420740_j41515153883619_1_alg».proof.Proof.RefReadP
import proofs.«420740_j41515153883619_1_alg».proof.Proof.Params
import proofs.«420740_j41515153883619_1_alg».proof.Proof.RefAgg
import proofs.«420740_j41515153883619_1_alg».proof.Proof.Algebra

noncomputable section

open scoped BigOperators

namespace Cert.ReferenceIdeal.RefValue

open Cert.ReferenceIdeal Cert.ReferenceIdeal.Gen Idealize.ShloMosaic Idealize.ShloMosaic.TcCoe Idealize.ShloMosaic.StableHlo
open Cert.ReferenceIdeal.ReadP Idealize.ShloMosaic.ValueIdx

abbrev A2 : Type := FVec Ideal S50000x128 .f32
abbrev AW : Type := FVec Ideal S128x128 .f32
abbrev AR : Type := FVec Ideal S128 .f32

def rowB (v : AR) : A2 :=
  broadcastInDim S50000x128 ![0, 1] bcast_S1x128_S50000x128_0_1 (broadcastInDim S1x128 ![1] bcast_S128_S1x128_1 v)

theorem rowB_apply (v : AR) (r : Fin 50000) (j : Fin 128) : rowB v (ix2 r j) = v (ix1 j) := by
  unfold rowB
  rw [broadcastInDim_apply _ bcast_S1x128_S50000x128_0_1 _ (ix2 r j) (ix2 (0 : Fin 1) j) (fun a => match a with
      | ⟨0, _⟩ => by show 0 = if (1 : Nat) = 1 then 0 else r.val; rw [if_pos rfl]
      | ⟨1, _⟩ => by show j.val = if (128 : Nat) = 1 then 0 else j.val; rw [if_neg (by decide)]),
    broadcastInDim_apply _ bcast_S128_S1x128_1 v (ix2 (0 : Fin 1) j) (ix1 j) (fun a => match a with
      | ⟨0, _⟩ => by show j.val = if (128 : Nat) = 1 then 0 else j.val; rw [if_neg (by decide)])]

def zeroA : A2 := broadcastInDim S50000x128 ![] bcast_S_S50000x128 (constant S_ .f32 0x00000000#32)

theorem zeroA_apply (i : S50000x128.Idx) : zeroA i = 0 := by
  unfold zeroA
  rw [broadcastInDim_apply _ bcast_S_S50000x128 _ i (fun a => a.elim0) (fun a => a.elim0)]
  exact Ideal.ofBits_zero_f32

def constR (b : BitVec 32) : AR := broadcastInDim S128 ![] bcast_S_S128 (constant S_ .f32 b)

theorem constR_apply (b : BitVec 32) (i : S128.Idx) : constR b i = Ideal.ofBits .f32 b := by
  unfold constR
  rw [broadcastInDim_apply _ bcast_S_S128 _ i (fun a => a.elim0) (fun a => a.elim0)]
  rfl

def dotA (L : A2) (R : AW) : A2 := Host.dotGeneral dot_S50000x128_S128x128_S50000x128_1_0_0_1_n_n none L R

theorem dotA_apply (L : A2) (R : AW) (r : Fin 50000) (j : Fin 128) :
    dotA L R (ix2 r j) = ∑ k : Fin 128, L (ix2 r k) * R (ix2 k j) := by
  unfold dotA
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r j) ((ValueIdx.contrEquiv1 dot_S50000x128_S128x128_S50000x128_1_0_0_1_n_n 128 rfl rfl).symm k) = ix2 r k := funext fun a => Fin.ext (by
    match a with
    | ⟨0, _⟩ => exact lhs_main_v17_0 _ _
    | ⟨1, _⟩ => exact (lhs_main_v17_1 _ _).trans hk)
  have er : dot_S50000x128_S128x128_S50000x128_1_0_0_1_n_n.rhsIdx (ix2 r j) ((ValueIdx.contrEquiv1 dot_S50000x128_S128x128_S50000x128_1_0_0_1_n_n 128 rfl rfl).symm k) = ix2 k j := funext fun a => Fin.ext (by
    match a with
    | ⟨0, _⟩ => exact (rhs_main_v17_0 _ _).trans hk
    | ⟨1, _⟩ => exact rhs_main_v17_1 _ _)
  rw [el, er]

def colSumA (H : A2) : AR := Host.reduceAdd H (constant S_ .f32 0x00000000#32) reducesTo_S50000x128_S128_d0 h_S_

theorem colSumA_apply (H : A2) (j : Fin 128) : colSumA H (ix1 j) = ∑ r : Fin 50000, H (ix2 r j) := by
  unfold colSumA
  simp only [Host.reduceAdd, Ideal.hostReduceAdd_def]
  rw [Ideal.hostReduceAdd_single reducesTo_S50000x128_S128_d0 (by decide)]
  show Ideal.ofBits .f32 0x00000000#32 + _ = _
  rw [Ideal.ofBits_zero_f32, zero_add]
  refine Finset.sum_congr rfl fun k _ => ?_
  exact congrArg H (funext fun a => Fin.ext (by match a with | ⟨0, _⟩ => rfl | ⟨1, _⟩ => rfl))

theorem hostDivf_apply (a b : AR) (i : S128.Idx) : Host.divf a b i = Ideal.div (a i) (b i) := rfl
theorem hostRsqrt_apply (a : AR) (i : S128.Idx) : Host.rsqrt a i = Ideal.rsqrt (a i) := rfl

def sqW (W : AW) : Cert.Spec.Sq := fun k j => W (ix2 k j)
def rowV (v : AR) : Cert.Spec.Row := fun j => v (ix1 j)

def preA (Y G : A2) (W1 : AW) (b1 : AR) (W2 : AW) (b2 : AR) : A2 :=
  addf (dotA (maximumf (addf (dotA (addf Y G) W1) (rowB b1)) zeroA) W2) (rowB b2)

theorem preA_apply (Y G : A2) (W1 : AW) (b1 : AR) (W2 : AW) (b2 : AR) (r : Fin 50000) (j : Fin 128) :
    preA Y G W1 b1 W2 b2 (ix2 r j)
      = Cert.Spec.pre (Cert.Spec.toMat Y) (Cert.Spec.toMat G) (sqW W1) (rowV b1) (sqW W2) (rowV b2) r j := by
  simp only [preA, Cert.Spec.pre, Cert.Spec.lin, Cert.Spec.toMat, sqW, rowV, addf_apply, maximumf_apply, dotA_apply,
    rowB_apply, zeroA_apply]

def meanA (H : A2) : AR := Host.divf (colSumA H) (constR 0x47435000#32)
def devA (H : A2) : A2 := subf H (rowB (meanA H))
def varA (H : A2) : AR := Host.divf (colSumA (mulf (devA H) (devA H))) (constR 0x47435000#32)
def bnA (H : A2) (γ β : AR) : A2 :=
  addf (mulf (mulf (devA H) (rowB (Host.rsqrt (addf (varA H) (constR 0x3727C5AC#32))))) (rowB γ)) (rowB β)

theorem meanA_apply (H : A2) (j : Fin 128) : meanA H (ix1 j) = Cert.Spec.meanOf (Cert.Spec.toMat H) j := by
  simp only [meanA, hostDivf_apply, colSumA_apply, constR_apply, Cert.Spec.meanOf, Cert.Spec.colSum, Cert.Spec.nF,
    Cert.Spec.toMat]

theorem devA_apply (H : A2) (r : Fin 50000) (j : Fin 128) :
    devA H (ix2 r j) = Cert.Spec.toMat H r j - Cert.Spec.meanOf (Cert.Spec.toMat H) j := by
  simp only [devA, subf_apply, rowB_apply, meanA_apply, Cert.Spec.toMat]

theorem varA_apply (H : A2) (j : Fin 128) : varA H (ix1 j) = Cert.Spec.varR (Cert.Spec.toMat H) j := by
  simp only [varA, hostDivf_apply, colSumA_apply, constR_apply, mulf_apply, devA_apply, Cert.Spec.varR, Cert.Spec.colSum,
    Cert.Spec.nF]

theorem bnA_apply (H : A2) (γ β : AR) (r : Fin 50000) (j : Fin 128) :
    bnA H γ β (ix2 r j) = Cert.Spec.bnR (Cert.Spec.toMat H) (rowV γ) (rowV β) r j := by
  simp only [bnA, addf_apply, mulf_apply, rowB_apply, hostRsqrt_apply, devA_apply, varA_apply, constR_apply, Cert.Spec.bnR,
    Cert.Spec.epsF, rowV]

theorem toMat_eq {X : A2} {M : Cert.Spec.Mat} (h : ∀ r j, X (ix2 r j) = M r j) : Cert.Spec.toMat X = M :=
  funext fun r => funext fun j => h r j

theorem toMat_preA (Y G : A2) (W1 : AW) (b1 : AR) (W2 : AW) (b2 : AR) :
    Cert.Spec.toMat (preA Y G W1 b1 W2 b2)
      = Cert.Spec.pre (Cert.Spec.toMat Y) (Cert.Spec.toMat G) (sqW W1) (rowV b1) (sqW W2) (rowV b2) :=
  toMat_eq (preA_apply Y G W1 b1 W2 b2)

theorem toMat_bnA (H : A2) (γ β : AR) :
    Cert.Spec.toMat (bnA H γ β) = Cert.Spec.bnR (Cert.Spec.toMat H) (rowV γ) (rowV β) :=
  toMat_eq (bnA_apply H γ β)

theorem toMat_relu (H : A2) : Cert.Spec.toMat (maximumf H zeroA) = Cert.Spec.reluM (Cert.Spec.toMat H) :=
  toMat_eq fun r j => by simp only [maximumf_apply, zeroA_apply, Cert.Spec.reluM, Cert.Spec.toMat]

def layerA (act : Bool) (Y : A2) (E : (⟨S2x800000, .i32⟩ : BufTy).Contents (Elt Ideal)) (W1 : AW) (b1 : AR) (W2 : AW)
    (b2 γ β : AR) : A2 :=
  let y := bnA (preA Y (val_main_v13 (F := Ideal) Y E) W1 b1 W2 b2) γ β
  if act then maximumf y zeroA else y

theorem toMat_layerA (act : Bool) (Y : A2) (E : (⟨S2x800000, .i32⟩ : BufTy).Contents (Elt Ideal)) (W1 : AW) (b1 : AR)
    (W2 : AW) (b2 γ β : AR) :
    Cert.Spec.toMat (layerA act Y E W1 b1 W2 b2 γ β)
      = Cert.Spec.layerR act (Cert.Spec.toMat Y) (agg E (Cert.Spec.toMat Y)) (sqW W1) (rowV b1) (sqW W2) (rowV b2)
          (rowV γ) (rowV β) := by
  have hagg : Cert.Spec.toMat (val_main_v13 (F := Ideal) Y E) = agg E (Cert.Spec.toMat Y) := by
    unfold agg; rw [Cert.Spec.ofMat_toMat]
  cases act
  · show Cert.Spec.toMat (bnA _ γ β) = Cert.Spec.bnR _ _ _
    rw [toMat_bnA, toMat_preA, hagg]
  · show Cert.Spec.toMat (maximumf (bnA _ γ β) zeroA) = Cert.Spec.reluM (Cert.Spec.bnR _ _ _)
    rw [toMat_relu, toMat_bnA, toMat_preA, hagg]

theorem sq_slab0 (x : (⟨S3x128x128, .f32⟩ : BufTy).Contents (Elt Ideal)) : sqW (val_main_v16 (F := Ideal) x) = Cert.Spec.sq3 x 0 := by
  funext k j
  show val_main_v16 (F := Ideal) x (ix2 k j) = x (ix3 0 k j)
  rw [val_main_v16_apply, val_main_v15_apply]
  have hk := k.isLt; have hj := j.isLt
  exact congrArg x (funext fun a => Fin.ext (by
    match a with
    | ⟨0, _⟩ => rfl
    | ⟨1, _⟩ => show (k.val * 128 + j.val) / 128 % 128 = k.val; omega
    | ⟨2, _⟩ => show (k.val * 128 + j.val) % 128 = j.val; omega))

theorem sq_slab1 (x : (⟨S3x128x128, .f32⟩ : BufTy).Contents (Elt Ideal)) : sqW (val_main_v74 (F := Ideal) x) = Cert.Spec.sq3 x 1 := by
  funext k j
  show val_main_v74 (F := Ideal) x (ix2 k j) = x (ix3 1 k j)
  rw [val_main_v74_apply, val_main_v73_apply]
  have hk := k.isLt; have hj := j.isLt
  exact congrArg x (funext fun a => Fin.ext (by
    match a with
    | ⟨0, _⟩ => rfl
    | ⟨1, _⟩ => show (k.val * 128 + j.val) / 128 % 128 = k.val; omega
    | ⟨2, _⟩ => show (k.val * 128 + j.val) % 128 = j.val; omega))

theorem sq_slab2 (x : (⟨S3x128x128, .f32⟩ : BufTy).Contents (Elt Ideal)) : sqW (val_main_v132 (F := Ideal) x) = Cert.Spec.sq3 x 2 := by
  funext k j
  show val_main_v132 (F := Ideal) x (ix2 k j) = x (ix3 2 k j)
  rw [val_main_v132_apply, val_main_v131_apply]
  have hk := k.isLt; have hj := j.isLt
  exact congrArg x (funext fun a => Fin.ext (by
    match a with
    | ⟨0, _⟩ => rfl
    | ⟨1, _⟩ => show (k.val * 128 + j.val) / 128 % 128 = k.val; omega
    | ⟨2, _⟩ => show (k.val * 128 + j.val) % 128 = j.val; omega))

theorem row_slab0 (x : (⟨S3x128, .f32⟩ : BufTy).Contents (Elt Ideal)) : rowV (val_main_v19 (F := Ideal) x) = Cert.Spec.row3 x 0 := by
  funext j
  show val_main_v19 (F := Ideal) x (ix1 j) = x (ix2 0 j)
  rw [val_main_v19_apply, val_main_v18_apply]
  have hj := j.isLt
  exact congrArg x (funext fun a => Fin.ext (by
    match a with
    | ⟨0, _⟩ => rfl
    | ⟨1, _⟩ => show j.val % 128 = j.val; omega))

theorem row_slab1 (x : (⟨S3x128, .f32⟩ : BufTy).Contents (Elt Ideal)) : rowV (val_main_v77 (F := Ideal) x) = Cert.Spec.row3 x 1 := by
  funext j
  show val_main_v77 (F := Ideal) x (ix1 j) = x (ix2 1 j)
  rw [val_main_v77_apply, val_main_v76_apply]
  have hj := j.isLt
  exact congrArg x (funext fun a => Fin.ext (by
    match a with
    | ⟨0, _⟩ => rfl
    | ⟨1, _⟩ => show j.val % 128 = j.val; omega))

theorem row_slab2 (x : (⟨S3x128, .f32⟩ : BufTy).Contents (Elt Ideal)) : rowV (val_main_v135 (F := Ideal) x) = Cert.Spec.row3 x 2 := by
  funext j
  show val_main_v135 (F := Ideal) x (ix1 j) = x (ix2 2 j)
  rw [val_main_v135_apply, val_main_v134_apply]
  have hj := j.isLt
  exact congrArg x (funext fun a => Fin.ext (by
    match a with
    | ⟨0, _⟩ => rfl
    | ⟨1, _⟩ => show j.val % 128 = j.val; omega))

section Stages
variable (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 x6 x7 : (⟨S3x128, .f32⟩ : BufTy).Contents (Elt Ideal))

theorem v61_eq : val_main_v61 (F := Ideal) x0 x1 x2 x3 x4 x5 x6 x7
    = layerA true x0 x1 (val_main_v16 (F := Ideal) x2) (val_main_v19 (F := Ideal) x3) (val_main_v16 (F := Ideal) x4)
        (val_main_v19 (F := Ideal) x5) (val_main_v19 (F := Ideal) x6) (val_main_v19 (F := Ideal) x7) := rfl

theorem v119_eq : val_main_v119 (F := Ideal) x0 x1 x2 x3 x4 x5 x6 x7
    = layerA true (val_main_v61 (F := Ideal) x0 x1 x2 x3 x4 x5 x6 x7) x1 (val_main_v74 (F := Ideal) x2)
        (val_main_v77 (F := Ideal) x3) (val_main_v74 (F := Ideal) x4) (val_main_v77 (F := Ideal) x5)
        (val_main_v77 (F := Ideal) x6) (val_main_v77 (F := Ideal) x7) := rfl

theorem v176_eq : val_main_v176 (F := Ideal) x0 x1 x2 x3 x4 x5 x6 x7
    = layerA false (val_main_v119 (F := Ideal) x0 x1 x2 x3 x4 x5 x6 x7) x1 (val_main_v132 (F := Ideal) x2)
        (val_main_v135 (F := Ideal) x3) (val_main_v132 (F := Ideal) x4) (val_main_v135 (F := Ideal) x5)
        (val_main_v135 (F := Ideal) x6) (val_main_v135 (F := Ideal) x7) := rfl

end Stages

theorem sum_real {ι : Type*} (S : Finset ι) (f : ι → EReal) (hf : ∀ q, ∃ a : ℝ, f q = (a : EReal)) :
    ∃ s : ℝ, ∑ q ∈ S, f q = (s : EReal) := by
  choose a ha using hf
  exact ⟨∑ q ∈ S, a q, by simp only [ha, Cert.Spec.coe_sum]⟩

theorem agg_apply (E : (⟨S2x800000, .i32⟩ : BufTy).Contents (Elt Ideal)) (x : Cert.Spec.Mat) (r : Fin 50000) (j : Fin 128) :
    agg E x r j = val_main_v13 (F := Ideal) (Cert.Spec.ofMat x) E (ix2 r j) := rfl

theorem v13_eq (y : A2) (E : (⟨S2x800000, .i32⟩ : BufTy).Contents (Elt Ideal)) :
    val_main_v13 (F := Ideal) y E
      = Ideal.hostScatterAdd scatter_S50000x128_S800000x1_S800000x128_1_0_0_1 (val_main_v11 (F := Ideal))
          (val_main_v12 (F := Ideal) E) (val_main_v10 (F := Ideal) y E) := rfl

theorem hostScatterAdd_apply {s si su : Shape} (d : ScatterDims s si su) {w : Nat} (x : s.Idx → EReal) (idx : IVec si w)
    (upd : su.Idx → EReal) (i : s.Idx) :
    Ideal.hostScatterAdd d x idx upd i = x i + ∑ q ∈ Finset.univ.filter (fun q => d.resultIdx? q idx = some i), upd q := rfl

theorem v10_apply (y : A2) (E : (⟨S2x800000, .i32⟩ : BufTy).Contents (Elt Ideal)) (q : S800000x128.Idx) :
    val_main_v10 (F := Ideal) y E q
      = y (gather_S50000x128_S800000x1_S800000x128_1_0_n_n_0_1_1128.operandIdx q (val_main_v9 (F := Ideal) E)) := rfl

theorem agg_real (E : (⟨S2x800000, .i32⟩ : BufTy).Contents (Elt Ideal)) {x : Cert.Spec.Mat} (hx : Cert.Spec.MatReal x) :
    Cert.Spec.MatReal (agg E x) := by
  intro r j
  have h0 : val_main_v11 (F := Ideal) (ix2 r j) = 0 := by
    rw [val_main_v11_apply, val_main_cst_apply]; exact Ideal.ofBits_zero_f32
  rw [agg_apply, v13_eq, hostScatterAdd_apply, h0, zero_add]
  exact sum_real _ _ (fun q => by rw [v10_apply]; exact hx _ _)

theorem result_eq (x0 : (⟨S50000x128, .f32⟩ : BufTy).Contents (Elt Ideal)) (x1 : (⟨S2x800000, .i32⟩ : BufTy).Contents (Elt Ideal)) (x2 : (⟨S3x128x128, .f32⟩ : BufTy).Contents (Elt Ideal)) (x3 : (⟨S3x128, .f32⟩ : BufTy).Contents (Elt Ideal)) (x4 : (⟨S3x128x128, .f32⟩ : BufTy).Contents (Elt Ideal)) (x5 x6 x7 : (⟨S3x128, .f32⟩ : BufTy).Contents (Elt Ideal)) :
    val_main_v176 (F := Ideal) x0 x1 x2 x3 x4 x5 x6 x7
      = Cert.Spec.ofMat (Cert.Spec.netR (agg x1) (Cert.Spec.toMat x0) (Cert.Spec.sq3 x2) (Cert.Spec.sq3 x4)
          (Cert.Spec.row3 x3) (Cert.Spec.row3 x5) (Cert.Spec.row3 x6) (Cert.Spec.row3 x7)) := by
  have h1 : Cert.Spec.toMat (val_main_v61 (F := Ideal) x0 x1 x2 x3 x4 x5 x6 x7)
      = Cert.Spec.layerR true (Cert.Spec.toMat x0) (agg x1 (Cert.Spec.toMat x0)) (Cert.Spec.sq3 x2 0) (Cert.Spec.row3 x3 0)
          (Cert.Spec.sq3 x4 0) (Cert.Spec.row3 x5 0) (Cert.Spec.row3 x6 0) (Cert.Spec.row3 x7 0) := by
    rw [v61_eq, toMat_layerA, sq_slab0, sq_slab0, row_slab0, row_slab0, row_slab0, row_slab0]
  have h2 : Cert.Spec.toMat (val_main_v119 (F := Ideal) x0 x1 x2 x3 x4 x5 x6 x7)
      = Cert.Spec.layerR true (Cert.Spec.toMat (val_main_v61 (F := Ideal) x0 x1 x2 x3 x4 x5 x6 x7))
          (agg x1 (Cert.Spec.toMat (val_main_v61 (F := Ideal) x0 x1 x2 x3 x4 x5 x6 x7))) (Cert.Spec.sq3 x2 1) (Cert.Spec.row3 x3 1)
          (Cert.Spec.sq3 x4 1) (Cert.Spec.row3 x5 1) (Cert.Spec.row3 x6 1) (Cert.Spec.row3 x7 1) := by
    rw [v119_eq, toMat_layerA, sq_slab1, sq_slab1, row_slab1, row_slab1, row_slab1, row_slab1]
  have h3 : Cert.Spec.toMat (val_main_v176 (F := Ideal) x0 x1 x2 x3 x4 x5 x6 x7)
      = Cert.Spec.layerR false (Cert.Spec.toMat (val_main_v119 (F := Ideal) x0 x1 x2 x3 x4 x5 x6 x7))
          (agg x1 (Cert.Spec.toMat (val_main_v119 (F := Ideal) x0 x1 x2 x3 x4 x5 x6 x7))) (Cert.Spec.sq3 x2 2) (Cert.Spec.row3 x3 2)
          (Cert.Spec.sq3 x4 2) (Cert.Spec.row3 x5 2) (Cert.Spec.row3 x6 2) (Cert.Spec.row3 x7 2) := by
    rw [v176_eq, toMat_layerA, sq_slab2, sq_slab2, row_slab2, row_slab2, row_slab2, row_slab2]
  rw [← Cert.Spec.ofMat_toMat (val_main_v176 (F := Ideal) x0 x1 x2 x3 x4 x5 x6 x7), h3, h2, h1]
  rfl

end Cert.ReferenceIdeal.RefValue

end
-- ==== Proof.lean ====
import proofs.«420740_j41515153883619_1_alg».proof.Defs
import proofs.«420740_j41515153883619_1_alg».proof.Proof.Gen.Kernel
import proofs.«420740_j41515153883619_1_alg».proof.Proof.Gen.KernelIdeal
import proofs.«420740_j41515153883619_1_alg».proof.Proof.Gen.ReferenceIdeal
import proofs.«420740_j41515153883619_1_alg».proof.Proof.Gen.Pre_finite_inputs
import proofs.«420740_j41515153883619_1_alg».proof.Proof.RunKW
import proofs.«420740_j41515153883619_1_alg».proof.Proof.Mlp0FrameW
import proofs.«420740_j41515153883619_1_alg».proof.Proof.Mlp2FrameW
import proofs.«420740_j41515153883619_1_alg».proof.Proof.Mlp4FrameW
import proofs.«420740_j41515153883619_1_alg».proof.Proof.Bn1FrameW
import proofs.«420740_j41515153883619_1_alg».proof.Proof.Bn3FrameW
import proofs.«420740_j41515153883619_1_alg».proof.Proof.Bn5FrameW
import proofs.«420740_j41515153883619_1_alg».proof.Proof.RunK
import proofs.«420740_j41515153883619_1_alg».proof.Proof.Mlp0Frame
import proofs.«420740_j41515153883619_1_alg».proof.Proof.Mlp2Frame
import proofs.«420740_j41515153883619_1_alg».proof.Proof.Mlp4Frame
import proofs.«420740_j41515153883619_1_alg».proof.Proof.Bn1Frame
import proofs.«420740_j41515153883619_1_alg».proof.Proof.Bn3Frame
import proofs.«420740_j41515153883619_1_alg».proof.Proof.Bn5Frame
import proofs.«420740_j41515153883619_1_alg».proof.Proof.KFinal
import proofs.«420740_j41515153883619_1_alg».proof.Proof.RefRun
import proofs.«420740_j41515153883619_1_alg».proof.Proof.RefValue
import proofs.«420740_j41515153883619_1_alg».proof.Proof.Algebra
import proofs.«420740_j41515153883619_1_alg».proof.Proof.PreDecode
import Idealize.ShloMosaic.Adequacy
import Idealize.ShloMosaic.Init

noncomputable section

namespace Cert.Proof

open Idealize.ShloMosaic Idealize.SL.Sem Cert.Spec

theorem frame_k : Cert.frame_Kernel := fun m ρ _ =>
  Cert.Kernel.Gen.frame (F := Bits) (fun V c => Cert.Kernel.Gen.body_obligation0 V c) (fun V c => Cert.Kernel.Gen.hout0 V c) (fun V c => Cert.Kernel.Gen.body_obligation1 V c)
    (fun V c => Cert.Kernel.Gen.body_obligation2 V c) (fun V c => Cert.Kernel.Gen.hout2 V c) (fun V c => Cert.Kernel.Gen.body_obligation3 V c)
    (fun V c => Cert.Kernel.Gen.body_obligation4 V c) (fun V c => Cert.Kernel.Gen.hout4 V c) (fun V c => Cert.Kernel.Gen.body_obligation5 V c) m ρ

theorem frame_ki : Cert.frame_KernelIdeal := fun m ρ _ =>
  Cert.KernelIdeal.Gen.frame (F := Ideal) (fun V c => Cert.KernelIdeal.Gen.body_obligation0 V c) (fun V c => Cert.KernelIdeal.Gen.hout0 V c) (fun V c => Cert.KernelIdeal.Gen.body_obligation1 V c)
    (fun V c => Cert.KernelIdeal.Gen.body_obligation2 V c) (fun V c => Cert.KernelIdeal.Gen.hout2 V c) (fun V c => Cert.KernelIdeal.Gen.body_obligation3 V c)
    (fun V c => Cert.KernelIdeal.Gen.body_obligation4 V c) (fun V c => Cert.KernelIdeal.Gen.hout4 V c) (fun V c => Cert.KernelIdeal.Gen.body_obligation5 V c) m ρ

theorem frame_ri : Cert.frame_ReferenceIdeal := fun m ρ _ =>
  (θ_run Cert.ReferenceIdeal.defs _ _).mono (fun _ h c => (h c).2) (Cert.ReferenceIdeal.RefRun.run (F := Ideal) m ρ)

theorem algebraic : Cert.algebraic_KernelIdeal_ReferenceIdeal := by
  intro m ρ m' ρ' hpre hagree
  have hdec := fun c => Cert.PreDecode.of_fn _ _ _ _ _ _ _ _ (hpre c)
  refine ⟨fun c => ofMat (netK (Cert.KernelIdeal.KV.aggOf m c) (toMat (m ((c.tc : Thread Cert.KernelIdeal.nD Cert.KernelIdeal.τ).loc Cert.KernelIdeal.main_arg0))) (sq3 (m ((c.tc : Thread Cert.KernelIdeal.nD Cert.KernelIdeal.τ).loc Cert.KernelIdeal.main_arg2))) (sq3 (m ((c.tc : Thread Cert.KernelIdeal.nD Cert.KernelIdeal.τ).loc Cert.KernelIdeal.main_arg4)))
      (row3 (m ((c.tc : Thread Cert.KernelIdeal.nD Cert.KernelIdeal.τ).loc Cert.KernelIdeal.main_arg3))) (row3 (m ((c.tc : Thread Cert.KernelIdeal.nD Cert.KernelIdeal.τ).loc Cert.KernelIdeal.main_arg5))) (row3 (m ((c.tc : Thread Cert.KernelIdeal.nD Cert.KernelIdeal.τ).loc Cert.KernelIdeal.main_arg6))) (row3 (m ((c.tc : Thread Cert.KernelIdeal.nD Cert.KernelIdeal.τ).loc Cert.KernelIdeal.main_arg7)))), ?_, ?_⟩
  · exact (θ_run Cert.KernelIdeal.defs _ _).mono
      (fun r h c => ⟨(h c).1.trans (Cert.KernelIdeal.KV.kernel_result m c (hdec c).2.1), (h c).2⟩)
      (Cert.KernelIdeal.Gen.run_result (F := Ideal) (fun V c => Cert.KernelIdeal.Gen.body_obligation0 V c) (fun V c => Cert.KernelIdeal.Gen.hout0 V c) (fun V c => Cert.KernelIdeal.Gen.body_obligation1 V c)
    (fun V c => Cert.KernelIdeal.Gen.body_obligation2 V c) (fun V c => Cert.KernelIdeal.Gen.hout2 V c) (fun V c => Cert.KernelIdeal.Gen.body_obligation3 V c)
    (fun V c => Cert.KernelIdeal.Gen.body_obligation4 V c) (fun V c => Cert.KernelIdeal.Gen.hout4 V c) (fun V c => Cert.KernelIdeal.Gen.body_obligation5 V c) m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7⟩ := hagree c
    obtain ⟨r0, -, r2, r3, r4, r5, r6, r7⟩ := hdec c
    rw [h0, h1, h2, h3, h4, h5, h6, h7, Cert.ReferenceIdeal.RefValue.result_eq]
    exact congrArg ofMat (net_eq _ (fun x hx => Cert.ReferenceIdeal.RefValue.agg_real _ hx) (toMat_real r0)
      (sq3_real r2) (sq3_real r4) (row3_real r3) (row3_real r5) (row3_real r6) (row3_real r7)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
